-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v31)) (v1 : (c : Dev Cert.KernelIdeal.nD) → Buf (Elt Ideal) ((c.tc : Thread Cert.KernelIdeal.nD Cert.KernelIdeal.τ).loc Cert.KernelIdeal.main_v32)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v31) = v0 c
          ∧ r.2.mem ((c.tc : Thread Cert.KernelIdeal.nD Cert.KernelIdeal.τ).loc Cert.KernelIdeal.main_v32) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v76) = v0 c
          ∧ r.2.mem ((c.tc : Thread Cert.ReferenceIdeal.nD Cert.ReferenceIdeal.τ).loc Cert.ReferenceIdeal.main_v91) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x2 : Shape := ⟨2, ![4096, 2]⟩
abbrev S4000x32 : Shape := ⟨2, ![4000, 32]⟩
abbrev S38002x2048 : Shape := ⟨2, ![38002, 2048]⟩
abbrev S2048 : Shape := ⟨1, ![2048]⟩
abbrev S2048x1024 : Shape := ⟨2, ![2048, 1024]⟩
abbrev S1024 : Shape := ⟨1, ![1024]⟩
abbrev S1024x1 : Shape := ⟨2, ![1024, 1]⟩
abbrev S1 : Shape := ⟨1, ![1]⟩
abbrev S_ : Shape := ⟨0, ![]⟩

class Facts : Prop where
  bcast_S_S4096x2 : S_.BroadcastsInDim S4096x2 (![] : Fin 0 → Fin S4096x2.rank)
  reducesTo_S4096x2_S_d0_1 : S4096x2.ReducesTo [0, 1] S_
  h_S_ : 0 < S_.numel
  bcast_S_S38002x2048 : S_.BroadcastsInDim S38002x2048 (![] : Fin 0 → Fin S38002x2048.rank)
  reducesTo_S38002x2048_S_d0_1 : S38002x2048.ReducesTo [0, 1] S_
  bcast_S_S2048 : S_.BroadcastsInDim S2048 (![] : Fin 0 → Fin S2048.rank)
  reducesTo_S2048_S_d0 : S2048.ReducesTo [0] S_
  bcast_S_S2048x1024 : S_.BroadcastsInDim S2048x1024 (![] : Fin 0 → Fin S2048x1024.rank)
  reducesTo_S2048x1024_S_d0_1 : S2048x1024.ReducesTo [0, 1] S_
  bcast_S_S1024 : S_.BroadcastsInDim S1024 (![] : Fin 0 → Fin S1024.rank)
  reducesTo_S1024_S_d0 : S1024.ReducesTo [0] S_
  bcast_S_S1024x1 : S_.BroadcastsInDim S1024x1 (![] : Fin 0 → Fin S1024x1.rank)
  reducesTo_S1024x1_S_d0_1 : S1024x1.ReducesTo [0, 1] S_
  bcast_S_S1 : S_.BroadcastsInDim S1 (![] : Fin 0 → Fin S1.rank)
  reducesTo_S1_S_d0 : S1.ReducesTo [0] S_
  bcast_S_S4000x32 : S_.BroadcastsInDim S4000x32 (![] : Fin 0 → Fin S4000x32.rank)
  reducesTo_S4000x32_S_d0_1 : S4000x32.ReducesTo [0, 1] S_

variable [Facts]

def fn_part2 {F : FTy → Type} [FloatOps F] (main_arg1 : IVec S4000x32 32) (main_v33 : IVec S_ 1) : IVec S_ 1 :=
  let main_c_12 : IVec S_ 32 := constantI S_ 32 0#32
  let main_v34 : IVec S4000x32 32 := broadcastInDim S4000x32 ![] bcast_S_S4000x32 main_c_12
  let main_v35 : IVec S4000x32 1 := cmpi .sge main_arg1 main_v34
  let main_c_13 : IVec S_ 1 := constantI S_ 1 1#1
  let main_v36 : IVec S_ 1 := (fun x v => Host.reduce IntOp.andi x v reducesTo_S4000x32_S_d0_1 h_S_) main_v35 main_c_13
  let main_v37 : IVec S_ 1 := andi main_v33 main_v36
  let main_c_14 : IVec S_ 32 := constantI S_ 32 19000#32
  let main_v38 : IVec S4000x32 32 := broadcastInDim S4000x32 ![] bcast_S_S4000x32 main_c_14
  let main_v39 : IVec S4000x32 1 := cmpi .slt main_arg1 main_v38
  let main_c_15 : IVec S_ 1 := constantI S_ 1 1#1
  let main_v40 : IVec S_ 1 := (fun x v => Host.reduce IntOp.andi x v reducesTo_S4000x32_S_d0_1 h_S_) main_v39 main_c_15
  let main_v41 : IVec S_ 1 := andi main_v37 main_v40
  main_v41

def fn_part1 {F : FTy → Type} [FloatOps F] (main_arg1 : IVec S4000x32 32) (main_arg6 : FVec F S1024 .f32) (main_arg7 : FVec F S1024x1 .f32) (main_arg8 : FVec F S1 .f32) (main_v13 : IVec S_ 1) (main_v16 : IVec S2048x1024 1) : IVec S_ 1 :=
  let main_c_5 : IVec S_ 1 := constantI S_ 1 1#1
  let main_v17 : IVec S_ 1 := (fun x v => Host.reduce IntOp.andi x v reducesTo_S2048x1024_S_d0_1 h_S_) main_v16 main_c_5
  let main_v18 : IVec S_ 1 := andi main_v13 main_v17
  let main_v19 : FVec F S1024 .f32 := Host.absf main_arg6
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024x1 .f32 := Host.absf main_arg7
  let main_cst_8 : FVec F S_ .f32 := constant S_ .f32 0x7F800000#32
  let main_v25 : FVec F S1024x1 .f32 := broadcastInDim S1024x1 ![] bcast_S_S1024x1 main_cst_8
  let main_v26 : IVec S1024x1 1 := cmpf .olt main_v24 main_v25
  let main_c_9 : IVec S_ 1 := constantI S_ 1 1#1
  let main_v27 : IVec S_ 1 := (fun x v => Host.reduce IntOp.andi x v reducesTo_S1024x1_S_d0_1 h_S_) main_v26 main_c_9
  let main_v28 : IVec S_ 1 := andi main_v23 main_v27
  let main_v29 : FVec F S1 .f32 := Host.absf main_arg8
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  fn_part2 (F := F) main_arg1 main_v33

def fn {F : FTy → Type} [FloatOps F] (main_arg0 : IVec S4096x2 32) (main_arg1 : IVec S4000x32 32) (main_arg2 : FVec F S4096x2 .f32) (main_arg3 : FVec F S38002x2048 .f32) (main_arg4 : FVec F S2048 .f32) (main_arg5 : FVec F S2048x1024 .f32) (main_arg6 : FVec F S1024 .f32) (main_arg7 : FVec F S1024x1 .f32) (main_arg8 : FVec F S1 .f32) : IVec S_ 1 :=
  let main_v0 : FVec F S4096x2 .f32 := Host.absf main_arg2
  let main_cst : FVec F S_ .f32 := constant S_ .f32 0x7F800000#32
  let main_v1 : FVec F S4096x2 .f32 := broadcastInDim S4096x2 ![] bcast_S_S4096x2 main_cst
  let main_v2 : IVec S4096x2 1 := cmpf .olt main_v0 main_v1
  let main_c : IVec S_ 1 := constantI S_ 1 1#1
  let main_v3 : IVec S_ 1 := (fun x v => Host.reduce IntOp.andi x v reducesTo_S4096x2_S_d0_1 h_S_) main_v2 main_c
  let main_v4 : FVec F S38002x2048 .f32 := Host.absf main_arg3
  let main_cst_0 : FVec F S_ .f32 := constant S_ .f32 0x7F800000#32
  let main_v5 : FVec F S38002x2048 .f32 := broadcastInDim S38002x2048 ![] bcast_S_S38002x2048 main_cst_0
  let main_v6 : IVec S38002x2048 1 := cmpf .olt main_v4 main_v5
  let main_c_1 : IVec S_ 1 := constantI S_ 1 1#1
  let main_v7 : IVec S_ 1 := (fun x v => Host.reduce IntOp.andi x v reducesTo_S38002x2048_S_d0_1 h_S_) main_v6 main_c_1
  let main_v8 : IVec S_ 1 := andi main_v3 main_v7
  let main_v9 : FVec F S2048 .f32 := Host.absf main_arg4
  let main_cst_2 : FVec F S_ .f32 := constant S_ .f32 0x7F800000#32
  let main_v10 : FVec F S2048 .f32 := broadcastInDim S2048 ![] bcast_S_S2048 main_cst_2
  let main_v11 : IVec S2048 1 := cmpf .olt main_v9 main_v10
  let main_c_3 : IVec S_ 1 := constantI S_ 1 1#1
  let main_v12 : IVec S_ 1 := (fun x v => Host.reduce IntOp.andi x v reducesTo_S2048_S_d0 h_S_) main_v11 main_c_3
  let main_v13 : IVec S_ 1 := andi main_v8 main_v12
  let main_v14 : FVec F S2048x1024 .f32 := Host.absf main_arg5
  let main_cst_4 : FVec F S_ .f32 := constant S_ .f32 0x7F800000#32
  let main_v15 : FVec F S2048x1024 .f32 := broadcastInDim S2048x1024 ![] bcast_S_S2048x1024 main_cst_4
  let main_v16 : IVec S2048x1024 1 := cmpf .olt main_v14 main_v15
  fn_part1 (F := F) main_arg1 main_arg6 main_arg7 main_arg8 main_v13 main_v16
-- ==== Kernel.lean ====
abbrev S4096x2 : Shape := ⟨2, ![4096, 2]⟩
abbrev S4000x32 : Shape := ⟨2, ![4000, 32]⟩
abbrev S38002x2048 : Shape := ⟨2, ![38002, 2048]⟩
abbrev S2048 : Shape := ⟨1, ![2048]⟩
abbrev S2048x1024 : Shape := ⟨2, ![2048, 1024]⟩
abbrev S1024 : Shape := ⟨1, ![1024]⟩
abbrev S1024x1 : Shape := ⟨2, ![1024, 1]⟩
abbrev S1 : Shape := ⟨1, ![1]⟩
abbrev S4096x1 : Shape := ⟨2, ![4096, 1]⟩
abbrev S4096 : Shape := ⟨1, ![4096]⟩
abbrev S_ : Shape := ⟨0, ![]⟩
abbrev S4096x32 : Shape := ⟨2, ![4096, 32]⟩
abbrev S19000x2048 : Shape := ⟨2, ![19000, 2048]⟩
abbrev S1x2048 : Shape := ⟨2, ![1, 2048]⟩
abbrev S1x1024 : Shape := ⟨2, ![1, 1024]⟩
abbrev S1x1 : Shape := ⟨2, ![1, 1]⟩
abbrev S4096x2048 : Shape := ⟨2, ![4096, 2048]⟩
abbrev S512x32 : Shape := ⟨2, ![512, 32]⟩
abbrev S760x2048 : Shape := ⟨2, ![760, 2048]⟩
abbrev S512x2048 : Shape := ⟨2, ![512, 2048]⟩
abbrev S1x760 : Shape := ⟨2, ![1, 760]⟩
abbrev S512x760 : Shape := ⟨2, ![512, 760]⟩
abbrev S512x1 : Shape := ⟨2, ![512, 1]⟩
abbrev S512x2 : Shape := ⟨2, ![512, 2]⟩
abbrev S512x1024 : Shape := ⟨2, ![512, 1024]⟩

abbrev nBuf : Space → Nat
  | .hbm => 48
  | .vmem => 31
  | .smem => 0
  | _ => 0

abbrev bufTy : (tb : Table) → Fin (tcTables nBuf tb) → BufTy
  | .hbm, ⟨0, _⟩ => ⟨S4096x2, .i32⟩
  | .hbm, ⟨1, _⟩ => ⟨S4000x32, .i32⟩
  | .hbm, ⟨2, _⟩ => ⟨S4096x2, .f32⟩
  | .hbm, ⟨3, _⟩ => ⟨S38002x2048, .f32⟩
  | .hbm, ⟨4, _⟩ => ⟨S2048, .f32⟩
  | .hbm, ⟨5, _⟩ => ⟨S2048x1024, .f32⟩
  | .hbm, ⟨6, _⟩ => ⟨S1024, .f32⟩
  | .hbm, ⟨7, _⟩ => ⟨S1024x1, .f32⟩
  | .hbm, ⟨8, _⟩ => ⟨S1, .f32⟩
  | .hbm, ⟨9, _⟩ => ⟨S4096x1, .i32⟩
  | .hbm, ⟨10, _⟩ => ⟨S4096, .i32⟩
  | .hbm, ⟨11, _⟩ => ⟨S4096x1, .i32⟩
  | .hbm, ⟨12, _⟩ => ⟨S4096, .i32⟩
  | .hbm, ⟨13, _⟩ => ⟨S_, .i32⟩
  | .hbm, ⟨14, _⟩ => ⟨S4096, .i32⟩
  | .hbm, ⟨15, _⟩ => ⟨S4096, .i1⟩
  | .hbm, ⟨16, _⟩ => ⟨S_, .i32⟩
  | .hbm, ⟨17, _⟩ => ⟨S4096, .i32⟩
  | .hbm, ⟨18, _⟩ => ⟨S4096, .i32⟩
  | .hbm, ⟨19, _⟩ => ⟨S4096, .i32⟩
  | .hbm, ⟨20, _⟩ => ⟨S4096x1, .i32⟩
  | .hbm, ⟨21, _⟩ => ⟨S4096x32, .i32⟩
  | .hbm, ⟨22, _⟩ => ⟨S_, .i32⟩
  | .hbm, ⟨23, _⟩ => ⟨S4096, .i32⟩
  | .hbm, ⟨24, _⟩ => ⟨S4096, .i1⟩
  | .hbm, ⟨25, _⟩ => ⟨S_, .i32⟩
  | .hbm, ⟨26, _⟩ => ⟨S4096, .i32⟩
  | .hbm, ⟨27, _⟩ => ⟨S4096, .i32⟩
  | .hbm, ⟨28, _⟩ => ⟨S4096, .i32⟩
  | .hbm, ⟨29, _⟩ => ⟨S4096x1, .i32⟩
  | .hbm, ⟨30, _⟩ => ⟨S4096x32, .i32⟩
  | .hbm, ⟨31, _⟩ => ⟨S19000x2048, .f32⟩
  | .hbm, ⟨32, _⟩ => ⟨S19000x2048, .bf16⟩
  | .hbm, ⟨33, _⟩ => ⟨S19000x2048, .f32⟩
  | .hbm, ⟨34, _⟩ => ⟨S19000x2048, .bf16⟩
  | .hbm, ⟨35, _⟩ => ⟨S1x2048, .f32⟩
  | .hbm, ⟨36, _⟩ => ⟨S1x2048, .f32⟩
  | .hbm, ⟨37, _⟩ => ⟨S1x2048, .f32⟩
  | .hbm, ⟨38, _⟩ => ⟨S1x1024, .f32⟩
  | .hbm, ⟨39, _⟩ => ⟨S1x1, .f32⟩
  | .hbm, ⟨40, _⟩ => ⟨S2048x1024, .bf16⟩
  | .hbm, ⟨41, _⟩ => ⟨S1024x1, .bf16⟩
  | .hbm, ⟨42, _⟩ => ⟨S4096x2048, .f32⟩
  | .hbm, ⟨43, _⟩ => ⟨S4096x2048, .f32⟩
  | .hbm, ⟨44, _⟩ => ⟨S4096x1, .f32⟩
  | .hbm, ⟨45, _⟩ => ⟨S4096x1, .f32⟩
  | .hbm, ⟨46, _⟩ => ⟨S4096, .f32⟩
  | .hbm, ⟨47, _⟩ => ⟨S4096, .f32⟩
  | .local _ .vmem, ⟨0, _⟩ => ⟨S512x32, .i32⟩
  | .local _ .vmem, ⟨1, _⟩ => ⟨S512x32, .i32⟩
  | .local _ .vmem, ⟨2, _⟩ => ⟨S512x32, .i32⟩
  | .local _ .vmem, ⟨3, _⟩ => ⟨S512x32, .i32⟩
  | .local _ .vmem, ⟨4, _⟩ => ⟨S760x2048, .bf16⟩
  | .local _ .vmem, ⟨5, _⟩ => ⟨S760x2048, .bf16⟩
  | .local _ .vmem, ⟨6, _⟩ => ⟨S760x2048, .bf16⟩
  | .local _ .vmem, ⟨7, _⟩ => ⟨S760x2048, .bf16⟩
  | .local _ .vmem, ⟨8, _⟩ => ⟨S512x2048, .f32⟩
  | .local _ .vmem, ⟨9, _⟩ => ⟨S512x2048, .f32⟩
  | .local _ .vmem, ⟨10, _⟩ => ⟨S512x2048, .f32⟩
  | .local _ .vmem, ⟨11, _⟩ => ⟨S512x2048, .f32⟩
  | .local _ .vmem, ⟨12, _⟩ => ⟨S512x2048, .f32⟩
  | .local _ .vmem, ⟨13, _⟩ => ⟨S512x2048, .f32⟩
  | .local _ .vmem, ⟨14, _⟩ => ⟨S512x2048, .f32⟩
  | .local _ .vmem, ⟨15, _⟩ => ⟨S512x2048, .f32⟩
  | .local _ .vmem, ⟨16, _⟩ => ⟨S512x2048, .f32⟩
  | .local _ .vmem, ⟨17, _⟩ => ⟨S512x2048, .f32⟩
  | .local _ .vmem, ⟨18, _⟩ => ⟨S512x2, .f32⟩
  | .local _ .vmem, ⟨19, _⟩ => ⟨S512x2, .f32⟩
  | .local _ .vmem, ⟨20, _⟩ => ⟨S1x2048, .f32⟩
  | .local _ .vmem, ⟨21, _⟩ => ⟨S1x2048, .f32⟩
  | .local _ .vmem, ⟨22, _⟩ => ⟨S1x2048, .f32⟩
  | .local _ .vmem, ⟨23, _⟩ => ⟨S2048x1024, .bf16⟩
  | .local _ .vmem, ⟨24, _⟩ => ⟨S1x1024, .f32⟩
  | .local _ .vmem, ⟨25, _⟩ => ⟨S1024x1, .bf16⟩
  | .local _ .vmem, ⟨26, _⟩ => ⟨S1x1, .f32⟩
  | .local _ .vmem, ⟨27, _⟩ => ⟨S512x1, .f32⟩
  | .local _ .vmem, ⟨28, _⟩ => ⟨S512x1, .f32⟩
  | .local _ .vmem, ⟨29, _⟩ => ⟨S512x1, .f32⟩
  | .local _ .vmem, ⟨30, _⟩ => ⟨S512x1, .f32⟩
  | _, _ => ⟨S4096x2, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c : Ref sig .tc := ⟨.hbm, 13, rfl⟩
abbrev main_v4 : Ref sig .tc := ⟨.hbm, 14, rfl⟩
abbrev main_v5 : Ref sig .tc := ⟨.hbm, 15, rfl⟩
abbrev main_c_0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_c_1 : Ref sig .tc := ⟨.hbm, 22, rfl⟩
abbrev main_v11 : Ref sig .tc := ⟨.hbm, 23, rfl⟩
abbrev main_v12 : Ref sig .tc := ⟨.hbm, 24, rfl⟩
abbrev main_c_2 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29_0 : Ref sig .tc := ⟨.hbm, 42, rfl⟩
abbrev main_v29_1 : Ref sig .tc := ⟨.hbm, 43, rfl⟩
abbrev main_v30_0 : Ref sig .tc := ⟨.hbm, 44, rfl⟩
abbrev main_v30_1 : Ref sig .tc := ⟨.hbm, 45, rfl⟩
abbrev main_v31 : Ref sig .tc := ⟨.hbm, 46, rfl⟩
abbrev main_v32 : Ref sig .tc := ⟨.hbm, 47, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg2_1 : Ref sig .tc := ⟨.vmem, 19, rfl⟩
abbrev cc1_stg3_0 : Ref sig .tc := ⟨.vmem, 20, rfl⟩
abbrev cc1_stg4_0 : Ref sig .tc := ⟨.vmem, 21, rfl⟩
abbrev cc1_stg5_0 : Ref sig .tc := ⟨.vmem, 22, rfl⟩
abbrev cc1_stg6_0 : Ref sig .tc := ⟨.vmem, 23, rfl⟩
abbrev cc1_stg7_0 : Ref sig .tc := ⟨.vmem, 24, rfl⟩
abbrev cc1_stg8_0 : Ref sig .tc := ⟨.vmem, 25, rfl⟩
abbrev cc1_stg9_0 : Ref sig .tc := ⟨.vmem, 26, rfl⟩
abbrev cc1_stg10_0 : Ref sig .tc := ⟨.vmem, 27, rfl⟩
abbrev cc1_stg10_1 : Ref sig .tc := ⟨.vmem, 28, rfl⟩
abbrev cc1_stg11_0 : Ref sig .tc := ⟨.vmem, 29, rfl⟩
abbrev cc1_stg11_1 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17
abbrev cc1_sem3_0 : DmaSem sig := 18
abbrev cc1_sem4_0 : DmaSem sig := 19
abbrev cc1_sem5_0 : DmaSem sig := 20
abbrev cc1_sem6_0 : DmaSem sig := 21
abbrev cc1_sem7_0 : DmaSem sig := 22
abbrev cc1_sem8_0 : DmaSem sig := 23
abbrev cc1_sem9_0 : DmaSem sig := 24
abbrev cc1_sem10_0 : DmaSem sig := 25
abbrev cc1_sem10_1 : DmaSem sig := 26
abbrev cc1_sem11_0 : DmaSem sig := 27
abbrev cc1_sem11_1 : DmaSem sig := 28

abbrev nD : Nat := 1
abbrev τ : Topo := Topo.v7x

variable {F : FTy → Type} [FloatOps F]

abbrev grid0 : Pipeline.Grid := ⟨2, ![8, 25], ![false, false]⟩

def k0_cond2 (i : grid0.Coords) : BitVec 1 :=
  let arg1 : BitVec 32 := BitVec.ofNat 32 (i 1).val
  let c24_i32 : BitVec 32 := 24#32
  let v545 : BitVec 1 := Scalar.cmpi .eq arg1 c24_i32
  let v546 : BitVec 32 := Scalar.extui v545
  let c0_i32_21 : BitVec 32 := 0#32
  let v547 : BitVec 1 := Scalar.cmpi .ne v546 c0_i32_21
  v547

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x32 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x32 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S760x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S760x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_11 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S512x2048 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S512x2 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x2048 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x2048 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x2048 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S2048x1024 .bf16 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x1024 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1024x1 .bf16 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S1x1 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 2 → Memref sig .tc .vmem S512x1 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

abbrev stage1_11 : Fin 2 → Memref sig .tc .vmem S512x1 .f32 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true]

class Facts₀ : Prop where
  slices_S4096x2_S4096x1_0_0 : S4096x2.Slices ![0, 0] S4096x1
  shapeCasts_S4096x1_S4096 : S4096x1.ShapeCasts S4096
  slices_S4096x2_S4096x1_0_1 : S4096x2.Slices ![0, 1] S4096x1
  bcast_S_S4096 : S_.BroadcastsInDim S4096 (![] : Fin 0 → Fin S4096.rank)
  bcast_S4096_S4096x1_0 : S4096.BroadcastsInDim S4096x1 (![0] : Fin 1 → Fin S4096x1.rank)
  slices_S38002x2048_S19000x2048_0_0 : S38002x2048.Slices ![0, 0] S19000x2048
  bitsLt_bf16_f32 : FTy.bits .bf16 < FTy.bits .f32
  slices_S38002x2048_S19000x2048_19001_0 : S38002x2048.Slices ![19001, 0] S19000x2048
  slices_S38002x2048_S1x2048_19000_0 : S38002x2048.Slices ![19000, 0] S1x2048
  slices_S38002x2048_S1x2048_38001_0 : S38002x2048.Slices ![38001, 0] S1x2048
  shapeCasts_S2048_S1x2048 : S2048.ShapeCasts S1x2048
  shapeCasts_S1024_S1x1024 : S1024.ShapeCasts S1x1024
  shapeCasts_S1_S1x1 : S1.ShapeCasts S1x1
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  iota_S1x760_d1_w32 : S1x760.Iotas .tc 32 [1]
  inb_S512x32_S512x32_0_0 : ∀ a, (![0, 0] : Fin 2 → Nat) a + S512x32.size a ≤ S512x32.size a
  h_S512x32 : 0 < S512x32.numel
  shapeCasts_S512x32_S512x32 : S512x32.ShapeCasts S512x32
  slices_S512x32_o0_0_S512x1 : S512x32.Slices ![0, 0] S512x1
  broadcasts_S512x1_S512x760 : S512x1.Broadcasts S512x760
  broadcasts_S1x760_S512x760 : S1x760.Broadcasts S512x760
  natLt_1_32 : 1 < 32
  slices_S512x32_o0_1_S512x1 : S512x32.Slices ![0, 1] S512x1
  slices_S512x32_o0_2_S512x1 : S512x32.Slices ![0, 2] S512x1
  slices_S512x32_o0_3_S512x1 : S512x32.Slices ![0, 3] S512x1
  slices_S512x32_o0_4_S512x1 : S512x32.Slices ![0, 4] S512x1
  slices_S512x32_o0_5_S512x1 : S512x32.Slices ![0, 5] S512x1
  slices_S512x32_o0_6_S512x1 : S512x32.Slices ![0, 6] S512x1
  slices_S512x32_o0_7_S512x1 : S512x32.Slices ![0, 7] S512x1
  slices_S512x32_o0_8_S512x1 : S512x32.Slices ![0, 8] S512x1
  slices_S512x32_o0_9_S512x1 : S512x32.Slices ![0, 9] S512x1
  slices_S512x32_o0_10_S512x1 : S512x32.Slices ![0, 10] S512x1
  slices_S512x32_o0_11_S512x1 : S512x32.Slices ![0, 11] S512x1
  slices_S512x32_o0_12_S512x1 : S512x32.Slices ![0, 12] S512x1
  slices_S512x32_o0_13_S512x1 : S512x32.Slices ![0, 13] S512x1
  slices_S512x32_o0_14_S512x1 : S512x32.Slices ![0, 14] S512x1
  slices_S512x32_o0_15_S512x1 : S512x32.Slices ![0, 15] S512x1
  slices_S512x32_o0_16_S512x1 : S512x32.Slices ![0, 16] S512x1
  slices_S512x32_o0_17_S512x1 : S512x32.Slices ![0, 17] S512x1
  slices_S512x32_o0_18_S512x1 : S512x32.Slices ![0, 18] S512x1
  slices_S512x32_o0_19_S512x1 : S512x32.Slices ![0, 19] S512x1
  slices_S512x32_o0_20_S512x1 : S512x32.Slices ![0, 20] S512x1
  slices_S512x32_o0_21_S512x1 : S512x32.Slices ![0, 21] S512x1
  slices_S512x32_o0_22_S512x1 : S512x32.Slices ![0, 22] S512x1
  slices_S512x32_o0_23_S512x1 : S512x32.Slices ![0, 23] S512x1
  slices_S512x32_o0_24_S512x1 : S512x32.Slices ![0, 24] S512x1
  slices_S512x32_o0_25_S512x1 : S512x32.Slices ![0, 25] S512x1
  slices_S512x32_o0_26_S512x1 : S512x32.Slices ![0, 26] S512x1
  slices_S512x32_o0_27_S512x1 : S512x32.Slices ![0, 27] S512x1
  slices_S512x32_o0_28_S512x1 : S512x32.Slices ![0, 28] S512x1
  slices_S512x32_o0_29_S512x1 : S512x32.Slices ![0, 29] S512x1
  slices_S512x32_o0_30_S512x1 : S512x32.Slices ![0, 30] S512x1
  slices_S512x32_o0_31_S512x1 : S512x32.Slices ![0, 31] S512x1
  inb_S760x2048_S760x2048_0_0 : ∀ a, (![0, 0] : Fin 2 → Nat) a + S760x2048.size a ≤ S760x2048.size a
  h_S760x2048 : 0 < S760x2048.numel
  shapeCasts_S760x2048_S760x2048 : S760x2048.ShapeCasts S760x2048
  inb_S512x2_S512x1_0_0 : ∀ a, (![0, 0] : Fin 2 → Nat) a + S512x1.size a ≤ S512x2.size a
  h_S512x1 : 0 < S512x1.numel
  inb_S512x2_S512x1_0_1 : ∀ a, (![0, 1] : Fin 2 → Nat) a + S512x1.size a ≤ S512x2.size a
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S512x1_S512x2048 : S512x1.Broadcasts S512x2048
  broadcasts_S1x2048_S512x2048 : S1x2048.Broadcasts S512x2048
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S512x1 : S1x1.Broadcasts S512x1
  inb_S512x1_S512x1_0_0 : ∀ a, (![0, 0] : Fin 2 → Nat) a + S512x1.size a ≤ S512x1.size a
  gather_S4000x32_S4096x1_S4096x32_1_0_n_n_0_1_132_wf : GatherDims.WF S4000x32 S4096x1 S4096x32 [1] [0] [] [0] [] 1 ![1, 32]
  dot_S512x760_S760x2048_S512x2048_1_0_0_1_n_n_wf : DotDims.WF S512x760 S760x2048 S512x2048 [1] [0] [0] [1] [] []
  dot_S512x2048_S2048x1024_S512x1024_1_0_0_1_n_n_wf : DotDims.WF S512x2048 S2048x1024 S512x1024 [1] [0] [0] [1] [] []
  dot_S512x1024_S1024x1_S512x1_1_0_0_1_n_n_wf : DotDims.WF S512x1024 S1024x1 S512x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x32.size a ≤ S4096x32.size a
  hwx0_0 : ∀ i : grid0.Coords, EltTy.bits .i32 = 32 ∨ (Rect.block (s := S4096x32) S512x32.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x32.size a ≤ S4096x32.size a
  hwx0_1 : ∀ i : grid0.Coords, EltTy.bits .i32 = 32 ∨ (Rect.block (s := S4096x32) S512x32.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S760x2048.size a ≤ S19000x2048.size a
  hwx0_2 : ∀ i : grid0.Coords, EltTy.bits .bf16 = 32 ∨ (Rect.block (s := S19000x2048) S760x2048.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S760x2048.size a ≤ S19000x2048.size a
  hwx0_3 : ∀ i : grid0.Coords, EltTy.bits .bf16 = 32 ∨ (Rect.block (s := S19000x2048) S760x2048.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x2048.size a ≤ S4096x2048.size a
  hwx0_4 : ∀ i : grid0.Coords, EltTy.bits .f32 = 32 ∨ (Rect.block (s := S4096x2048) S512x2048.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x2048.size a ≤ S4096x2048.size a
  hwx0_5 : ∀ i : grid0.Coords, EltTy.bits .f32 = 32 ∨ (Rect.block (s := S4096x2048) S512x2048.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x2048.size a ≤ S4096x2048.size a
  hwx1_0 : ∀ i : grid1.Coords, EltTy.bits .f32 = 32 ∨ (Rect.block (s := S4096x2048) S512x2048.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S512x2048.size a ≤ S4096x2048.size a
  hwx1_1 : ∀ i : grid1.Coords, EltTy.bits .f32 = 32 ∨ (Rect.block (s := S4096x2048) S512x2048.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S512x2.size a ≤ S4096x2.size a
  hwx1_2 : ∀ i : grid1.Coords, EltTy.bits .f32 = 32 ∨ (Rect.block (s := S4096x2) S512x2.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x2048.size a ≤ S1x2048.size a
  hwx1_3 : ∀ i : grid1.Coords, EltTy.bits .f32 = 32 ∨ (Rect.block (s := S1x2048) S1x2048.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x2048.size a ≤ S1x2048.size a
  hwx1_4 : ∀ i : grid1.Coords, EltTy.bits .f32 = 32 ∨ (Rect.block (s := S1x2048) S1x2048.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x2048.size a ≤ S1x2048.size a
  hwx1_5 : ∀ i : grid1.Coords, EltTy.bits .f32 = 32 ∨ (Rect.block (s := S1x2048) S1x2048.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S2048x1024.size a ≤ S2048x1024.size a
  hwx1_6 : ∀ i : grid1.Coords, EltTy.bits .bf16 = 32 ∨ (Rect.block (s := S2048x1024) S2048x1024.size (cc1_transform_6 i) (hinb1_6 i)).WholeWords (EltTy.packing .bf16)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x1024.size a ≤ S1x1024.size a
  hwx1_7 : ∀ i : grid1.Coords, EltTy.bits .f32 = 32 ∨ (Rect.block (s := S1x1024) S1x1024.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1024x1.size a ≤ S1024x1.size a
  hwx1_8 : ∀ i : grid1.Coords, EltTy.bits .bf16 = 32 ∨ (Rect.block (s := S1024x1) S1024x1.size (cc1_transform_8 i) (hinb1_8 i)).WholeWords (EltTy.packing .bf16)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S1x1.size a ≤ S1x1.size a
  hwx1_9 : ∀ i : grid1.Coords, EltTy.bits .f32 = 32 ∨ (Rect.block (s := S1x1) S1x1.size (cc1_transform_9 i) (hinb1_9 i)).WholeWords (EltTy.packing .f32)
  hstage1_10 : ∀ j, (stage1_10 j).IsWhole
  nbuf1_10 : grid1.bufCount reads1_10 false = 2
  hreads1_10 : ∀ i i' : grid1.Coords, (∀ a, reads1_10 a = true → i a = i' a) → cc1_transform_10 i = cc1_transform_10 i'
  hinb1_10 : ∀ (i : grid1.Coords) a, (cc1_transform_10 i a + 1) * S512x1.size a ≤ S4096x1.size a
  hwx1_10 : ∀ i : grid1.Coords, EltTy.bits .f32 = 32 ∨ (Rect.block (s := S4096x1) S512x1.size (cc1_transform_10 i) (hinb1_10 i)).WholeWords (EltTy.packing .f32)
  hstage1_11 : ∀ j, (stage1_11 j).IsWhole
  nbuf1_11 : grid1.bufCount reads1_11 false = 2
  hreads1_11 : ∀ i i' : grid1.Coords, (∀ a, reads1_11 a = true → i a = i' a) → cc1_transform_11 i = cc1_transform_11 i'
  hinb1_11 : ∀ (i : grid1.Coords) a, (cc1_transform_11 i a + 1) * S512x1.size a ≤ S4096x1.size a
  hwx1_11 : ∀ i : grid1.Coords, EltTy.bits .f32 = 32 ∨ (Rect.block (s := S4096x1) S512x1.size (cc1_transform_11 i) (hinb1_11 i)).WholeWords (EltTy.packing .f32)

variable [Facts₀]

def gather_S4000x32_S4096x1_S4096x32_1_0_n_n_0_1_132 : GatherDims S4000x32 S4096x1 S4096x32 where
  offsetDims := [1]
  collapsedSliceDims := [0]
  operandBatchingDims := []
  startIndicesBatchingDims := []
  startIndexMap := [0]
  indexVectorDim := 1
  sliceSizes := ![1, 32]
  wf := gather_S4000x32_S4096x1_S4096x32_1_0_n_n_0_1_132_wf
def dot_S512x760_S760x2048_S512x2048_1_0_0_1_n_n : DotDims S512x760 S760x2048 S512x2048 where
  lhsContracting := [1]
  rhsContracting := [0]
  lhsNonContracting := [0]
  rhsNonContracting := [1]
  lhsBatch := []
  rhsBatch := []
  wf := dot_S512x760_S760x2048_S512x2048_1_0_0_1_n_n_wf
def dot_S512x2048_S2048x1024_S512x1024_1_0_0_1_n_n : DotDims S512x2048 S2048x1024 S512x1024 where
  lhsContracting := [1]
  rhsContracting := [0]
  lhsNonContracting := [0]
  rhsNonContracting := [1]
  lhsBatch := []
  rhsBatch := []
  wf := dot_S512x2048_S2048x1024_S512x1024_1_0_0_1_n_n_wf
def dot_S512x1024_S1024x1_S512x1_1_0_0_1_n_n : DotDims S512x1024 S1024x1 S512x1 where
  lhsContracting := [1]
  rhsContracting := [0]
  lhsNonContracting := [0]
  rhsNonContracting := [1]
  lhsBatch := []
  rhsBatch := []
  wf := dot_S512x1024_S1024x1_S512x1_1_0_0_1_n_n_wf

abbrev win0_0 : Pipeline.Window sig grid0 :=
  Pipeline.Window.ofSpec (Memref.whole main_v10) S512x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v17) S512x32.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v19) S760x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v21) S760x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v29_0) S512x2048.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v29_1) S512x2048.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun i => !(k0_cond2 i == 1#1) | 5 => fun i => !(k0_cond2 i == 1#1) | ⟨_ + 6, h⟩ => absurd h (Nat.not_lt.2 (Nat.le_add_left _ _))

abbrev win1_0 : Pipeline.Window sig grid1 :=
  Pipeline.Window.ofSpec (Memref.whole main_v29_0) S512x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v29_1) S512x2048.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg2) S512x2.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v22) S1x2048.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v23) S1x2048.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v24) S1x2048.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v27) S2048x1024.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v25) S1x1024.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v28) S1024x1.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v26) S1x1.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_v30_0) S512x1.size cc1_transform_10 reads1_10 true false 2 stage1_10 sem1_10
    hrank1 hreads1_10 hinb1_10 nbuf1_10 (Memref.isWhole_whole _) hwx1_10 hstage1_10

abbrev win1_11 : Pipeline.Window sig grid1 :=
  Pipeline.Window.ofSpec (Memref.whole main_v30_1) S512x1.size cc1_transform_11 reads1_11 true false 2 stage1_11 sem1_11
    hrank1 hreads1_11 hinb1_11 nbuf1_11 (Memref.isWhole_whole _) hwx1_11 hstage1_11

abbrev win1 : Fin 12 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | ⟨_ + 12, h⟩ => absurd h (Nat.not_lt.2 (Nat.le_add_left _ _))
abbrev spec1 : Fin 12 → Pipeline.WinSpec sig grid1.rank := fun w => (win1 w).toWinSpec

class Facts : Prop extends Facts₀ where

variable [Facts]
-- ==== ReferenceIdeal.lean ====
abbrev S4096x2 : Shape := ⟨2, ![4096, 2]⟩
abbrev S4000x32 : Shape := ⟨2, ![4000, 32]⟩
abbrev S38002x2048 : Shape := ⟨2, ![38002, 2048]⟩
abbrev S2048 : Shape := ⟨1, ![2048]⟩
abbrev S2048x1024 : Shape := ⟨2, ![2048, 1024]⟩
abbrev S1024 : Shape := ⟨1, ![1024]⟩
abbrev S1024x1 : Shape := ⟨2, ![1024, 1]⟩
abbrev S1 : Shape := ⟨1, ![1]⟩
abbrev S4096x1 : Shape := ⟨2, ![4096, 1]⟩
abbrev S4096 : Shape := ⟨1, ![4096]⟩
abbrev S_ : Shape := ⟨0, ![]⟩
abbrev S4096x32 : Shape := ⟨2, ![4096, 32]⟩
abbrev S4096x19000 : Shape := ⟨2, ![4096, 19000]⟩
abbrev S4096x32x1 : Shape := ⟨3, ![4096, 32, 1]⟩
abbrev S4096x32x2 : Shape := ⟨3, ![4096, 32, 2]⟩
abbrev S4096x19001 : Shape := ⟨2, ![4096, 19001]⟩
abbrev S4096x38002 : Shape := ⟨2, ![4096, 38002]⟩
abbrev S4096x2048 : Shape := ⟨2, ![4096, 2048]⟩
abbrev S1x2048 : Shape := ⟨2, ![1, 2048]⟩
abbrev S4096x1024 : Shape := ⟨2, ![4096, 1024]⟩
abbrev S1x1024 : Shape := ⟨2, ![1, 1024]⟩
abbrev S1x1 : Shape := ⟨2, ![1, 1]⟩

abbrev nBuf : Space → Nat
  | .hbm => 125
  | .vmem => 0
  | .smem => 0
  | _ => 0

abbrev bufTy : (tb : Table) → Fin (tcTables nBuf tb) → BufTy
  | .hbm, ⟨0, _⟩ => ⟨S4096x2, .i32⟩
  | .hbm, ⟨1, _⟩ => ⟨S4000x32, .i32⟩
  | .hbm, ⟨2, _⟩ => ⟨S4096x2, .f32⟩
  | .hbm, ⟨3, _⟩ => ⟨S38002x2048, .f32⟩
  | .hbm, ⟨4, _⟩ => ⟨S2048, .f32⟩
  | .hbm, ⟨5, _⟩ => ⟨S2048x1024, .f32⟩
  | .hbm, ⟨6, _⟩ => ⟨S1024, .f32⟩
  | .hbm, ⟨7, _⟩ => ⟨S1024x1, .f32⟩
  | .hbm, ⟨8, _⟩ => ⟨S1, .f32⟩
  | .hbm, ⟨9, _⟩ => ⟨S4096x1, .i32⟩
  | .hbm, ⟨10, _⟩ => ⟨S4096, .i32⟩
  | .hbm, ⟨11, _⟩ => ⟨S_, .i32⟩
  | .hbm, ⟨12, _⟩ => ⟨S4096, .i32⟩
  | .hbm, ⟨13, _⟩ => ⟨S4096, .i1⟩
  | .hbm, ⟨14, _⟩ => ⟨S_, .i32⟩
  | .hbm, ⟨15, _⟩ => ⟨S4096, .i32⟩
  | .hbm, ⟨16, _⟩ => ⟨S4096, .i32⟩
  | .hbm, ⟨17, _⟩ => ⟨S4096, .i32⟩
  | .hbm, ⟨18, _⟩ => ⟨S4096x1, .i32⟩
  | .hbm, ⟨19, _⟩ => ⟨S4096x32, .i32⟩
  | .hbm, ⟨20, _⟩ => ⟨S4096, .i32⟩
  | .hbm, ⟨21, _⟩ => ⟨S4096x1, .i32⟩
  | .hbm, ⟨22, _⟩ => ⟨S_, .f32⟩
  | .hbm, ⟨23, _⟩ => ⟨S4096x19000, .f32⟩
  | .hbm, ⟨24, _⟩ => ⟨S_, .i32⟩
  | .hbm, ⟨25, _⟩ => ⟨S4096x1, .i32⟩
  | .hbm, ⟨26, _⟩ => ⟨S4096x1, .i1⟩
  | .hbm, ⟨27, _⟩ => ⟨S_, .i32⟩
  | .hbm, ⟨28, _⟩ => ⟨S4096x1, .i32⟩
  | .hbm, ⟨29, _⟩ => ⟨S4096x1, .i32⟩
  | .hbm, ⟨30, _⟩ => ⟨S4096x1, .i32⟩
  | .hbm, ⟨31, _⟩ => ⟨S_, .i32⟩
  | .hbm, ⟨32, _⟩ => ⟨S4096x32, .i32⟩
  | .hbm, ⟨33, _⟩ => ⟨S4096x32, .i1⟩
  | .hbm, ⟨34, _⟩ => ⟨S_, .i32⟩
  | .hbm, ⟨35, _⟩ => ⟨S4096x32, .i32⟩
  | .hbm, ⟨36, _⟩ => ⟨S4096x32, .i32⟩
  | .hbm, ⟨37, _⟩ => ⟨S4096x32, .i32⟩
  | .hbm, ⟨38, _⟩ => ⟨S4096x32, .i32⟩
  | .hbm, ⟨39, _⟩ => ⟨S4096x32x1, .i32⟩
  | .hbm, ⟨40, _⟩ => ⟨S4096x32x1, .i32⟩
  | .hbm, ⟨41, _⟩ => ⟨S4096x32x2, .i32⟩
  | .hbm, ⟨42, _⟩ => ⟨S_, .f32⟩
  | .hbm, ⟨43, _⟩ => ⟨S4096x32, .f32⟩
  | .hbm, ⟨44, _⟩ => ⟨S4096x19000, .f32⟩
  | .hbm, ⟨45, _⟩ => ⟨S4096x1, .i32⟩
  | .hbm, ⟨46, _⟩ => ⟨S4096, .i32⟩
  | .hbm, ⟨47, _⟩ => ⟨S_, .i32⟩
  | .hbm, ⟨48, _⟩ => ⟨S4096, .i32⟩
  | .hbm, ⟨49, _⟩ => ⟨S4096, .i1⟩
  | .hbm, ⟨50, _⟩ => ⟨S_, .i32⟩
  | .hbm, ⟨51, _⟩ => ⟨S4096, .i32⟩
  | .hbm, ⟨52, _⟩ => ⟨S4096, .i32⟩
  | .hbm, ⟨53, _⟩ => ⟨S4096, .i32⟩
  | .hbm, ⟨54, _⟩ => ⟨S4096x1, .i32⟩
  | .hbm, ⟨55, _⟩ => ⟨S4096x32, .i32⟩
  | .hbm, ⟨56, _⟩ => ⟨S4096, .i32⟩
  | .hbm, ⟨57, _⟩ => ⟨S4096x1, .i32⟩
  | .hbm, ⟨58, _⟩ => ⟨S_, .f32⟩
  | .hbm, ⟨59, _⟩ => ⟨S4096x19000, .f32⟩
  | .hbm, ⟨60, _⟩ => ⟨S_, .i32⟩
  | .hbm, ⟨61, _⟩ => ⟨S4096x1, .i32⟩
  | .hbm, ⟨62, _⟩ => ⟨S4096x1, .i1⟩
  | .hbm, ⟨63, _⟩ => ⟨S_, .i32⟩
  | .hbm, ⟨64, _⟩ => ⟨S4096x1, .i32⟩
  | .hbm, ⟨65, _⟩ => ⟨S4096x1, .i32⟩
  | .hbm, ⟨66, _⟩ => ⟨S4096x1, .i32⟩
  | .hbm, ⟨67, _⟩ => ⟨S_, .i32⟩
  | .hbm, ⟨68, _⟩ => ⟨S4096x32, .i32⟩
  | .hbm, ⟨69, _⟩ => ⟨S4096x32, .i1⟩
  | .hbm, ⟨70, _⟩ => ⟨S_, .i32⟩
  | .hbm, ⟨71, _⟩ => ⟨S4096x32, .i32⟩
  | .hbm, ⟨72, _⟩ => ⟨S4096x32, .i32⟩
  | .hbm, ⟨73, _⟩ => ⟨S4096x32, .i32⟩
  | .hbm, ⟨74, _⟩ => ⟨S4096x32, .i32⟩
  | .hbm, ⟨75, _⟩ => ⟨S4096x32x1, .i32⟩
  | .hbm, ⟨76, _⟩ => ⟨S4096x32x1, .i32⟩
  | .hbm, ⟨77, _⟩ => ⟨S4096x32x2, .i32⟩
  | .hbm, ⟨78, _⟩ => ⟨S_, .f32⟩
  | .hbm, ⟨79, _⟩ => ⟨S4096x32, .f32⟩
  | .hbm, ⟨80, _⟩ => ⟨S4096x19000, .f32⟩
  | .hbm, ⟨81, _⟩ => ⟨S4096x1, .f32⟩
  | .hbm, ⟨82, _⟩ => ⟨S4096x19001, .f32⟩
  | .hbm, ⟨83, _⟩ => ⟨S4096x1, .f32⟩
  | .hbm, ⟨84, _⟩ => ⟨S4096x19001, .f32⟩
  | .hbm, ⟨85, _⟩ => ⟨S4096x38002, .f32⟩
  | .hbm, ⟨86, _⟩ => ⟨S4096x38002, .f32⟩
  | .hbm, ⟨87, _⟩ => ⟨S4096x2048, .f32⟩
  | .hbm, ⟨88, _⟩ => ⟨S1x2048, .f32⟩
  | .hbm, ⟨89, _⟩ => ⟨S4096x2048, .f32⟩
  | .hbm, ⟨90, _⟩ => ⟨S4096x2048, .f32⟩
  | .hbm, ⟨91, _⟩ => ⟨S_, .f32⟩
  | .hbm, ⟨92, _⟩ => ⟨S4096x2048, .f32⟩
  | .hbm, ⟨93, _⟩ => ⟨S4096x2048, .f32⟩
  | .hbm, ⟨94, _⟩ => ⟨S4096x1024, .f32⟩
  | .hbm, ⟨95, _⟩ => ⟨S1x1024, .f32⟩
  | .hbm, ⟨96, _⟩ => ⟨S4096x1024, .f32⟩
  | .hbm, ⟨97, _⟩ => ⟨S4096x1024, .f32⟩
  | .hbm, ⟨98, _⟩ => ⟨S_, .f32⟩
  | .hbm, ⟨99, _⟩ => ⟨S4096x1024, .f32⟩
  | .hbm, ⟨100, _⟩ => ⟨S4096x1024, .f32⟩
  | .hbm, ⟨101, _⟩ => ⟨S4096x1, .f32⟩
  | .hbm, ⟨102, _⟩ => ⟨S1x1, .f32⟩
  | .hbm, ⟨103, _⟩ => ⟨S4096x1, .f32⟩
  | .hbm, ⟨104, _⟩ => ⟨S4096x1, .f32⟩
  | .hbm, ⟨105, _⟩ => ⟨S4096, .f32⟩
  | .hbm, ⟨106, _⟩ => ⟨S4096x2048, .f32⟩
  | .hbm, ⟨107, _⟩ => ⟨S1x2048, .f32⟩
  | .hbm, ⟨108, _⟩ => ⟨S4096x2048, .f32⟩
  | .hbm, ⟨109, _⟩ => ⟨S4096x2048, .f32⟩
  | .hbm, ⟨110, _⟩ => ⟨S_, .f32⟩
  | .hbm, ⟨111, _⟩ => ⟨S4096x2048, .f32⟩
  | .hbm, ⟨112, _⟩ => ⟨S4096x2048, .f32⟩
  | .hbm, ⟨113, _⟩ => ⟨S4096x1024, .f32⟩
  | .hbm, ⟨114, _⟩ => ⟨S1x1024, .f32⟩
  | .hbm, ⟨115, _⟩ => ⟨S4096x1024, .f32⟩
  | .hbm, ⟨116, _⟩ => ⟨S4096x1024, .f32⟩
  | .hbm, ⟨117, _⟩ => ⟨S_, .f32⟩
  | .hbm, ⟨118, _⟩ => ⟨S4096x1024, .f32⟩
  | .hbm, ⟨119, _⟩ => ⟨S4096x1024, .f32⟩
  | .hbm, ⟨120, _⟩ => ⟨S4096x1, .f32⟩
  | .hbm, ⟨121, _⟩ => ⟨S1x1, .f32⟩
  | .hbm, ⟨122, _⟩ => ⟨S4096x1, .f32⟩
  | .hbm, ⟨123, _⟩ => ⟨S4096x1, .f32⟩
  | .hbm, ⟨124, _⟩ => ⟨S4096, .f32⟩
  | _, _ => ⟨S4096x2, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_c : Ref sig .tc := ⟨.hbm, 11, rfl⟩
abbrev main_v2 : Ref sig .tc := ⟨.hbm, 12, rfl⟩
abbrev main_v3 : Ref sig .tc := ⟨.hbm, 13, rfl⟩
abbrev main_c_0 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst : Ref sig .tc := ⟨.hbm, 22, rfl⟩
abbrev main_v11 : Ref sig .tc := ⟨.hbm, 23, rfl⟩
abbrev main_c_1 : Ref sig .tc := ⟨.hbm, 24, rfl⟩
abbrev main_v12 : Ref sig .tc := ⟨.hbm, 25, rfl⟩
abbrev main_v13 : Ref sig .tc := ⟨.hbm, 26, rfl⟩
abbrev main_c_2 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_c_3 : Ref sig .tc := ⟨.hbm, 31, rfl⟩
abbrev main_v17 : Ref sig .tc := ⟨.hbm, 32, rfl⟩
abbrev main_v18 : Ref sig .tc := ⟨.hbm, 33, rfl⟩
abbrev main_c_4 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_cst_5 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_c_6 : Ref sig .tc := ⟨.hbm, 47, rfl⟩
abbrev main_v30 : Ref sig .tc := ⟨.hbm, 48, rfl⟩
abbrev main_v31 : Ref sig .tc := ⟨.hbm, 49, rfl⟩
abbrev main_c_7 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_cst_8 : Ref sig .tc := ⟨.hbm, 58, rfl⟩
abbrev main_v39 : Ref sig .tc := ⟨.hbm, 59, rfl⟩
abbrev main_c_9 : Ref sig .tc := ⟨.hbm, 60, rfl⟩
abbrev main_v40 : Ref sig .tc := ⟨.hbm, 61, rfl⟩
abbrev main_v41 : Ref sig .tc := ⟨.hbm, 62, rfl⟩
abbrev main_c_10 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_c_11 : Ref sig .tc := ⟨.hbm, 67, rfl⟩
abbrev main_v45 : Ref sig .tc := ⟨.hbm, 68, rfl⟩
abbrev main_v46 : Ref sig .tc := ⟨.hbm, 69, rfl⟩
abbrev main_c_12 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_cst_13 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_call0_cst : Ref sig .tc := ⟨.hbm, 91, rfl⟩
abbrev main_call0_v0 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_call1_cst : Ref sig .tc := ⟨.hbm, 98, rfl⟩
abbrev main_call1_v0 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_call2_cst : Ref sig .tc := ⟨.hbm, 110, rfl⟩
abbrev main_call2_v0 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_call3_cst : Ref sig .tc := ⟨.hbm, 117, rfl⟩
abbrev main_call3_v0 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩

abbrev nD : Nat := 1
abbrev τ : Topo := Topo.v7x

variable {F : FTy → Type} [FloatOps F]

class Facts₀ : Prop where
  slices_S4096x2_S4096x1_0_0 : S4096x2.Slices ![0, 0] S4096x1
  shapeCasts_S4096x1_S4096 : S4096x1.ShapeCasts S4096
  bcast_S_S4096 : S_.BroadcastsInDim S4096 (![] : Fin 0 → Fin S4096.rank)
  bcast_S4096_S4096x1_0 : S4096.BroadcastsInDim S4096x1 (![0] : Fin 1 → Fin S4096x1.rank)
  bcast_S_S4096x19000 : S_.BroadcastsInDim S4096x19000 (![] : Fin 0 → Fin S4096x19000.rank)
  bcast_S_S4096x1 : S_.BroadcastsInDim S4096x1 (![] : Fin 0 → Fin S4096x1.rank)
  bcast_S_S4096x32 : S_.BroadcastsInDim S4096x32 (![] : Fin 0 → Fin S4096x32.rank)
  bcast_S4096x1_S4096x32_0_1 : S4096x1.BroadcastsInDim S4096x32 (![0, 1] : Fin 2 → Fin S4096x32.rank)
  bcast_S4096x32_S4096x32x1_0_1 : S4096x32.BroadcastsInDim S4096x32x1 (![0, 1] : Fin 2 → Fin S4096x32x1.rank)
  concatenates_S4096x32x1_S4096x32x1_S4096x32x2_d2 : Shape.Concatenates [S4096x32x1, S4096x32x1] S4096x32x2 2
  slices_S4096x2_S4096x1_0_1 : S4096x2.Slices ![0, 1] S4096x1
  concatenates_S4096x19000_S4096x1_S4096x19001_d1 : Shape.Concatenates [S4096x19000, S4096x1] S4096x19001 1
  concatenates_S4096x19001_S4096x19001_S4096x38002_d1 : Shape.Concatenates [S4096x19001, S4096x19001] S4096x38002 1
  bcast_S2048_S1x2048_1 : S2048.BroadcastsInDim S1x2048 (![1] : Fin 1 → Fin S1x2048.rank)
  bcast_S1x2048_S4096x2048_0_1 : S1x2048.BroadcastsInDim S4096x2048 (![0, 1] : Fin 2 → Fin S4096x2048.rank)
  bcast_S_S4096x2048 : S_.BroadcastsInDim S4096x2048 (![] : Fin 0 → Fin S4096x2048.rank)
  bcast_S1024_S1x1024_1 : S1024.BroadcastsInDim S1x1024 (![1] : Fin 1 → Fin S1x1024.rank)
  bcast_S1x1024_S4096x1024_0_1 : S1x1024.BroadcastsInDim S4096x1024 (![0, 1] : Fin 2 → Fin S4096x1024.rank)
  bcast_S_S4096x1024 : S_.BroadcastsInDim S4096x1024 (![] : Fin 0 → Fin S4096x1024.rank)
  bcast_S1_S1x1_1 : S1.BroadcastsInDim S1x1 (![1] : Fin 1 → Fin S1x1.rank)
  bcast_S1x1_S4096x1_0_1 : S1x1.BroadcastsInDim S4096x1 (![0, 1] : Fin 2 → Fin S4096x1.rank)
  gather_S4000x32_S4096x1_S4096x32_1_0_n_n_0_1_132_wf : GatherDims.WF S4000x32 S4096x1 S4096x32 [1] [0] [] [0] [] 1 ![1, 32]
  scatter_S4096x19000_S4096x32x2_S4096x32_n_01_01_2_wf : ScatterDims.WF S4096x19000 S4096x32x2 S4096x32 [] [0, 1] [0, 1] 2
  dot_S4096x38002_S38002x2048_S4096x2048_1_0_0_1_n_n_wf : DotDims.WF S4096x38002 S38002x2048 S4096x2048 [1] [0] [0] [1] [] []
  dot_S4096x2048_S2048x1024_S4096x1024_1_0_0_1_n_n_wf : DotDims.WF S4096x2048 S2048x1024 S4096x1024 [1] [0] [0] [1] [] []
  dot_S4096x1024_S1024x1_S4096x1_1_0_0_1_n_n_wf : DotDims.WF S4096x1024 S1024x1 S4096x1 [1] [0] [0] [1] [] []

variable [Facts₀]

def gather_S4000x32_S4096x1_S4096x32_1_0_n_n_0_1_132 : GatherDims S4000x32 S4096x1 S4096x32 where
  offsetDims := [1]
  collapsedSliceDims := [0]
  operandBatchingDims := []
  startIndicesBatchingDims := []
  startIndexMap := [0]
  indexVectorDim := 1
  sliceSizes := ![1, 32]
  wf := gather_S4000x32_S4096x1_S4096x32_1_0_n_n_0_1_132_wf
def scatter_S4096x19000_S4096x32x2_S4096x32_n_01_01_2 : ScatterDims S4096x19000 S4096x32x2 S4096x32 where
  updateWindowDims := []
  insertedWindowDims := [0, 1]
  scatterDimsToOperandDims := [0, 1]
  indexVectorDim := 2
  wf := scatter_S4096x19000_S4096x32x2_S4096x32_n_01_01_2_wf
def dot_S4096x38002_S38002x2048_S4096x2048_1_0_0_1_n_n : DotDims S4096x38002 S38002x2048 S4096x2048 where
  lhsContracting := [1]
  rhsContracting := [0]
  lhsNonContracting := [0]
  rhsNonContracting := [1]
  lhsBatch := []
  rhsBatch := []
  wf := dot_S4096x38002_S38002x2048_S4096x2048_1_0_0_1_n_n_wf
def dot_S4096x2048_S2048x1024_S4096x1024_1_0_0_1_n_n : DotDims S4096x2048 S2048x1024 S4096x1024 where
  lhsContracting := [1]
  rhsContracting := [0]
  lhsNonContracting := [0]
  rhsNonContracting := [1]
  lhsBatch := []
  rhsBatch := []
  wf := dot_S4096x2048_S2048x1024_S4096x1024_1_0_0_1_n_n_wf
def dot_S4096x1024_S1024x1_S4096x1_1_0_0_1_n_n : DotDims S4096x1024 S1024x1 S4096x1 where
  lhsContracting := [1]
  rhsContracting := [0]
  lhsNonContracting := [0]
  rhsNonContracting := [1]
  lhsBatch := []
  rhsBatch := []
  wf := dot_S4096x1024_S1024x1_S4096x1_1_0_0_1_n_n_wf

class Facts : Prop extends Facts₀ where

variable [Facts]
-- ==== Proof.K.R0Kit.lean ====
import proofs.«417828_j54142357733865_1_alg».proof.Proof.Gen.Kernel.Launch
import proofs.«417828_j54142357733865_1_alg».proof.Proof.Gen.Kernel.Skeleton
import proofs.«417828_j54142357733865_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Pipe

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 25 = 0 :=
  (by decide +kernel : ∀ t : Fin grid0.N, cond0_0 (grid0.coords t) ↔ t.val % 25 = 0)

abbrev cond0_1 (i : grid0.Coords) : Prop := k0_cond2 i = 1#1
theorem hcond0_1 : ∀ t : Fin cfg0.N, cond0_1 (grid0.coords t) ↔ t.val % 25 = 24 :=
  (by decide +kernel : ∀ t : Fin grid0.N, cond0_1 (grid0.coords t) ↔ t.val % 25 = 24)

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel

theorem idleAt0_4 : ∀ t : Fin cfg0.N, ¬cond0_1 (grid0.coords t) → cfg0.idle 4 (grid0.coords t) = true := by decide +kernel
theorem noFlush0_4 : ∀ t : Fin cfg0.N, ¬cond0_1 (grid0.coords t) → (cfg0.win 4).flush t = false := by decide +kernel
theorem idleAt0_5 : ∀ t : Fin cfg0.N, ¬cond0_1 (grid0.coords t) → cfg0.idle 5 (grid0.coords t) = true := by decide +kernel
theorem noFlush0_5 : ∀ t : Fin cfg0.N, ¬cond0_1 (grid0.coords t) → (cfg0.win 5).flush t = false := by decide +kernel
theorem liveAt0_4 : ∀ t : Fin cfg0.N, cond0_1 (grid0.coords t) → cfg0.idle 4 (grid0.coords t) = false := by decide +kernel
theorem liveAt0_5 : ∀ t : Fin cfg0.N, cond0_1 (grid0.coords t) → cfg0.idle 5 (grid0.coords t) = false := by decide +kernel

abbrev VO0_4 : View sig .tc .vmem S512x2048 .f32 := (Memref.whole cc0_stg4_0 : Memref sig .tc .vmem S512x2048 .f32).view
abbrev VO0_5 : View sig .tc .vmem S512x2048 .f32 := (Memref.whole cc0_stg5_0 : Memref sig .tc .vmem S512x2048 .f32).view
abbrev ms0_0 (t : Fin cfg0.N) : Memref sig .tc .vmem S512x32 .i32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x32 .i32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S760x2048 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S760x2048 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S512x2048 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S512x2048 .f32 := win0_5.stage (cfg0.slots t 5)
abbrev hs0_5 (t : Fin cfg0.N) : (ms0_5 t).IsWhole := hstage0_5 ((cfg0.slots t 5).cast nbuf0_5)

abbrev scM0_0 : Memref sig .tc .vmem S512x2048 .f32 := Memref.whole cc0_scratch0
abbrev scM0_1 : Memref sig .tc .vmem S512x2048 .f32 := Memref.whole cc0_scratch1
abbrev VS0_0 : View sig .tc .vmem S512x2048 .f32 := scM0_0.view
abbrev VS0_1 : View sig .tc .vmem S512x2048 .f32 := scM0_1.view

def rest0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg6_0), ((c : Thread nD τ).loc cc1_stg6_0) ↦{fullShare} f) ∗ (∃ f : Buf (Elt F) ((c : Thread nD τ).loc cc1_stg7_0), ((c : Thread nD τ).loc cc1_stg7_0) ↦{fullShare} f) ∗ (∃ f : Buf (Elt F) ((c : Thread nD τ).loc cc1_stg8_0), ((c : Thread nD τ).loc cc1_stg8_0) ↦{fullShare} f) ∗ (∃ f : Buf (Elt F) ((c : Thread nD τ).loc cc1_stg9_0), ((c : Thread nD τ).loc cc1_stg9_0) ↦{fullShare} f) ∗ (∃ f : Buf (Elt F) ((c : Thread nD τ).loc cc1_stg10_0), ((c : Thread nD τ).loc cc1_stg10_0) ↦{fullShare} f) ∗ (∃ f : Buf (Elt F) ((c : Thread nD τ).loc cc1_stg10_1), ((c : Thread nD τ).loc cc1_stg10_1) ↦{fullShare} f) ∗ (∃ f : Buf (Elt F) ((c : Thread nD τ).loc cc1_stg11_0), ((c : Thread nD τ).loc cc1_stg11_0) ↦{fullShare} f) ∗ (∃ f : Buf (Elt F) ((c : Thread nD τ).loc cc1_stg11_1), ((c : Thread nD τ).loc cc1_stg11_1) ↦{fullShare} f))

theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ rest0 c) ∗ (∃ r, prngReg c r)) := by
  unfold Pipeline.ΦA rest0; rw [scopedRest0_eq]; simp only [scM0_0, scM0_1, owns_whole]; try rfl

end Cert.Kernel.Pipe

end
-- ==== Proof.K.R0RunB.lean ====
import proofs.«417828_j54142357733865_1_alg».proof.Proof.K.R0Kit

set_option maxRecDepth 16384

noncomputable section

namespace Cert.Kernel.Pipe

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in

noncomputable def kernelRun0_B (c : Dev nD) (i : grid0.Coords) (arg2 : Memref sig .tc .vmem S512x32 .i32) (harg2 : arg2.IsWhole) (arg3 : Memref sig .tc .vmem S512x32 .i32) (harg3 : arg3.IsWhole) (arg4 : Memref sig .tc .vmem S760x2048 .bf16) (harg4 : arg4.IsWhole) (arg5 : Memref sig .tc .vmem S760x2048 .bf16) (harg5 : arg5.IsWhole) (arg6 : Memref sig .tc .vmem S512x2048 .f32) (harg6 : arg6.IsWhole) (arg7 : Memref sig .tc .vmem S512x2048 .f32) (harg7 : arg7.IsWhole) (arg8 : Memref sig .tc .vmem S512x2048 .f32) (harg8 : arg8.IsWhole) (arg9 : Memref sig .tc .vmem S512x2048 .f32) (harg9 : arg9.IsWhole) (hc0 : ¬cond0_0 i) (hc1 : ¬cond0_1 i)
    (x0 : Vec F S512x32 .i32) (x1 : Vec F S512x32 .i32) (x2 : Vec F S760x2048 .bf16) (x3 : Vec F S760x2048 .bf16) (xs0 : Vec F S512x2048 .f32) (xs1 : Vec F S512x2048 .f32) :
    Σ' (L4 : List (View.Piece (Elt F) S512x2048 .f32)) (L5 : List (View.Piece (Elt F) S512x2048 .f32)) (LS0 : List (View.Piece (Elt F) S512x2048 .f32)), { LS1 : List (View.Piece (Elt F) S512x2048 .f32) //
      ∀ (xi4 : Vec F S512x2048 .f32) (xi5 : Vec F S512x2048 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xi5 ∗ owns (c : Thread nD τ) arg8 fullShare xs0 ∗ owns (c : Thread nD τ) arg9 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xi5 ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc0__sparse_first_layer_kernel i arg2 harg2 arg3 harg3 arg4 harg4 arg5 harg5 arg6 harg6 arg7 harg7 arg8 harg8 arg9 harg9) K } := by
  refine ⟨[], [], ?_, ?_, fun xi4 xi5 E K => ?run⟩
  case run =>
    simp only [cc0__sparse_first_layer_kernel_eq_skeleton]; unfold cc0__sparse_first_layer_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hfs0; obtain rfl := harg9.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [HS0]; · iexists _; iexact HS0
    iexists _; iexact HS1

end Cert.Kernel.Pipe

end
-- ==== Proof.K.R0RunA.lean ====
import proofs.«417828_j54142357733865_1_alg».proof.Proof.K.R0RunB

set_option maxRecDepth 16384

noncomputable section

namespace Cert.Kernel.Pipe

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in

noncomputable def kernelRun0_A (c : Dev nD) (i : grid0.Coords) (arg2 : Memref sig .tc .vmem S512x32 .i32) (harg2 : arg2.IsWhole) (arg3 : Memref sig .tc .vmem S512x32 .i32) (harg3 : arg3.IsWhole) (arg4 : Memref sig .tc .vmem S760x2048 .bf16) (harg4 : arg4.IsWhole) (arg5 : Memref sig .tc .vmem S760x2048 .bf16) (harg5 : arg5.IsWhole) (arg6 : Memref sig .tc .vmem S512x2048 .f32) (harg6 : arg6.IsWhole) (arg7 : Memref sig .tc .vmem S512x2048 .f32) (harg7 : arg7.IsWhole) (arg8 : Memref sig .tc .vmem S512x2048 .f32) (harg8 : arg8.IsWhole) (arg9 : Memref sig .tc .vmem S512x2048 .f32) (harg9 : arg9.IsWhole) (hc0 : cond0_0 i) (hc1 : ¬cond0_1 i)
    (x0 : Vec F S512x32 .i32) (x1 : Vec F S512x32 .i32) (x2 : Vec F S760x2048 .bf16) (x3 : Vec F S760x2048 .bf16) :
    Σ' (L4 : List (View.Piece (Elt F) S512x2048 .f32)) (L5 : List (View.Piece (Elt F) S512x2048 .f32)) (LS0 : List (View.Piece (Elt F) S512x2048 .f32)), { LS1 : List (View.Piece (Elt F) S512x2048 .f32) //
      ∀ (xi4 : Vec F S512x2048 .f32) (xi5 : Vec F S512x2048 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xi5 ∗ (∃ d, owns (c : Thread nD τ) arg8 fullShare d) ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xi5 ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc0__sparse_first_layer_kernel i arg2 harg2 arg3 harg3 arg4 harg4 arg5 harg5 arg6 harg6 arg7 harg7 arg8 harg8 arg9 harg9) K } := by
  refine ⟨[], [], ?_, ?_, fun xi4 xi5 E K => ?run⟩
  case run =>
    simp only [cc0__sparse_first_layer_kernel_eq_skeleton]; unfold cc0__sparse_first_layer_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [HS0]; · iexists _; iexact HS0
    iexists _; iexact HS1

end Cert.Kernel.Pipe

end
-- ==== Proof.K.R0RunC.lean ====
import proofs.«417828_j54142357733865_1_alg».proof.Proof.K.R0RunA

set_option maxRecDepth 16384

noncomputable section

namespace Cert.Kernel.Pipe

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in

noncomputable def kernelRun0_C (c : Dev nD) (i : grid0.Coords) (arg2 : Memref sig .tc .vmem S512x32 .i32) (harg2 : arg2.IsWhole) (arg3 : Memref sig .tc .vmem S512x32 .i32) (harg3 : arg3.IsWhole) (arg4 : Memref sig .tc .vmem S760x2048 .bf16) (harg4 : arg4.IsWhole) (arg5 : Memref sig .tc .vmem S760x2048 .bf16) (harg5 : arg5.IsWhole) (arg6 : Memref sig .tc .vmem S512x2048 .f32) (harg6 : arg6.IsWhole) (arg7 : Memref sig .tc .vmem S512x2048 .f32) (harg7 : arg7.IsWhole) (arg8 : Memref sig .tc .vmem S512x2048 .f32) (harg8 : arg8.IsWhole) (arg9 : Memref sig .tc .vmem S512x2048 .f32) (harg9 : arg9.IsWhole) (hc0 : ¬cond0_0 i) (hc1 : cond0_1 i)
    (x0 : Vec F S512x32 .i32) (x1 : Vec F S512x32 .i32) (x2 : Vec F S760x2048 .bf16) (x3 : Vec F S760x2048 .bf16) (xs0 : Vec F S512x2048 .f32) (xs1 : Vec F S512x2048 .f32) :
    Σ' (L4 : List (View.Piece (Elt F) S512x2048 .f32)) (L5 : List (View.Piece (Elt F) S512x2048 .f32)) (LS0 : List (View.Piece (Elt F) S512x2048 .f32)), { LS1 : List (View.Piece (Elt F) S512x2048 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ owns (c : Thread nD τ) arg8 fullShare xs0 ∗ owns (c : Thread nD τ) arg9 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc0__sparse_first_layer_kernel i arg2 harg2 arg3 harg3 arg4 harg4 arg5 harg5 arg6 harg6 arg7 harg7 arg8 harg8 arg9 harg9) K } := by
  refine ⟨?_, ?_, ?_, ?_, fun E K => ?run⟩
  case run =>
    simp only [cc0__sparse_first_layer_kernel_eq_skeleton]; unfold cc0__sparse_first_layer_kernel_skel
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg8.eq_unread hfs0; obtain rfl := harg9.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [H5]; · iexists _; iexact H5
    isplitl [HS0]; · iexists _; iexact HS0
    iexists _; iexact HS1

end Cert.Kernel.Pipe

end
-- ==== Proof.K.R0Pieces.lean ====
import proofs.«417828_j54142357733865_1_alg».proof.Proof.K.R0RunC

set_option maxRecDepth 16384

noncomputable section

namespace Cert.Kernel.Pipe

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (c : Dev nD) (i : grid0.Coords)
  (arg2 : Memref sig .tc .vmem S512x32 .i32) (harg2 : arg2.IsWhole)
  (arg3 : Memref sig .tc .vmem S512x32 .i32) (harg3 : arg3.IsWhole)
  (arg4 : Memref sig .tc .vmem S760x2048 .bf16) (harg4 : arg4.IsWhole)
  (arg5 : Memref sig .tc .vmem S760x2048 .bf16) (harg5 : arg5.IsWhole)
  (arg6 : Memref sig .tc .vmem S512x2048 .f32) (harg6 : arg6.IsWhole)
  (arg7 : Memref sig .tc .vmem S512x2048 .f32) (harg7 : arg7.IsWhole)
  (arg8 : Memref sig .tc .vmem S512x2048 .f32) (harg8 : arg8.IsWhole)
  (arg9 : Memref sig .tc .vmem S512x2048 .f32) (harg9 : arg9.IsWhole)

/-! For each control case of region 0's body: what its run leaves in each buffer it may store into (the pieces the run
found, read back over a placeholder), and, where the case does store there, that the pieces cover the buffer. -/

section CaseA
variable (hc0 : cond0_0 i) (hc1 : ¬cond0_1 i) (x0 : Vec F S512x32 .i32) (x1 : Vec F S512x32 .i32) (x2 : Vec F S760x2048 .bf16) (x3 : Vec F S760x2048 .bf16)

def out0_A_4 : Vec F S512x2048 .f32 :=
  VO0_4.read (Elt F) (VO0_4.writes (Elt F) VO0_4.junk (kernelRun0_A c i arg2 harg2 arg3 harg3 arg4 harg4 arg5 harg5 arg6 harg6 arg7 harg7 arg8 harg8 arg9 harg9 hc0 hc1 x0 x1 x2 x3).1)

def out0_A_5 : Vec F S512x2048 .f32 :=
  VO0_5.read (Elt F) (VO0_5.writes (Elt F) VO0_5.junk (kernelRun0_A c i arg2 harg2 arg3 harg3 arg4 harg4 arg5 harg5 arg6 harg6 arg7 harg7 arg8 harg8 arg9 harg9 hc0 hc1 x0 x1 x2 x3).2.1)

theorem scover0_A_0 (y : S512x2048.Idx) : ∃ pc ∈ (kernelRun0_A c i arg2 harg2 arg3 harg3 arg4 harg4 arg5 harg5 arg6 harg6 arg7 harg7 arg8 harg8 arg9 harg9 hc0 hc1 x0 x1 x2 x3).2.2.1, y ∈ pc.1.set :=
  View.cover_of_tiledL (kernelRun0_A c i arg2 harg2 arg3 harg3 arg4 harg4 arg5 harg5 arg6 harg6 arg7 harg7 arg8 harg8 arg9 harg9 hc0 hc1 x0 x1 x2 x3).2.2.1 S512x2048.size (by sl_kernel_rfl) y

def sout0_A_0 : Vec F S512x2048 .f32 :=
  VS0_0.read (Elt F) (VS0_0.writes (Elt F) VS0_0.junk (kernelRun0_A c i arg2 harg2 arg3 harg3 arg4 harg4 arg5 harg5 arg6 harg6 arg7 harg7 arg8 harg8 arg9 harg9 hc0 hc1 x0 x1 x2 x3).2.2.1)

theorem scover0_A_1 (y : S512x2048.Idx) : ∃ pc ∈ (kernelRun0_A c i arg2 harg2 arg3 harg3 arg4 harg4 arg5 harg5 arg6 harg6 arg7 harg7 arg8 harg8 arg9 harg9 hc0 hc1 x0 x1 x2 x3).2.2.2.1, y ∈ pc.1.set :=
  View.cover_of_tiledL (kernelRun0_A c i arg2 harg2 arg3 harg3 arg4 harg4 arg5 harg5 arg6 harg6 arg7 harg7 arg8 harg8 arg9 harg9 hc0 hc1 x0 x1 x2 x3).2.2.2.1 S512x2048.size (by sl_kernel_rfl) y

def sout0_A_1 : Vec F S512x2048 .f32 :=
  VS0_1.read (Elt F) (VS0_1.writes (Elt F) VS0_1.junk (kernelRun0_A c i arg2 harg2 arg3 harg3 arg4 harg4 arg5 harg5 arg6 harg6 arg7 harg7 arg8 harg8 arg9 harg9 hc0 hc1 x0 x1 x2 x3).2.2.2.1)

end CaseA

section CaseB
variable (hc0 : ¬cond0_0 i) (hc1 : ¬cond0_1 i) (x0 : Vec F S512x32 .i32) (x1 : Vec F S512x32 .i32) (x2 : Vec F S760x2048 .bf16) (x3 : Vec F S760x2048 .bf16)
  (xs0 : Vec F S512x2048 .f32) (xs1 : Vec F S512x2048 .f32)

def out0_B_4 : Vec F S512x2048 .f32 :=
  VO0_4.read (Elt F) (VO0_4.writes (Elt F) VO0_4.junk (kernelRun0_B c i arg2 harg2 arg3 harg3 arg4 harg4 arg5 harg5 arg6 harg6 arg7 harg7 arg8 harg8 arg9 harg9 hc0 hc1 x0 x1 x2 x3 xs0 xs1).1)

def out0_B_5 : Vec F S512x2048 .f32 :=
  VO0_5.read (Elt F) (VO0_5.writes (Elt F) VO0_5.junk (kernelRun0_B c i arg2 harg2 arg3 harg3 arg4 harg4 arg5 harg5 arg6 harg6 arg7 harg7 arg8 harg8 arg9 harg9 hc0 hc1 x0 x1 x2 x3 xs0 xs1).2.1)

theorem scover0_B_0 (y : S512x2048.Idx) : ∃ pc ∈ (kernelRun0_B c i arg2 harg2 arg3 harg3 arg4 harg4 arg5 harg5 arg6 harg6 arg7 harg7 arg8 harg8 arg9 harg9 hc0 hc1 x0 x1 x2 x3 xs0 xs1).2.2.1, y ∈ pc.1.set :=
  View.cover_of_tiledL (kernelRun0_B c i arg2 harg2 arg3 harg3 arg4 harg4 arg5 harg5 arg6 harg6 arg7 harg7 arg8 harg8 arg9 harg9 hc0 hc1 x0 x1 x2 x3 xs0 xs1).2.2.1 S512x2048.size (by sl_kernel_rfl) y

def sout0_B_0 : Vec F S512x2048 .f32 :=
  VS0_0.read (Elt F) (VS0_0.writes (Elt F) VS0_0.junk (kernelRun0_B c i arg2 harg2 arg3 harg3 arg4 harg4 arg5 harg5 arg6 harg6 arg7 harg7 arg8 harg8 arg9 harg9 hc0 hc1 x0 x1 x2 x3 xs0 xs1).2.2.1)

theorem scover0_B_1 (y : S512x2048.Idx) : ∃ pc ∈ (kernelRun0_B c i arg2 harg2 arg3 harg3 arg4 harg4 arg5 harg5 arg6 harg6 arg7 harg7 arg8 harg8 arg9 harg9 hc0 hc1 x0 x1 x2 x3 xs0 xs1).2.2.2.1, y ∈ pc.1.set :=
  View.cover_of_tiledL (kernelRun0_B c i arg2 harg2 arg3 harg3 arg4 harg4 arg5 harg5 arg6 harg6 arg7 harg7 arg8 harg8 arg9 harg9 hc0 hc1 x0 x1 x2 x3 xs0 xs1).2.2.2.1 S512x2048.size (by sl_kernel_rfl) y

def sout0_B_1 : Vec F S512x2048 .f32 :=
  VS0_1.read (Elt F) (VS0_1.writes (Elt F) VS0_1.junk (kernelRun0_B c i arg2 harg2 arg3 harg3 arg4 harg4 arg5 harg5 arg6 harg6 arg7 harg7 arg8 harg8 arg9 harg9 hc0 hc1 x0 x1 x2 x3 xs0 xs1).2.2.2.1)

end CaseB

section CaseC
variable (hc0 : ¬cond0_0 i) (hc1 : cond0_1 i) (x0 : Vec F S512x32 .i32) (x1 : Vec F S512x32 .i32) (x2 : Vec F S760x2048 .bf16) (x3 : Vec F S760x2048 .bf16)
  (xs0 : Vec F S512x2048 .f32) (xs1 : Vec F S512x2048 .f32)

theorem cover0_C_4 (y : S512x2048.Idx) : ∃ pc ∈ (kernelRun0_C c i arg2 harg2 arg3 harg3 arg4 harg4 arg5 harg5 arg6 harg6 arg7 harg7 arg8 harg8 arg9 harg9 hc0 hc1 x0 x1 x2 x3 xs0 xs1).1, y ∈ pc.1.set :=
  View.cover_of_tiledL (kernelRun0_C c i arg2 harg2 arg3 harg3 arg4 harg4 arg5 harg5 arg6 harg6 arg7 harg7 arg8 harg8 arg9 harg9 hc0 hc1 x0 x1 x2 x3 xs0 xs1).1 S512x2048.size (by sl_kernel_rfl) y

def out0_C_4 : Vec F S512x2048 .f32 :=
  VO0_4.read (Elt F) (VO0_4.writes (Elt F) VO0_4.junk (kernelRun0_C c i arg2 harg2 arg3 harg3 arg4 harg4 arg5 harg5 arg6 harg6 arg7 harg7 arg8 harg8 arg9 harg9 hc0 hc1 x0 x1 x2 x3 xs0 xs1).1)

theorem cover0_C_5 (y : S512x2048.Idx) : ∃ pc ∈ (kernelRun0_C c i arg2 harg2 arg3 harg3 arg4 harg4 arg5 harg5 arg6 harg6 arg7 harg7 arg8 harg8 arg9 harg9 hc0 hc1 x0 x1 x2 x3 xs0 xs1).2.1, y ∈ pc.1.set :=
  View.cover_of_tiledL (kernelRun0_C c i arg2 harg2 arg3 harg3 arg4 harg4 arg5 harg5 arg6 harg6 arg7 harg7 arg8 harg8 arg9 harg9 hc0 hc1 x0 x1 x2 x3 xs0 xs1).2.1 S512x2048.size (by sl_kernel_rfl) y

def out0_C_5 : Vec F S512x2048 .f32 :=
  VO0_5.read (Elt F) (VO0_5.writes (Elt F) VO0_5.junk (kernelRun0_C c i arg2 harg2 arg3 harg3 arg4 harg4 arg5 harg5 arg6 harg6 arg7 harg7 arg8 harg8 arg9 harg9 hc0 hc1 x0 x1 x2 x3 xs0 xs1).2.1)

theorem scover0_C_0 (y : S512x2048.Idx) : ∃ pc ∈ (kernelRun0_C c i arg2 harg2 arg3 harg3 arg4 harg4 arg5 harg5 arg6 harg6 arg7 harg7 arg8 harg8 arg9 harg9 hc0 hc1 x0 x1 x2 x3 xs0 xs1).2.2.1, y ∈ pc.1.set :=
  View.cover_of_tiledL (kernelRun0_C c i arg2 harg2 arg3 harg3 arg4 harg4 arg5 harg5 arg6 harg6 arg7 harg7 arg8 harg8 arg9 harg9 hc0 hc1 x0 x1 x2 x3 xs0 xs1).2.2.1 S512x2048.size (by sl_kernel_rfl) y

def sout0_C_0 : Vec F S512x2048 .f32 :=
  VS0_0.read (Elt F) (VS0_0.writes (Elt F) VS0_0.junk (kernelRun0_C c i arg2 harg2 arg3 harg3 arg4 harg4 arg5 harg5 arg6 harg6 arg7 harg7 arg8 harg8 arg9 harg9 hc0 hc1 x0 x1 x2 x3 xs0 xs1).2.2.1)

theorem scover0_C_1 (y : S512x2048.Idx) : ∃ pc ∈ (kernelRun0_C c i arg2 harg2 arg3 harg3 arg4 harg4 arg5 harg5 arg6 harg6 arg7 harg7 arg8 harg8 arg9 harg9 hc0 hc1 x0 x1 x2 x3 xs0 xs1).2.2.2.1, y ∈ pc.1.set :=
  View.cover_of_tiledL (kernelRun0_C c i arg2 harg2 arg3 harg3 arg4 harg4 arg5 harg5 arg6 harg6 arg7 harg7 arg8 harg8 arg9 harg9 hc0 hc1 x0 x1 x2 x3 xs0 xs1).2.2.2.1 S512x2048.size (by sl_kernel_rfl) y

def sout0_C_1 : Vec F S512x2048 .f32 :=
  VS0_1.read (Elt F) (VS0_1.writes (Elt F) VS0_1.junk (kernelRun0_C c i arg2 harg2 arg3 harg3 arg4 harg4 arg5 harg5 arg6 harg6 arg7 harg7 arg8 harg8 arg9 harg9 hc0 hc1 x0 x1 x2 x3 xs0 xs1).2.2.2.1)

end CaseC

end Cert.Kernel.Pipe

end
-- ==== Proof.K.R0Frame.lean ====
import proofs.«417828_j54142357733865_1_alg».proof.Proof.K.R0Pieces

set_option maxRecDepth 16384

noncomputable section

namespace Cert.Kernel.Pipe

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

abbrev atA (c : Dev nD) (t : Fin cfg0.N) (h0 : cond0_0 (grid0.coords t)) (h1 : ¬cond0_1 (grid0.coords t)) :
    Vec F S512x2048 .f32 × Vec F S512x2048 .f32 × Vec F S512x2048 .f32 × Vec F S512x2048 .f32 :=
  (out0_A_4 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) h0 h1 (iblk0 V c 0 t) (iblk0 V c 1 t) (iblk0 V c 2 t) (iblk0 V c 3 t),
   out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) h0 h1 (iblk0 V c 0 t) (iblk0 V c 1 t) (iblk0 V c 2 t) (iblk0 V c 3 t),
   sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) h0 h1 (iblk0 V c 0 t) (iblk0 V c 1 t) (iblk0 V c 2 t) (iblk0 V c 3 t),
   sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) h0 h1 (iblk0 V c 0 t) (iblk0 V c 1 t) (iblk0 V c 2 t) (iblk0 V c 3 t))

abbrev atB (c : Dev nD) (t : Fin cfg0.N) (h0 : ¬cond0_0 (grid0.coords t)) (h1 : ¬cond0_1 (grid0.coords t)) (p0 p1 : Vec F S512x2048 .f32) :
    Vec F S512x2048 .f32 × Vec F S512x2048 .f32 × Vec F S512x2048 .f32 × Vec F S512x2048 .f32 :=
  (out0_B_4 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) h0 h1 (iblk0 V c 0 t) (iblk0 V c 1 t) (iblk0 V c 2 t) (iblk0 V c 3 t) p0 p1,
   out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) h0 h1 (iblk0 V c 0 t) (iblk0 V c 1 t) (iblk0 V c 2 t) (iblk0 V c 3 t) p0 p1,
   sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) h0 h1 (iblk0 V c 0 t) (iblk0 V c 1 t) (iblk0 V c 2 t) (iblk0 V c 3 t) p0 p1,
   sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) h0 h1 (iblk0 V c 0 t) (iblk0 V c 1 t) (iblk0 V c 2 t) (iblk0 V c 3 t) p0 p1)

abbrev atC (c : Dev nD) (t : Fin cfg0.N) (h0 : ¬cond0_0 (grid0.coords t)) (h1 : cond0_1 (grid0.coords t)) (p0 p1 : Vec F S512x2048 .f32) :
    Vec F S512x2048 .f32 × Vec F S512x2048 .f32 × Vec F S512x2048 .f32 × Vec F S512x2048 .f32 :=
  (out0_C_4 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) h0 h1 (iblk0 V c 0 t) (iblk0 V c 1 t) (iblk0 V c 2 t) (iblk0 V c 3 t) p0 p1,
   out0_C_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) h0 h1 (iblk0 V c 0 t) (iblk0 V c 1 t) (iblk0 V c 2 t) (iblk0 V c 3 t) p0 p1,
   sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) h0 h1 (iblk0 V c 0 t) (iblk0 V c 1 t) (iblk0 V c 2 t) (iblk0 V c 3 t) p0 p1,
   sout0_C_1 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) h0 h1 (iblk0 V c 0 t) (iblk0 V c 1 t) (iblk0 V c 2 t) (iblk0 V c 3 t) p0 p1)

def outsAt0 (c : Dev nD) : (n : ℕ) → n < cfg0.N → Vec F S512x2048 .f32 × Vec F S512x2048 .f32 × Vec F S512x2048 .f32 × Vec F S512x2048 .f32
  | 0, hn => atA V c ⟨0, hn⟩ ((hcond0_0 ⟨0, hn⟩).mpr (Nat.zero_mod _)) (fun h => (fun h => by (try dsimp only at h); omega) ((hcond0_1 ⟨0, hn⟩).mp h))
  | n + 1, hn =>
    if h0 : (n + 1) % 25 = 0 then
      atA V c ⟨n + 1, hn⟩ ((hcond0_0 ⟨n + 1, hn⟩).mpr h0) (fun h => (fun h => by (try dsimp only at h); omega) ((hcond0_1 ⟨n + 1, hn⟩).mp h))
    else if h1 : (n + 1) % 25 = 24 then
      atC V c ⟨n + 1, hn⟩ (fun h => h0 ((hcond0_0 ⟨n + 1, hn⟩).mp h)) ((hcond0_1 ⟨n + 1, hn⟩).mpr h1)
        (outsAt0 c n (Nat.lt_of_succ_lt hn)).2.2.1 (outsAt0 c n (Nat.lt_of_succ_lt hn)).2.2.2
    else
      atB V c ⟨n + 1, hn⟩ (fun h => h0 ((hcond0_0 ⟨n + 1, hn⟩).mp h)) (fun h => h1 ((hcond0_1 ⟨n + 1, hn⟩).mp h))
        (outsAt0 c n (Nat.lt_of_succ_lt hn)).2.2.1 (outsAt0 c n (Nat.lt_of_succ_lt hn)).2.2.2

theorem outsAt0_A (c : Dev nD) (t : Fin cfg0.N) (h0 : t.val % 25 = 0) (h1 : ¬t.val % 25 = 24) :
    outsAt0 V c t.val t.isLt = atA V c t ((hcond0_0 t).mpr h0) (fun h => h1 ((hcond0_1 t).mp h)) := by
  obtain ⟨n, hn⟩ := t
  cases n with
  | zero => exact rfl
  | succ n => exact (dif_pos h0).trans rfl

theorem outsAt0_B (c : Dev nD) (t : Fin cfg0.N) (h0 : ¬t.val % 25 = 0) (h1 : ¬t.val % 25 = 24) :
    outsAt0 V c t.val t.isLt = atB V c t (fun h => h0 ((hcond0_0 t).mp h)) (fun h => h1 ((hcond0_1 t).mp h))
      (outsAt0 V c (t.val - 1) (Nat.lt_of_le_of_lt (Nat.sub_le _ _) t.isLt)).2.2.1 (outsAt0 V c (t.val - 1) (Nat.lt_of_le_of_lt (Nat.sub_le _ _) t.isLt)).2.2.2 := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 25 = 0) (h1 : t.val % 25 = 24) :
    outsAt0 V c t.val t.isLt = atC V c t (fun h => h0 ((hcond0_0 t).mp h)) ((hcond0_1 t).mpr h1)
      (outsAt0 V c (t.val - 1) (Nat.lt_of_le_of_lt (Nat.sub_le _ _) t.isLt)).2.2.1 (outsAt0 V c (t.val - 1) (Nat.lt_of_le_of_lt (Nat.sub_le _ _) t.isLt)).2.2.2 := by
  obtain ⟨n, hn⟩ := t
  cases n with
  | zero => exact (by exfalso; (try dsimp only at h0); exact absurd (Nat.zero_mod _) h0)
  | succ n => exact (dif_neg h0).trans ((dif_pos h1).trans rfl)

def PhiS (c : Dev nD) : (n : ℕ) → n ≤ cfg0.N → sProp 𝕄
  | 0, _ => Pipeline.ΦA spec0 c
  | n + 1, hn => iprop(iprop(owns (c : Thread nD τ) scM0_0 fullShare ((outsAt0 V c n hn).2.2.1) ∗ owns (c : Thread nD τ) scM0_1 fullShare ((outsAt0 V c n hn).2.2.2) ∗ rest0 c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) scM0_0 fullShare ((outsAt0 V c n hn).2.2.1) ∗ owns (c : Thread nD τ) scM0_1 fullShare ((outsAt0 V c n hn).2.2.2) ∗ rest0 c) ∗ (∃ r, prngReg c r)) := rfl

theorem PhiS_pos (c : Dev nD) (n : ℕ) (h : n ≤ cfg0.N) (hz : n ≠ 0) :
    PhiS V c n h = iprop(iprop(owns (c : Thread nD τ) scM0_0 fullShare ((outsAt0 V c (n - 1) (by omega)).2.2.1) ∗ owns (c : Thread nD τ) scM0_1 fullShare ((outsAt0 V c (n - 1) (by omega)).2.2.2) ∗ rest0 c) ∗ (∃ r, prngReg c r)) := by
  cases n with
  | zero => exact absurd rfl hz
  | succ n => rfl

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => (outsAt0 V c t.val t.isLt).1
    | ⟨5, _⟩ => (outsAt0 V c t.val t.isLt).2.1
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS_castSucc (c : Dev nD) (t : Fin cfg0.N) :
    (dat0 V c).Φ t.castSucc = PhiS V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = (outsAt0 V c t.val t.isLt).1 := by dsimp only [dat0]
theorem after0_5 (c : Dev nD) (t : Fin cfg0.N) : (dat0 V c).after 5 t = (outsAt0 V c t.val t.isLt).2.1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t)

theorem leaves0_0 (c : Dev nD) (t : Fin cfg0.N) : (dat0 V c).leavesExact 0 t = owns (c : Thread nD τ) (ms0_0 t) fullShare (iblk0 V c 0 t) := by
  unfold Dat.leavesExact; rw [liveAt0_0 t, after0_0]
theorem leaves0_1 (c : Dev nD) (t : Fin cfg0.N) : (dat0 V c).leavesExact 1 t = owns (c : Thread nD τ) (ms0_1 t) fullShare (iblk0 V c 1 t) := by
  unfold Dat.leavesExact; rw [liveAt0_1 t, after0_1]
theorem leaves0_2 (c : Dev nD) (t : Fin cfg0.N) : (dat0 V c).leavesExact 2 t = owns (c : Thread nD τ) (ms0_2 t) fullShare (iblk0 V c 2 t) := by
  unfold Dat.leavesExact; rw [liveAt0_2 t, after0_2]
theorem leaves0_3 (c : Dev nD) (t : Fin cfg0.N) : (dat0 V c).leavesExact 3 t = owns (c : Thread nD τ) (ms0_3 t) fullShare (iblk0 V c 3 t) := by
  unfold Dat.leavesExact; rw [liveAt0_3 t, after0_3]

set_option maxHeartbeats 4800000 in

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).owesAt () t.succ = (dat0 V c).owesAt () t.castSucc from rfl]
  rw [show (dat0 V c).Φ t.succ = PhiS V c (t.val + 1) t.isLt from rfl, PhiS_succ]
  rw [leaves0_0, leaves0_1, leaves0_2, leaves0_3]
  have hN : t.val < 200 := lt_of_lt_of_eq t.isLt (show cfg0.N = 200 from N_0)
  by_cases h0 : t.val % 25 = 0
  · have h1 : ¬t.val % 25 = 24 := by omega
    have hc0 : cond0_0 (grid0.coords t) := (hcond0_0 t).mpr h0
    have hc1 : ¬cond0_1 (grid0.coords t) := fun h => h1 ((hcond0_1 t).mp h)
    rw [Dat.leavesExact_idle (dat0 V c) 4 t (idleAt0_4 t hc1) (noFlush0_4 t hc1),
      Dat.leavesExact_idle (dat0 V c) 5 t (idleAt0_5 t hc1) (noFlush0_5 t hc1)]
    rw [outsAt0_A V c t h0 h1]
    dsimp only [atA]; unfold sout0_A_0 sout0_A_1; (try dsimp only)
    by_cases hz : t.val = 0
    · rw [PhiS_castSucc V c t, PhiS_zero V c _ _ hz, PhiA0_eq]
      iintro ⟨⟨⟨HS0, HS1, HR⟩, Hg⟩, Ho, ⟨%d0, H0⟩, ⟨%d1, H1⟩, ⟨%d2, H2⟩, ⟨%d3, H3⟩, ⟨%d4, H4⟩, ⟨%d5, H5⟩⟩
      iapply ((kernelRun0_A c (grid0.coords t) _ _ _ _ _ _ _ _ _ _ _ _ _ _ _ _ hc0 hc1 (iblk0 V c 0 t) (iblk0 V c 1 t) (iblk0 V c 2 t) (iblk0 V c 3 t)).2.2.2.2 _ _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      iintro ⟨H0, H1, H2, H3, H4, H5, ⟨%es0, HS0⟩, ⟨%es1, HS1⟩⟩
      isplitl [HS0 HS1 HR Hg]
      · isplitl [HS0 HS1 HR]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _ _)
          isplitl [HS1]
          · unfold owns; iexists _; isplitr
            swap; · iexact HS1
            ipureintro; exact View.read_writes_of_cover _ _ _ _ _ (scover0_A_1 c _ _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]; · iexists _; iexact H4
      iexists _; iexact H5
    · rw [PhiS_castSucc V c t, PhiS_pos V c _ _ hz]
      iintro ⟨⟨⟨HS0, HS1, HR⟩, Hg⟩, Ho, ⟨%d0, H0⟩, ⟨%d1, H1⟩, ⟨%d2, H2⟩, ⟨%d3, H3⟩, ⟨%d4, H4⟩, ⟨%d5, H5⟩⟩
      iapply ((kernelRun0_A c (grid0.coords t) _ _ _ _ _ _ _ _ _ _ _ _ _ _ _ _ hc0 hc1 (iblk0 V c 0 t) (iblk0 V c 1 t) (iblk0 V c 2 t) (iblk0 V c 3 t)).2.2.2.2 _ _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexists _; iexact HS0
      isplitl [HS1]; · iexists _; iexact HS1
      iintro ⟨H0, H1, H2, H3, H4, H5, ⟨%es0, HS0⟩, ⟨%es1, HS1⟩⟩
      isplitl [HS0 HS1 HR Hg]
      · isplitl [HS0 HS1 HR]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _ _)
          isplitl [HS1]
          · unfold owns; iexists _; isplitr
            swap; · iexact HS1
            ipureintro; exact View.read_writes_of_cover _ _ _ _ _ (scover0_A_1 c _ _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]; · iexists _; iexact H4
      iexists _; iexact H5
  · have hz : t.val ≠ 0 := fun h => h0 (by rw [h])
    have hc0 : ¬cond0_0 (grid0.coords t) := fun h => h0 ((hcond0_0 t).mp h)
    rw [PhiS_castSucc V c t, PhiS_pos V c _ _ hz]
    by_cases h1 : t.val % 25 = 24
    · have hc1 : cond0_1 (grid0.coords t) := (hcond0_1 t).mpr h1
      rw [show (dat0 V c).leavesExact 4 t = owns (c : Thread nD τ) (ms0_4 t) fullShare ((dat0 V c).after 4 t) from by
        unfold Dat.leavesExact; rw [liveAt0_4 t hc1], after0_4]
      rw [show (dat0 V c).leavesExact 5 t = owns (c : Thread nD τ) (ms0_5 t) fullShare ((dat0 V c).after 5 t) from by
        unfold Dat.leavesExact; rw [liveAt0_5 t hc1], after0_5]
      rw [outsAt0_C V c t h0 h1]
      dsimp only [atC]; unfold out0_C_4 out0_C_5 sout0_C_0 sout0_C_1; (try dsimp only)
      iintro ⟨⟨⟨HS0, HS1, HR⟩, Hg⟩, Ho, ⟨%d0, H0⟩, ⟨%d1, H1⟩, ⟨%d2, H2⟩, ⟨%d3, H3⟩, ⟨%d4, H4⟩, ⟨%d5, H5⟩⟩
      iapply ((kernelRun0_C c (grid0.coords t) _ _ _ _ _ _ _ _ _ _ _ _ _ _ _ _ hc0 hc1 (iblk0 V c 0 t) (iblk0 V c 1 t) (iblk0 V c 2 t) (iblk0 V c 3 t) _ _).2.2.2.2 Set.univ _)
      isplitl [H0]; · iexact H0
      isplitl [H1]; · iexact H1
      isplitl [H2]; · iexact H2
      isplitl [H3]; · iexact H3
      isplitl [H4]; · iexists _; iexact H4
      isplitl [H5]; · iexists _; iexact H5
      isplitl [HS0]; · iexact HS0
      isplitl [HS1]; · iexact HS1
      iintro ⟨H0, H1, H2, H3, ⟨%e4, H4⟩, ⟨%e5, H5⟩, ⟨%es0, HS0⟩, ⟨%es1, HS1⟩⟩
      isplitl [HS0 HS1 HR Hg]
      · isplitl [HS0 HS1 HR]
        · isplitl [HS0]
          · unfold owns; iexists _; isplitr
            swap; · iexact HS0
            ipureintro; exact View.read_writes_of_cover _ _ _ _ _ (scover0_C_0 c _ _ _ _ _ _ _ _ _ _ _ _ _ _ _ _ _ _ _ _ _ _ _ _ _)
          isplitl [HS1]
          · unfold owns; iexists _; isplitr
            swap; · iexact HS1
            ipureintro; exact View.read_writes_of_cover _ _ _ _ _ (scover0_C_1 c _ _ _ _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (cover0_C_4 c _ _ _ _ _ _ _ _ _ _ _ _ _ _ _ _ _ _ _ _ _ _ _ _ _)
      unfold owns; iexists _; isplitr
      swap; · iexact H5
      ipureintro; exact View.read_writes_of_cover _ _ _ _ _ (cover0_C_5 c _ _ _ _ _ _ _ _ _ _ _ _ _ _ _ _ _ _ _ _ _ _ _ _ _)
    · have hc1 : ¬cond0_1 (grid0.coords t) := fun h => h1 ((hcond0_1 t).mp h)
      rw [Dat.leavesExact_idle (dat0 V c) 4 t (idleAt0_4 t hc1) (noFlush0_4 t hc1),
        Dat.leavesExact_idle (dat0 V c) 5 t (idleAt0_5 t hc1) (noFlush0_5 t hc1)]
      rw [outsAt0_B V c t h0 h1]
      dsimp only [atB]; unfold sout0_B_0 sout0_B_1; (try dsimp only)
      iintro ⟨⟨⟨HS0, HS1, HR⟩, Hg⟩, Ho, ⟨%d0, H0⟩, ⟨%d1, H1⟩, ⟨%d2, H2⟩, ⟨%d3, H3⟩, ⟨%d4, H4⟩, ⟨%d5, H5⟩⟩
      iapply ((kernelRun0_B c (grid0.coords t) _ _ _ _ _ _ _ _ _ _ _ _ _ _ _ _ hc0 hc1 (iblk0 V c 0 t) (iblk0 V c 1 t) (iblk0 V c 2 t) (iblk0 V c 3 t) _ _).2.2.2.2 _ _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      iintro ⟨H0, H1, H2, H3, H4, H5, ⟨%es0, HS0⟩, ⟨%es1, HS1⟩⟩
      isplitl [HS0 HS1 HR Hg]
      · isplitl [HS0 HS1 HR]
        · isplitl [HS0]
          · unfold owns; iexists _; isplitr
            swap; · iexact HS0
            ipureintro; exact View.read_writes_of_cover _ _ _ _ _ (scover0_B_0 c _ _ _ _ _ _ _ _ _ _ _ _ _ _ _ _ _ _ _ _ _ _ _ _ _)
          isplitl [HS1]
          · unfold owns; iexists _; isplitr
            swap; · iexact HS1
            ipureintro; exact View.read_writes_of_cover _ _ _ _ _ (scover0_B_1 c _ _ _ _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]; · iexists _; iexact H4
      iexists _; iexact H5

theorem body_obligation0 (c : Dev nD) : BodyObligation (dat0 (F := F) V c) (defs₀ (F := F)) Variants.none () Set.univ := fun t => by
  rw [bigSep_W0, bigSep_W0]
  exact sound_body0 V c t

theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

theorem Phi_out0 (c : Dev nD) (t : Fin (cfg0.N + 1)) (ht : t.val ≠ 0) : (dat0 V c).Φ t ⊢ Pipeline.ΦA spec0 c := by
  rw [show (dat0 V c).Φ t = PhiS V c t.val (Nat.le_of_lt_succ t.isLt) from rfl, PhiS_pos V c _ _ ht, PhiA0_eq]
  iintro ⟨⟨HS0, HS1, HR⟩, Hg⟩
  isplitl [HS0 HS1 HR]
  · isplitl [HS0]; · iexists _; iexact HS0
    isplitl [HS1]; · iexists _; iexact HS1
    iexact HR
  iexact Hg

theorem hout0 (c : Dev nD) : (dat0 V c).Φ (Fin.last cfg0.N) ⊢ Pipeline.ΦA spec0 c :=
  Phi_out0 V c _ (by rw [Fin.val_last]; have : cfg0.N = 200 := N_0; omega)

end Region0

end Cert.Kernel.Pipe

end
-- ==== Proof.K.R1Frame.lean ====
import proofs.«417828_j54142357733865_1_alg».proof.Proof.K.R0Kit

set_option maxRecDepth 16384

noncomputable section

namespace Cert.Kernel.Pipe

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)

theorem before1_8_of {c : Dev nD} (dat : Dat τ (Elt F) Unit ℕ (UR sig nD τ) ℕ cfg1 c) (hA : dat.A 8 = V c (Pipeline.arrRef spec1 8))
    (hafter : ∀ t, dat.after 8 t = iblk1 V c 8 t) (t : Fin cfg1.N) (d) : dat.before 8 t d = iblk1 V c 8 t :=
  (dat.before_in_eq_fetched 8 rfl (fun _ => rfl) (fun _ _ _ => rfl) (fun t => by rw [hafter]; unfold Dat.blockOf iblk1; rw [hA]; try rfl) t d).trans
    (by unfold Dat.fetched Dat.blockOf iblk1; rw [hA]; try rfl)

theorem before1_9_of {c : Dev nD} (dat : Dat τ (Elt F) Unit ℕ (UR sig nD τ) ℕ cfg1 c) (hA : dat.A 9 = V c (Pipeline.arrRef spec1 9))
    (hafter : ∀ t, dat.after 9 t = iblk1 V c 9 t) (t : Fin cfg1.N) (d) : dat.before 9 t d = iblk1 V c 9 t :=
  (dat.before_in_eq_fetched 9 rfl (fun _ => rfl) (fun _ _ _ => rfl) (fun t => by rw [hafter]; unfold Dat.blockOf iblk1; rw [hA]; try rfl) t d).trans
    (by unfold Dat.fetched Dat.blockOf iblk1; rw [hA]; try rfl)

abbrev r1_c0 : Rect S512x2 := Rect.unit (s := S512x2) ![0, 0] S512x1.size inb_S512x2_S512x1_0_0

abbrev r1_c1 : Rect S512x2 := Rect.unit (s := S512x2) ![0, 1] S512x1.size inb_S512x2_S512x1_0_1

abbrev r1_row : Rect S1x2048 := Rect.unit (s := S1x2048) ![0, 0] S1x2048.size inb_S1x2048_S1x2048_0_0
abbrev r1_acc : Rect S512x2048 := Rect.unit (s := S512x2048) ![0, 0] S512x2048.size inb_S512x2048_S512x2048_0_0
abbrev r1_w2 : Rect S2048x1024 := Rect.unit (s := S2048x1024) ![0, 0] S2048x1024.size inb_S2048x1024_S2048x1024_0_0
abbrev r1_b2 : Rect S1x1024 := Rect.unit (s := S1x1024) ![0, 0] S1x1024.size inb_S1x1024_S1x1024_0_0
abbrev r1_w3 : Rect S1024x1 := Rect.unit (s := S1024x1) ![0, 0] S1024x1.size inb_S1024x1_S1024x1_0_0
abbrev r1_b3 : Rect S1x1 := Rect.unit (s := S1x1) ![0, 0] S1x1.size inb_S1x1_S1x1_0_0
abbrev r1_out : Rect S512x1 := Rect.unit (s := S512x1) ![0, 0] S512x1.size inb_S512x1_S512x1_0_0

def out1_10 (x0 x1 : Vec F S512x2048 .f32) (x2 : Vec F S512x2 .f32) (x3 x4 x5 : Vec F S1x2048 .f32)
    (x6 : Vec F S2048x1024 .bf16) (x7 : Vec F S1x1024 .f32) (x8 : Vec F S1024x1 .bf16) (x9 : Vec F S1x1 .f32) : Vec F S512x1 .f32 :=
  View.canon [⟨r1_out, k1_pay4 (k1_pay9 (View.ld x2 r1_c0) (View.ld x2 r1_c1) (View.ld x3 r1_row) (View.ld x4 r1_row) (View.ld x5 r1_row) (View.ld x0 r1_acc))
    (k1_pay11 (View.ld x6 r1_w2)) (View.ld x7 r1_b2) (View.ld x8 r1_w3) (View.ld x9 r1_b3)⟩]

def out1_11 (x0 x1 : Vec F S512x2048 .f32) (x2 : Vec F S512x2 .f32) (x3 x4 x5 : Vec F S1x2048 .f32)
    (x6 : Vec F S2048x1024 .bf16) (x7 : Vec F S1x1024 .f32) (x8 : Vec F S1024x1 .bf16) (x9 : Vec F S1x1 .f32) : Vec F S512x1 .f32 :=
  View.canon [⟨r1_out, k1_pay5 (k1_pay10 (View.ld x2 r1_c0) (View.ld x2 r1_c1) (View.ld x3 r1_row) (View.ld x4 r1_row) (View.ld x5 r1_row) (View.ld x1 r1_acc))
    (k1_pay11 (View.ld x6 r1_w2)) (View.ld x7 r1_b2) (View.ld x8 r1_w3) (View.ld x9 r1_b3)⟩]

theorem cover1_out (p0 : Vec F S512x1 .f32) (y : S512x1.Idx) :
    ∃ pc ∈ ([⟨r1_out, p0⟩] : List (View.Piece (Elt F) S512x1 .f32)), y ∈ pc.1.set :=
  View.cover_of_tiled [⟨r1_out, p0⟩] S512x1.size (by rfl) y

set_option maxHeartbeats 4000000 in

theorem sound_kernel1 (c : Dev nD) (E : Set ℕ) (i : grid1.Coords) (arg1 : Memref sig .tc .vmem S512x2048 .f32) (harg1 : arg1.IsWhole) (arg2 : Memref sig .tc .vmem S512x2048 .f32) (harg2 : arg2.IsWhole) (arg3 : Memref sig .tc .vmem S512x2 .f32) (harg3 : arg3.IsWhole) (arg4 : Memref sig .tc .vmem S1x2048 .f32) (harg4 : arg4.IsWhole) (arg5 : Memref sig .tc .vmem S1x2048 .f32) (harg5 : arg5.IsWhole) (arg6 : Memref sig .tc .vmem S1x2048 .f32) (harg6 : arg6.IsWhole) (arg7 : Memref sig .tc .vmem S2048x1024 .bf16) (harg7 : arg7.IsWhole) (arg8 : Memref sig .tc .vmem S1x1024 .f32) (harg8 : arg8.IsWhole) (arg9 : Memref sig .tc .vmem S1024x1 .bf16) (harg9 : arg9.IsWhole) (arg10 : Memref sig .tc .vmem S1x1 .f32) (harg10 : arg10.IsWhole) (arg11 : Memref sig .tc .vmem S512x1 .f32) (harg11 : arg11.IsWhole) (arg12 : Memref sig .tc .vmem S512x1 .f32) (harg12 : arg12.IsWhole)
    (x0 x1 : Vec F S512x2048 .f32) (x2 : Vec F S512x2 .f32) (x3 x4 x5 : Vec F S1x2048 .f32)
    (x6 : Vec F S2048x1024 .bf16) (x7 : Vec F S1x1024 .f32) (x8 : Vec F S1024x1 .bf16) (x9 : Vec F S1x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9
        ∗ (∃ d, owns (c : Thread nD τ) arg11 fullShare d) ∗ (∃ d, owns (c : Thread nD τ) arg12 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9
            ∗ owns (c : Thread nD τ) arg11 fullShare (out1_10 x0 x1 x2 x3 x4 x5 x6 x7 x8 x9) ∗ owns (c : Thread nD τ) arg12 fullShare (out1_11 x0 x1 x2 x3 x4 x5 x6 x7 x8 x9)) -∗ K ⟨⟩))
      ⊢ wp frame (wpE (defs₀ (F := F)) Variants.none c none) E (cc1__mlp_head_kernel i arg1 harg1 arg2 harg2 arg3 harg3 arg4 harg4 arg5 harg5 arg6 harg6 arg7 harg7 arg8 harg8 arg9 harg9 arg10 harg10 arg11 harg11 arg12 harg12) K := by
  simp only [cc1__mlp_head_kernel_eq_skeleton]; unfold cc1__mlp_head_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, Hk⟩
  subst hf0 hf1 hf2 hf3 hf4 hf5 hf6 hf7 hf8 hf9
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists _; isplitr
    swap; · iexact H10
    ipureintro
    try dsimp only
    exact View.read_writes_eq_canon _ _ _ (cover1_out _)
  iexists _; isplitr
  swap; · iexact H11
  ipureintro
  try dsimp only
  exact View.read_writes_eq_canon _ _ _ (cover1_out _)

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => iblk1 V c 9 t
    | ⟨10, _⟩ => out1_10 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t)
    | ⟨11, _⟩ => out1_11 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = iblk1 V c 8 t := by dsimp only [dat1]
theorem after1_9 (c : Dev nD) (t : Fin cfg1.N) : (dat1 V c).after 9 t = iblk1 V c 9 t := by dsimp only [dat1]
theorem after1_10 (c : Dev nD) (t : Fin cfg1.N) : (dat1 V c).after 10 t = out1_10 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) := by dsimp only [dat1]
theorem after1_11 (c : Dev nD) (t : Fin cfg1.N) : (dat1 V c).after 11 t = out1_11 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d
theorem before1_8 (c : Dev nD) (t : Fin cfg1.N) (d) : (dat1 V c).before 8 t d = iblk1 V c 8 t :=
  before1_8_of V (dat1 V c) (A_eq1 V c 8) (after1_8 V c) t d
theorem before1_9 (c : Dev nD) (t : Fin cfg1.N) (d) : (dat1 V c).before 9 t d = iblk1 V c 9 t :=
  before1_9_of V (dat1 V c) (A_eq1 V c 9) (after1_9 V c) t d

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d))
    ∗ (∃ d, owns (c : Thread nD τ) (st1_9 t) fullShare ((dat1 V c).before 9 t d))
    ∗ (∃ d, owns (c : Thread nD τ) (st1_10 t) fullShare ((dat1 V c).before 10 t d))
    ∗ (∃ d, owns (c : Thread nD τ) (st1_11 t) fullShare ((dat1 V c).before 11 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t)
    ∗ owns (c : Thread nD τ) (st1_9 t) fullShare ((dat1 V c).after 9 t)
    ∗ owns (c : Thread nD τ) (st1_10 t) fullShare ((dat1 V c).after 10 t)
    ∗ owns (c : Thread nD τ) (st1_11 t) fullShare ((dat1 V c).after 11 t))

set_option maxHeartbeats 1000000 in

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8, before1_9]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8, after1_9, after1_10, after1_11]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (sound_kernel1 c Set.univ (grid1.coords t) _ _ _ _ _ _ _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [H11]; · iexists _; iexact H11
  iintro ⟨H0, H1, H2, H3, H4, H5, H6, H7, H8, H9, H10, H11⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

theorem body_obligation1 (c : Dev nD) : BodyObligation (dat1 (F := F) V c) (defs₀ (F := F)) Variants.none () Set.univ := fun t => by
  rw [bigSep_W1, bigSep_W1]
  exact sound_body1 V c t

end Region1

end Cert.Kernel.Pipe

end
-- ==== Proof.K.Run.lean ====
import proofs.«417828_j54142357733865_1_alg».proof.Proof.K.R0Frame
import proofs.«417828_j54142357733865_1_alg».proof.Proof.K.R1Frame
import proofs.«417828_j54142357733865_1_alg».proof.Proof.Gen.Kernel.Regions

set_option maxRecDepth 16384

noncomputable section

namespace Cert.Kernel.Pipe

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev M0 : Dev nD → Valuation τ sig (Elt F) := fun c b => (s₀ m ρ).mem ((c : Dev nD), b)

abbrev M1 : Dev nD → Valuation τ sig (Elt F) := fun c => StableHlo.after hostOps0 (M0 m ρ c)
abbrev VE0 : (c : Dev nD) → (b : Ref sig .tc) → Buf (Elt F) ((c : Thread nD τ).loc b) := fun c b => M1 m ρ c b

def M2 (c : Dev nD) : Valuation τ sig (Elt F) :=
  Pipeline.withArrays spec0 c (M1 m ρ c) fun w => (dat0 (VE0 m ρ) c).arrAt w cfg0.N
theorem M2_arr (c : Dev nD) (w : Fin cfg0.W) :
    M2 m ρ c (Proc.devRef .tc (Pipeline.arrRef spec0 w)) = (dat0 (VE0 m ρ) c).arrAt w cfg0.N := by
  unfold M2; exact Pipeline.withArrays_arr spec0 launch0.win.arr_inj c _ _ w
theorem M2_of_ne (c : Dev nD) (b : Ref sig .tc) (hb : ∀ w, Pipeline.arrRef spec0 w ≠ b) :
    M2 m ρ c (Proc.devRef .tc b) = M1 m ρ c (Proc.devRef .tc b) := by
  unfold M2; exact Pipeline.withArrays_of_ne spec0 c _ _ b hb
abbrev VE1 : (c : Dev nD) → (b : Ref sig .tc) → Buf (Elt F) ((c : Thread nD τ).loc b) := fun c b => M2 m ρ c b
theorem hF0 (c : Dev nD) (w : Fin cfg0.W) : (dat0 (VE0 m ρ) c).arrAt w cfg0.N = VE1 m ρ c (Pipeline.arrRef spec0 w) :=
  (M2_arr m ρ c w).symm
theorem hrest0 (c : Dev nD) : ∀ b, b ∉ Finset.univ.image (Pipeline.arrRef spec0) → VE1 m ρ c b = VE0 m ρ c b :=
  fun b hb => M2_of_ne m ρ c b fun w e => hb (Finset.mem_image.mpr ⟨w, Finset.mem_univ _, e⟩)

def M3 (c : Dev nD) : Valuation τ sig (Elt F) :=
  Pipeline.withArrays spec1 c (M2 m ρ c) fun w => (dat1 (VE1 m ρ) c).arrAt w cfg1.N
theorem M3_arr (c : Dev nD) (w : Fin cfg1.W) :
    M3 m ρ c (Proc.devRef .tc (Pipeline.arrRef spec1 w)) = (dat1 (VE1 m ρ) c).arrAt w cfg1.N := by
  unfold M3; exact Pipeline.withArrays_arr spec1 launch1.win.arr_inj c _ _ w
theorem M3_of_ne (c : Dev nD) (b : Ref sig .tc) (hb : ∀ w, Pipeline.arrRef spec1 w ≠ b) :
    M3 m ρ c (Proc.devRef .tc b) = M2 m ρ c (Proc.devRef .tc b) := by
  unfold M3; exact Pipeline.withArrays_of_ne spec1 c _ _ b hb
abbrev VE2 : (c : Dev nD) → (b : Ref sig .tc) → Buf (Elt F) ((c : Thread nD τ).loc b) := fun c b => M3 m ρ c b
theorem hF1 (c : Dev nD) (w : Fin cfg1.W) : (dat1 (VE1 m ρ) c).arrAt w cfg1.N = VE2 m ρ c (Pipeline.arrRef spec1 w) :=
  (M3_arr m ρ c w).symm
theorem hrest1 (c : Dev nD) : ∀ b, b ∉ Finset.univ.image (Pipeline.arrRef spec1) → VE2 m ρ c b = VE1 m ρ c b :=
  fun b hb => M3_of_ne m ρ c b fun w e => hb (Finset.mem_image.mpr ⟨w, Finset.mem_univ _, e⟩)

abbrev M4 : Dev nD → Valuation τ sig (Elt F) := fun c => StableHlo.after hostOps2 (M3 m ρ c)

theorem M4_kept (c : Dev nD) (b : Ref sig .tc) (h2 : b ∉ hostOps2_W := by decide)
    (h1 : ∀ w, Pipeline.arrRef spec1 w ≠ b := by decide) (h0 : ∀ w, Pipeline.arrRef spec0 w ≠ b := by decide)
    (hh : b ∉ hostOps0_W := by decide) : M4 m ρ c (Proc.devRef .tc b) = m ((c : Thread nD τ).loc b) :=
  calc M4 m ρ c (Proc.devRef .tc b)
    _ = M3 m ρ c (Proc.devRef .tc b) := StableHlo.after_of_writes_sub hostOps2 _ hostOps2_writes h2
    _ = M2 m ρ c (Proc.devRef .tc b) := M3_of_ne m ρ c b h1
    _ = M1 m ρ c (Proc.devRef .tc b) := M2_of_ne m ρ c b h0
    _ = M0 m ρ c (Proc.devRef .tc b) := StableHlo.after_of_writes_sub hostOps0 _ hostOps0_writes hh
    _ = m ((c : Thread nD τ).loc b) := rfl

theorem M4_main_arg2 (c : Dev nD) : M4 m ρ c (Proc.devRef .tc main_arg2) = m ((c : Thread nD τ).loc main_arg2) :=
  calc M4 m ρ c (Proc.devRef .tc main_arg2)
    _ = M3 m ρ c (Proc.devRef .tc main_arg2) := StableHlo.after_of_writes_sub hostOps2 _ hostOps2_writes (by decide : main_arg2 ∉ hostOps2_W)
    _ = M2 m ρ c (Proc.devRef .tc main_arg2) := (M3_arr m ρ c 2).trans (((dat1 (VE1 m ρ) c).arrAt_in 2 rfl _).trans (A_eq1 (VE1 m ρ) c 2))
    _ = M1 m ρ c (Proc.devRef .tc main_arg2) := M2_of_ne m ρ c main_arg2 (by decide)
    _ = M0 m ρ c (Proc.devRef .tc main_arg2) := StableHlo.after_of_writes_sub hostOps0 _ hostOps0_writes (by decide : main_arg2 ∉ hostOps0_W)
    _ = m ((c : Thread nD τ).loc main_arg2) := rfl

abbrev admT : (p : Fin 2) → (pcfgs (F := F) p).Adm := fun p => (cfgs p).toPCfg_adm

def pdats : (p : Fin 2) → (c : Dev nD) → Dat τ (Elt F) Unit ℕ (UR sig nD τ) ℕ (Pipeline.pin (pcfgs (F := F)) admT p) c
  | ⟨0, _⟩ => fun c => dat0 (VE0 m ρ) c
  | ⟨1, _⟩ => fun c => dat1 (VE1 m ρ) c
abbrev 𝒱₀ : Variants := Variants.none
abbrev L : GSem nD τ sig → Finset Unit := fun _ => ∅
abbrev lv : GSem nD τ sig → Unit → ℕ := fun _ _ => 0

abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (M4 m ρ c) ∗ ∃ r, prngReg c r)

set_option backward.isDefEq.respectTransparency.types false in

def reg0 : Pipeline.RegionSeg (pcfgs (F := F)) admT (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (VE0 m ρ) c).loose
  hwaits := Pipeline.hwaits_of_owed_zero _ _ _ _ L lv 0 fun _ _ => rfl
  pre c := iprop(StableHlo.held (c : Thread nD τ) (Pipeline.ucRefs τ sig) (M1 m ρ c) ∗ R c)
  post c := iprop(StableHlo.held (c : Thread nD τ) (Pipeline.ucRefs τ sig) (M2 m ρ c) ∗ R c)
  X c := iprop(∃ r, prngReg c r)
  Y c := iprop(∃ r, prngReg c r)
  Z c := Pipeline.unscopedRest (Ix := Unit) (Name := ℕ) (U := UR sig nD τ) (Lvl := ℕ) spec0 c (VE0 m ρ c)
  hentry c := by
    rw [Pipeline.ownSems0_none]
    have hsplit := Pipeline.arrays_of_unscopedBufs (p := 0) (pcfgs (F := F)) admT (pdats m ρ) launch0.win launch0.arr_whole c
      ((pdats m ρ 0 c).share_full fun _ => rfl) (VE0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin0 (VE0 m ρ) c)
    unfold Pipeline.ΦA
    iintro ⟨Hp, -, Hr⟩
    isplitl [Hr]; · iexact Hr
    iexact Hp
  hout c := by
    refine BIBase.Entails.trans (hout0 (VE0 m ρ) c) ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) admT (Ix := Unit) (Name := ℕ) (U := UR sig nD τ) (Lvl := ℕ)
      launch0.win launch0.arr_whole c (pdats m ρ) ((pdats m ρ 0 c).share_full fun _ => rfl)
      (VE0 m ρ c) (VE1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in

def reg1 : Pipeline.RegionSeg (pcfgs (F := F)) admT (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (VE1 m ρ) c).loose
  hwaits := Pipeline.hwaits_of_owed_zero _ _ _ _ L lv 1 fun _ _ => rfl
  pre c := iprop(StableHlo.held (c : Thread nD τ) (Pipeline.ucRefs τ sig) (M2 m ρ c) ∗ R c)
  post c := iprop(StableHlo.held (c : Thread nD τ) (Pipeline.ucRefs τ sig) (M3 m ρ c) ∗ R c)
  X c := iprop(∃ r, prngReg c r)
  Y c := iprop(∃ r, prngReg c r)
  Z c := Pipeline.unscopedRest (Ix := Unit) (Name := ℕ) (U := UR sig nD τ) (Lvl := ℕ) spec1 c (VE1 m ρ c)
  hentry c := by
    rw [Pipeline.ownSems0_none]
    have hsplit := Pipeline.arrays_of_unscopedBufs (p := 1) (pcfgs (F := F)) admT (pdats m ρ) launch1.win launch1.arr_whole c
      ((pdats m ρ 1 c).share_full fun _ => rfl) (VE1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) admT (Ix := Unit) (Name := ℕ) (U := UR sig nD τ) (Lvl := ℕ)
      launch1.win launch1.arr_whole c (pdats m ρ) ((pdats m ρ 1 c).share_full fun _ => rfl)
      (VE1 m ρ c) (VE2 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

abbrev segsT : List (Pipeline.Seg (pcfgs (F := F)) admT (pdats m ρ) () defs₀ 𝒱₀ L lv) :=
  [ .host (hseg hostOps0 hostOps0_sub hostOps0_fresh (M0 m ρ)),
    .region (reg0 m ρ),
    .region (reg1 m ρ),
    .host (hseg hostOps2 hostOps2_sub hostOps2_fresh (M3 m ρ)) ]
theorem main_run (c : Dev nD) : main (F := F) c = Pipeline.Seg.run (segsT m ρ) := (main_chain c).trans (by chain_rfl)

set_option backward.isDefEq.respectTransparency.types false in

theorem run_all : θ_run defs (onTc (τ := τ) (main (F := F))) ⟨m, fun _ => 0, ρ⟩ (fun r => ∀ c : Dev nD,
      ∀ b ∈ Pipeline.ucRefs τ sig, r.2.mem (((c : Thread nD τ)).1, b) = M4 m ρ c b) :=
  Pipeline.θ_run_regions_kit (pcfgs (F := F)) admT (pdats m ρ) () cellOf_inj emb₁ defs₀ 𝒱₀ L lv m ρ main (segsT m ρ)
    (fun c Q => by rw [main_run m ρ c])
    (by simp only [segsT, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (M0 m ρ c) ∗ R c)) (Tₙ := Tₙ m ρ)
    (hch := ⟨fun _ => .rfl, fun _ => .rfl, fun _ => .rfl, fun _ => .rfl, fun c => by
      show iprop(StableHlo.held (c : Thread nD τ) (Pipeline.ucRefs τ sig) (M4 m ρ c) ∗ (∃ r, prngReg c r) ∗ ∃ W, owes (c : Thread nD τ) (0 : CellTallies nD τ sig Unit) W)
        ⊢ iprop(Tₙ m ρ c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (M0 m ρ c)
        from Pipeline.unscopedBufs_held c (M0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = M4 m ρ c b)
    (hfin := fun c s' => by
      iintro ⟨⟨Hh, -⟩, HSI⟩
      unfold StableHlo.held
      imodintro
      iapply (pointsTo_read_all (Pipeline.ucRefs τ sig) (fun b => (((c : Thread nD τ)).1, b)) (M4 m ρ c) s')
      isplitl [Hh] <;> iassumption)
    (hQ := fun s h c => h c)

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c =>
    ⟨(h c _ (mem_uc main_arg0 (by decide))).trans (M4_kept m ρ c main_arg0),
     (h c _ (mem_uc main_arg1 (by decide))).trans (M4_kept m ρ c main_arg1),
     (h c _ (mem_uc main_arg2 (by decide))).trans (M4_main_arg2 m ρ c),
     (h c _ (mem_uc main_arg3 (by decide))).trans (M4_kept m ρ c main_arg3),
     (h c _ (mem_uc main_arg4 (by decide))).trans (M4_kept m ρ c main_arg4),
     (h c _ (mem_uc main_arg5 (by decide))).trans (M4_kept m ρ c main_arg5),
     (h c _ (mem_uc main_arg6 (by decide))).trans (M4_kept m ρ c main_arg6),
     (h c _ (mem_uc main_arg7 (by decide))).trans (M4_kept m ρ c main_arg7),
     (h c _ (mem_uc main_arg8 (by decide))).trans (M4_kept m ρ c main_arg8)⟩) (run_all m ρ)

end Cert.Kernel.Pipe

end
-- ==== Proof.KI.R0Kit.lean ====
import proofs.«417828_j54142357733865_1_alg».proof.Proof.Gen.KernelIdeal.Launch
import proofs.«417828_j54142357733865_1_alg».proof.Proof.Gen.KernelIdeal.Skeleton
import proofs.«417828_j54142357733865_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Pipe

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 25 = 0 :=
  (by decide +kernel : ∀ t : Fin grid0.N, cond0_0 (grid0.coords t) ↔ t.val % 25 = 0)

abbrev cond0_1 (i : grid0.Coords) : Prop := k0_cond2 i = 1#1
theorem hcond0_1 : ∀ t : Fin cfg0.N, cond0_1 (grid0.coords t) ↔ t.val % 25 = 24 :=
  (by decide +kernel : ∀ t : Fin grid0.N, cond0_1 (grid0.coords t) ↔ t.val % 25 = 24)

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel

theorem idleAt0_4 : ∀ t : Fin cfg0.N, ¬cond0_1 (grid0.coords t) → cfg0.idle 4 (grid0.coords t) = true := by decide +kernel
theorem noFlush0_4 : ∀ t : Fin cfg0.N, ¬cond0_1 (grid0.coords t) → (cfg0.win 4).flush t = false := by decide +kernel
theorem idleAt0_5 : ∀ t : Fin cfg0.N, ¬cond0_1 (grid0.coords t) → cfg0.idle 5 (grid0.coords t) = true := by decide +kernel
theorem noFlush0_5 : ∀ t : Fin cfg0.N, ¬cond0_1 (grid0.coords t) → (cfg0.win 5).flush t = false := by decide +kernel
theorem liveAt0_4 : ∀ t : Fin cfg0.N, cond0_1 (grid0.coords t) → cfg0.idle 4 (grid0.coords t) = false := by decide +kernel
theorem liveAt0_5 : ∀ t : Fin cfg0.N, cond0_1 (grid0.coords t) → cfg0.idle 5 (grid0.coords t) = false := by decide +kernel

abbrev VO0_4 : View sig .tc .vmem S512x2048 .f32 := (Memref.whole cc0_stg4_0 : Memref sig .tc .vmem S512x2048 .f32).view
abbrev VO0_5 : View sig .tc .vmem S512x2048 .f32 := (Memref.whole cc0_stg5_0 : Memref sig .tc .vmem S512x2048 .f32).view
abbrev ms0_0 (t : Fin cfg0.N) : Memref sig .tc .vmem S512x32 .i32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x32 .i32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S760x2048 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S760x2048 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S512x2048 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S512x2048 .f32 := win0_5.stage (cfg0.slots t 5)
abbrev hs0_5 (t : Fin cfg0.N) : (ms0_5 t).IsWhole := hstage0_5 ((cfg0.slots t 5).cast nbuf0_5)

abbrev scM0_0 : Memref sig .tc .vmem S512x2048 .f32 := Memref.whole cc0_scratch0
abbrev scM0_1 : Memref sig .tc .vmem S512x2048 .f32 := Memref.whole cc0_scratch1
abbrev VS0_0 : View sig .tc .vmem S512x2048 .f32 := scM0_0.view
abbrev VS0_1 : View sig .tc .vmem S512x2048 .f32 := scM0_1.view

def rest0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg6_0), ((c : Thread nD τ).loc cc1_stg6_0) ↦{fullShare} f) ∗ (∃ f : Buf (Elt F) ((c : Thread nD τ).loc cc1_stg7_0), ((c : Thread nD τ).loc cc1_stg7_0) ↦{fullShare} f) ∗ (∃ f : Buf (Elt F) ((c : Thread nD τ).loc cc1_stg8_0), ((c : Thread nD τ).loc cc1_stg8_0) ↦{fullShare} f) ∗ (∃ f : Buf (Elt F) ((c : Thread nD τ).loc cc1_stg9_0), ((c : Thread nD τ).loc cc1_stg9_0) ↦{fullShare} f) ∗ (∃ f : Buf (Elt F) ((c : Thread nD τ).loc cc1_stg10_0), ((c : Thread nD τ).loc cc1_stg10_0) ↦{fullShare} f) ∗ (∃ f : Buf (Elt F) ((c : Thread nD τ).loc cc1_stg10_1), ((c : Thread nD τ).loc cc1_stg10_1) ↦{fullShare} f) ∗ (∃ f : Buf (Elt F) ((c : Thread nD τ).loc cc1_stg11_0), ((c : Thread nD τ).loc cc1_stg11_0) ↦{fullShare} f) ∗ (∃ f : Buf (Elt F) ((c : Thread nD τ).loc cc1_stg11_1), ((c : Thread nD τ).loc cc1_stg11_1) ↦{fullShare} f))

theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ rest0 c) ∗ (∃ r, prngReg c r)) := by
  unfold Pipeline.ΦA rest0; rw [scopedRest0_eq]; simp only [scM0_0, scM0_1, owns_whole]; try rfl

end Cert.KernelIdeal.Pipe

end
-- ==== Proof.KI.R0RunB.lean ====
import proofs.«417828_j54142357733865_1_alg».proof.Proof.KI.R0Kit

set_option maxRecDepth 16384

noncomputable section

namespace Cert.KernelIdeal.Pipe

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in

noncomputable def kernelRun0_B (c : Dev nD) (i : grid0.Coords) (arg2 : Memref sig .tc .vmem S512x32 .i32) (harg2 : arg2.IsWhole) (arg3 : Memref sig .tc .vmem S512x32 .i32) (harg3 : arg3.IsWhole) (arg4 : Memref sig .tc .vmem S760x2048 .bf16) (harg4 : arg4.IsWhole) (arg5 : Memref sig .tc .vmem S760x2048 .bf16) (harg5 : arg5.IsWhole) (arg6 : Memref sig .tc .vmem S512x2048 .f32) (harg6 : arg6.IsWhole) (arg7 : Memref sig .tc .vmem S512x2048 .f32) (harg7 : arg7.IsWhole) (arg8 : Memref sig .tc .vmem S512x2048 .f32) (harg8 : arg8.IsWhole) (arg9 : Memref sig .tc .vmem S512x2048 .f32) (harg9 : arg9.IsWhole) (hc0 : ¬cond0_0 i) (hc1 : ¬cond0_1 i)
    (x0 : Vec F S512x32 .i32) (x1 : Vec F S512x32 .i32) (x2 : Vec F S760x2048 .bf16) (x3 : Vec F S760x2048 .bf16) (xs0 : Vec F S512x2048 .f32) (xs1 : Vec F S512x2048 .f32) :
    Σ' (L4 : List (View.Piece (Elt F) S512x2048 .f32)) (L5 : List (View.Piece (Elt F) S512x2048 .f32)) (LS0 : List (View.Piece (Elt F) S512x2048 .f32)), { LS1 : List (View.Piece (Elt F) S512x2048 .f32) //
      ∀ (xi4 : Vec F S512x2048 .f32) (xi5 : Vec F S512x2048 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xi5 ∗ owns (c : Thread nD τ) arg8 fullShare xs0 ∗ owns (c : Thread nD τ) arg9 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xi5 ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc0__sparse_first_layer_kernel i arg2 harg2 arg3 harg3 arg4 harg4 arg5 harg5 arg6 harg6 arg7 harg7 arg8 harg8 arg9 harg9) K } := by
  refine ⟨[], [], ?_, ?_, fun xi4 xi5 E K => ?run⟩
  case run =>
    simp only [cc0__sparse_first_layer_kernel_eq_skeleton]; unfold cc0__sparse_first_layer_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hfs0; obtain rfl := harg9.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [HS0]; · iexists _; iexact HS0
    iexists _; iexact HS1

end Cert.KernelIdeal.Pipe

end
-- ==== Proof.KI.R0RunA.lean ====
import proofs.«417828_j54142357733865_1_alg».proof.Proof.KI.R0RunB

set_option maxRecDepth 16384

noncomputable section

namespace Cert.KernelIdeal.Pipe

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in

noncomputable def kernelRun0_A (c : Dev nD) (i : grid0.Coords) (arg2 : Memref sig .tc .vmem S512x32 .i32) (harg2 : arg2.IsWhole) (arg3 : Memref sig .tc .vmem S512x32 .i32) (harg3 : arg3.IsWhole) (arg4 : Memref sig .tc .vmem S760x2048 .bf16) (harg4 : arg4.IsWhole) (arg5 : Memref sig .tc .vmem S760x2048 .bf16) (harg5 : arg5.IsWhole) (arg6 : Memref sig .tc .vmem S512x2048 .f32) (harg6 : arg6.IsWhole) (arg7 : Memref sig .tc .vmem S512x2048 .f32) (harg7 : arg7.IsWhole) (arg8 : Memref sig .tc .vmem S512x2048 .f32) (harg8 : arg8.IsWhole) (arg9 : Memref sig .tc .vmem S512x2048 .f32) (harg9 : arg9.IsWhole) (hc0 : cond0_0 i) (hc1 : ¬cond0_1 i)
    (x0 : Vec F S512x32 .i32) (x1 : Vec F S512x32 .i32) (x2 : Vec F S760x2048 .bf16) (x3 : Vec F S760x2048 .bf16) :
    Σ' (L4 : List (View.Piece (Elt F) S512x2048 .f32)) (L5 : List (View.Piece (Elt F) S512x2048 .f32)) (LS0 : List (View.Piece (Elt F) S512x2048 .f32)), { LS1 : List (View.Piece (Elt F) S512x2048 .f32) //
      ∀ (xi4 : Vec F S512x2048 .f32) (xi5 : Vec F S512x2048 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xi5 ∗ (∃ d, owns (c : Thread nD τ) arg8 fullShare d) ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xi5 ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc0__sparse_first_layer_kernel i arg2 harg2 arg3 harg3 arg4 harg4 arg5 harg5 arg6 harg6 arg7 harg7 arg8 harg8 arg9 harg9) K } := by
  refine ⟨[], [], ?_, ?_, fun xi4 xi5 E K => ?run⟩
  case run =>
    simp only [cc0__sparse_first_layer_kernel_eq_skeleton]; unfold cc0__sparse_first_layer_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [HS0]; · iexists _; iexact HS0
    iexists _; iexact HS1

end Cert.KernelIdeal.Pipe

end
-- ==== Proof.KI.R0RunC.lean ====
import proofs.«417828_j54142357733865_1_alg».proof.Proof.KI.R0RunA

set_option maxRecDepth 16384

noncomputable section

namespace Cert.KernelIdeal.Pipe

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in

noncomputable def kernelRun0_C (c : Dev nD) (i : grid0.Coords) (arg2 : Memref sig .tc .vmem S512x32 .i32) (harg2 : arg2.IsWhole) (arg3 : Memref sig .tc .vmem S512x32 .i32) (harg3 : arg3.IsWhole) (arg4 : Memref sig .tc .vmem S760x2048 .bf16) (harg4 : arg4.IsWhole) (arg5 : Memref sig .tc .vmem S760x2048 .bf16) (harg5 : arg5.IsWhole) (arg6 : Memref sig .tc .vmem S512x2048 .f32) (harg6 : arg6.IsWhole) (arg7 : Memref sig .tc .vmem S512x2048 .f32) (harg7 : arg7.IsWhole) (arg8 : Memref sig .tc .vmem S512x2048 .f32) (harg8 : arg8.IsWhole) (arg9 : Memref sig .tc .vmem S512x2048 .f32) (harg9 : arg9.IsWhole) (hc0 : ¬cond0_0 i) (hc1 : cond0_1 i)
    (x0 : Vec F S512x32 .i32) (x1 : Vec F S512x32 .i32) (x2 : Vec F S760x2048 .bf16) (x3 : Vec F S760x2048 .bf16) (xs0 : Vec F S512x2048 .f32) (xs1 : Vec F S512x2048 .f32) :
    Σ' (L4 : List (View.Piece (Elt F) S512x2048 .f32)) (L5 : List (View.Piece (Elt F) S512x2048 .f32)) (LS0 : List (View.Piece (Elt F) S512x2048 .f32)), { LS1 : List (View.Piece (Elt F) S512x2048 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ owns (c : Thread nD τ) arg8 fullShare xs0 ∗ owns (c : Thread nD τ) arg9 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc0__sparse_first_layer_kernel i arg2 harg2 arg3 harg3 arg4 harg4 arg5 harg5 arg6 harg6 arg7 harg7 arg8 harg8 arg9 harg9) K } := by
  refine ⟨?_, ?_, ?_, ?_, fun E K => ?run⟩
  case run =>
    simp only [cc0__sparse_first_layer_kernel_eq_skeleton]; unfold cc0__sparse_first_layer_kernel_skel
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg8.eq_unread hfs0; obtain rfl := harg9.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [H5]; · iexists _; iexact H5
    isplitl [HS0]; · iexists _; iexact HS0
    iexists _; iexact HS1

end Cert.KernelIdeal.Pipe

end
-- ==== Proof.KI.R0Pieces.lean ====
import proofs.«417828_j54142357733865_1_alg».proof.Proof.KI.R0RunC

set_option maxRecDepth 16384

noncomputable section

namespace Cert.KernelIdeal.Pipe

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (c : Dev nD) (i : grid0.Coords)
  (arg2 : Memref sig .tc .vmem S512x32 .i32) (harg2 : arg2.IsWhole)
  (arg3 : Memref sig .tc .vmem S512x32 .i32) (harg3 : arg3.IsWhole)
  (arg4 : Memref sig .tc .vmem S760x2048 .bf16) (harg4 : arg4.IsWhole)
  (arg5 : Memref sig .tc .vmem S760x2048 .bf16) (harg5 : arg5.IsWhole)
  (arg6 : Memref sig .tc .vmem S512x2048 .f32) (harg6 : arg6.IsWhole)
  (arg7 : Memref sig .tc .vmem S512x2048 .f32) (harg7 : arg7.IsWhole)
  (arg8 : Memref sig .tc .vmem S512x2048 .f32) (harg8 : arg8.IsWhole)
  (arg9 : Memref sig .tc .vmem S512x2048 .f32) (harg9 : arg9.IsWhole)

/-! For each control case of region 0's body: what its run leaves in each buffer it may store into (the pieces the run
found, read back over a placeholder), and, where the case does store there, that the pieces cover the buffer. -/

section CaseA
variable (hc0 : cond0_0 i) (hc1 : ¬cond0_1 i) (x0 : Vec F S512x32 .i32) (x1 : Vec F S512x32 .i32) (x2 : Vec F S760x2048 .bf16) (x3 : Vec F S760x2048 .bf16)

def out0_A_4 : Vec F S512x2048 .f32 :=
  VO0_4.read (Elt F) (VO0_4.writes (Elt F) VO0_4.junk (kernelRun0_A c i arg2 harg2 arg3 harg3 arg4 harg4 arg5 harg5 arg6 harg6 arg7 harg7 arg8 harg8 arg9 harg9 hc0 hc1 x0 x1 x2 x3).1)

def out0_A_5 : Vec F S512x2048 .f32 :=
  VO0_5.read (Elt F) (VO0_5.writes (Elt F) VO0_5.junk (kernelRun0_A c i arg2 harg2 arg3 harg3 arg4 harg4 arg5 harg5 arg6 harg6 arg7 harg7 arg8 harg8 arg9 harg9 hc0 hc1 x0 x1 x2 x3).2.1)

theorem scover0_A_0 (y : S512x2048.Idx) : ∃ pc ∈ (kernelRun0_A c i arg2 harg2 arg3 harg3 arg4 harg4 arg5 harg5 arg6 harg6 arg7 harg7 arg8 harg8 arg9 harg9 hc0 hc1 x0 x1 x2 x3).2.2.1, y ∈ pc.1.set :=
  View.cover_of_tiledL (kernelRun0_A c i arg2 harg2 arg3 harg3 arg4 harg4 arg5 harg5 arg6 harg6 arg7 harg7 arg8 harg8 arg9 harg9 hc0 hc1 x0 x1 x2 x3).2.2.1 S512x2048.size (by sl_kernel_rfl) y

def sout0_A_0 : Vec F S512x2048 .f32 :=
  VS0_0.read (Elt F) (VS0_0.writes (Elt F) VS0_0.junk (kernelRun0_A c i arg2 harg2 arg3 harg3 arg4 harg4 arg5 harg5 arg6 harg6 arg7 harg7 arg8 harg8 arg9 harg9 hc0 hc1 x0 x1 x2 x3).2.2.1)

theorem scover0_A_1 (y : S512x2048.Idx) : ∃ pc ∈ (kernelRun0_A c i arg2 harg2 arg3 harg3 arg4 harg4 arg5 harg5 arg6 harg6 arg7 harg7 arg8 harg8 arg9 harg9 hc0 hc1 x0 x1 x2 x3).2.2.2.1, y ∈ pc.1.set :=
  View.cover_of_tiledL (kernelRun0_A c i arg2 harg2 arg3 harg3 arg4 harg4 arg5 harg5 arg6 harg6 arg7 harg7 arg8 harg8 arg9 harg9 hc0 hc1 x0 x1 x2 x3).2.2.2.1 S512x2048.size (by sl_kernel_rfl) y

def sout0_A_1 : Vec F S512x2048 .f32 :=
  VS0_1.read (Elt F) (VS0_1.writes (Elt F) VS0_1.junk (kernelRun0_A c i arg2 harg2 arg3 harg3 arg4 harg4 arg5 harg5 arg6 harg6 arg7 harg7 arg8 harg8 arg9 harg9 hc0 hc1 x0 x1 x2 x3).2.2.2.1)

end CaseA

section CaseB
variable (hc0 : ¬cond0_0 i) (hc1 : ¬cond0_1 i) (x0 : Vec F S512x32 .i32) (x1 : Vec F S512x32 .i32) (x2 : Vec F S760x2048 .bf16) (x3 : Vec F S760x2048 .bf16)
  (xs0 : Vec F S512x2048 .f32) (xs1 : Vec F S512x2048 .f32)

def out0_B_4 : Vec F S512x2048 .f32 :=
  VO0_4.read (Elt F) (VO0_4.writes (Elt F) VO0_4.junk (kernelRun0_B c i arg2 harg2 arg3 harg3 arg4 harg4 arg5 harg5 arg6 harg6 arg7 harg7 arg8 harg8 arg9 harg9 hc0 hc1 x0 x1 x2 x3 xs0 xs1).1)

def out0_B_5 : Vec F S512x2048 .f32 :=
  VO0_5.read (Elt F) (VO0_5.writes (Elt F) VO0_5.junk (kernelRun0_B c i arg2 harg2 arg3 harg3 arg4 harg4 arg5 harg5 arg6 harg6 arg7 harg7 arg8 harg8 arg9 harg9 hc0 hc1 x0 x1 x2 x3 xs0 xs1).2.1)

theorem scover0_B_0 (y : S512x2048.Idx) : ∃ pc ∈ (kernelRun0_B c i arg2 harg2 arg3 harg3 arg4 harg4 arg5 harg5 arg6 harg6 arg7 harg7 arg8 harg8 arg9 harg9 hc0 hc1 x0 x1 x2 x3 xs0 xs1).2.2.1, y ∈ pc.1.set :=
  View.cover_of_tiledL (kernelRun0_B c i arg2 harg2 arg3 harg3 arg4 harg4 arg5 harg5 arg6 harg6 arg7 harg7 arg8 harg8 arg9 harg9 hc0 hc1 x0 x1 x2 x3 xs0 xs1).2.2.1 S512x2048.size (by sl_kernel_rfl) y

def sout0_B_0 : Vec F S512x2048 .f32 :=
  VS0_0.read (Elt F) (VS0_0.writes (Elt F) VS0_0.junk (kernelRun0_B c i arg2 harg2 arg3 harg3 arg4 harg4 arg5 harg5 arg6 harg6 arg7 harg7 arg8 harg8 arg9 harg9 hc0 hc1 x0 x1 x2 x3 xs0 xs1).2.2.1)

theorem scover0_B_1 (y : S512x2048.Idx) : ∃ pc ∈ (kernelRun0_B c i arg2 harg2 arg3 harg3 arg4 harg4 arg5 harg5 arg6 harg6 arg7 harg7 arg8 harg8 arg9 harg9 hc0 hc1 x0 x1 x2 x3 xs0 xs1).2.2.2.1, y ∈ pc.1.set :=
  View.cover_of_tiledL (kernelRun0_B c i arg2 harg2 arg3 harg3 arg4 harg4 arg5 harg5 arg6 harg6 arg7 harg7 arg8 harg8 arg9 harg9 hc0 hc1 x0 x1 x2 x3 xs0 xs1).2.2.2.1 S512x2048.size (by sl_kernel_rfl) y

def sout0_B_1 : Vec F S512x2048 .f32 :=
  VS0_1.read (Elt F) (VS0_1.writes (Elt F) VS0_1.junk (kernelRun0_B c i arg2 harg2 arg3 harg3 arg4 harg4 arg5 harg5 arg6 harg6 arg7 harg7 arg8 harg8 arg9 harg9 hc0 hc1 x0 x1 x2 x3 xs0 xs1).2.2.2.1)

end CaseB

section CaseC
variable (hc0 : ¬cond0_0 i) (hc1 : cond0_1 i) (x0 : Vec F S512x32 .i32) (x1 : Vec F S512x32 .i32) (x2 : Vec F S760x2048 .bf16) (x3 : Vec F S760x2048 .bf16)
  (xs0 : Vec F S512x2048 .f32) (xs1 : Vec F S512x2048 .f32)

theorem cover0_C_4 (y : S512x2048.Idx) : ∃ pc ∈ (kernelRun0_C c i arg2 harg2 arg3 harg3 arg4 harg4 arg5 harg5 arg6 harg6 arg7 harg7 arg8 harg8 arg9 harg9 hc0 hc1 x0 x1 x2 x3 xs0 xs1).1, y ∈ pc.1.set :=
  View.cover_of_tiledL (kernelRun0_C c i arg2 harg2 arg3 harg3 arg4 harg4 arg5 harg5 arg6 harg6 arg7 harg7 arg8 harg8 arg9 harg9 hc0 hc1 x0 x1 x2 x3 xs0 xs1).1 S512x2048.size (by sl_kernel_rfl) y

def out0_C_4 : Vec F S512x2048 .f32 :=
  VO0_4.read (Elt F) (VO0_4.writes (Elt F) VO0_4.junk (kernelRun0_C c i arg2 harg2 arg3 harg3 arg4 harg4 arg5 harg5 arg6 harg6 arg7 harg7 arg8 harg8 arg9 harg9 hc0 hc1 x0 x1 x2 x3 xs0 xs1).1)

theorem cover0_C_5 (y : S512x2048.Idx) : ∃ pc ∈ (kernelRun0_C c i arg2 harg2 arg3 harg3 arg4 harg4 arg5 harg5 arg6 harg6 arg7 harg7 arg8 harg8 arg9 harg9 hc0 hc1 x0 x1 x2 x3 xs0 xs1).2.1, y ∈ pc.1.set :=
  View.cover_of_tiledL (kernelRun0_C c i arg2 harg2 arg3 harg3 arg4 harg4 arg5 harg5 arg6 harg6 arg7 harg7 arg8 harg8 arg9 harg9 hc0 hc1 x0 x1 x2 x3 xs0 xs1).2.1 S512x2048.size (by sl_kernel_rfl) y

def out0_C_5 : Vec F S512x2048 .f32 :=
  VO0_5.read (Elt F) (VO0_5.writes (Elt F) VO0_5.junk (kernelRun0_C c i arg2 harg2 arg3 harg3 arg4 harg4 arg5 harg5 arg6 harg6 arg7 harg7 arg8 harg8 arg9 harg9 hc0 hc1 x0 x1 x2 x3 xs0 xs1).2.1)

theorem scover0_C_0 (y : S512x2048.Idx) : ∃ pc ∈ (kernelRun0_C c i arg2 harg2 arg3 harg3 arg4 harg4 arg5 harg5 arg6 harg6 arg7 harg7 arg8 harg8 arg9 harg9 hc0 hc1 x0 x1 x2 x3 xs0 xs1).2.2.1, y ∈ pc.1.set :=
  View.cover_of_tiledL (kernelRun0_C c i arg2 harg2 arg3 harg3 arg4 harg4 arg5 harg5 arg6 harg6 arg7 harg7 arg8 harg8 arg9 harg9 hc0 hc1 x0 x1 x2 x3 xs0 xs1).2.2.1 S512x2048.size (by sl_kernel_rfl) y

def sout0_C_0 : Vec F S512x2048 .f32 :=
  VS0_0.read (Elt F) (VS0_0.writes (Elt F) VS0_0.junk (kernelRun0_C c i arg2 harg2 arg3 harg3 arg4 harg4 arg5 harg5 arg6 harg6 arg7 harg7 arg8 harg8 arg9 harg9 hc0 hc1 x0 x1 x2 x3 xs0 xs1).2.2.1)

theorem scover0_C_1 (y : S512x2048.Idx) : ∃ pc ∈ (kernelRun0_C c i arg2 harg2 arg3 harg3 arg4 harg4 arg5 harg5 arg6 harg6 arg7 harg7 arg8 harg8 arg9 harg9 hc0 hc1 x0 x1 x2 x3 xs0 xs1).2.2.2.1, y ∈ pc.1.set :=
  View.cover_of_tiledL (kernelRun0_C c i arg2 harg2 arg3 harg3 arg4 harg4 arg5 harg5 arg6 harg6 arg7 harg7 arg8 harg8 arg9 harg9 hc0 hc1 x0 x1 x2 x3 xs0 xs1).2.2.2.1 S512x2048.size (by sl_kernel_rfl) y

def sout0_C_1 : Vec F S512x2048 .f32 :=
  VS0_1.read (Elt F) (VS0_1.writes (Elt F) VS0_1.junk (kernelRun0_C c i arg2 harg2 arg3 harg3 arg4 harg4 arg5 harg5 arg6 harg6 arg7 harg7 arg8 harg8 arg9 harg9 hc0 hc1 x0 x1 x2 x3 xs0 xs1).2.2.2.1)

end CaseC

end Cert.KernelIdeal.Pipe

end
-- ==== Proof.KI.R0Frame.lean ====
import proofs.«417828_j54142357733865_1_alg».proof.Proof.KI.R0Pieces

set_option maxRecDepth 16384

noncomputable section

namespace Cert.KernelIdeal.Pipe

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

abbrev atA (c : Dev nD) (t : Fin cfg0.N) (h0 : cond0_0 (grid0.coords t)) (h1 : ¬cond0_1 (grid0.coords t)) :
    Vec F S512x2048 .f32 × Vec F S512x2048 .f32 × Vec F S512x2048 .f32 × Vec F S512x2048 .f32 :=
  (out0_A_4 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) h0 h1 (iblk0 V c 0 t) (iblk0 V c 1 t) (iblk0 V c 2 t) (iblk0 V c 3 t),
   out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) h0 h1 (iblk0 V c 0 t) (iblk0 V c 1 t) (iblk0 V c 2 t) (iblk0 V c 3 t),
   sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) h0 h1 (iblk0 V c 0 t) (iblk0 V c 1 t) (iblk0 V c 2 t) (iblk0 V c 3 t),
   sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) h0 h1 (iblk0 V c 0 t) (iblk0 V c 1 t) (iblk0 V c 2 t) (iblk0 V c 3 t))

abbrev atB (c : Dev nD) (t : Fin cfg0.N) (h0 : ¬cond0_0 (grid0.coords t)) (h1 : ¬cond0_1 (grid0.coords t)) (p0 p1 : Vec F S512x2048 .f32) :
    Vec F S512x2048 .f32 × Vec F S512x2048 .f32 × Vec F S512x2048 .f32 × Vec F S512x2048 .f32 :=
  (out0_B_4 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) h0 h1 (iblk0 V c 0 t) (iblk0 V c 1 t) (iblk0 V c 2 t) (iblk0 V c 3 t) p0 p1,
   out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) h0 h1 (iblk0 V c 0 t) (iblk0 V c 1 t) (iblk0 V c 2 t) (iblk0 V c 3 t) p0 p1,
   sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) h0 h1 (iblk0 V c 0 t) (iblk0 V c 1 t) (iblk0 V c 2 t) (iblk0 V c 3 t) p0 p1,
   sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) h0 h1 (iblk0 V c 0 t) (iblk0 V c 1 t) (iblk0 V c 2 t) (iblk0 V c 3 t) p0 p1)

abbrev atC (c : Dev nD) (t : Fin cfg0.N) (h0 : ¬cond0_0 (grid0.coords t)) (h1 : cond0_1 (grid0.coords t)) (p0 p1 : Vec F S512x2048 .f32) :
    Vec F S512x2048 .f32 × Vec F S512x2048 .f32 × Vec F S512x2048 .f32 × Vec F S512x2048 .f32 :=
  (out0_C_4 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) h0 h1 (iblk0 V c 0 t) (iblk0 V c 1 t) (iblk0 V c 2 t) (iblk0 V c 3 t) p0 p1,
   out0_C_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) h0 h1 (iblk0 V c 0 t) (iblk0 V c 1 t) (iblk0 V c 2 t) (iblk0 V c 3 t) p0 p1,
   sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) h0 h1 (iblk0 V c 0 t) (iblk0 V c 1 t) (iblk0 V c 2 t) (iblk0 V c 3 t) p0 p1,
   sout0_C_1 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) h0 h1 (iblk0 V c 0 t) (iblk0 V c 1 t) (iblk0 V c 2 t) (iblk0 V c 3 t) p0 p1)

def outsAt0 (c : Dev nD) : (n : ℕ) → n < cfg0.N → Vec F S512x2048 .f32 × Vec F S512x2048 .f32 × Vec F S512x2048 .f32 × Vec F S512x2048 .f32
  | 0, hn => atA V c ⟨0, hn⟩ ((hcond0_0 ⟨0, hn⟩).mpr (Nat.zero_mod _)) (fun h => (fun h => by (try dsimp only at h); omega) ((hcond0_1 ⟨0, hn⟩).mp h))
  | n + 1, hn =>
    if h0 : (n + 1) % 25 = 0 then
      atA V c ⟨n + 1, hn⟩ ((hcond0_0 ⟨n + 1, hn⟩).mpr h0) (fun h => (fun h => by (try dsimp only at h); omega) ((hcond0_1 ⟨n + 1, hn⟩).mp h))
    else if h1 : (n + 1) % 25 = 24 then
      atC V c ⟨n + 1, hn⟩ (fun h => h0 ((hcond0_0 ⟨n + 1, hn⟩).mp h)) ((hcond0_1 ⟨n + 1, hn⟩).mpr h1)
        (outsAt0 c n (Nat.lt_of_succ_lt hn)).2.2.1 (outsAt0 c n (Nat.lt_of_succ_lt hn)).2.2.2
    else
      atB V c ⟨n + 1, hn⟩ (fun h => h0 ((hcond0_0 ⟨n + 1, hn⟩).mp h)) (fun h => h1 ((hcond0_1 ⟨n + 1, hn⟩).mp h))
        (outsAt0 c n (Nat.lt_of_succ_lt hn)).2.2.1 (outsAt0 c n (Nat.lt_of_succ_lt hn)).2.2.2

theorem outsAt0_A (c : Dev nD) (t : Fin cfg0.N) (h0 : t.val % 25 = 0) (h1 : ¬t.val % 25 = 24) :
    outsAt0 V c t.val t.isLt = atA V c t ((hcond0_0 t).mpr h0) (fun h => h1 ((hcond0_1 t).mp h)) := by
  obtain ⟨n, hn⟩ := t
  cases n with
  | zero => exact rfl
  | succ n => exact (dif_pos h0).trans rfl

theorem outsAt0_B (c : Dev nD) (t : Fin cfg0.N) (h0 : ¬t.val % 25 = 0) (h1 : ¬t.val % 25 = 24) :
    outsAt0 V c t.val t.isLt = atB V c t (fun h => h0 ((hcond0_0 t).mp h)) (fun h => h1 ((hcond0_1 t).mp h))
      (outsAt0 V c (t.val - 1) (Nat.lt_of_le_of_lt (Nat.sub_le _ _) t.isLt)).2.2.1 (outsAt0 V c (t.val - 1) (Nat.lt_of_le_of_lt (Nat.sub_le _ _) t.isLt)).2.2.2 := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 25 = 0) (h1 : t.val % 25 = 24) :
    outsAt0 V c t.val t.isLt = atC V c t (fun h => h0 ((hcond0_0 t).mp h)) ((hcond0_1 t).mpr h1)
      (outsAt0 V c (t.val - 1) (Nat.lt_of_le_of_lt (Nat.sub_le _ _) t.isLt)).2.2.1 (outsAt0 V c (t.val - 1) (Nat.lt_of_le_of_lt (Nat.sub_le _ _) t.isLt)).2.2.2 := by
  obtain ⟨n, hn⟩ := t
  cases n with
  | zero => exact (by exfalso; (try dsimp only at h0); exact absurd (Nat.zero_mod _) h0)
  | succ n => exact (dif_neg h0).trans ((dif_pos h1).trans rfl)

def PhiS (c : Dev nD) : (n : ℕ) → n ≤ cfg0.N → sProp 𝕄
  | 0, _ => Pipeline.ΦA spec0 c
  | n + 1, hn => iprop(iprop(owns (c : Thread nD τ) scM0_0 fullShare ((outsAt0 V c n hn).2.2.1) ∗ owns (c : Thread nD τ) scM0_1 fullShare ((outsAt0 V c n hn).2.2.2) ∗ rest0 c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) scM0_0 fullShare ((outsAt0 V c n hn).2.2.1) ∗ owns (c : Thread nD τ) scM0_1 fullShare ((outsAt0 V c n hn).2.2.2) ∗ rest0 c) ∗ (∃ r, prngReg c r)) := rfl

theorem PhiS_pos (c : Dev nD) (n : ℕ) (h : n ≤ cfg0.N) (hz : n ≠ 0) :
    PhiS V c n h = iprop(iprop(owns (c : Thread nD τ) scM0_0 fullShare ((outsAt0 V c (n - 1) (by omega)).2.2.1) ∗ owns (c : Thread nD τ) scM0_1 fullShare ((outsAt0 V c (n - 1) (by omega)).2.2.2) ∗ rest0 c) ∗ (∃ r, prngReg c r)) := by
  cases n with
  | zero => exact absurd rfl hz
  | succ n => rfl

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => (outsAt0 V c t.val t.isLt).1
    | ⟨5, _⟩ => (outsAt0 V c t.val t.isLt).2.1
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS_castSucc (c : Dev nD) (t : Fin cfg0.N) :
    (dat0 V c).Φ t.castSucc = PhiS V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = (outsAt0 V c t.val t.isLt).1 := by dsimp only [dat0]
theorem after0_5 (c : Dev nD) (t : Fin cfg0.N) : (dat0 V c).after 5 t = (outsAt0 V c t.val t.isLt).2.1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t)

theorem leaves0_0 (c : Dev nD) (t : Fin cfg0.N) : (dat0 V c).leavesExact 0 t = owns (c : Thread nD τ) (ms0_0 t) fullShare (iblk0 V c 0 t) := by
  unfold Dat.leavesExact; rw [liveAt0_0 t, after0_0]
theorem leaves0_1 (c : Dev nD) (t : Fin cfg0.N) : (dat0 V c).leavesExact 1 t = owns (c : Thread nD τ) (ms0_1 t) fullShare (iblk0 V c 1 t) := by
  unfold Dat.leavesExact; rw [liveAt0_1 t, after0_1]
theorem leaves0_2 (c : Dev nD) (t : Fin cfg0.N) : (dat0 V c).leavesExact 2 t = owns (c : Thread nD τ) (ms0_2 t) fullShare (iblk0 V c 2 t) := by
  unfold Dat.leavesExact; rw [liveAt0_2 t, after0_2]
theorem leaves0_3 (c : Dev nD) (t : Fin cfg0.N) : (dat0 V c).leavesExact 3 t = owns (c : Thread nD τ) (ms0_3 t) fullShare (iblk0 V c 3 t) := by
  unfold Dat.leavesExact; rw [liveAt0_3 t, after0_3]

set_option maxHeartbeats 4800000 in

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).owesAt () t.succ = (dat0 V c).owesAt () t.castSucc from rfl]
  rw [show (dat0 V c).Φ t.succ = PhiS V c (t.val + 1) t.isLt from rfl, PhiS_succ]
  rw [leaves0_0, leaves0_1, leaves0_2, leaves0_3]
  have hN : t.val < 200 := lt_of_lt_of_eq t.isLt (show cfg0.N = 200 from N_0)
  by_cases h0 : t.val % 25 = 0
  · have h1 : ¬t.val % 25 = 24 := by omega
    have hc0 : cond0_0 (grid0.coords t) := (hcond0_0 t).mpr h0
    have hc1 : ¬cond0_1 (grid0.coords t) := fun h => h1 ((hcond0_1 t).mp h)
    rw [Dat.leavesExact_idle (dat0 V c) 4 t (idleAt0_4 t hc1) (noFlush0_4 t hc1),
      Dat.leavesExact_idle (dat0 V c) 5 t (idleAt0_5 t hc1) (noFlush0_5 t hc1)]
    rw [outsAt0_A V c t h0 h1]
    dsimp only [atA]; unfold sout0_A_0 sout0_A_1; (try dsimp only)
    by_cases hz : t.val = 0
    · rw [PhiS_castSucc V c t, PhiS_zero V c _ _ hz, PhiA0_eq]
      iintro ⟨⟨⟨HS0, HS1, HR⟩, Hg⟩, Ho, ⟨%d0, H0⟩, ⟨%d1, H1⟩, ⟨%d2, H2⟩, ⟨%d3, H3⟩, ⟨%d4, H4⟩, ⟨%d5, H5⟩⟩
      iapply ((kernelRun0_A c (grid0.coords t) _ _ _ _ _ _ _ _ _ _ _ _ _ _ _ _ hc0 hc1 (iblk0 V c 0 t) (iblk0 V c 1 t) (iblk0 V c 2 t) (iblk0 V c 3 t)).2.2.2.2 _ _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      iintro ⟨H0, H1, H2, H3, H4, H5, ⟨%es0, HS0⟩, ⟨%es1, HS1⟩⟩
      isplitl [HS0 HS1 HR Hg]
      · isplitl [HS0 HS1 HR]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _ _)
          isplitl [HS1]
          · unfold owns; iexists _; isplitr
            swap; · iexact HS1
            ipureintro; exact View.read_writes_of_cover _ _ _ _ _ (scover0_A_1 c _ _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]; · iexists _; iexact H4
      iexists _; iexact H5
    · rw [PhiS_castSucc V c t, PhiS_pos V c _ _ hz]
      iintro ⟨⟨⟨HS0, HS1, HR⟩, Hg⟩, Ho, ⟨%d0, H0⟩, ⟨%d1, H1⟩, ⟨%d2, H2⟩, ⟨%d3, H3⟩, ⟨%d4, H4⟩, ⟨%d5, H5⟩⟩
      iapply ((kernelRun0_A c (grid0.coords t) _ _ _ _ _ _ _ _ _ _ _ _ _ _ _ _ hc0 hc1 (iblk0 V c 0 t) (iblk0 V c 1 t) (iblk0 V c 2 t) (iblk0 V c 3 t)).2.2.2.2 _ _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexists _; iexact HS0
      isplitl [HS1]; · iexists _; iexact HS1
      iintro ⟨H0, H1, H2, H3, H4, H5, ⟨%es0, HS0⟩, ⟨%es1, HS1⟩⟩
      isplitl [HS0 HS1 HR Hg]
      · isplitl [HS0 HS1 HR]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _ _)
          isplitl [HS1]
          · unfold owns; iexists _; isplitr
            swap; · iexact HS1
            ipureintro; exact View.read_writes_of_cover _ _ _ _ _ (scover0_A_1 c _ _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]; · iexists _; iexact H4
      iexists _; iexact H5
  · have hz : t.val ≠ 0 := fun h => h0 (by rw [h])
    have hc0 : ¬cond0_0 (grid0.coords t) := fun h => h0 ((hcond0_0 t).mp h)
    rw [PhiS_castSucc V c t, PhiS_pos V c _ _ hz]
    by_cases h1 : t.val % 25 = 24
    · have hc1 : cond0_1 (grid0.coords t) := (hcond0_1 t).mpr h1
      rw [show (dat0 V c).leavesExact 4 t = owns (c : Thread nD τ) (ms0_4 t) fullShare ((dat0 V c).after 4 t) from by
        unfold Dat.leavesExact; rw [liveAt0_4 t hc1], after0_4]
      rw [show (dat0 V c).leavesExact 5 t = owns (c : Thread nD τ) (ms0_5 t) fullShare ((dat0 V c).after 5 t) from by
        unfold Dat.leavesExact; rw [liveAt0_5 t hc1], after0_5]
      rw [outsAt0_C V c t h0 h1]
      dsimp only [atC]; unfold out0_C_4 out0_C_5 sout0_C_0 sout0_C_1; (try dsimp only)
      iintro ⟨⟨⟨HS0, HS1, HR⟩, Hg⟩, Ho, ⟨%d0, H0⟩, ⟨%d1, H1⟩, ⟨%d2, H2⟩, ⟨%d3, H3⟩, ⟨%d4, H4⟩, ⟨%d5, H5⟩⟩
      iapply ((kernelRun0_C c (grid0.coords t) _ _ _ _ _ _ _ _ _ _ _ _ _ _ _ _ hc0 hc1 (iblk0 V c 0 t) (iblk0 V c 1 t) (iblk0 V c 2 t) (iblk0 V c 3 t) _ _).2.2.2.2 Set.univ _)
      isplitl [H0]; · iexact H0
      isplitl [H1]; · iexact H1
      isplitl [H2]; · iexact H2
      isplitl [H3]; · iexact H3
      isplitl [H4]; · iexists _; iexact H4
      isplitl [H5]; · iexists _; iexact H5
      isplitl [HS0]; · iexact HS0
      isplitl [HS1]; · iexact HS1
      iintro ⟨H0, H1, H2, H3, ⟨%e4, H4⟩, ⟨%e5, H5⟩, ⟨%es0, HS0⟩, ⟨%es1, HS1⟩⟩
      isplitl [HS0 HS1 HR Hg]
      · isplitl [HS0 HS1 HR]
        · isplitl [HS0]
          · unfold owns; iexists _; isplitr
            swap; · iexact HS0
            ipureintro; exact View.read_writes_of_cover _ _ _ _ _ (scover0_C_0 c _ _ _ _ _ _ _ _ _ _ _ _ _ _ _ _ _ _ _ _ _ _ _ _ _)
          isplitl [HS1]
          · unfold owns; iexists _; isplitr
            swap; · iexact HS1
            ipureintro; exact View.read_writes_of_cover _ _ _ _ _ (scover0_C_1 c _ _ _ _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (cover0_C_4 c _ _ _ _ _ _ _ _ _ _ _ _ _ _ _ _ _ _ _ _ _ _ _ _ _)
      unfold owns; iexists _; isplitr
      swap; · iexact H5
      ipureintro; exact View.read_writes_of_cover _ _ _ _ _ (cover0_C_5 c _ _ _ _ _ _ _ _ _ _ _ _ _ _ _ _ _ _ _ _ _ _ _ _ _)
    · have hc1 : ¬cond0_1 (grid0.coords t) := fun h => h1 ((hcond0_1 t).mp h)
      rw [Dat.leavesExact_idle (dat0 V c) 4 t (idleAt0_4 t hc1) (noFlush0_4 t hc1),
        Dat.leavesExact_idle (dat0 V c) 5 t (idleAt0_5 t hc1) (noFlush0_5 t hc1)]
      rw [outsAt0_B V c t h0 h1]
      dsimp only [atB]; unfold sout0_B_0 sout0_B_1; (try dsimp only)
      iintro ⟨⟨⟨HS0, HS1, HR⟩, Hg⟩, Ho, ⟨%d0, H0⟩, ⟨%d1, H1⟩, ⟨%d2, H2⟩, ⟨%d3, H3⟩, ⟨%d4, H4⟩, ⟨%d5, H5⟩⟩
      iapply ((kernelRun0_B c (grid0.coords t) _ _ _ _ _ _ _ _ _ _ _ _ _ _ _ _ hc0 hc1 (iblk0 V c 0 t) (iblk0 V c 1 t) (iblk0 V c 2 t) (iblk0 V c 3 t) _ _).2.2.2.2 _ _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      iintro ⟨H0, H1, H2, H3, H4, H5, ⟨%es0, HS0⟩, ⟨%es1, HS1⟩⟩
      isplitl [HS0 HS1 HR Hg]
      · isplitl [HS0 HS1 HR]
        · isplitl [HS0]
          · unfold owns; iexists _; isplitr
            swap; · iexact HS0
            ipureintro; exact View.read_writes_of_cover _ _ _ _ _ (scover0_B_0 c _ _ _ _ _ _ _ _ _ _ _ _ _ _ _ _ _ _ _ _ _ _ _ _ _)
          isplitl [HS1]
          · unfold owns; iexists _; isplitr
            swap; · iexact HS1
            ipureintro; exact View.read_writes_of_cover _ _ _ _ _ (scover0_B_1 c _ _ _ _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]; · iexists _; iexact H4
      iexists _; iexact H5

theorem body_obligation0 (c : Dev nD) : BodyObligation (dat0 (F := F) V c) (defs₀ (F := F)) Variants.none () Set.univ := fun t => by
  rw [bigSep_W0, bigSep_W0]
  exact sound_body0 V c t

theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

theorem Phi_out0 (c : Dev nD) (t : Fin (cfg0.N + 1)) (ht : t.val ≠ 0) : (dat0 V c).Φ t ⊢ Pipeline.ΦA spec0 c := by
  rw [show (dat0 V c).Φ t = PhiS V c t.val (Nat.le_of_lt_succ t.isLt) from rfl, PhiS_pos V c _ _ ht, PhiA0_eq]
  iintro ⟨⟨HS0, HS1, HR⟩, Hg⟩
  isplitl [HS0 HS1 HR]
  · isplitl [HS0]; · iexists _; iexact HS0
    isplitl [HS1]; · iexists _; iexact HS1
    iexact HR
  iexact Hg

theorem hout0 (c : Dev nD) : (dat0 V c).Φ (Fin.last cfg0.N) ⊢ Pipeline.ΦA spec0 c :=
  Phi_out0 V c _ (by rw [Fin.val_last]; have : cfg0.N = 200 := N_0; omega)

end Region0

end Cert.KernelIdeal.Pipe

end
-- ==== Proof.KI.R1Frame.lean ====
import proofs.«417828_j54142357733865_1_alg».proof.Proof.KI.R0Kit

set_option maxRecDepth 16384

noncomputable section

namespace Cert.KernelIdeal.Pipe

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)

theorem before1_8_of {c : Dev nD} (dat : Dat τ (Elt F) Unit ℕ (UR sig nD τ) ℕ cfg1 c) (hA : dat.A 8 = V c (Pipeline.arrRef spec1 8))
    (hafter : ∀ t, dat.after 8 t = iblk1 V c 8 t) (t : Fin cfg1.N) (d) : dat.before 8 t d = iblk1 V c 8 t :=
  (dat.before_in_eq_fetched 8 rfl (fun _ => rfl) (fun _ _ _ => rfl) (fun t => by rw [hafter]; unfold Dat.blockOf iblk1; rw [hA]; try rfl) t d).trans
    (by unfold Dat.fetched Dat.blockOf iblk1; rw [hA]; try rfl)

theorem before1_9_of {c : Dev nD} (dat : Dat τ (Elt F) Unit ℕ (UR sig nD τ) ℕ cfg1 c) (hA : dat.A 9 = V c (Pipeline.arrRef spec1 9))
    (hafter : ∀ t, dat.after 9 t = iblk1 V c 9 t) (t : Fin cfg1.N) (d) : dat.before 9 t d = iblk1 V c 9 t :=
  (dat.before_in_eq_fetched 9 rfl (fun _ => rfl) (fun _ _ _ => rfl) (fun t => by rw [hafter]; unfold Dat.blockOf iblk1; rw [hA]; try rfl) t d).trans
    (by unfold Dat.fetched Dat.blockOf iblk1; rw [hA]; try rfl)

abbrev r1_c0 : Rect S512x2 := Rect.unit (s := S512x2) ![0, 0] S512x1.size inb_S512x2_S512x1_0_0

abbrev r1_c1 : Rect S512x2 := Rect.unit (s := S512x2) ![0, 1] S512x1.size inb_S512x2_S512x1_0_1

abbrev r1_row : Rect S1x2048 := Rect.unit (s := S1x2048) ![0, 0] S1x2048.size inb_S1x2048_S1x2048_0_0
abbrev r1_acc : Rect S512x2048 := Rect.unit (s := S512x2048) ![0, 0] S512x2048.size inb_S512x2048_S512x2048_0_0
abbrev r1_w2 : Rect S2048x1024 := Rect.unit (s := S2048x1024) ![0, 0] S2048x1024.size inb_S2048x1024_S2048x1024_0_0
abbrev r1_b2 : Rect S1x1024 := Rect.unit (s := S1x1024) ![0, 0] S1x1024.size inb_S1x1024_S1x1024_0_0
abbrev r1_w3 : Rect S1024x1 := Rect.unit (s := S1024x1) ![0, 0] S1024x1.size inb_S1024x1_S1024x1_0_0
abbrev r1_b3 : Rect S1x1 := Rect.unit (s := S1x1) ![0, 0] S1x1.size inb_S1x1_S1x1_0_0
abbrev r1_out : Rect S512x1 := Rect.unit (s := S512x1) ![0, 0] S512x1.size inb_S512x1_S512x1_0_0

def out1_10 (x0 x1 : Vec F S512x2048 .f32) (x2 : Vec F S512x2 .f32) (x3 x4 x5 : Vec F S1x2048 .f32)
    (x6 : Vec F S2048x1024 .bf16) (x7 : Vec F S1x1024 .f32) (x8 : Vec F S1024x1 .bf16) (x9 : Vec F S1x1 .f32) : Vec F S512x1 .f32 :=
  View.canon [⟨r1_out, k1_pay4 (k1_pay9 (View.ld x2 r1_c0) (View.ld x2 r1_c1) (View.ld x3 r1_row) (View.ld x4 r1_row) (View.ld x5 r1_row) (View.ld x0 r1_acc))
    (k1_pay11 (View.ld x6 r1_w2)) (View.ld x7 r1_b2) (View.ld x8 r1_w3) (View.ld x9 r1_b3)⟩]

def out1_11 (x0 x1 : Vec F S512x2048 .f32) (x2 : Vec F S512x2 .f32) (x3 x4 x5 : Vec F S1x2048 .f32)
    (x6 : Vec F S2048x1024 .bf16) (x7 : Vec F S1x1024 .f32) (x8 : Vec F S1024x1 .bf16) (x9 : Vec F S1x1 .f32) : Vec F S512x1 .f32 :=
  View.canon [⟨r1_out, k1_pay5 (k1_pay10 (View.ld x2 r1_c0) (View.ld x2 r1_c1) (View.ld x3 r1_row) (View.ld x4 r1_row) (View.ld x5 r1_row) (View.ld x1 r1_acc))
    (k1_pay11 (View.ld x6 r1_w2)) (View.ld x7 r1_b2) (View.ld x8 r1_w3) (View.ld x9 r1_b3)⟩]

theorem cover1_out (p0 : Vec F S512x1 .f32) (y : S512x1.Idx) :
    ∃ pc ∈ ([⟨r1_out, p0⟩] : List (View.Piece (Elt F) S512x1 .f32)), y ∈ pc.1.set :=
  View.cover_of_tiled [⟨r1_out, p0⟩] S512x1.size (by rfl) y

set_option maxHeartbeats 4000000 in

theorem sound_kernel1 (c : Dev nD) (E : Set ℕ) (i : grid1.Coords) (arg1 : Memref sig .tc .vmem S512x2048 .f32) (harg1 : arg1.IsWhole) (arg2 : Memref sig .tc .vmem S512x2048 .f32) (harg2 : arg2.IsWhole) (arg3 : Memref sig .tc .vmem S512x2 .f32) (harg3 : arg3.IsWhole) (arg4 : Memref sig .tc .vmem S1x2048 .f32) (harg4 : arg4.IsWhole) (arg5 : Memref sig .tc .vmem S1x2048 .f32) (harg5 : arg5.IsWhole) (arg6 : Memref sig .tc .vmem S1x2048 .f32) (harg6 : arg6.IsWhole) (arg7 : Memref sig .tc .vmem S2048x1024 .bf16) (harg7 : arg7.IsWhole) (arg8 : Memref sig .tc .vmem S1x1024 .f32) (harg8 : arg8.IsWhole) (arg9 : Memref sig .tc .vmem S1024x1 .bf16) (harg9 : arg9.IsWhole) (arg10 : Memref sig .tc .vmem S1x1 .f32) (harg10 : arg10.IsWhole) (arg11 : Memref sig .tc .vmem S512x1 .f32) (harg11 : arg11.IsWhole) (arg12 : Memref sig .tc .vmem S512x1 .f32) (harg12 : arg12.IsWhole)
    (x0 x1 : Vec F S512x2048 .f32) (x2 : Vec F S512x2 .f32) (x3 x4 x5 : Vec F S1x2048 .f32)
    (x6 : Vec F S2048x1024 .bf16) (x7 : Vec F S1x1024 .f32) (x8 : Vec F S1024x1 .bf16) (x9 : Vec F S1x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9
        ∗ (∃ d, owns (c : Thread nD τ) arg11 fullShare d) ∗ (∃ d, owns (c : Thread nD τ) arg12 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9
            ∗ owns (c : Thread nD τ) arg11 fullShare (out1_10 x0 x1 x2 x3 x4 x5 x6 x7 x8 x9) ∗ owns (c : Thread nD τ) arg12 fullShare (out1_11 x0 x1 x2 x3 x4 x5 x6 x7 x8 x9)) -∗ K ⟨⟩))
      ⊢ wp frame (wpE (defs₀ (F := F)) Variants.none c none) E (cc1__mlp_head_kernel i arg1 harg1 arg2 harg2 arg3 harg3 arg4 harg4 arg5 harg5 arg6 harg6 arg7 harg7 arg8 harg8 arg9 harg9 arg10 harg10 arg11 harg11 arg12 harg12) K := by
  simp only [cc1__mlp_head_kernel_eq_skeleton]; unfold cc1__mlp_head_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, Hk⟩
  subst hf0 hf1 hf2 hf3 hf4 hf5 hf6 hf7 hf8 hf9
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists _; isplitr
    swap; · iexact H10
    ipureintro
    try dsimp only
    exact View.read_writes_eq_canon _ _ _ (cover1_out _)
  iexists _; isplitr
  swap; · iexact H11
  ipureintro
  try dsimp only
  exact View.read_writes_eq_canon _ _ _ (cover1_out _)

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => iblk1 V c 9 t
    | ⟨10, _⟩ => out1_10 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t)
    | ⟨11, _⟩ => out1_11 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = iblk1 V c 8 t := by dsimp only [dat1]
theorem after1_9 (c : Dev nD) (t : Fin cfg1.N) : (dat1 V c).after 9 t = iblk1 V c 9 t := by dsimp only [dat1]
theorem after1_10 (c : Dev nD) (t : Fin cfg1.N) : (dat1 V c).after 10 t = out1_10 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) := by dsimp only [dat1]
theorem after1_11 (c : Dev nD) (t : Fin cfg1.N) : (dat1 V c).after 11 t = out1_11 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d
theorem before1_8 (c : Dev nD) (t : Fin cfg1.N) (d) : (dat1 V c).before 8 t d = iblk1 V c 8 t :=
  before1_8_of V (dat1 V c) (A_eq1 V c 8) (after1_8 V c) t d
theorem before1_9 (c : Dev nD) (t : Fin cfg1.N) (d) : (dat1 V c).before 9 t d = iblk1 V c 9 t :=
  before1_9_of V (dat1 V c) (A_eq1 V c 9) (after1_9 V c) t d

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d))
    ∗ (∃ d, owns (c : Thread nD τ) (st1_9 t) fullShare ((dat1 V c).before 9 t d))
    ∗ (∃ d, owns (c : Thread nD τ) (st1_10 t) fullShare ((dat1 V c).before 10 t d))
    ∗ (∃ d, owns (c : Thread nD τ) (st1_11 t) fullShare ((dat1 V c).before 11 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t)
    ∗ owns (c : Thread nD τ) (st1_9 t) fullShare ((dat1 V c).after 9 t)
    ∗ owns (c : Thread nD τ) (st1_10 t) fullShare ((dat1 V c).after 10 t)
    ∗ owns (c : Thread nD τ) (st1_11 t) fullShare ((dat1 V c).after 11 t))

set_option maxHeartbeats 1000000 in

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8, before1_9]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8, after1_9, after1_10, after1_11]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (sound_kernel1 c Set.univ (grid1.coords t) _ _ _ _ _ _ _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [H11]; · iexists _; iexact H11
  iintro ⟨H0, H1, H2, H3, H4, H5, H6, H7, H8, H9, H10, H11⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

theorem body_obligation1 (c : Dev nD) : BodyObligation (dat1 (F := F) V c) (defs₀ (F := F)) Variants.none () Set.univ := fun t => by
  rw [bigSep_W1, bigSep_W1]
  exact sound_body1 V c t

end Region1

end Cert.KernelIdeal.Pipe

end
-- ==== Proof.KI.Run.lean ====
import proofs.«417828_j54142357733865_1_alg».proof.Proof.KI.R0Frame
import proofs.«417828_j54142357733865_1_alg».proof.Proof.KI.R1Frame
import proofs.«417828_j54142357733865_1_alg».proof.Proof.Gen.KernelIdeal.Regions

set_option maxRecDepth 16384

noncomputable section

namespace Cert.KernelIdeal.Pipe

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev M0 : Dev nD → Valuation τ sig (Elt F) := fun c b => (s₀ m ρ).mem ((c : Dev nD), b)

abbrev M1 : Dev nD → Valuation τ sig (Elt F) := fun c => StableHlo.after hostOps0 (M0 m ρ c)
abbrev VE0 : (c : Dev nD) → (b : Ref sig .tc) → Buf (Elt F) ((c : Thread nD τ).loc b) := fun c b => M1 m ρ c b

def M2 (c : Dev nD) : Valuation τ sig (Elt F) :=
  Pipeline.withArrays spec0 c (M1 m ρ c) fun w => (dat0 (VE0 m ρ) c).arrAt w cfg0.N
theorem M2_arr (c : Dev nD) (w : Fin cfg0.W) :
    M2 m ρ c (Proc.devRef .tc (Pipeline.arrRef spec0 w)) = (dat0 (VE0 m ρ) c).arrAt w cfg0.N := by
  unfold M2; exact Pipeline.withArrays_arr spec0 launch0.win.arr_inj c _ _ w
theorem M2_of_ne (c : Dev nD) (b : Ref sig .tc) (hb : ∀ w, Pipeline.arrRef spec0 w ≠ b) :
    M2 m ρ c (Proc.devRef .tc b) = M1 m ρ c (Proc.devRef .tc b) := by
  unfold M2; exact Pipeline.withArrays_of_ne spec0 c _ _ b hb
abbrev VE1 : (c : Dev nD) → (b : Ref sig .tc) → Buf (Elt F) ((c : Thread nD τ).loc b) := fun c b => M2 m ρ c b
theorem hF0 (c : Dev nD) (w : Fin cfg0.W) : (dat0 (VE0 m ρ) c).arrAt w cfg0.N = VE1 m ρ c (Pipeline.arrRef spec0 w) :=
  (M2_arr m ρ c w).symm
theorem hrest0 (c : Dev nD) : ∀ b, b ∉ Finset.univ.image (Pipeline.arrRef spec0) → VE1 m ρ c b = VE0 m ρ c b :=
  fun b hb => M2_of_ne m ρ c b fun w e => hb (Finset.mem_image.mpr ⟨w, Finset.mem_univ _, e⟩)

def M3 (c : Dev nD) : Valuation τ sig (Elt F) :=
  Pipeline.withArrays spec1 c (M2 m ρ c) fun w => (dat1 (VE1 m ρ) c).arrAt w cfg1.N
theorem M3_arr (c : Dev nD) (w : Fin cfg1.W) :
    M3 m ρ c (Proc.devRef .tc (Pipeline.arrRef spec1 w)) = (dat1 (VE1 m ρ) c).arrAt w cfg1.N := by
  unfold M3; exact Pipeline.withArrays_arr spec1 launch1.win.arr_inj c _ _ w
theorem M3_of_ne (c : Dev nD) (b : Ref sig .tc) (hb : ∀ w, Pipeline.arrRef spec1 w ≠ b) :
    M3 m ρ c (Proc.devRef .tc b) = M2 m ρ c (Proc.devRef .tc b) := by
  unfold M3; exact Pipeline.withArrays_of_ne spec1 c _ _ b hb
abbrev VE2 : (c : Dev nD) → (b : Ref sig .tc) → Buf (Elt F) ((c : Thread nD τ).loc b) := fun c b => M3 m ρ c b
theorem hF1 (c : Dev nD) (w : Fin cfg1.W) : (dat1 (VE1 m ρ) c).arrAt w cfg1.N = VE2 m ρ c (Pipeline.arrRef spec1 w) :=
  (M3_arr m ρ c w).symm
theorem hrest1 (c : Dev nD) : ∀ b, b ∉ Finset.univ.image (Pipeline.arrRef spec1) → VE2 m ρ c b = VE1 m ρ c b :=
  fun b hb => M3_of_ne m ρ c b fun w e => hb (Finset.mem_image.mpr ⟨w, Finset.mem_univ _, e⟩)

abbrev M4 : Dev nD → Valuation τ sig (Elt F) := fun c => StableHlo.after hostOps2 (M3 m ρ c)

theorem M4_kept (c : Dev nD) (b : Ref sig .tc) (h2 : b ∉ hostOps2_W := by decide)
    (h1 : ∀ w, Pipeline.arrRef spec1 w ≠ b := by decide) (h0 : ∀ w, Pipeline.arrRef spec0 w ≠ b := by decide)
    (hh : b ∉ hostOps0_W := by decide) : M4 m ρ c (Proc.devRef .tc b) = m ((c : Thread nD τ).loc b) :=
  calc M4 m ρ c (Proc.devRef .tc b)
    _ = M3 m ρ c (Proc.devRef .tc b) := StableHlo.after_of_writes_sub hostOps2 _ hostOps2_writes h2
    _ = M2 m ρ c (Proc.devRef .tc b) := M3_of_ne m ρ c b h1
    _ = M1 m ρ c (Proc.devRef .tc b) := M2_of_ne m ρ c b h0
    _ = M0 m ρ c (Proc.devRef .tc b) := StableHlo.after_of_writes_sub hostOps0 _ hostOps0_writes hh
    _ = m ((c : Thread nD τ).loc b) := rfl

theorem M4_main_arg2 (c : Dev nD) : M4 m ρ c (Proc.devRef .tc main_arg2) = m ((c : Thread nD τ).loc main_arg2) :=
  calc M4 m ρ c (Proc.devRef .tc main_arg2)
    _ = M3 m ρ c (Proc.devRef .tc main_arg2) := StableHlo.after_of_writes_sub hostOps2 _ hostOps2_writes (by decide : main_arg2 ∉ hostOps2_W)
    _ = M2 m ρ c (Proc.devRef .tc main_arg2) := (M3_arr m ρ c 2).trans (((dat1 (VE1 m ρ) c).arrAt_in 2 rfl _).trans (A_eq1 (VE1 m ρ) c 2))
    _ = M1 m ρ c (Proc.devRef .tc main_arg2) := M2_of_ne m ρ c main_arg2 (by decide)
    _ = M0 m ρ c (Proc.devRef .tc main_arg2) := StableHlo.after_of_writes_sub hostOps0 _ hostOps0_writes (by decide : main_arg2 ∉ hostOps0_W)
    _ = m ((c : Thread nD τ).loc main_arg2) := rfl

abbrev admT : (p : Fin 2) → (pcfgs (F := F) p).Adm := fun p => (cfgs p).toPCfg_adm

def pdats : (p : Fin 2) → (c : Dev nD) → Dat τ (Elt F) Unit ℕ (UR sig nD τ) ℕ (Pipeline.pin (pcfgs (F := F)) admT p) c
  | ⟨0, _⟩ => fun c => dat0 (VE0 m ρ) c
  | ⟨1, _⟩ => fun c => dat1 (VE1 m ρ) c
abbrev 𝒱₀ : Variants := Variants.none
abbrev L : GSem nD τ sig → Finset Unit := fun _ => ∅
abbrev lv : GSem nD τ sig → Unit → ℕ := fun _ _ => 0

abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (M4 m ρ c) ∗ ∃ r, prngReg c r)

set_option backward.isDefEq.respectTransparency.types false in

def reg0 : Pipeline.RegionSeg (pcfgs (F := F)) admT (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (VE0 m ρ) c).loose
  hwaits := Pipeline.hwaits_of_owed_zero _ _ _ _ L lv 0 fun _ _ => rfl
  pre c := iprop(StableHlo.held (c : Thread nD τ) (Pipeline.ucRefs τ sig) (M1 m ρ c) ∗ R c)
  post c := iprop(StableHlo.held (c : Thread nD τ) (Pipeline.ucRefs τ sig) (M2 m ρ c) ∗ R c)
  X c := iprop(∃ r, prngReg c r)
  Y c := iprop(∃ r, prngReg c r)
  Z c := Pipeline.unscopedRest (Ix := Unit) (Name := ℕ) (U := UR sig nD τ) (Lvl := ℕ) spec0 c (VE0 m ρ c)
  hentry c := by
    rw [Pipeline.ownSems0_none]
    have hsplit := Pipeline.arrays_of_unscopedBufs (p := 0) (pcfgs (F := F)) admT (pdats m ρ) launch0.win launch0.arr_whole c
      ((pdats m ρ 0 c).share_full fun _ => rfl) (VE0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin0 (VE0 m ρ) c)
    unfold Pipeline.ΦA
    iintro ⟨Hp, -, Hr⟩
    isplitl [Hr]; · iexact Hr
    iexact Hp
  hout c := by
    refine BIBase.Entails.trans (hout0 (VE0 m ρ) c) ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) admT (Ix := Unit) (Name := ℕ) (U := UR sig nD τ) (Lvl := ℕ)
      launch0.win launch0.arr_whole c (pdats m ρ) ((pdats m ρ 0 c).share_full fun _ => rfl)
      (VE0 m ρ c) (VE1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in

def reg1 : Pipeline.RegionSeg (pcfgs (F := F)) admT (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (VE1 m ρ) c).loose
  hwaits := Pipeline.hwaits_of_owed_zero _ _ _ _ L lv 1 fun _ _ => rfl
  pre c := iprop(StableHlo.held (c : Thread nD τ) (Pipeline.ucRefs τ sig) (M2 m ρ c) ∗ R c)
  post c := iprop(StableHlo.held (c : Thread nD τ) (Pipeline.ucRefs τ sig) (M3 m ρ c) ∗ R c)
  X c := iprop(∃ r, prngReg c r)
  Y c := iprop(∃ r, prngReg c r)
  Z c := Pipeline.unscopedRest (Ix := Unit) (Name := ℕ) (U := UR sig nD τ) (Lvl := ℕ) spec1 c (VE1 m ρ c)
  hentry c := by
    rw [Pipeline.ownSems0_none]
    have hsplit := Pipeline.arrays_of_unscopedBufs (p := 1) (pcfgs (F := F)) admT (pdats m ρ) launch1.win launch1.arr_whole c
      ((pdats m ρ 1 c).share_full fun _ => rfl) (VE1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) admT (Ix := Unit) (Name := ℕ) (U := UR sig nD τ) (Lvl := ℕ)
      launch1.win launch1.arr_whole c (pdats m ρ) ((pdats m ρ 1 c).share_full fun _ => rfl)
      (VE1 m ρ c) (VE2 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

abbrev segsT : List (Pipeline.Seg (pcfgs (F := F)) admT (pdats m ρ) () defs₀ 𝒱₀ L lv) :=
  [ .host (hseg hostOps0 hostOps0_sub hostOps0_fresh (M0 m ρ)),
    .region (reg0 m ρ),
    .region (reg1 m ρ),
    .host (hseg hostOps2 hostOps2_sub hostOps2_fresh (M3 m ρ)) ]
theorem main_run (c : Dev nD) : main (F := F) c = Pipeline.Seg.run (segsT m ρ) := (main_chain c).trans (by chain_rfl)

set_option backward.isDefEq.respectTransparency.types false in

theorem run_all : θ_run defs (onTc (τ := τ) (main (F := F))) ⟨m, fun _ => 0, ρ⟩ (fun r => ∀ c : Dev nD,
      ∀ b ∈ Pipeline.ucRefs τ sig, r.2.mem (((c : Thread nD τ)).1, b) = M4 m ρ c b) :=
  Pipeline.θ_run_regions_kit (pcfgs (F := F)) admT (pdats m ρ) () cellOf_inj emb₁ defs₀ 𝒱₀ L lv m ρ main (segsT m ρ)
    (fun c Q => by rw [main_run m ρ c])
    (by simp only [segsT, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (M0 m ρ c) ∗ R c)) (Tₙ := Tₙ m ρ)
    (hch := ⟨fun _ => .rfl, fun _ => .rfl, fun _ => .rfl, fun _ => .rfl, fun c => by
      show iprop(StableHlo.held (c : Thread nD τ) (Pipeline.ucRefs τ sig) (M4 m ρ c) ∗ (∃ r, prngReg c r) ∗ ∃ W, owes (c : Thread nD τ) (0 : CellTallies nD τ sig Unit) W)
        ⊢ iprop(Tₙ m ρ c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (M0 m ρ c)
        from Pipeline.unscopedBufs_held c (M0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = M4 m ρ c b)
    (hfin := fun c s' => by
      iintro ⟨⟨Hh, -⟩, HSI⟩
      unfold StableHlo.held
      imodintro
      iapply (pointsTo_read_all (Pipeline.ucRefs τ sig) (fun b => (((c : Thread nD τ)).1, b)) (M4 m ρ c) s')
      isplitl [Hh] <;> iassumption)
    (hQ := fun s h c => h c)

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c =>
    ⟨(h c _ (mem_uc main_arg0 (by decide))).trans (M4_kept m ρ c main_arg0),
     (h c _ (mem_uc main_arg1 (by decide))).trans (M4_kept m ρ c main_arg1),
     (h c _ (mem_uc main_arg2 (by decide))).trans (M4_main_arg2 m ρ c),
     (h c _ (mem_uc main_arg3 (by decide))).trans (M4_kept m ρ c main_arg3),
     (h c _ (mem_uc main_arg4 (by decide))).trans (M4_kept m ρ c main_arg4),
     (h c _ (mem_uc main_arg5 (by decide))).trans (M4_kept m ρ c main_arg5),
     (h c _ (mem_uc main_arg6 (by decide))).trans (M4_kept m ρ c main_arg6),
     (h c _ (mem_uc main_arg7 (by decide))).trans (M4_kept m ρ c main_arg7),
     (h c _ (mem_uc main_arg8 (by decide))).trans (M4_kept m ρ c main_arg8)⟩) (run_all m ρ)

end Cert.KernelIdeal.Pipe

end
-- ==== Proof.Spec.lean ====
import Idealize.ShloMosaic.PureOps.Ideal
import Idealize.ShloMosaic.Lib.ValueIdx

noncomputable section

open scoped BigOperators

namespace Cert.Spec

open Idealize.ShloMosaic Idealize.ShloMosaic.ValueIdx

def hot (t : (⟨2, ![4096, 32]⟩ : Shape).Idx → BitVec 32) (b : Fin 4096) (j : ℕ) : EReal :=
  if ∃ k : Fin 32, t (ix2 b k) = BitVec.ofNat 32 j then 1 else 0

def rowOf (A : (⟨2, ![19000, 2048]⟩ : Shape).Idx → EReal) (r : ℕ) (h : Fin 2048) : EReal :=
  if hr : r < 19000 then A (ix2 ⟨r, hr⟩ h) else 0

def accStep (ta tb : (⟨2, ![4096, 32]⟩ : Shape).Idx → BitVec 32) (A B : (⟨2, ![19000, 2048]⟩ : Shape).Idx → EReal)
    (b : Fin 4096) (h : Fin 2048) (p : ℕ) : EReal :=
  (∑ jj : Fin 760, hot ta b (760 * p + jj.val) * rowOf A (760 * p + jj.val) h)
    + (∑ jj : Fin 760, hot tb b (760 * p + jj.val) * rowOf B (760 * p + jj.val) h)

def accUpTo (ta tb : (⟨2, ![4096, 32]⟩ : Shape).Idx → BitVec 32) (A B : (⟨2, ![19000, 2048]⟩ : Shape).Idx → EReal)
    (b : Fin 4096) (h : Fin 2048) (n : ℕ) : EReal :=
  ∑ p ∈ Finset.range n, accStep ta tb A B b h p

def Acc (ta tb : (⟨2, ![4096, 32]⟩ : Shape).Idx → BitVec 32) (A B : (⟨2, ![19000, 2048]⟩ : Shape).Idx → EReal) :
    (⟨2, ![4096, 2048]⟩ : Shape).Idx → EReal :=
  fun i => accUpTo ta tb A B (i 0) (i 1) 25

def Head (acc : (⟨2, ![4096, 2048]⟩ : Shape).Idx → EReal) (conc : (⟨2, ![4096, 2]⟩ : Shape).Idx → EReal) (u v : Fin 2)
    (rowP row2 b1 : (⟨2, ![1, 2048]⟩ : Shape).Idx → EReal) (W2 : (⟨2, ![2048, 1024]⟩ : Shape).Idx → EReal)
    (b2 : (⟨2, ![1, 1024]⟩ : Shape).Idx → EReal) (W3 : (⟨2, ![1024, 1]⟩ : Shape).Idx → EReal)
    (b3 : (⟨2, ![1, 1]⟩ : Shape).Idx → EReal) : (⟨2, ![4096, 1]⟩ : Shape).Idx → EReal :=
  fun i =>
    (∑ n : Fin 1024,
      max ((∑ h : Fin 2048,
          max (((acc (ix2 (i 0) h) + conc (ix2 (i 0) u) * rowP (ix2 0 h)) + conc (ix2 (i 0) v) * row2 (ix2 0 h)) + b1 (ix2 0 h)) 0
            * W2 (ix2 h n)) + b2 (ix2 0 n)) 0
        * W3 (ix2 n 0)) + b3 (ix2 0 0)

def sliceA (W1 : (⟨2, ![38002, 2048]⟩ : Shape).Idx → EReal) : (⟨2, ![19000, 2048]⟩ : Shape).Idx → EReal :=
  fun i => W1 (ix2 ⟨(i 0).val, by have := idx2_lt0 i; omega⟩ (i 1))

def sliceB (W1 : (⟨2, ![38002, 2048]⟩ : Shape).Idx → EReal) : (⟨2, ![19000, 2048]⟩ : Shape).Idx → EReal :=
  fun i => W1 (ix2 ⟨19001 + (i 0).val, by have := idx2_lt0 i; omega⟩ (i 1))

def rowAt (W1 : (⟨2, ![38002, 2048]⟩ : Shape).Idx → EReal) (r : Fin 38002) : (⟨2, ![1, 2048]⟩ : Shape).Idx → EReal :=
  fun i => W1 (ix2 r (i 1))

def asRow {n : ℕ} (v : (⟨1, ![n]⟩ : Shape).Idx → EReal) : (⟨2, ![1, n]⟩ : Shape).Idx → EReal :=
  fun i => v (ix1 (i 1))

def Out (ta tb : (⟨2, ![4096, 32]⟩ : Shape).Idx → BitVec 32) (conc : (⟨2, ![4096, 2]⟩ : Shape).Idx → EReal) (u v : Fin 2)
    (W1 : (⟨2, ![38002, 2048]⟩ : Shape).Idx → EReal) (b1 : (⟨1, ![2048]⟩ : Shape).Idx → EReal)
    (W2 : (⟨2, ![2048, 1024]⟩ : Shape).Idx → EReal) (b2 : (⟨1, ![1024]⟩ : Shape).Idx → EReal)
    (W3 : (⟨2, ![1024, 1]⟩ : Shape).Idx → EReal) (b3 : (⟨1, ![1]⟩ : Shape).Idx → EReal) : (⟨1, ![4096]⟩ : Shape).Idx → EReal :=
  fun i => Head (Acc ta tb (sliceA W1) (sliceB W1)) conc u v (rowAt W1 ⟨19000, by omega⟩) (rowAt W1 ⟨38001, by omega⟩) (asRow b1) W2 (asRow b2) W3 (asRow b3)
    (ix2 (i 0) 0)

def InRange (t : (⟨2, ![4096, 32]⟩ : Shape).Idx → BitVec 32) : Prop :=
  ∀ i, 0 ≤ (t i).toInt ∧ (t i).toInt < 19000

end Cert.Spec

end
-- ==== Proof.Val.Hot.lean ====
import proofs.«417828_j54142357733865_1_alg».proof.Proof.Gen.KernelIdeal.Skeleton
import proofs.«417828_j54142357733865_1_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.Val

open Cert.KernelIdeal Cert.KernelIdeal.Gen Idealize.ShloMosaic Idealize.ShloMosaic.ValueIdx

theorem pay7_apply (i : grid0.Coords) (jj : Fin 760) :
    k0_pay7 i (ix2 0 jj) = BitVec.ofNat 32 (760 * (i 1).val + jj.val) := by
  unfold k0_pay7
  show IntOp.addi (IntOp.muli (BitVec.ofNat 32 (i 1).val) 760#32) (iota .tc S1x760 32 [1] iota_S1x760_d1_w32 (ix2 0 jj)) = _
  rw [iota_single_apply]
  show BitVec.ofNat 32 (i 1).val * BitVec.ofNat 32 760 + BitVec.ofNat 32 jj.val = _
  rw [← BitVec.ofNat_mul, ← BitVec.ofNat_add, Nat.mul_comm]

theorem col_apply (v : IVec S512x32 32) (k : ℕ) (hk : k < 32) (hs : S512x32.Slices ![0, k] S512x1)
    (hb : S512x1.Broadcasts S512x760) (r : Fin 512) (jj : Fin 760) :
    broadcastTo S512x760 (extractStridedSlice S512x1 ![0, k] v hs) hb (ix2 r jj) = v (ix2 r ⟨k, hk⟩) := by
  refine (broadcastTo_apply _ hb (ix2 r jj) (ix2 r (0 : Fin 1)) fun ax => ?_).trans ?_
  · match ax with
    | ⟨0, _⟩ =>
      show r.val = if (512 : ℕ) = 1 then 0 else r.val
      rw [if_neg (by decide)]
    | ⟨1, _⟩ => rfl
  · exact slice2_axis1_apply k v hs r (0 : Fin 1) ⟨k, hk⟩ rfl

theorem row_apply (v6 : IVec S1x760 32) (hb : S1x760.Broadcasts S512x760) (r : Fin 512) (jj : Fin 760) :
    broadcastTo S512x760 v6 hb (ix2 r jj) = v6 (ix2 0 jj) :=
  broadcastTo_1b_ab_apply v6 hb r jj

theorem ind_apply {s : Shape} (A B : IVec s 32) (h1 : 1 < 32) (h2 : FTy.bits .bf16 < FTy.bits .f32) (j : s.Idx) :
    (truncf .bf16 (sitofp (F := Ideal) .f32 (extui 32 (cmpi .eq A B) h1)) h2 : FVec Ideal s .bf16) j
      = if A j = B j then 1 else 0 := by
  show (((((IntOp.cmpi .eq (A j) (B j)).setWidth 32).toInt : ℝ)) : EReal) = _
  unfold IntOp.cmpi
  by_cases h : A j = B j
  · rw [if_pos h, h]
    simp
  · rw [if_neg h]
    have : (A j == B j) = false := by simpa using h
    simp [this]

def seen (v : IVec S512x32 32) (r : Fin 512) (c : BitVec 32) (n : ℕ) : Prop :=
  ∃ k : Fin 32, k.val < n ∧ v (ix2 r k) = c

instance (v : IVec S512x32 32) (r : Fin 512) (c : BitVec 32) (n : ℕ) : Decidable (seen v r c n) :=
  inferInstanceAs (Decidable (∃ k : Fin 32, k.val < n ∧ v (ix2 r k) = c))

def upTo (v : IVec S512x32 32) (r : Fin 512) (c : BitVec 32) (n : ℕ) : EReal :=
  if seen v r c n then 1 else 0

theorem seen_zero (v : IVec S512x32 32) (r : Fin 512) (c : BitVec 32) : ¬seen v r c 0 :=
  fun ⟨_, h, _⟩ => Nat.not_lt_zero _ h

theorem seen_succ (v : IVec S512x32 32) (r : Fin 512) (c : BitVec 32) (k : ℕ) (hk : k < 32) :
    seen v r c (k + 1) ↔ seen v r c k ∨ v (ix2 r ⟨k, hk⟩) = c := by
  constructor
  · rintro ⟨k', hlt, h⟩
    rcases Nat.lt_succ_iff_lt_or_eq.mp hlt with h' | h'
    · exact Or.inl ⟨k', h', h⟩
    · refine Or.inr ?_
      have e : k' = ⟨k, hk⟩ := Fin.ext h'
      rw [← e]; exact h
  · rintro (⟨k', hlt, h⟩ | h)
    · exact ⟨k', Nat.lt_succ_of_lt hlt, h⟩
    · exact ⟨⟨k, hk⟩, Nat.lt_succ_self k, h⟩

theorem upTo_zero (v : IVec S512x32 32) (r : Fin 512) (c : BitVec 32) : upTo v r c 0 = 0 := by
  unfold upTo
  exact if_neg (seen_zero v r c)

theorem upTo_succ (v : IVec S512x32 32) (r : Fin 512) (c : BitVec 32) (k : ℕ) (hk : k < 32) :
    max (upTo v r c k) (if v (ix2 r ⟨k, hk⟩) = c then 1 else 0) = upTo v r c (k + 1) := by
  have h01 : (0 : EReal) ≤ 1 := zero_le_one
  unfold upTo
  by_cases h1 : seen v r c k
  · rw [if_pos h1, if_pos ((seen_succ v r c k hk).2 (Or.inl h1))]
    by_cases h2 : v (ix2 r ⟨k, hk⟩) = c
    · rw [if_pos h2]; exact max_self _
    · rw [if_neg h2]; exact max_eq_left h01
  · by_cases h2 : v (ix2 r ⟨k, hk⟩) = c
    · rw [if_neg h1, if_pos h2, if_pos ((seen_succ v r c k hk).2 (Or.inr h2))]; exact max_eq_right h01
    · rw [if_neg h1, if_neg h2, if_neg (fun h => (((seen_succ v r c k hk).1 h).elim h1 h2))]; exact max_self _

theorem upTo_all (v : IVec S512x32 32) (r : Fin 512) (c : BitVec 32) [Decidable (∃ k : Fin 32, v (ix2 r k) = c)] :
    upTo v r c 32 = if ∃ k : Fin 32, v (ix2 r k) = c then 1 else 0 := by
  unfold upTo
  exact if_congr ⟨fun ⟨k, _, h⟩ => ⟨k, h⟩, fun ⟨k, h⟩ => ⟨k, k.isLt, h⟩⟩ rfl rfl

theorem start_apply (v : IVec S512x32 32) (r : Fin 512) (c : BitVec 32) (j : S512x760.Idx) :
    broadcast S512x760 (Scalar.ofBits (F := Ideal) .bf16 0x0000#16) j = upTo v r c 0 := by
  rw [upTo_zero]
  exact IdealRules.sign_bit.ideal_zero .bf16

theorem step_apply (v6 : IVec S1x760 32) (v : IVec S512x32 32) (k : ℕ) (hk : k < 32)
    (hs : S512x32.Slices ![0, k] S512x1) (hb1 : S512x1.Broadcasts S512x760) (hb2 : S1x760.Broadcasts S512x760)
    (h1 : 1 < 32) (h2 : FTy.bits .bf16 < FTy.bits .f32)
    (prev : FVec Ideal S512x760 .bf16) (r : Fin 512) (jj : Fin 760)
    (hprev : prev (ix2 r jj) = upTo v r (v6 (ix2 0 jj)) k) :
    maximumf prev (truncf .bf16 (sitofp (F := Ideal) .f32 (extui 32 (cmpi .eq
        (broadcastTo S512x760 (extractStridedSlice S512x1 ![0, k] v hs) hb1) (broadcastTo S512x760 v6 hb2)) h1)) h2) (ix2 r jj)
      = upTo v r (v6 (ix2 0 jj)) (k + 1) := by
  rw [maximumf_apply, ind_apply, col_apply v k hk hs hb1, row_apply, hprev]
  exact upTo_succ v r _ k hk

variable {F : FTy → Type} [FloatOps F]

def prot1 (i : grid0.Coords) (v7 : Vec F S512x32 .i32) : FVec F S512x760 .bf16 :=
  k0_pay40 (k0_pay7 i) (k0_pay8 v7)
    (k0_pay36 (k0_pay7 i) (k0_pay8 v7)
      (k0_pay33 (k0_pay7 i) (k0_pay8 v7)
        (k0_pay30 (k0_pay7 i) (k0_pay8 v7)
          (k0_pay25 (k0_pay7 i) (k0_pay8 v7)
            (k0_pay21 (k0_pay7 i) (k0_pay8 v7)
              (k0_pay18 (k0_pay7 i) (k0_pay8 v7)
                (k0_pay15 (k0_pay7 i) (k0_pay8 v7) (k0_pay10 i v7) (k0_pay13 v7))))
            (k0_pay24 (F := F) (k0_pay7 i) (k0_pay8 v7)))
          (k0_pay28 (k0_pay8 v7)))))
    (k0_pay39 (F := F) (k0_pay7 i) (k0_pay8 v7))

def prot2 (i : grid0.Coords) (v9 : Vec F S512x32 .i32) : FVec F S512x760 .bf16 :=
  k0_pay41 (k0_pay7 i) (k0_pay9 v9)
    (k0_pay37 (k0_pay7 i) (k0_pay9 v9)
      (k0_pay32 (k0_pay7 i) (k0_pay9 v9)
        (k0_pay29 (k0_pay7 i) (k0_pay9 v9)
          (k0_pay26 (k0_pay7 i) (k0_pay9 v9)
            (k0_pay22 (k0_pay7 i) (k0_pay9 v9)
              (k0_pay17 (k0_pay7 i) (k0_pay9 v9)
                (k0_pay14 (k0_pay7 i) (k0_pay9 v9) (k0_pay11 i v9) (k0_pay12 v9))
                (k0_pay16 (F := F) (k0_pay7 i) (k0_pay9 v9)))
              (k0_pay19 (k0_pay9 v9)) (k0_pay20 (k0_pay7 i)))
            (k0_pay23 (k0_pay9 v9)))
          (k0_pay27 (k0_pay9 v9)))
        (k0_pay31 (F := F) (k0_pay7 i) (k0_pay9 v9)))
      (k0_pay34 (k0_pay9 v9)) (k0_pay35 (k0_pay7 i)))
    (k0_pay38 (k0_pay9 v9))

theorem step (i : grid0.Coords) (v : IVec S512x32 32) (k : ℕ) (hk : k < 32) (hs : S512x32.Slices ![0, k] S512x1)
    (prev : FVec Ideal S512x760 .bf16) (r : Fin 512) (jj : Fin 760)
    (hprev : prev (ix2 r jj) = upTo v r (k0_pay7 i (ix2 0 jj)) k) :
    maximumf prev (truncf .bf16 (sitofp (F := Ideal) .f32 (extui 32 (cmpi .eq
        (broadcastTo S512x760 (extractStridedSlice S512x1 ![0, k] v hs) broadcasts_S512x1_S512x760)
        (broadcastTo S512x760 (k0_pay7 i) broadcasts_S1x760_S512x760)) natLt_1_32)) bitsLt_bf16_f32) (ix2 r jj)
      = upTo v r (k0_pay7 i (ix2 0 jj)) (k + 1) :=
  step_apply (k0_pay7 i) v k hk hs _ _ _ _ prev r jj hprev

theorem prot1_apply (i : grid0.Coords) (v7 : Vec Ideal S512x32 .i32) (r : Fin 512) (jj : Fin 760)
    [Decidable (∃ k : Fin 32, v7 (ix2 r k) = BitVec.ofNat 32 (760 * (i 1).val + jj.val))] :
    prot1 (F := Ideal) i v7 (ix2 r jj)
      = if ∃ k : Fin 32, v7 (ix2 r k) = BitVec.ofNat 32 (760 * (i 1).val + jj.val) then 1 else 0 := by
  have e8 : k0_pay8 (F := Ideal) v7 = v7 := shapeCast_self _ _
  have h0 := start_apply (k0_pay8 (F := Ideal) v7) r (k0_pay7 i (ix2 0 jj)) (ix2 r jj)
  have h1 := step i (k0_pay8 (F := Ideal) v7) 0 (by decide) slices_S512x32_o0_0_S512x1 _ r jj h0
  have h2 := step i (k0_pay8 (F := Ideal) v7) 1 (by decide) slices_S512x32_o0_1_S512x1 _ r jj h1
  have h3 := step i (k0_pay8 (F := Ideal) v7) 2 (by decide) slices_S512x32_o0_2_S512x1 _ r jj h2
  have h4 := step i (k0_pay8 (F := Ideal) v7) 3 (by decide) slices_S512x32_o0_3_S512x1 _ r jj h3
  have h5 := step i (k0_pay8 (F := Ideal) v7) 4 (by decide) slices_S512x32_o0_4_S512x1 _ r jj h4
  have h6 := step i (k0_pay8 (F := Ideal) v7) 5 (by decide) slices_S512x32_o0_5_S512x1 _ r jj h5
  have h7 := step i (k0_pay8 (F := Ideal) v7) 6 (by decide) slices_S512x32_o0_6_S512x1 _ r jj h6
  have h8 := step i (k0_pay8 (F := Ideal) v7) 7 (by decide) slices_S512x32_o0_7_S512x1 _ r jj h7
  have h9 := step i (k0_pay8 (F := Ideal) v7) 8 (by decide) slices_S512x32_o0_8_S512x1 _ r jj h8
  have h10 := step i (k0_pay8 (F := Ideal) v7) 9 (by decide) slices_S512x32_o0_9_S512x1 _ r jj h9
  have h11 := step i (k0_pay8 (F := Ideal) v7) 10 (by decide) slices_S512x32_o0_10_S512x1 _ r jj h10
  have h12 := step i (k0_pay8 (F := Ideal) v7) 11 (by decide) slices_S512x32_o0_11_S512x1 _ r jj h11
  have h13 := step i (k0_pay8 (F := Ideal) v7) 12 (by decide) slices_S512x32_o0_12_S512x1 _ r jj h12
  have h14 := step i (k0_pay8 (F := Ideal) v7) 13 (by decide) slices_S512x32_o0_13_S512x1 _ r jj h13
  have h15 := step i (k0_pay8 (F := Ideal) v7) 14 (by decide) slices_S512x32_o0_14_S512x1 _ r jj h14
  have h16 := step i (k0_pay8 (F := Ideal) v7) 15 (by decide) slices_S512x32_o0_15_S512x1 _ r jj h15
  have h17 := step i (k0_pay8 (F := Ideal) v7) 16 (by decide) slices_S512x32_o0_16_S512x1 _ r jj h16
  have h18 := step i (k0_pay8 (F := Ideal) v7) 17 (by decide) slices_S512x32_o0_17_S512x1 _ r jj h17
  have h19 := step i (k0_pay8 (F := Ideal) v7) 18 (by decide) slices_S512x32_o0_18_S512x1 _ r jj h18
  have h20 := step i (k0_pay8 (F := Ideal) v7) 19 (by decide) slices_S512x32_o0_19_S512x1 _ r jj h19
  have h21 := step i (k0_pay8 (F := Ideal) v7) 20 (by decide) slices_S512x32_o0_20_S512x1 _ r jj h20
  have h22 := step i (k0_pay8 (F := Ideal) v7) 21 (by decide) slices_S512x32_o0_21_S512x1 _ r jj h21
  have h23 := step i (k0_pay8 (F := Ideal) v7) 22 (by decide) slices_S512x32_o0_22_S512x1 _ r jj h22
  have h24 := step i (k0_pay8 (F := Ideal) v7) 23 (by decide) slices_S512x32_o0_23_S512x1 _ r jj h23
  have h25 := step i (k0_pay8 (F := Ideal) v7) 24 (by decide) slices_S512x32_o0_24_S512x1 _ r jj h24
  have h26 := step i (k0_pay8 (F := Ideal) v7) 25 (by decide) slices_S512x32_o0_25_S512x1 _ r jj h25
  have h27 := step i (k0_pay8 (F := Ideal) v7) 26 (by decide) slices_S512x32_o0_26_S512x1 _ r jj h26
  have h28 := step i (k0_pay8 (F := Ideal) v7) 27 (by decide) slices_S512x32_o0_27_S512x1 _ r jj h27
  have h29 := step i (k0_pay8 (F := Ideal) v7) 28 (by decide) slices_S512x32_o0_28_S512x1 _ r jj h28
  have h30 := step i (k0_pay8 (F := Ideal) v7) 29 (by decide) slices_S512x32_o0_29_S512x1 _ r jj h29
  have h31 := step i (k0_pay8 (F := Ideal) v7) 30 (by decide) slices_S512x32_o0_30_S512x1 _ r jj h30
  have h32 := step i (k0_pay8 (F := Ideal) v7) 31 (by decide) slices_S512x32_o0_31_S512x1 _ r jj h31
  refine Eq.trans h32 ?_
  rw [e8, pay7_apply]
  exact upTo_all v7 r _

theorem prot2_apply (i : grid0.Coords) (v9 : Vec Ideal S512x32 .i32) (r : Fin 512) (jj : Fin 760)
    [Decidable (∃ k : Fin 32, v9 (ix2 r k) = BitVec.ofNat 32 (760 * (i 1).val + jj.val))] :
    prot2 (F := Ideal) i v9 (ix2 r jj)
      = if ∃ k : Fin 32, v9 (ix2 r k) = BitVec.ofNat 32 (760 * (i 1).val + jj.val) then 1 else 0 := by
  have e9 : k0_pay9 (F := Ideal) v9 = v9 := shapeCast_self _ _
  have h0 := start_apply (k0_pay9 (F := Ideal) v9) r (k0_pay7 i (ix2 0 jj)) (ix2 r jj)
  have h1 := step i (k0_pay9 (F := Ideal) v9) 0 (by decide) slices_S512x32_o0_0_S512x1 _ r jj h0
  have h2 := step i (k0_pay9 (F := Ideal) v9) 1 (by decide) slices_S512x32_o0_1_S512x1 _ r jj h1
  have h3 := step i (k0_pay9 (F := Ideal) v9) 2 (by decide) slices_S512x32_o0_2_S512x1 _ r jj h2
  have h4 := step i (k0_pay9 (F := Ideal) v9) 3 (by decide) slices_S512x32_o0_3_S512x1 _ r jj h3
  have h5 := step i (k0_pay9 (F := Ideal) v9) 4 (by decide) slices_S512x32_o0_4_S512x1 _ r jj h4
  have h6 := step i (k0_pay9 (F := Ideal) v9) 5 (by decide) slices_S512x32_o0_5_S512x1 _ r jj h5
  have h7 := step i (k0_pay9 (F := Ideal) v9) 6 (by decide) slices_S512x32_o0_6_S512x1 _ r jj h6
  have h8 := step i (k0_pay9 (F := Ideal) v9) 7 (by decide) slices_S512x32_o0_7_S512x1 _ r jj h7
  have h9 := step i (k0_pay9 (F := Ideal) v9) 8 (by decide) slices_S512x32_o0_8_S512x1 _ r jj h8
  have h10 := step i (k0_pay9 (F := Ideal) v9) 9 (by decide) slices_S512x32_o0_9_S512x1 _ r jj h9
  have h11 := step i (k0_pay9 (F := Ideal) v9) 10 (by decide) slices_S512x32_o0_10_S512x1 _ r jj h10
  have h12 := step i (k0_pay9 (F := Ideal) v9) 11 (by decide) slices_S512x32_o0_11_S512x1 _ r jj h11
  have h13 := step i (k0_pay9 (F := Ideal) v9) 12 (by decide) slices_S512x32_o0_12_S512x1 _ r jj h12
  have h14 := step i (k0_pay9 (F := Ideal) v9) 13 (by decide) slices_S512x32_o0_13_S512x1 _ r jj h13
  have h15 := step i (k0_pay9 (F := Ideal) v9) 14 (by decide) slices_S512x32_o0_14_S512x1 _ r jj h14
  have h16 := step i (k0_pay9 (F := Ideal) v9) 15 (by decide) slices_S512x32_o0_15_S512x1 _ r jj h15
  have h17 := step i (k0_pay9 (F := Ideal) v9) 16 (by decide) slices_S512x32_o0_16_S512x1 _ r jj h16
  have h18 := step i (k0_pay9 (F := Ideal) v9) 17 (by decide) slices_S512x32_o0_17_S512x1 _ r jj h17
  have h19 := step i (k0_pay9 (F := Ideal) v9) 18 (by decide) slices_S512x32_o0_18_S512x1 _ r jj h18
  have h20 := step i (k0_pay9 (F := Ideal) v9) 19 (by decide) slices_S512x32_o0_19_S512x1 _ r jj h19
  have h21 := step i (k0_pay9 (F := Ideal) v9) 20 (by decide) slices_S512x32_o0_20_S512x1 _ r jj h20
  have h22 := step i (k0_pay9 (F := Ideal) v9) 21 (by decide) slices_S512x32_o0_21_S512x1 _ r jj h21
  have h23 := step i (k0_pay9 (F := Ideal) v9) 22 (by decide) slices_S512x32_o0_22_S512x1 _ r jj h22
  have h24 := step i (k0_pay9 (F := Ideal) v9) 23 (by decide) slices_S512x32_o0_23_S512x1 _ r jj h23
  have h25 := step i (k0_pay9 (F := Ideal) v9) 24 (by decide) slices_S512x32_o0_24_S512x1 _ r jj h24
  have h26 := step i (k0_pay9 (F := Ideal) v9) 25 (by decide) slices_S512x32_o0_25_S512x1 _ r jj h25
  have h27 := step i (k0_pay9 (F := Ideal) v9) 26 (by decide) slices_S512x32_o0_26_S512x1 _ r jj h26
  have h28 := step i (k0_pay9 (F := Ideal) v9) 27 (by decide) slices_S512x32_o0_27_S512x1 _ r jj h27
  have h29 := step i (k0_pay9 (F := Ideal) v9) 28 (by decide) slices_S512x32_o0_28_S512x1 _ r jj h28
  have h30 := step i (k0_pay9 (F := Ideal) v9) 29 (by decide) slices_S512x32_o0_29_S512x1 _ r jj h29
  have h31 := step i (k0_pay9 (F := Ideal) v9) 30 (by decide) slices_S512x32_o0_30_S512x1 _ r jj h30
  have h32 := step i (k0_pay9 (F := Ideal) v9) 31 (by decide) slices_S512x32_o0_31_S512x1 _ r jj h31
  refine Eq.trans h32 ?_
  rw [e9, pay7_apply]
  exact upTo_all v9 r _

theorem lhs_tile_0 (j : S512x2048.Idx) (q : dot_S512x760_S760x2048_S512x2048_1_0_0_1_n_n.contr.Idx) :
    (dot_S512x760_S760x2048_S512x2048_1_0_0_1_n_n.lhsIdx j q 0).val = (j 0).val := by
  unfold DotDims.lhsIdx
  rw [dif_neg (show ¬(0 : Fin S512x760.rank) ∈ dot_S512x760_S760x2048_S512x2048_1_0_0_1_n_n.lhsBatch by decide), dif_pos (show (0 : Fin S512x760.rank) ∈ dot_S512x760_S760x2048_S512x2048_1_0_0_1_n_n.lhsNonContracting by decide)]
  rfl

theorem lhs_tile_1 (j : S512x2048.Idx) (q : dot_S512x760_S760x2048_S512x2048_1_0_0_1_n_n.contr.Idx) :
    (dot_S512x760_S760x2048_S512x2048_1_0_0_1_n_n.lhsIdx j q 1).val = (q ⟨0, by decide⟩).val :=
  dot_S512x760_S760x2048_S512x2048_1_0_0_1_n_n.lhsIdx_val_of_single rfl j q

theorem rhs_tile_0 (j : S512x2048.Idx) (q : dot_S512x760_S760x2048_S512x2048_1_0_0_1_n_n.contr.Idx) :
    (dot_S512x760_S760x2048_S512x2048_1_0_0_1_n_n.rhsIdx j q 0).val = (q ⟨0, by decide⟩).val :=
  dot_S512x760_S760x2048_S512x2048_1_0_0_1_n_n.rhsIdx_val_of_single rfl j q

theorem rhs_tile_1 (j : S512x2048.Idx) (q : dot_S512x760_S760x2048_S512x2048_1_0_0_1_n_n.contr.Idx) :
    (dot_S512x760_S760x2048_S512x2048_1_0_0_1_n_n.rhsIdx j q 1).val = (j 1).val := by
  unfold DotDims.rhsIdx
  rw [dif_neg (show ¬(1 : Fin S760x2048.rank) ∈ dot_S512x760_S760x2048_S512x2048_1_0_0_1_n_n.rhsBatch by decide), dif_pos (show (1 : Fin S760x2048.rank) ∈ dot_S512x760_S760x2048_S512x2048_1_0_0_1_n_n.rhsNonContracting by decide)]
  rfl

theorem tile_matmul_apply (P : FVec Ideal S512x760 .bf16) (a : FVec Ideal S760x2048 .bf16) (r : Fin 512) (h : Fin 2048) :
    matmul dot_S512x760_S760x2048_S512x2048_1_0_0_1_n_n none P a (constant (F := Ideal) S512x2048 .f32 0x00000000#32) (ix2 r h)
      = ∑ jj : Fin 760, P (ix2 r jj) * a (ix2 jj h) := by
  simp only [matmul]
  rw [Ideal.matmul_constant_zero_apply, ← Equiv.sum_comp (contrEquiv1 dot_S512x760_S760x2048_S512x2048_1_0_0_1_n_n 760 rfl rfl).symm]
  refine Finset.sum_congr rfl fun k _ => ?_
  have hk := contrEquiv1_symm_val dot_S512x760_S760x2048_S512x2048_1_0_0_1_n_n 760 rfl rfl k
  have el : dot_S512x760_S760x2048_S512x2048_1_0_0_1_n_n.lhsIdx (ix2 r h) ((contrEquiv1 dot_S512x760_S760x2048_S512x2048_1_0_0_1_n_n 760 rfl rfl).symm k) = ix2 r k := funext fun a => Fin.ext (by
    match a with
    | ⟨0, _⟩ => exact lhs_tile_0 _ _
    | ⟨1, _⟩ => exact (lhs_tile_1 _ _).trans hk)
  have er : dot_S512x760_S760x2048_S512x2048_1_0_0_1_n_n.rhsIdx (ix2 r h) ((contrEquiv1 dot_S512x760_S760x2048_S512x2048_1_0_0_1_n_n 760 rfl rfl).symm k) = ix2 k h := funext fun a => Fin.ext (by
    match a with
    | ⟨0, _⟩ => exact (rhs_tile_0 _ _).trans hk
    | ⟨1, _⟩ => exact rhs_tile_1 _ _)
  rw [el, er]

theorem pay3_apply (P1 P2 : FVec Ideal S512x760 .bf16) (a b : Vec Ideal S760x2048 .bf16) (p : Vec Ideal S512x2048 .f32)
    (r : Fin 512) (h : Fin 2048) :
    k0_pay3 (F := Ideal) P1 P2 a b p (ix2 r h)
      = p (ix2 r h) + ((∑ jj : Fin 760, P1 (ix2 r jj) * a (ix2 jj h)) + (∑ jj : Fin 760, P2 (ix2 r jj) * b (ix2 jj h))) := by
  unfold k0_pay3 k0_pay1 k0_pay2
  simp only [shapeCast_self]
  rw [addf_apply, addf_apply, tile_matmul_apply, tile_matmul_apply]

theorem pay4_apply (P1 P2 : FVec Ideal S512x760 .bf16) (a b : Vec Ideal S760x2048 .bf16) (p : Vec Ideal S512x2048 .f32)
    (r : Fin 512) (h : Fin 2048) :
    k0_pay4 (F := Ideal) P1 P2 a b p (ix2 r h)
      = p (ix2 r h) + ((∑ jj : Fin 760, P2 (ix2 r jj) * a (ix2 jj h)) + (∑ jj : Fin 760, P1 (ix2 r jj) * b (ix2 jj h))) := by
  unfold k0_pay4 k0_pay1 k0_pay2
  simp only [shapeCast_self]
  rw [addf_apply, addf_apply, tile_matmul_apply, tile_matmul_apply]

theorem pay5_apply (j : S512x2048.Idx) : k0_pay5 (F := Ideal) j = 0 := by
  unfold k0_pay5
  rw [shapeCast_self]
  exact Ideal.ofBits_zero_f32

theorem pay6_apply (j : S512x2048.Idx) : k0_pay6 (F := Ideal) j = 0 := by
  unfold k0_pay6
  rw [shapeCast_self]
  exact Ideal.ofBits_zero_f32

end Cert.KernelIdeal.Val

end
-- ==== Proof.Val.R0Step.lean ====
import proofs.«417828_j54142357733865_1_alg».proof.Proof.KI.R0Frame
import proofs.«417828_j54142357733865_1_alg».proof.Proof.Spec
import proofs.«417828_j54142357733865_1_alg».proof.Proof.Val.Hot
import Idealize.ShloMosaic.Lib.ValueIdx
import Idealize.ShloMosaic.Lib.Pipeline.Value
import Idealize.ShloMosaic.Lib.Tactic

set_option maxRecDepth 16384

noncomputable section

open scoped BigOperators

namespace Cert.KernelIdeal.Val

open Cert.KernelIdeal Cert.KernelIdeal.Gen Cert.KernelIdeal.Pipe
open Idealize.ShloMosaic Idealize.ShloMosaic.TcCoe Idealize.ShloMosaic.ValueIdx Idealize.SL.Sem
open Idealize.ShloMosaic.Tactic

section Pieces

variable {F : FTy → Type} [FloatOps F]

theorem hz : (![0, 0] : Fin 2 → Nat) = fun _ => 0 := funext fun a => by fin_cases a <;> rfl

theorem sout0_A_0_eq (c : Dev nD) (i : grid0.Coords) (arg2 : Memref sig .tc .vmem S512x32 .i32) (harg2 : arg2.IsWhole) (arg3 : Memref sig .tc .vmem S512x32 .i32) (harg3 : arg3.IsWhole) (arg4 : Memref sig .tc .vmem S760x2048 .bf16) (harg4 : arg4.IsWhole) (arg5 : Memref sig .tc .vmem S760x2048 .bf16) (harg5 : arg5.IsWhole) (arg6 : Memref sig .tc .vmem S512x2048 .f32) (harg6 : arg6.IsWhole) (arg7 : Memref sig .tc .vmem S512x2048 .f32) (harg7 : arg7.IsWhole) (arg8 : Memref sig .tc .vmem S512x2048 .f32) (harg8 : arg8.IsWhole) (arg9 : Memref sig .tc .vmem S512x2048 .f32) (harg9 : arg9.IsWhole) (hc0 : cond0_0 i) (hc1 : ¬cond0_1 i)
    (x0 : Vec F S512x32 .i32) (x1 : Vec F S512x32 .i32) (x2 : Vec F S760x2048 .bf16) (x3 : Vec F S760x2048 .bf16) :
    sout0_A_0 c i arg2 harg2 arg3 harg3 arg4 harg4 arg5 harg5 arg6 harg6 arg7 harg7 arg8 harg8 arg9 harg9 hc0 hc1 x0 x1 x2 x3 = k0_pay3 (prot1 i x0) (prot2 i x1) x2 x3 (k0_pay5 (F := F)) := by
  unfold sout0_A_0
  rw [View.read_writes_junk_eq_canon]
  unfold kernelRun0_A
  dsimp only
  sl_unfold_words
  rw [View.canon_cons_unit_zero (S := S512x2048) hz, View.readCov_unit_zero (S := S512x2048) _ hz]
  simp only [View.readAt_eq_ld, harg2.read_unread, harg3.read_unread, harg4.read_unread, harg5.read_unread, harg8.read_unread, harg9.read_unread,
    View.ld_unit_zero (S := S512x32) hz, View.ld_unit_zero (S := S760x2048) hz, View.ld_unit_zero (S := S512x2048) hz]
  rfl

theorem sout0_A_1_eq (c : Dev nD) (i : grid0.Coords) (arg2 : Memref sig .tc .vmem S512x32 .i32) (harg2 : arg2.IsWhole) (arg3 : Memref sig .tc .vmem S512x32 .i32) (harg3 : arg3.IsWhole) (arg4 : Memref sig .tc .vmem S760x2048 .bf16) (harg4 : arg4.IsWhole) (arg5 : Memref sig .tc .vmem S760x2048 .bf16) (harg5 : arg5.IsWhole) (arg6 : Memref sig .tc .vmem S512x2048 .f32) (harg6 : arg6.IsWhole) (arg7 : Memref sig .tc .vmem S512x2048 .f32) (harg7 : arg7.IsWhole) (arg8 : Memref sig .tc .vmem S512x2048 .f32) (harg8 : arg8.IsWhole) (arg9 : Memref sig .tc .vmem S512x2048 .f32) (harg9 : arg9.IsWhole) (hc0 : cond0_0 i) (hc1 : ¬cond0_1 i)
    (x0 : Vec F S512x32 .i32) (x1 : Vec F S512x32 .i32) (x2 : Vec F S760x2048 .bf16) (x3 : Vec F S760x2048 .bf16) :
    sout0_A_1 c i arg2 harg2 arg3 harg3 arg4 harg4 arg5 harg5 arg6 harg6 arg7 harg7 arg8 harg8 arg9 harg9 hc0 hc1 x0 x1 x2 x3 = k0_pay4 (prot1 i x0) (prot2 i x1) x2 x3 (k0_pay6 (F := F)) := by
  unfold sout0_A_1
  rw [View.read_writes_junk_eq_canon]
  unfold kernelRun0_A
  dsimp only
  sl_unfold_words
  rw [View.canon_cons_unit_zero (S := S512x2048) hz, View.readCov_unit_zero (S := S512x2048) _ hz]
  simp only [View.readAt_eq_ld, harg2.read_unread, harg3.read_unread, harg4.read_unread, harg5.read_unread, harg8.read_unread, harg9.read_unread,
    View.ld_unit_zero (S := S512x32) hz, View.ld_unit_zero (S := S760x2048) hz, View.ld_unit_zero (S := S512x2048) hz]
  rfl

theorem sout0_B_0_eq (c : Dev nD) (i : grid0.Coords) (arg2 : Memref sig .tc .vmem S512x32 .i32) (harg2 : arg2.IsWhole) (arg3 : Memref sig .tc .vmem S512x32 .i32) (harg3 : arg3.IsWhole) (arg4 : Memref sig .tc .vmem S760x2048 .bf16) (harg4 : arg4.IsWhole) (arg5 : Memref sig .tc .vmem S760x2048 .bf16) (harg5 : arg5.IsWhole) (arg6 : Memref sig .tc .vmem S512x2048 .f32) (harg6 : arg6.IsWhole) (arg7 : Memref sig .tc .vmem S512x2048 .f32) (harg7 : arg7.IsWhole) (arg8 : Memref sig .tc .vmem S512x2048 .f32) (harg8 : arg8.IsWhole) (arg9 : Memref sig .tc .vmem S512x2048 .f32) (harg9 : arg9.IsWhole) (hc0 : ¬cond0_0 i) (hc1 : ¬cond0_1 i)
    (x0 : Vec F S512x32 .i32) (x1 : Vec F S512x32 .i32) (x2 : Vec F S760x2048 .bf16) (x3 : Vec F S760x2048 .bf16) (xs0 : Vec F S512x2048 .f32) (xs1 : Vec F S512x2048 .f32) :
    sout0_B_0 c i arg2 harg2 arg3 harg3 arg4 harg4 arg5 harg5 arg6 harg6 arg7 harg7 arg8 harg8 arg9 harg9 hc0 hc1 x0 x1 x2 x3 xs0 xs1 = k0_pay3 (prot1 i x0) (prot2 i x1) x2 x3 xs0 := by
  unfold sout0_B_0
  rw [View.read_writes_junk_eq_canon]
  unfold kernelRun0_B
  dsimp only
  sl_unfold_words
  rw [View.canon_unit_zero hz]
  simp only [View.readAt_eq_ld, harg2.read_unread, harg3.read_unread, harg4.read_unread, harg5.read_unread, harg8.read_unread, harg9.read_unread,
    View.ld_unit_zero (S := S512x32) hz, View.ld_unit_zero (S := S760x2048) hz, View.ld_unit_zero (S := S512x2048) hz]
  rfl

theorem sout0_B_1_eq (c : Dev nD) (i : grid0.Coords) (arg2 : Memref sig .tc .vmem S512x32 .i32) (harg2 : arg2.IsWhole) (arg3 : Memref sig .tc .vmem S512x32 .i32) (harg3 : arg3.IsWhole) (arg4 : Memref sig .tc .vmem S760x2048 .bf16) (harg4 : arg4.IsWhole) (arg5 : Memref sig .tc .vmem S760x2048 .bf16) (harg5 : arg5.IsWhole) (arg6 : Memref sig .tc .vmem S512x2048 .f32) (harg6 : arg6.IsWhole) (arg7 : Memref sig .tc .vmem S512x2048 .f32) (harg7 : arg7.IsWhole) (arg8 : Memref sig .tc .vmem S512x2048 .f32) (harg8 : arg8.IsWhole) (arg9 : Memref sig .tc .vmem S512x2048 .f32) (harg9 : arg9.IsWhole) (hc0 : ¬cond0_0 i) (hc1 : ¬cond0_1 i)
    (x0 : Vec F S512x32 .i32) (x1 : Vec F S512x32 .i32) (x2 : Vec F S760x2048 .bf16) (x3 : Vec F S760x2048 .bf16) (xs0 : Vec F S512x2048 .f32) (xs1 : Vec F S512x2048 .f32) :
    sout0_B_1 c i arg2 harg2 arg3 harg3 arg4 harg4 arg5 harg5 arg6 harg6 arg7 harg7 arg8 harg8 arg9 harg9 hc0 hc1 x0 x1 x2 x3 xs0 xs1 = k0_pay4 (prot1 i x0) (prot2 i x1) x2 x3 xs1 := by
  unfold sout0_B_1
  rw [View.read_writes_junk_eq_canon]
  unfold kernelRun0_B
  dsimp only
  sl_unfold_words
  rw [View.canon_unit_zero hz]
  simp only [View.readAt_eq_ld, harg2.read_unread, harg3.read_unread, harg4.read_unread, harg5.read_unread, harg8.read_unread, harg9.read_unread,
    View.ld_unit_zero (S := S512x32) hz, View.ld_unit_zero (S := S760x2048) hz, View.ld_unit_zero (S := S512x2048) hz]
  rfl

theorem sout0_C_0_eq (c : Dev nD) (i : grid0.Coords) (arg2 : Memref sig .tc .vmem S512x32 .i32) (harg2 : arg2.IsWhole) (arg3 : Memref sig .tc .vmem S512x32 .i32) (harg3 : arg3.IsWhole) (arg4 : Memref sig .tc .vmem S760x2048 .bf16) (harg4 : arg4.IsWhole) (arg5 : Memref sig .tc .vmem S760x2048 .bf16) (harg5 : arg5.IsWhole) (arg6 : Memref sig .tc .vmem S512x2048 .f32) (harg6 : arg6.IsWhole) (arg7 : Memref sig .tc .vmem S512x2048 .f32) (harg7 : arg7.IsWhole) (arg8 : Memref sig .tc .vmem S512x2048 .f32) (harg8 : arg8.IsWhole) (arg9 : Memref sig .tc .vmem S512x2048 .f32) (harg9 : arg9.IsWhole) (hc0 : ¬cond0_0 i) (hc1 : cond0_1 i)
    (x0 : Vec F S512x32 .i32) (x1 : Vec F S512x32 .i32) (x2 : Vec F S760x2048 .bf16) (x3 : Vec F S760x2048 .bf16) (xs0 : Vec F S512x2048 .f32) (xs1 : Vec F S512x2048 .f32) :
    sout0_C_0 c i arg2 harg2 arg3 harg3 arg4 harg4 arg5 harg5 arg6 harg6 arg7 harg7 arg8 harg8 arg9 harg9 hc0 hc1 x0 x1 x2 x3 xs0 xs1 = k0_pay3 (prot1 i x0) (prot2 i x1) x2 x3 xs0 := by
  unfold sout0_C_0
  rw [View.read_writes_junk_eq_canon]
  unfold kernelRun0_C
  dsimp only
  sl_unfold_words
  rw [View.canon_unit_zero hz]
  simp only [View.readAt_eq_ld, harg2.read_unread, harg3.read_unread, harg4.read_unread, harg5.read_unread, harg8.read_unread, harg9.read_unread,
    View.ld_unit_zero (S := S512x32) hz, View.ld_unit_zero (S := S760x2048) hz, View.ld_unit_zero (S := S512x2048) hz]
  rfl

theorem sout0_C_1_eq (c : Dev nD) (i : grid0.Coords) (arg2 : Memref sig .tc .vmem S512x32 .i32) (harg2 : arg2.IsWhole) (arg3 : Memref sig .tc .vmem S512x32 .i32) (harg3 : arg3.IsWhole) (arg4 : Memref sig .tc .vmem S760x2048 .bf16) (harg4 : arg4.IsWhole) (arg5 : Memref sig .tc .vmem S760x2048 .bf16) (harg5 : arg5.IsWhole) (arg6 : Memref sig .tc .vmem S512x2048 .f32) (harg6 : arg6.IsWhole) (arg7 : Memref sig .tc .vmem S512x2048 .f32) (harg7 : arg7.IsWhole) (arg8 : Memref sig .tc .vmem S512x2048 .f32) (harg8 : arg8.IsWhole) (arg9 : Memref sig .tc .vmem S512x2048 .f32) (harg9 : arg9.IsWhole) (hc0 : ¬cond0_0 i) (hc1 : cond0_1 i)
    (x0 : Vec F S512x32 .i32) (x1 : Vec F S512x32 .i32) (x2 : Vec F S760x2048 .bf16) (x3 : Vec F S760x2048 .bf16) (xs0 : Vec F S512x2048 .f32) (xs1 : Vec F S512x2048 .f32) :
    sout0_C_1 c i arg2 harg2 arg3 harg3 arg4 harg4 arg5 harg5 arg6 harg6 arg7 harg7 arg8 harg8 arg9 harg9 hc0 hc1 x0 x1 x2 x3 xs0 xs1 = k0_pay4 (prot1 i x0) (prot2 i x1) x2 x3 xs1 := by
  unfold sout0_C_1
  rw [View.read_writes_junk_eq_canon]
  unfold kernelRun0_C
  dsimp only
  sl_unfold_words
  rw [View.canon_unit_zero hz]
  simp only [View.readAt_eq_ld, harg2.read_unread, harg3.read_unread, harg4.read_unread, harg5.read_unread, harg8.read_unread, harg9.read_unread,
    View.ld_unit_zero (S := S512x32) hz, View.ld_unit_zero (S := S760x2048) hz, View.ld_unit_zero (S := S512x2048) hz]
  rfl

theorem out0_C_4_eq (c : Dev nD) (i : grid0.Coords) (arg2 : Memref sig .tc .vmem S512x32 .i32) (harg2 : arg2.IsWhole) (arg3 : Memref sig .tc .vmem S512x32 .i32) (harg3 : arg3.IsWhole) (arg4 : Memref sig .tc .vmem S760x2048 .bf16) (harg4 : arg4.IsWhole) (arg5 : Memref sig .tc .vmem S760x2048 .bf16) (harg5 : arg5.IsWhole) (arg6 : Memref sig .tc .vmem S512x2048 .f32) (harg6 : arg6.IsWhole) (arg7 : Memref sig .tc .vmem S512x2048 .f32) (harg7 : arg7.IsWhole) (arg8 : Memref sig .tc .vmem S512x2048 .f32) (harg8 : arg8.IsWhole) (arg9 : Memref sig .tc .vmem S512x2048 .f32) (harg9 : arg9.IsWhole) (hc0 : ¬cond0_0 i) (hc1 : cond0_1 i)
    (x0 : Vec F S512x32 .i32) (x1 : Vec F S512x32 .i32) (x2 : Vec F S760x2048 .bf16) (x3 : Vec F S760x2048 .bf16) (xs0 : Vec F S512x2048 .f32) (xs1 : Vec F S512x2048 .f32) :
    out0_C_4 c i arg2 harg2 arg3 harg3 arg4 harg4 arg5 harg5 arg6 harg6 arg7 harg7 arg8 harg8 arg9 harg9 hc0 hc1 x0 x1 x2 x3 xs0 xs1 = k0_pay3 (prot1 i x0) (prot2 i x1) x2 x3 xs0 := by
  unfold out0_C_4
  rw [View.read_writes_junk_eq_canon]
  unfold kernelRun0_C
  dsimp only
  sl_unfold_words
  rw [View.canon_unit_zero hz, View.readCov_unit_zero (S := S512x2048) _ hz]
  simp only [View.readAt_eq_ld, harg2.read_unread, harg3.read_unread, harg4.read_unread, harg5.read_unread, harg8.read_unread, harg9.read_unread,
    View.ld_unit_zero (S := S512x32) hz, View.ld_unit_zero (S := S760x2048) hz, View.ld_unit_zero (S := S512x2048) hz]
  rfl

theorem out0_C_5_eq (c : Dev nD) (i : grid0.Coords) (arg2 : Memref sig .tc .vmem S512x32 .i32) (harg2 : arg2.IsWhole) (arg3 : Memref sig .tc .vmem S512x32 .i32) (harg3 : arg3.IsWhole) (arg4 : Memref sig .tc .vmem S760x2048 .bf16) (harg4 : arg4.IsWhole) (arg5 : Memref sig .tc .vmem S760x2048 .bf16) (harg5 : arg5.IsWhole) (arg6 : Memref sig .tc .vmem S512x2048 .f32) (harg6 : arg6.IsWhole) (arg7 : Memref sig .tc .vmem S512x2048 .f32) (harg7 : arg7.IsWhole) (arg8 : Memref sig .tc .vmem S512x2048 .f32) (harg8 : arg8.IsWhole) (arg9 : Memref sig .tc .vmem S512x2048 .f32) (harg9 : arg9.IsWhole) (hc0 : ¬cond0_0 i) (hc1 : cond0_1 i)
    (x0 : Vec F S512x32 .i32) (x1 : Vec F S512x32 .i32) (x2 : Vec F S760x2048 .bf16) (x3 : Vec F S760x2048 .bf16) (xs0 : Vec F S512x2048 .f32) (xs1 : Vec F S512x2048 .f32) :
    out0_C_5 c i arg2 harg2 arg3 harg3 arg4 harg4 arg5 harg5 arg6 harg6 arg7 harg7 arg8 harg8 arg9 harg9 hc0 hc1 x0 x1 x2 x3 xs0 xs1 = k0_pay4 (prot1 i x0) (prot2 i x1) x2 x3 xs1 := by
  unfold out0_C_5
  rw [View.read_writes_junk_eq_canon]
  unfold kernelRun0_C
  dsimp only
  sl_unfold_words
  rw [View.canon_unit_zero hz, View.readCov_unit_zero (S := S512x2048) _ hz]
  simp only [View.readAt_eq_ld, harg2.read_unread, harg3.read_unread, harg4.read_unread, harg5.read_unread, harg8.read_unread, harg9.read_unread,
    View.ld_unit_zero (S := S512x32) hz, View.ld_unit_zero (S := S760x2048) hz, View.ld_unit_zero (S := S512x2048) hz]
  rfl

end Pieces

variable (V : (c : Dev nD) → (b : Ref sig .tc) → Buf (Elt Ideal) ((c : Thread nD τ).loc b))

abbrev bT1 (c : Dev nD) (t : Fin cfg0.N) : Vec Ideal S512x32 .i32 := iblk0 V c 0 t
abbrev bT2 (c : Dev nD) (t : Fin cfg0.N) : Vec Ideal S512x32 .i32 := iblk0 V c 1 t
abbrev bA (c : Dev nD) (t : Fin cfg0.N) : Vec Ideal S760x2048 .bf16 := iblk0 V c 2 t
abbrev bB (c : Dev nD) (t : Fin cfg0.N) : Vec Ideal S760x2048 .bf16 := iblk0 V c 3 t

def hotBlk (x : Vec Ideal S512x32 .i32) (r : Fin 512) (j : ℕ) : EReal :=
  if ∃ k : Fin 32, x (ix2 r k) = BitVec.ofNat 32 j then 1 else 0

def stepVal (x y : Vec Ideal S512x32 .i32) (a b : Vec Ideal S760x2048 .bf16) (p : ℕ) (r : Fin 512) (h : Fin 2048) : EReal :=
  (∑ jj : Fin 760, hotBlk x r (760 * p + jj.val) * a (ix2 jj h)) + (∑ jj : Fin 760, hotBlk y r (760 * p + jj.val) * b (ix2 jj h))

theorem prot1_hot (i : grid0.Coords) (x : Vec Ideal S512x32 .i32) (r : Fin 512) (jj : Fin 760) :
    prot1 (F := Ideal) i x (ix2 r jj) = hotBlk x r (760 * (i 1).val + jj.val) := by
  unfold hotBlk
  exact prot1_apply i x r jj

theorem prot2_hot (i : grid0.Coords) (y : Vec Ideal S512x32 .i32) (r : Fin 512) (jj : Fin 760) :
    prot2 (F := Ideal) i y (ix2 r jj) = hotBlk y r (760 * (i 1).val + jj.val) := by
  unfold hotBlk
  exact prot2_apply i y r jj

theorem pay3_step (i : grid0.Coords) (x y : Vec Ideal S512x32 .i32) (a b : Vec Ideal S760x2048 .bf16)
    (p : Vec Ideal S512x2048 .f32) (r : Fin 512) (h : Fin 2048) :
    k0_pay3 (F := Ideal) (prot1 i x) (prot2 i y) a b p (ix2 r h) = p (ix2 r h) + stepVal x y a b (i 1).val r h := by
  rw [pay3_apply]
  unfold stepVal
  simp only [prot1_hot, prot2_hot]

theorem pay4_step (i : grid0.Coords) (x y : Vec Ideal S512x32 .i32) (a b : Vec Ideal S760x2048 .bf16)
    (p : Vec Ideal S512x2048 .f32) (r : Fin 512) (h : Fin 2048) :
    k0_pay4 (F := Ideal) (prot1 i x) (prot2 i y) a b p (ix2 r h) = p (ix2 r h) + stepVal y x a b (i 1).val r h := by
  rw [pay4_apply]
  unfold stepVal
  simp only [prot1_hot, prot2_hot]

theorem step_A0 (c : Dev nD) (t : Fin cfg0.N) (h0 : cond0_0 (grid0.coords t)) (h1 : ¬cond0_1 (grid0.coords t)) (r : Fin 512) (h : Fin 2048) :
    (atA (F := Ideal) V c t h0 h1).2.2.1 (ix2 r h) = stepVal (bT1 V c t) (bT2 V c t) (bA V c t) (bB V c t) (grid0.coords t 1).val r h := by
  dsimp only [atA]
  refine (congrFun (sout0_A_0_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) h0 h1 (bT1 V c t) (bT2 V c t) (bA V c t) (bB V c t)) (ix2 r h)).trans ?_
  rw [pay3_step, pay5_apply, zero_add]
theorem step_A1 (c : Dev nD) (t : Fin cfg0.N) (h0 : cond0_0 (grid0.coords t)) (h1 : ¬cond0_1 (grid0.coords t)) (r : Fin 512) (h : Fin 2048) :
    (atA (F := Ideal) V c t h0 h1).2.2.2 (ix2 r h) = stepVal (bT2 V c t) (bT1 V c t) (bA V c t) (bB V c t) (grid0.coords t 1).val r h := by
  dsimp only [atA]
  refine (congrFun (sout0_A_1_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) h0 h1 (bT1 V c t) (bT2 V c t) (bA V c t) (bB V c t)) (ix2 r h)).trans ?_
  rw [pay4_step, pay6_apply, zero_add]
theorem step_B0 (c : Dev nD) (t : Fin cfg0.N) (h0 : ¬cond0_0 (grid0.coords t)) (h1 : ¬cond0_1 (grid0.coords t)) (p0 p1 : Vec Ideal S512x2048 .f32) (r : Fin 512) (h : Fin 2048) :
    (atB (F := Ideal) V c t h0 h1 p0 p1).2.2.1 (ix2 r h) = p0 (ix2 r h) + stepVal (bT1 V c t) (bT2 V c t) (bA V c t) (bB V c t) (grid0.coords t 1).val r h := by
  dsimp only [atB]
  refine (congrFun (sout0_B_0_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) h0 h1 (bT1 V c t) (bT2 V c t) (bA V c t) (bB V c t) p0 p1) (ix2 r h)).trans ?_
  exact pay3_step _ _ _ _ _ _ r h
theorem step_B1 (c : Dev nD) (t : Fin cfg0.N) (h0 : ¬cond0_0 (grid0.coords t)) (h1 : ¬cond0_1 (grid0.coords t)) (p0 p1 : Vec Ideal S512x2048 .f32) (r : Fin 512) (h : Fin 2048) :
    (atB (F := Ideal) V c t h0 h1 p0 p1).2.2.2 (ix2 r h) = p1 (ix2 r h) + stepVal (bT2 V c t) (bT1 V c t) (bA V c t) (bB V c t) (grid0.coords t 1).val r h := by
  dsimp only [atB]
  refine (congrFun (sout0_B_1_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) h0 h1 (bT1 V c t) (bT2 V c t) (bA V c t) (bB V c t) p0 p1) (ix2 r h)).trans ?_
  exact pay4_step _ _ _ _ _ _ r h
theorem step_C0 (c : Dev nD) (t : Fin cfg0.N) (h0 : ¬cond0_0 (grid0.coords t)) (h1 : cond0_1 (grid0.coords t)) (p0 p1 : Vec Ideal S512x2048 .f32) (r : Fin 512) (h : Fin 2048) :
    (atC (F := Ideal) V c t h0 h1 p0 p1).2.2.1 (ix2 r h) = p0 (ix2 r h) + stepVal (bT1 V c t) (bT2 V c t) (bA V c t) (bB V c t) (grid0.coords t 1).val r h := by
  dsimp only [atC]
  refine (congrFun (sout0_C_0_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) h0 h1 (bT1 V c t) (bT2 V c t) (bA V c t) (bB V c t) p0 p1) (ix2 r h)).trans ?_
  exact pay3_step _ _ _ _ _ _ r h
theorem step_C1 (c : Dev nD) (t : Fin cfg0.N) (h0 : ¬cond0_0 (grid0.coords t)) (h1 : cond0_1 (grid0.coords t)) (p0 p1 : Vec Ideal S512x2048 .f32) (r : Fin 512) (h : Fin 2048) :
    (atC (F := Ideal) V c t h0 h1 p0 p1).2.2.2 (ix2 r h) = p1 (ix2 r h) + stepVal (bT2 V c t) (bT1 V c t) (bA V c t) (bB V c t) (grid0.coords t 1).val r h := by
  dsimp only [atC]
  refine (congrFun (sout0_C_1_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) h0 h1 (bT1 V c t) (bT2 V c t) (bA V c t) (bB V c t) p0 p1) (ix2 r h)).trans ?_
  exact pay4_step _ _ _ _ _ _ r h

theorem out_C4 (c : Dev nD) (t : Fin cfg0.N) (h0 : ¬cond0_0 (grid0.coords t)) (h1 : cond0_1 (grid0.coords t)) (p0 p1 : Vec Ideal S512x2048 .f32) :
    (atC (F := Ideal) V c t h0 h1 p0 p1).1 = (atC (F := Ideal) V c t h0 h1 p0 p1).2.2.1 := by
  dsimp only [atC]
  exact (out0_C_4_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) h0 h1 (bT1 V c t) (bT2 V c t) (bA V c t) (bB V c t) p0 p1).trans (sout0_C_0_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) h0 h1 (bT1 V c t) (bT2 V c t) (bA V c t) (bB V c t) p0 p1).symm
theorem out_C5 (c : Dev nD) (t : Fin cfg0.N) (h0 : ¬cond0_0 (grid0.coords t)) (h1 : cond0_1 (grid0.coords t)) (p0 p1 : Vec Ideal S512x2048 .f32) :
    (atC (F := Ideal) V c t h0 h1 p0 p1).2.1 = (atC (F := Ideal) V c t h0 h1 p0 p1).2.2.2 := by
  dsimp only [atC]
  exact (out0_C_5_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) h0 h1 (bT1 V c t) (bT2 V c t) (bA V c t) (bB V c t) p0 p1).trans (sout0_C_1_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) h0 h1 (bT1 V c t) (bT2 V c t) (bA V c t) (bB V c t) p0 p1).symm

end Cert.KernelIdeal.Val

end
-- ==== Proof.Val.R0Value.lean ====
import proofs.«417828_j54142357733865_1_alg».proof.Proof.Val.R0Step
import Idealize.ShloMosaic.Lib.Pipeline.Value

set_option maxRecDepth 16384

noncomputable section

open scoped BigOperators

namespace Cert.KernelIdeal.Val

open Cert.KernelIdeal Cert.KernelIdeal.Gen Cert.KernelIdeal.Pipe
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem coords0 : ∀ t : Fin cfg0.N, (grid0.coords t 0).val = t.val / 25 ∧ (grid0.coords t 1).val = t.val % 25 :=
  (by decide +kernel : ∀ t : Fin grid0.N, (grid0.coords t 0).val = t.val / 25 ∧ (grid0.coords t 1).val = t.val % 25)

theorem blockIdx0 : ∀ t : Fin cfg0.N,
    win0_0.index t (0 : Fin 2) = t.val / 25 ∧ win0_0.index t (1 : Fin 2) = 0
    ∧ win0_1.index t (0 : Fin 2) = t.val / 25 ∧ win0_1.index t (1 : Fin 2) = 0
    ∧ win0_2.index t (0 : Fin 2) = t.val % 25 ∧ win0_2.index t (1 : Fin 2) = 0
    ∧ win0_3.index t (0 : Fin 2) = t.val % 25 ∧ win0_3.index t (1 : Fin 2) = 0
    ∧ win0_4.index t (0 : Fin 2) = t.val / 25 ∧ win0_4.index t (1 : Fin 2) = 0
    ∧ win0_5.index t (0 : Fin 2) = t.val / 25 ∧ win0_5.index t (1 : Fin 2) = 0 :=
  (by decide +kernel : ∀ t : Fin grid0.N, _)

abbrev idsA (c : Dev nD) : (⟨2, ![4096, 32]⟩ : Shape).Idx → BitVec 32 := V c main_v10
abbrev idsB (c : Dev nD) : (⟨2, ![4096, 32]⟩ : Shape).Idx → BitVec 32 := V c main_v17

abbrev wA (c : Dev nD) : (⟨2, ![19000, 2048]⟩ : Shape).Idx → EReal := V c main_v19
abbrev wB (c : Dev nD) : (⟨2, ![19000, 2048]⟩ : Shape).Idx → EReal := V c main_v21

def pairAt (n : ℕ) (hn : n < cfg0.N) (r : Fin 512) : Fin 4096 :=
  ⟨512 * (n / 25) + r.val, by have hN : cfg0.N = 200 := N_0; have := r.isLt; omega⟩

def protAt (n : ℕ) (jj : Fin 760) : Fin 19000 :=
  ⟨760 * (n % 25) + jj.val, by have := jj.isLt; omega⟩

theorem bT1_read (c : Dev nD) (t : Fin cfg0.N) (r : Fin 512) (k : Fin 32) :
    bT1 V c t (ix2 r k) = idsA V c (ix2 (pairAt t.val t.isLt r) k) := by
  obtain ⟨e0, e1, -⟩ := blockIdx0 t
  show V c main_v10 (((cfg0.win 0).blk t).view.emb (ix2 r k)) = V c main_v10 (ix2 (pairAt t.val t.isLt r) k)
  refine congrArg (V c main_v10) (funext fun a => Fin.ext ?_)
  match a with
  | ⟨0, _⟩ => show win0_0.index t (0 : Fin 2) * 512 + 1 * r.val = 512 * (t.val / 25) + r.val; rw [e0]; omega
  | ⟨1, _⟩ => show win0_0.index t (1 : Fin 2) * 32 + 1 * k.val = k.val; rw [e1]; omega

theorem bT2_read (c : Dev nD) (t : Fin cfg0.N) (r : Fin 512) (k : Fin 32) :
    bT2 V c t (ix2 r k) = idsB V c (ix2 (pairAt t.val t.isLt r) k) := by
  obtain ⟨-, -, e0, e1, -⟩ := blockIdx0 t
  show V c main_v17 (((cfg0.win 1).blk t).view.emb (ix2 r k)) = V c main_v17 (ix2 (pairAt t.val t.isLt r) k)
  refine congrArg (V c main_v17) (funext fun a => Fin.ext ?_)
  match a with
  | ⟨0, _⟩ => show win0_1.index t (0 : Fin 2) * 512 + 1 * r.val = 512 * (t.val / 25) + r.val; rw [e0]; omega
  | ⟨1, _⟩ => show win0_1.index t (1 : Fin 2) * 32 + 1 * k.val = k.val; rw [e1]; omega

theorem bA_read (c : Dev nD) (t : Fin cfg0.N) (jj : Fin 760) (h : Fin 2048) :
    bA V c t (ix2 jj h) = wA V c (ix2 (protAt t.val jj) h) := by
  obtain ⟨-, -, -, -, e0, e1, -⟩ := blockIdx0 t
  show V c main_v19 (((cfg0.win 2).blk t).view.emb (ix2 jj h)) = V c main_v19 (ix2 (protAt t.val jj) h)
  refine congrArg (V c main_v19) (funext fun a => Fin.ext ?_)
  match a with
  | ⟨0, _⟩ => show win0_2.index t (0 : Fin 2) * 760 + 1 * jj.val = 760 * (t.val % 25) + jj.val; rw [e0]; omega
  | ⟨1, _⟩ => show win0_2.index t (1 : Fin 2) * 2048 + 1 * h.val = h.val; rw [e1]; omega

theorem bB_read (c : Dev nD) (t : Fin cfg0.N) (jj : Fin 760) (h : Fin 2048) :
    bB V c t (ix2 jj h) = wB V c (ix2 (protAt t.val jj) h) := by
  obtain ⟨-, -, -, -, -, -, e0, e1, -⟩ := blockIdx0 t
  show V c main_v21 (((cfg0.win 3).blk t).view.emb (ix2 jj h)) = V c main_v21 (ix2 (protAt t.val jj) h)
  refine congrArg (V c main_v21) (funext fun a => Fin.ext ?_)
  match a with
  | ⟨0, _⟩ => show win0_3.index t (0 : Fin 2) * 760 + 1 * jj.val = 760 * (t.val % 25) + jj.val; rw [e0]; omega
  | ⟨1, _⟩ => show win0_3.index t (1 : Fin 2) * 2048 + 1 * h.val = h.val; rw [e1]; omega

theorem rowOf_protAt (A : (⟨2, ![19000, 2048]⟩ : Shape).Idx → EReal) (n : ℕ) (jj : Fin 760) (h : Fin 2048) :
    Cert.Spec.rowOf A (760 * (n % 25) + jj.val) h = A (ix2 (protAt n jj) h) := by
  unfold Cert.Spec.rowOf
  exact dif_pos (protAt n jj).isLt

theorem ite_of_iff {p q : Prop} (dp : Decidable p) (dq : Decidable q) (e : p ↔ q) (x y : EReal) :
    @ite EReal p dp x y = @ite EReal q dq x y := by
  by_cases hp : p
  · rw [if_pos hp, if_pos (e.mp hp)]
  · rw [if_neg hp, if_neg (fun hq => hp (e.mpr hq))]

theorem hotBlk_T1 (c : Dev nD) (t : Fin cfg0.N) (r : Fin 512) (j : ℕ) :
    hotBlk (bT1 V c t) r j = Cert.Spec.hot (idsA V c) (pairAt t.val t.isLt r) j := by
  unfold hotBlk Cert.Spec.hot
  exact ite_of_iff _ _ (exists_congr fun k => by rw [bT1_read V c t r k]) 1 0

theorem hotBlk_T2 (c : Dev nD) (t : Fin cfg0.N) (r : Fin 512) (j : ℕ) :
    hotBlk (bT2 V c t) r j = Cert.Spec.hot (idsB V c) (pairAt t.val t.isLt r) j := by
  unfold hotBlk Cert.Spec.hot
  exact ite_of_iff _ _ (exists_congr fun k => by rw [bT2_read V c t r k]) 1 0

theorem stepVal_eq (c : Dev nD) (t : Fin cfg0.N) (r : Fin 512) (h : Fin 2048) :
    stepVal (bT1 V c t) (bT2 V c t) (bA V c t) (bB V c t) (t.val % 25) r h
      = Cert.Spec.accStep (idsA V c) (idsB V c) (wA V c) (wB V c) (pairAt t.val t.isLt r) h (t.val % 25) := by
  unfold stepVal Cert.Spec.accStep
  refine congrArg₂ (· + ·) (Finset.sum_congr rfl fun jj _ => ?_) (Finset.sum_congr rfl fun jj _ => ?_)
  · rw [hotBlk_T1 V c t r, bA_read V c t jj h, rowOf_protAt]
  · rw [hotBlk_T2 V c t r, bB_read V c t jj h, rowOf_protAt]

theorem stepVal_eq' (c : Dev nD) (t : Fin cfg0.N) (r : Fin 512) (h : Fin 2048) :
    stepVal (bT2 V c t) (bT1 V c t) (bA V c t) (bB V c t) (t.val % 25) r h
      = Cert.Spec.accStep (idsB V c) (idsA V c) (wA V c) (wB V c) (pairAt t.val t.isLt r) h (t.val % 25) := by
  unfold stepVal Cert.Spec.accStep
  refine congrArg₂ (· + ·) (Finset.sum_congr rfl fun jj _ => ?_) (Finset.sum_congr rfl fun jj _ => ?_)
  · rw [hotBlk_T2 V c t r, bA_read V c t jj h, rowOf_protAt]
  · rw [hotBlk_T1 V c t r, bB_read V c t jj h, rowOf_protAt]

theorem pairAt_pred (n : ℕ) (hn : n < cfg0.N) (h0 : ¬n % 25 = 0) (hn' : n - 1 < cfg0.N) (r : Fin 512) :
    pairAt (n - 1) hn' r = pairAt n hn r :=
  Fin.ext (by show 512 * ((n - 1) / 25) + r.val = 512 * (n / 25) + r.val; omega)

theorem accUpTo_succ (ta tb : (⟨2, ![4096, 32]⟩ : Shape).Idx → BitVec 32) (A B : (⟨2, ![19000, 2048]⟩ : Shape).Idx → EReal)
    (b : Fin 4096) (h : Fin 2048) (n : ℕ) :
    Cert.Spec.accUpTo ta tb A B b h (n + 1) = Cert.Spec.accUpTo ta tb A B b h n + Cert.Spec.accStep ta tb A B b h n := by
  unfold Cert.Spec.accUpTo
  exact Finset.sum_range_succ _ n

theorem accUpTo_one (ta tb : (⟨2, ![4096, 32]⟩ : Shape).Idx → BitVec 32) (A B : (⟨2, ![19000, 2048]⟩ : Shape).Idx → EReal)
    (b : Fin 4096) (h : Fin 2048) :
    Cert.Spec.accUpTo ta tb A B b h 1 = Cert.Spec.accStep ta tb A B b h 0 := by
  unfold Cert.Spec.accUpTo
  exact Finset.sum_range_one _

theorem acc_inv (c : Dev nD) : ∀ (n : ℕ) (hn : n < cfg0.N) (r : Fin 512) (h : Fin 2048),
    (outsAt0 (F := Ideal) V c n hn).2.2.1 (ix2 r h)
        = Cert.Spec.accUpTo (idsA V c) (idsB V c) (wA V c) (wB V c) (pairAt n hn r) h (n % 25 + 1)
    ∧ (outsAt0 (F := Ideal) V c n hn).2.2.2 (ix2 r h)
        = Cert.Spec.accUpTo (idsB V c) (idsA V c) (wA V c) (wB V c) (pairAt n hn r) h (n % 25 + 1) := by
  intro n
  induction n using Nat.strong_induction_on with
  | _ n ih =>
    intro hn r h
    have hN : cfg0.N = 200 := N_0
    have hc1 : (grid0.coords (⟨n, hn⟩ : Fin cfg0.N) 1).val = n % 25 := (coords0 ⟨n, hn⟩).2
    by_cases h0 : n % 25 = 0
    · have h1 : ¬n % 25 = 24 := by omega
      rw [outsAt0_A V c ⟨n, hn⟩ h0 h1]
      constructor
      · refine (step_A0 V c ⟨n, hn⟩ _ _ r h).trans ?_
        rw [hc1, stepVal_eq V c ⟨n, hn⟩ r h, h0, accUpTo_one]
      · refine (step_A1 V c ⟨n, hn⟩ _ _ r h).trans ?_
        rw [hc1, stepVal_eq' V c ⟨n, hn⟩ r h, h0, accUpTo_one]
    · have hn' : n - 1 < cfg0.N := by omega
      have hm : (n - 1) % 25 + 1 = n % 25 := by omega
      obtain ⟨i0, i1⟩ := ih (n - 1) (by omega) hn' r h
      rw [pairAt_pred n hn h0 hn' r, hm] at i0 i1
      by_cases h1 : n % 25 = 24
      · rw [outsAt0_C V c ⟨n, hn⟩ h0 h1]
        constructor
        · refine (step_C0 V c ⟨n, hn⟩ _ _ _ _ r h).trans ?_
          rw [hc1, stepVal_eq V c ⟨n, hn⟩ r h, accUpTo_succ]
          exact congrArg (· + _) i0
        · refine (step_C1 V c ⟨n, hn⟩ _ _ _ _ r h).trans ?_
          rw [hc1, stepVal_eq' V c ⟨n, hn⟩ r h, accUpTo_succ]
          exact congrArg (· + _) i1
      · rw [outsAt0_B V c ⟨n, hn⟩ h0 h1]
        constructor
        · refine (step_B0 V c ⟨n, hn⟩ _ _ _ _ r h).trans ?_
          rw [hc1, stepVal_eq V c ⟨n, hn⟩ r h, accUpTo_succ]
          exact congrArg (· + _) i0
        · refine (step_B1 V c ⟨n, hn⟩ _ _ _ _ r h).trans ?_
          rw [hc1, stepVal_eq' V c ⟨n, hn⟩ r h, accUpTo_succ]
          exact congrArg (· + _) i1

theorem out4_eq_acc (c : Dev nD) (t : Fin cfg0.N) (h24 : t.val % 25 = 24) :
    (outsAt0 (F := Ideal) V c t.val t.isLt).1 = (outsAt0 (F := Ideal) V c t.val t.isLt).2.2.1 := by
  have h0 : ¬t.val % 25 = 0 := by omega
  rw [outsAt0_C V c t h0 h24]
  exact out_C4 V c t _ _ _ _

theorem out5_eq_acc (c : Dev nD) (t : Fin cfg0.N) (h24 : t.val % 25 = 24) :
    (outsAt0 (F := Ideal) V c t.val t.isLt).2.1 = (outsAt0 (F := Ideal) V c t.val t.isLt).2.2.2 := by
  have h0 : ¬t.val % 25 = 0 := by omega
  rw [outsAt0_C V c t h0 h24]
  exact out_C5 V c t _ _ _ _

theorem flushed0_4_eq (c : Dev nD) (t : Fin cfg0.N) (hf : (cfg0.win 4).flush t = true) :
    (dat0 (F := Ideal) V c).flushed 4 t
      = ((cfg0.win 4).blk t).view.read (Elt Ideal) (Cert.Spec.Acc (idsA V c) (idsB V c) (wA V c) (wB V c)) := by
  have h24 : t.val % 25 = 24 := (flush0_4 t).mp hf
  obtain ⟨-, -, -, -, -, -, -, -, e0, e1, -⟩ := blockIdx0 t
  show (cfg0.win 4).cut (grid0.coords t) ((dat0 (F := Ideal) V c).after 4 t) = _
  rw [after0_4, out4_eq_acc V c t h24]
  funext j
  obtain ⟨r, h, rfl⟩ : ∃ (r : Fin 512) (h : Fin 2048), j = ix2 r h := ⟨j 0, j 1, eq_ix2 j⟩
  have hemb : ((cfg0.win 4).blk t).view.emb (ix2 r h) = ix2 (pairAt t.val t.isLt r) h := by
    refine funext fun a => Fin.ext ?_
    match a with
    | ⟨0, _⟩ => show win0_4.index t (0 : Fin 2) * 512 + 1 * r.val = 512 * (t.val / 25) + r.val; rw [e0]; omega
    | ⟨1, _⟩ => show win0_4.index t (1 : Fin 2) * 2048 + 1 * h.val = h.val; rw [e1]; omega
  show (outsAt0 (F := Ideal) V c t.val t.isLt).2.2.1 (ix2 r h)
    = Cert.Spec.Acc (idsA V c) (idsB V c) (wA V c) (wB V c) (((cfg0.win 4).blk t).view.emb (ix2 r h))
  rw [hemb]
  refine (acc_inv V c t.val t.isLt r h).1.trans ?_
  rw [h24]
  rfl

theorem flushed0_5_eq (c : Dev nD) (t : Fin cfg0.N) (hf : (cfg0.win 5).flush t = true) :
    (dat0 (F := Ideal) V c).flushed 5 t
      = ((cfg0.win 5).blk t).view.read (Elt Ideal) (Cert.Spec.Acc (idsB V c) (idsA V c) (wA V c) (wB V c)) := by
  have h24 : t.val % 25 = 24 := (flush0_5 t).mp hf
  obtain ⟨-, -, -, -, -, -, -, -, -, -, e0, e1⟩ := blockIdx0 t
  show (cfg0.win 5).cut (grid0.coords t) ((dat0 (F := Ideal) V c).after 5 t) = _
  rw [after0_5, out5_eq_acc V c t h24]
  funext j
  obtain ⟨r, h, rfl⟩ : ∃ (r : Fin 512) (h : Fin 2048), j = ix2 r h := ⟨j 0, j 1, eq_ix2 j⟩
  have hemb : ((cfg0.win 5).blk t).view.emb (ix2 r h) = ix2 (pairAt t.val t.isLt r) h := by
    refine funext fun a => Fin.ext ?_
    match a with
    | ⟨0, _⟩ => show win0_5.index t (0 : Fin 2) * 512 + 1 * r.val = 512 * (t.val / 25) + r.val; rw [e0]; omega
    | ⟨1, _⟩ => show win0_5.index t (1 : Fin 2) * 2048 + 1 * h.val = h.val; rw [e1]; omega
  show (outsAt0 (F := Ideal) V c t.val t.isLt).2.2.2 (ix2 r h)
    = Cert.Spec.Acc (idsB V c) (idsA V c) (wA V c) (wB V c) (((cfg0.win 5).blk t).view.emb (ix2 r h))
  rw [hemb]
  refine (acc_inv V c t.val t.isLt r h).2.trans ?_
  rw [h24]
  rfl

theorem mem_blk0_4 (t : Fin cfg0.N) (i : (⟨2, ![4096, 2048]⟩ : Shape).Idx) :
    i ∈ ((cfg0.win 4).blk t).view.set
      ↔ ∀ a : Fin 2, win0_4.index t a * S512x2048.size a ≤ (i a).val ∧ (i a).val < win0_4.index t a * S512x2048.size a + S512x2048.size a := by
  show i ∈ ((View.whole main_v29_0).slice (win0_4.rect t)).set ↔ _
  rw [View.set_slice_whole, Rect.mem_set_unit]
  exact Iff.rfl

theorem cover0_4 (i : (⟨2, ![4096, 2048]⟩ : Shape).Idx) :
    ∃ t : Fin cfg0.N, (cfg0.win 4).flush t = true ∧ i ∈ ((cfg0.win 4).blk t).view.set := by
  have hN : cfg0.N = 200 := N_0
  have hi0 : (i 0).val < 4096 := (i 0).isLt
  have hi1 : (i 1).val < 2048 := (i 1).isLt
  have ht : 25 * ((i 0).val / 512) + 24 < cfg0.N := by omega
  refine ⟨⟨25 * ((i 0).val / 512) + 24, ht⟩, (flush0_4 _).mpr (by show (25 * ((i 0).val / 512) + 24) % 25 = 24; omega), ?_⟩
  rw [mem_blk0_4]
  obtain ⟨-, -, -, -, -, -, -, -, e0, e1, -⟩ := blockIdx0 ⟨25 * ((i 0).val / 512) + 24, ht⟩
  have e0' : win0_4.index ⟨25 * ((i 0).val / 512) + 24, ht⟩ (0 : Fin 2) = (25 * ((i 0).val / 512) + 24) / 25 := e0
  intro a
  match a with
  | ⟨0, _⟩ =>
    show win0_4.index ⟨25 * ((i 0).val / 512) + 24, ht⟩ (0 : Fin 2) * 512 ≤ (i 0).val
      ∧ (i 0).val < win0_4.index ⟨25 * ((i 0).val / 512) + 24, ht⟩ (0 : Fin 2) * 512 + 512
    rw [e0']; omega
  | ⟨1, _⟩ =>
    show win0_4.index ⟨25 * ((i 0).val / 512) + 24, ht⟩ (1 : Fin 2) * 2048 ≤ (i 1).val
      ∧ (i 1).val < win0_4.index ⟨25 * ((i 0).val / 512) + 24, ht⟩ (1 : Fin 2) * 2048 + 2048
    rw [e1]; omega

theorem mem_blk0_5 (t : Fin cfg0.N) (i : (⟨2, ![4096, 2048]⟩ : Shape).Idx) :
    i ∈ ((cfg0.win 5).blk t).view.set
      ↔ ∀ a : Fin 2, win0_5.index t a * S512x2048.size a ≤ (i a).val ∧ (i a).val < win0_5.index t a * S512x2048.size a + S512x2048.size a := by
  show i ∈ ((View.whole main_v29_1).slice (win0_5.rect t)).set ↔ _
  rw [View.set_slice_whole, Rect.mem_set_unit]
  exact Iff.rfl

theorem cover0_5 (i : (⟨2, ![4096, 2048]⟩ : Shape).Idx) :
    ∃ t : Fin cfg0.N, (cfg0.win 5).flush t = true ∧ i ∈ ((cfg0.win 5).blk t).view.set := by
  have hN : cfg0.N = 200 := N_0
  have hi0 : (i 0).val < 4096 := (i 0).isLt
  have hi1 : (i 1).val < 2048 := (i 1).isLt
  have ht : 25 * ((i 0).val / 512) + 24 < cfg0.N := by omega
  refine ⟨⟨25 * ((i 0).val / 512) + 24, ht⟩, (flush0_5 _).mpr (by show (25 * ((i 0).val / 512) + 24) % 25 = 24; omega), ?_⟩
  rw [mem_blk0_5]
  obtain ⟨-, -, -, -, -, -, -, -, -, -, e0, e1⟩ := blockIdx0 ⟨25 * ((i 0).val / 512) + 24, ht⟩
  have e0' : win0_5.index ⟨25 * ((i 0).val / 512) + 24, ht⟩ (0 : Fin 2) = (25 * ((i 0).val / 512) + 24) / 25 := e0
  intro a
  match a with
  | ⟨0, _⟩ =>
    show win0_5.index ⟨25 * ((i 0).val / 512) + 24, ht⟩ (0 : Fin 2) * 512 ≤ (i 0).val
      ∧ (i 0).val < win0_5.index ⟨25 * ((i 0).val / 512) + 24, ht⟩ (0 : Fin 2) * 512 + 512
    rw [e0']; omega
  | ⟨1, _⟩ =>
    show win0_5.index ⟨25 * ((i 0).val / 512) + 24, ht⟩ (1 : Fin 2) * 2048 ≤ (i 1).val
      ∧ (i 1).val < win0_5.index ⟨25 * ((i 0).val / 512) + 24, ht⟩ (1 : Fin 2) * 2048 + 2048
    rw [e1]; omega

theorem arrAt0_4 (c : Dev nD) :
    (dat0 (F := Ideal) V c).arrAt 4 cfg0.N = Cert.Spec.Acc (V c main_v10) (V c main_v17) (V c main_v19) (V c main_v21) :=
  (dat0 (F := Ideal) V c).arrAt_eq_of_cover 4 (Cert.Spec.Acc (idsA V c) (idsB V c) (wA V c) (wB V c)) (flushed0_4_eq V c)
    (fun i => cover0_4 i)

theorem arrAt0_5 (c : Dev nD) :
    (dat0 (F := Ideal) V c).arrAt 5 cfg0.N = Cert.Spec.Acc (V c main_v17) (V c main_v10) (V c main_v19) (V c main_v21) :=
  (dat0 (F := Ideal) V c).arrAt_eq_of_cover 5 (Cert.Spec.Acc (idsB V c) (idsA V c) (wA V c) (wB V c)) (flushed0_5_eq V c)
    (fun i => cover0_5 i)

end Cert.KernelIdeal.Val

end
-- ==== Proof.Val.R1Pay.lean ====
import proofs.«417828_j54142357733865_1_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Val

open Cert.KernelIdeal Cert.KernelIdeal.Gen Idealize.ShloMosaic Idealize.ShloMosaic.ValueIdx

theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

theorem pay9_apply (v0 v1 : Vec Ideal S512x1 .f32) (v2 v4 v6 : Vec Ideal S1x2048 .f32) (v8 : Vec Ideal S512x2048 .f32)
    (r : Fin 512) (h : Fin 2048) :
    k1_pay9 v0 v1 v2 v4 v6 v8 (ix2 r h)
      = max (((v8 (ix2 r h) + v0 (ix2 r 0) * v2 (ix2 0 h)) + v1 (ix2 r 0) * v4 (ix2 0 h)) + v6 (ix2 0 h)) 0 := by
  unfold k1_pay9 k1_pay6 k1_pay7 k1_pay8
  simp only [shapeCast_self]
  show max (((v8 (ix2 r h) + broadcastTo S512x2048 v0 broadcasts_S512x1_S512x2048 (ix2 r h) * broadcastTo S512x2048 v2 broadcasts_S1x2048_S512x2048 (ix2 r h))
        + broadcastTo S512x2048 v1 broadcasts_S512x1_S512x2048 (ix2 r h) * broadcastTo S512x2048 v4 broadcasts_S1x2048_S512x2048 (ix2 r h))
        + broadcastTo S512x2048 v6 broadcasts_S1x2048_S512x2048 (ix2 r h)) (Ideal.ofBits .f32 0x00000000#32) = _
  rw [broadcastTo_a1_ab_apply v0, broadcastTo_a1_ab_apply v1, broadcastTo_1b_ab_apply v2, broadcastTo_1b_ab_apply v4,
    broadcastTo_1b_ab_apply v6, Ideal.ofBits_zero_f32]

theorem pay10_apply (v0 v1 : Vec Ideal S512x1 .f32) (v2 v4 v6 : Vec Ideal S1x2048 .f32) (v20 : Vec Ideal S512x2048 .f32)
    (r : Fin 512) (h : Fin 2048) :
    k1_pay10 v0 v1 v2 v4 v6 v20 (ix2 r h)
      = max (((v20 (ix2 r h) + v1 (ix2 r 0) * v2 (ix2 0 h)) + v0 (ix2 r 0) * v4 (ix2 0 h)) + v6 (ix2 0 h)) 0 := by
  unfold k1_pay10 k1_pay6 k1_pay7 k1_pay8
  simp only [shapeCast_self]
  show max (((v20 (ix2 r h) + broadcastTo S512x2048 v1 broadcasts_S512x1_S512x2048 (ix2 r h) * broadcastTo S512x2048 v2 broadcasts_S1x2048_S512x2048 (ix2 r h))
        + broadcastTo S512x2048 v0 broadcasts_S512x1_S512x2048 (ix2 r h) * broadcastTo S512x2048 v4 broadcasts_S1x2048_S512x2048 (ix2 r h))
        + broadcastTo S512x2048 v6 broadcasts_S1x2048_S512x2048 (ix2 r h)) (Ideal.ofBits .f32 0x00000000#32) = _
  rw [broadcastTo_a1_ab_apply v1, broadcastTo_a1_ab_apply v0, broadcastTo_1b_ab_apply v2, broadcastTo_1b_ab_apply v4,
    broadcastTo_1b_ab_apply v6, Ideal.ofBits_zero_f32]

theorem pay11_eq (v38 : Vec Ideal S2048x1024 .bf16) : k1_pay11 v38 = v38 := by
  unfold k1_pay11
  exact shapeCast_self v38 _

theorem lhs_mm1_0 (i : S512x1024.Idx) (q : dot_S512x2048_S2048x1024_S512x1024_1_0_0_1_n_n.contr.Idx) :
    (dot_S512x2048_S2048x1024_S512x1024_1_0_0_1_n_n.lhsIdx i q 0).val = (i 0).val := by
  unfold DotDims.lhsIdx
  rw [dif_neg (show ¬(0 : Fin S512x2048.rank) ∈ dot_S512x2048_S2048x1024_S512x1024_1_0_0_1_n_n.lhsBatch by decide), dif_pos (show (0 : Fin S512x2048.rank) ∈ dot_S512x2048_S2048x1024_S512x1024_1_0_0_1_n_n.lhsNonContracting by decide)]
  rfl
theorem lhs_mm1_1 (i : S512x1024.Idx) (q : dot_S512x2048_S2048x1024_S512x1024_1_0_0_1_n_n.contr.Idx) :
    (dot_S512x2048_S2048x1024_S512x1024_1_0_0_1_n_n.lhsIdx i q 1).val = (q ⟨0, by decide⟩).val :=
  dot_S512x2048_S2048x1024_S512x1024_1_0_0_1_n_n.lhsIdx_val_of_single rfl i q
theorem rhs_mm1_0 (i : S512x1024.Idx) (q : dot_S512x2048_S2048x1024_S512x1024_1_0_0_1_n_n.contr.Idx) :
    (dot_S512x2048_S2048x1024_S512x1024_1_0_0_1_n_n.rhsIdx i q 0).val = (q ⟨0, by decide⟩).val :=
  dot_S512x2048_S2048x1024_S512x1024_1_0_0_1_n_n.rhsIdx_val_of_single rfl i q
theorem rhs_mm1_1 (i : S512x1024.Idx) (q : dot_S512x2048_S2048x1024_S512x1024_1_0_0_1_n_n.contr.Idx) :
    (dot_S512x2048_S2048x1024_S512x1024_1_0_0_1_n_n.rhsIdx i q 1).val = (i 1).val := by
  unfold DotDims.rhsIdx
  rw [dif_neg (show ¬(1 : Fin S2048x1024.rank) ∈ dot_S512x2048_S2048x1024_S512x1024_1_0_0_1_n_n.rhsBatch by decide), dif_pos (show (1 : Fin S2048x1024.rank) ∈ dot_S512x2048_S2048x1024_S512x1024_1_0_0_1_n_n.rhsNonContracting by decide)]
  rfl

theorem mm1_apply (a : FVec Ideal S512x2048 .bf16) (b : FVec Ideal S2048x1024 .bf16) (r : Fin 512) (n : Fin 1024) :
    matmul dot_S512x2048_S2048x1024_S512x1024_1_0_0_1_n_n none a b (constant (F := Ideal) S512x1024 .f32 0x00000000#32) (ix2 r n)
      = ∑ h : Fin 2048, a (ix2 r h) * b (ix2 h n) := by
  refine (Ideal.matmul_constant_zero_apply dot_S512x2048_S2048x1024_S512x1024_1_0_0_1_n_n none a b (ix2 r n)).trans ?_
  rw [← Equiv.sum_comp (contrEquiv1 dot_S512x2048_S2048x1024_S512x1024_1_0_0_1_n_n 2048 rfl rfl).symm]
  refine Finset.sum_congr rfl fun k _ => ?_
  have hk := contrEquiv1_symm_val dot_S512x2048_S2048x1024_S512x1024_1_0_0_1_n_n 2048 rfl rfl k
  have el : dot_S512x2048_S2048x1024_S512x1024_1_0_0_1_n_n.lhsIdx (ix2 r n) ((contrEquiv1 dot_S512x2048_S2048x1024_S512x1024_1_0_0_1_n_n 2048 rfl rfl).symm k) = ix2 r k := funext fun ax => Fin.ext (by
    match ax with
    | ⟨0, _⟩ => exact lhs_mm1_0 _ _
    | ⟨1, _⟩ => exact (lhs_mm1_1 _ _).trans hk)
  have er : dot_S512x2048_S2048x1024_S512x1024_1_0_0_1_n_n.rhsIdx (ix2 r n) ((contrEquiv1 dot_S512x2048_S2048x1024_S512x1024_1_0_0_1_n_n 2048 rfl rfl).symm k) = ix2 k n := funext fun ax => Fin.ext (by
    match ax with
    | ⟨0, _⟩ => exact (rhs_mm1_0 _ _).trans hk
    | ⟨1, _⟩ => exact rhs_mm1_1 _ _)
  rw [el, er]

theorem lhs_mm2_0 (i : S512x1.Idx) (q : dot_S512x1024_S1024x1_S512x1_1_0_0_1_n_n.contr.Idx) :
    (dot_S512x1024_S1024x1_S512x1_1_0_0_1_n_n.lhsIdx i q 0).val = (i 0).val := by
  unfold DotDims.lhsIdx
  rw [dif_neg (show ¬(0 : Fin S512x1024.rank) ∈ dot_S512x1024_S1024x1_S512x1_1_0_0_1_n_n.lhsBatch by decide), dif_pos (show (0 : Fin S512x1024.rank) ∈ dot_S512x1024_S1024x1_S512x1_1_0_0_1_n_n.lhsNonContracting by decide)]
  rfl
theorem lhs_mm2_1 (i : S512x1.Idx) (q : dot_S512x1024_S1024x1_S512x1_1_0_0_1_n_n.contr.Idx) :
    (dot_S512x1024_S1024x1_S512x1_1_0_0_1_n_n.lhsIdx i q 1).val = (q ⟨0, by decide⟩).val :=
  dot_S512x1024_S1024x1_S512x1_1_0_0_1_n_n.lhsIdx_val_of_single rfl i q
theorem rhs_mm2_0 (i : S512x1.Idx) (q : dot_S512x1024_S1024x1_S512x1_1_0_0_1_n_n.contr.Idx) :
    (dot_S512x1024_S1024x1_S512x1_1_0_0_1_n_n.rhsIdx i q 0).val = (q ⟨0, by decide⟩).val :=
  dot_S512x1024_S1024x1_S512x1_1_0_0_1_n_n.rhsIdx_val_of_single rfl i q
theorem rhs_mm2_1 (i : S512x1.Idx) (q : dot_S512x1024_S1024x1_S512x1_1_0_0_1_n_n.contr.Idx) :
    (dot_S512x1024_S1024x1_S512x1_1_0_0_1_n_n.rhsIdx i q 1).val = (i 1).val := by
  unfold DotDims.rhsIdx
  rw [dif_neg (show ¬(1 : Fin S1024x1.rank) ∈ dot_S512x1024_S1024x1_S512x1_1_0_0_1_n_n.rhsBatch by decide), dif_pos (show (1 : Fin S1024x1.rank) ∈ dot_S512x1024_S1024x1_S512x1_1_0_0_1_n_n.rhsNonContracting by decide)]
  rfl

theorem mm2_apply (a : FVec Ideal S512x1024 .bf16) (b : FVec Ideal S1024x1 .bf16) (r : Fin 512) :
    matmul dot_S512x1024_S1024x1_S512x1_1_0_0_1_n_n none a b (constant (F := Ideal) S512x1 .f32 0x00000000#32) (ix2 r (0 : Fin 1))
      = ∑ n : Fin 1024, a (ix2 r n) * b (ix2 n (0 : Fin 1)) := by
  refine (Ideal.matmul_constant_zero_apply dot_S512x1024_S1024x1_S512x1_1_0_0_1_n_n none a b (ix2 r (0 : Fin 1))).trans ?_
  rw [← Equiv.sum_comp (contrEquiv1 dot_S512x1024_S1024x1_S512x1_1_0_0_1_n_n 1024 rfl rfl).symm]
  refine Finset.sum_congr rfl fun k _ => ?_
  have hk := contrEquiv1_symm_val dot_S512x1024_S1024x1_S512x1_1_0_0_1_n_n 1024 rfl rfl k
  have el : dot_S512x1024_S1024x1_S512x1_1_0_0_1_n_n.lhsIdx (ix2 r (0 : Fin 1)) ((contrEquiv1 dot_S512x1024_S1024x1_S512x1_1_0_0_1_n_n 1024 rfl rfl).symm k) = ix2 r k := funext fun ax => Fin.ext (by
    match ax with
    | ⟨0, _⟩ => exact lhs_mm2_0 _ _
    | ⟨1, _⟩ => exact (lhs_mm2_1 _ _).trans hk)
  have er : dot_S512x1024_S1024x1_S512x1_1_0_0_1_n_n.rhsIdx (ix2 r (0 : Fin 1)) ((contrEquiv1 dot_S512x1024_S1024x1_S512x1_1_0_0_1_n_n 1024 rfl rfl).symm k) = ix2 k (0 : Fin 1) := funext fun ax => Fin.ext (by
    match ax with
    | ⟨0, _⟩ => exact (rhs_mm2_0 _ _).trans hk
    | ⟨1, _⟩ => exact rhs_mm2_1 _ _)
  rw [el, er]

theorem head4_apply (v34 : FVec Ideal S512x2048 .bf16) (v39 : FVec Ideal S2048x1024 .bf16) (v40 : Vec Ideal S1x1024 .f32)
    (v54 : Vec Ideal S1024x1 .bf16) (v56 : Vec Ideal S1x1 .f32) (r : Fin 512) :
    k1_pay4 v34 v39 v40 v54 v56 (ix2 r (0 : Fin 1))
      = (∑ n : Fin 1024, max ((∑ h : Fin 2048, v34 (ix2 r h) * v39 (ix2 h n)) + v40 (ix2 0 n)) 0 * v54 (ix2 n 0)) + v56 (ix2 0 0) := by
  unfold k1_pay4 k1_pay1 k1_pay2 k1_pay3
  simp only [shapeCast_self]
  show matmul dot_S512x1024_S1024x1_S512x1_1_0_0_1_n_n none
        (truncf .bf16 (maximumf (addf (matmul dot_S512x2048_S2048x1024_S512x1024_1_0_0_1_n_n none v34 v39 (constant (F := Ideal) S512x1024 .f32 0x00000000#32))
          (broadcastTo S512x1024 v40 broadcasts_S1x1024_S512x1024)) (broadcast S512x1024 (Ideal.ofBits .f32 0x00000000#32))) bitsLt_bf16_f32)
        v54 (constant (F := Ideal) S512x1 .f32 0x00000000#32) (ix2 r (0 : Fin 1))
      + broadcastTo S512x1 v56 broadcasts_S1x1_S512x1 (ix2 r (0 : Fin 1)) = _
  rw [mm2_apply, broadcastTo_1b_ab_apply v56]
  refine congrArg (· + v56 (ix2 0 0)) (Finset.sum_congr rfl fun n _ => ?_)
  show max (matmul dot_S512x2048_S2048x1024_S512x1024_1_0_0_1_n_n none v34 v39 (constant (F := Ideal) S512x1024 .f32 0x00000000#32) (ix2 r n)
        + broadcastTo S512x1024 v40 broadcasts_S1x1024_S512x1024 (ix2 r n)) (Ideal.ofBits .f32 0x00000000#32) * v54 (ix2 n 0) = _
  rw [mm1_apply, broadcastTo_1b_ab_apply v40, Ideal.ofBits_zero_f32]

theorem head5_apply (v37 : FVec Ideal S512x2048 .bf16) (v39 : FVec Ideal S2048x1024 .bf16) (v40 : Vec Ideal S1x1024 .f32)
    (v54 : Vec Ideal S1024x1 .bf16) (v56 : Vec Ideal S1x1 .f32) (r : Fin 512) :
    k1_pay5 v37 v39 v40 v54 v56 (ix2 r (0 : Fin 1))
      = (∑ n : Fin 1024, max ((∑ h : Fin 2048, v37 (ix2 r h) * v39 (ix2 h n)) + v40 (ix2 0 n)) 0 * v54 (ix2 n 0)) + v56 (ix2 0 0) := by
  unfold k1_pay5 k1_pay1 k1_pay2 k1_pay3
  simp only [shapeCast_self]
  show matmul dot_S512x1024_S1024x1_S512x1_1_0_0_1_n_n none
        (truncf .bf16 (maximumf (addf (matmul dot_S512x2048_S2048x1024_S512x1024_1_0_0_1_n_n none v37 v39 (constant (F := Ideal) S512x1024 .f32 0x00000000#32))
          (broadcastTo S512x1024 v40 broadcasts_S1x1024_S512x1024)) (broadcast S512x1024 (Ideal.ofBits .f32 0x00000000#32))) bitsLt_bf16_f32)
        v54 (constant (F := Ideal) S512x1 .f32 0x00000000#32) (ix2 r (0 : Fin 1))
      + broadcastTo S512x1 v56 broadcasts_S1x1_S512x1 (ix2 r (0 : Fin 1)) = _
  rw [mm2_apply, broadcastTo_1b_ab_apply v56]
  refine congrArg (· + v56 (ix2 0 0)) (Finset.sum_congr rfl fun n _ => ?_)
  show max (matmul dot_S512x2048_S2048x1024_S512x1024_1_0_0_1_n_n none v37 v39 (constant (F := Ideal) S512x1024 .f32 0x00000000#32) (ix2 r n)
        + broadcastTo S512x1024 v40 broadcasts_S1x1024_S512x1024 (ix2 r n)) (Ideal.ofBits .f32 0x00000000#32) * v54 (ix2 n 0) = _
  rw [mm1_apply, broadcastTo_1b_ab_apply v40, Ideal.ofBits_zero_f32]

end Cert.KernelIdeal.Val

end
-- ==== Proof.Val.R1Value.lean ====
import proofs.«417828_j54142357733865_1_alg».proof.Proof.KI.R1Frame
import proofs.«417828_j54142357733865_1_alg».proof.Proof.Val.R1Pay
import proofs.«417828_j54142357733865_1_alg».proof.Proof.Spec
import Idealize.ShloMosaic.Lib.Pipeline.Value

set_option maxRecDepth 16384

noncomputable section

open scoped BigOperators

namespace Cert.KernelIdeal.Val

open Cert.KernelIdeal Cert.KernelIdeal.Gen Cert.KernelIdeal.Pipe Idealize.ShloMosaic Idealize.ShloMosaic.TcCoe Idealize.ShloMosaic.ValueIdx
open Idealize.SL.Sem
open Idealize.ShloMosaic.Pipeline (Dat)

theorem hz2 : (![0, 0] : Fin 2 → Nat) = fun _ => 0 := funext fun a => by fin_cases a <;> rfl

theorem ld_c0 (x2 : Vec Ideal S512x2 .f32) (r : Fin 512) : View.ld x2 r1_c0 (ix2 r (0 : Fin 1)) = x2 (ix2 r (0 : Fin 2)) :=
  congrArg x2 (funext fun a => Fin.ext (by
    match a with
    | ⟨0, _⟩ => show 0 + 1 * r.val = r.val; omega
    | ⟨1, _⟩ => rfl))

theorem ld_c1 (x2 : Vec Ideal S512x2 .f32) (r : Fin 512) : View.ld x2 r1_c1 (ix2 r (0 : Fin 1)) = x2 (ix2 r (1 : Fin 2)) :=
  congrArg x2 (funext fun a => Fin.ext (by
    match a with
    | ⟨0, _⟩ => show 0 + 1 * r.val = r.val; omega
    | ⟨1, _⟩ => rfl))

theorem out1_10_apply (x0 x1 : Vec Ideal S512x2048 .f32) (x2 : Vec Ideal S512x2 .f32) (x3 x4 x5 : Vec Ideal S1x2048 .f32)
    (x6 : Vec Ideal S2048x1024 .bf16) (x7 : Vec Ideal S1x1024 .f32) (x8 : Vec Ideal S1024x1 .bf16) (x9 : Vec Ideal S1x1 .f32) (r : Fin 512) :
    out1_10 x0 x1 x2 x3 x4 x5 x6 x7 x8 x9 (ix2 r (0 : Fin 1))
      = (∑ n : Fin 1024, max ((∑ h : Fin 2048, max (((x0 (ix2 r h) + x2 (ix2 r 0) * x3 (ix2 0 h)) + x2 (ix2 r 1) * x4 (ix2 0 h)) + x5 (ix2 0 h)) 0 * x6 (ix2 h n)) + x7 (ix2 0 n)) 0 * x8 (ix2 n 0)) + x9 (ix2 0 0) := by
  unfold out1_10
  rw [View.canon_unit_zero hz2]
  simp only [View.ld_unit_zero (S := S512x2048) hz2, View.ld_unit_zero (S := S1x2048) hz2, View.ld_unit_zero (S := S2048x1024) hz2, View.ld_unit_zero (S := S1x1024) hz2, View.ld_unit_zero (S := S1024x1) hz2, View.ld_unit_zero (S := S1x1) hz2]
  rw [head4_apply, pay11_eq]
  refine congrArg (· + x9 (ix2 0 0)) (Finset.sum_congr rfl fun n _ => ?_)
  refine congrArg (fun s => max (s + x7 (ix2 0 n)) 0 * x8 (ix2 n 0)) (Finset.sum_congr rfl fun h _ => ?_)
  refine congrArg (· * x6 (ix2 h n)) ?_
  refine (pay9_apply (View.ld x2 r1_c0) (View.ld x2 r1_c1) x3 x4 x5 x0 r h).trans ?_
  show max (((x0 (ix2 r h) + View.ld x2 r1_c0 (ix2 r (0 : Fin 1)) * x3 (ix2 0 h)) + View.ld x2 r1_c1 (ix2 r (0 : Fin 1)) * x4 (ix2 0 h)) + x5 (ix2 0 h)) 0 = _
  rw [ld_c0, ld_c1]

theorem out1_11_apply (x0 x1 : Vec Ideal S512x2048 .f32) (x2 : Vec Ideal S512x2 .f32) (x3 x4 x5 : Vec Ideal S1x2048 .f32)
    (x6 : Vec Ideal S2048x1024 .bf16) (x7 : Vec Ideal S1x1024 .f32) (x8 : Vec Ideal S1024x1 .bf16) (x9 : Vec Ideal S1x1 .f32) (r : Fin 512) :
    out1_11 x0 x1 x2 x3 x4 x5 x6 x7 x8 x9 (ix2 r (0 : Fin 1))
      = (∑ n : Fin 1024, max ((∑ h : Fin 2048, max (((x1 (ix2 r h) + x2 (ix2 r 1) * x3 (ix2 0 h)) + x2 (ix2 r 0) * x4 (ix2 0 h)) + x5 (ix2 0 h)) 0 * x6 (ix2 h n)) + x7 (ix2 0 n)) 0 * x8 (ix2 n 0)) + x9 (ix2 0 0) := by
  unfold out1_11
  rw [View.canon_unit_zero hz2]
  simp only [View.ld_unit_zero (S := S512x2048) hz2, View.ld_unit_zero (S := S1x2048) hz2, View.ld_unit_zero (S := S2048x1024) hz2, View.ld_unit_zero (S := S1x1024) hz2, View.ld_unit_zero (S := S1024x1) hz2, View.ld_unit_zero (S := S1x1) hz2]
  rw [head5_apply, pay11_eq]
  refine congrArg (· + x9 (ix2 0 0)) (Finset.sum_congr rfl fun n _ => ?_)
  refine congrArg (fun s => max (s + x7 (ix2 0 n)) 0 * x8 (ix2 n 0)) (Finset.sum_congr rfl fun h _ => ?_)
  refine congrArg (· * x6 (ix2 h n)) ?_
  refine (pay10_apply (View.ld x2 r1_c0) (View.ld x2 r1_c1) x3 x4 x5 x1 r h).trans ?_
  show max (((x1 (ix2 r h) + View.ld x2 r1_c1 (ix2 r (0 : Fin 1)) * x3 (ix2 0 h)) + View.ld x2 r1_c0 (ix2 r (0 : Fin 1)) * x4 (ix2 0 h)) + x5 (ix2 0 h)) 0 = _
  rw [ld_c0, ld_c1]

theorem head_of_blocks (u v : Fin 2) (acc : S4096x2048.Idx → EReal) (conc : S4096x2.Idx → EReal) (rowP row2 b1 : S1x2048.Idx → EReal)
    (W2 : S2048x1024.Idx → EReal) (b2 : S1x1024.Idx → EReal) (W3 : S1024x1.Idx → EReal) (b3 : S1x1.Idx → EReal)
    (xa : Vec Ideal S512x2048 .f32) (x2 : Vec Ideal S512x2 .f32) (x3 x4 x5 : Vec Ideal S1x2048 .f32)
    (x6 : Vec Ideal S2048x1024 .bf16) (x7 : Vec Ideal S1x1024 .f32) (x8 : Vec Ideal S1024x1 .bf16) (x9 : Vec Ideal S1x1 .f32)
    (r : Fin 512) (R : Fin 4096)
    (ha : ∀ h : Fin 2048, xa (ix2 r h) = acc (ix2 R h)) (h2 : ∀ w : Fin 2, x2 (ix2 r w) = conc (ix2 R w))
    (h3 : x3 = rowP) (h4 : x4 = row2) (h5 : x5 = b1) (h6 : x6 = W2) (h7 : x7 = b2) (h8 : x8 = W3) (h9 : x9 = b3) :
    (∑ n : Fin 1024, max ((∑ h : Fin 2048, max (((xa (ix2 r h) + x2 (ix2 r u) * x3 (ix2 0 h)) + x2 (ix2 r v) * x4 (ix2 0 h)) + x5 (ix2 0 h)) 0 * x6 (ix2 h n)) + x7 (ix2 0 n)) 0 * x8 (ix2 n 0)) + x9 (ix2 0 0)
      = Cert.Spec.Head acc conc u v rowP row2 b1 W2 b2 W3 b3 (ix2 R (0 : Fin 1)) := by
  subst h3 h4 h5 h6 h7 h8 h9
  simp only [ha, h2]
  rfl

theorem idx1_rows : ∀ t : Fin cfg1.N,
    (win1_0.index t (0 : Fin 2) = t.val ∧ win1_0.index t (1 : Fin 2) = 0)
    ∧ (win1_1.index t (0 : Fin 2) = t.val ∧ win1_1.index t (1 : Fin 2) = 0)
    ∧ (win1_2.index t (0 : Fin 2) = t.val ∧ win1_2.index t (1 : Fin 2) = 0)
    ∧ (win1_10.index t (0 : Fin 2) = t.val ∧ win1_10.index t (1 : Fin 2) = 0)
    ∧ (win1_11.index t (0 : Fin 2) = t.val ∧ win1_11.index t (1 : Fin 2) = 0) :=
  (by decide +kernel : ∀ t : Fin grid1.N, _)

theorem idx1_whole : ∀ t : Fin cfg1.N,
    (win1_3.index t (0 : Fin 2) = 0 ∧ win1_3.index t (1 : Fin 2) = 0)
    ∧ (win1_4.index t (0 : Fin 2) = 0 ∧ win1_4.index t (1 : Fin 2) = 0)
    ∧ (win1_5.index t (0 : Fin 2) = 0 ∧ win1_5.index t (1 : Fin 2) = 0)
    ∧ (win1_6.index t (0 : Fin 2) = 0 ∧ win1_6.index t (1 : Fin 2) = 0)
    ∧ (win1_7.index t (0 : Fin 2) = 0 ∧ win1_7.index t (1 : Fin 2) = 0)
    ∧ (win1_8.index t (0 : Fin 2) = 0 ∧ win1_8.index t (1 : Fin 2) = 0)
    ∧ (win1_9.index t (0 : Fin 2) = 0 ∧ win1_9.index t (1 : Fin 2) = 0) :=
  (by decide +kernel : ∀ t : Fin grid1.N, _)

section Arrays

variable (V : (c : Dev nD) → (b : Ref sig .tc) → Buf (Elt Ideal) ((c : Thread nD τ).loc b))

theorem iblk1_0_apply (c : Dev nD) (t : Fin cfg1.N) (r : Fin 512) (h : Fin 2048) (R : Fin 4096) (hR : R.val = 512 * t.val + r.val) :
    (iblk1 V c 0 t : Vec Ideal S512x2048 .f32) (ix2 r h) = (V c main_v29_0 : S4096x2048.Idx → EReal) (ix2 R h) := by
  obtain ⟨⟨e0, e1⟩, -, -, -, -⟩ := idx1_rows t
  unfold iblk1
  rw [View.read_apply]
  show (V c main_v29_0 : S4096x2048.Idx → EReal) _ = _
  refine congrArg (V c main_v29_0 : S4096x2048.Idx → EReal) (funext fun a => Fin.ext ?_)
  match a with
  | ⟨0, _⟩ => show win1_0.index t (0 : Fin 2) * 512 + 1 * r.val = R.val; rw [e0, hR]; omega
  | ⟨1, _⟩ => show win1_0.index t (1 : Fin 2) * 2048 + 1 * h.val = h.val; rw [e1]; omega

theorem iblk1_1_apply (c : Dev nD) (t : Fin cfg1.N) (r : Fin 512) (h : Fin 2048) (R : Fin 4096) (hR : R.val = 512 * t.val + r.val) :
    (iblk1 V c 1 t : Vec Ideal S512x2048 .f32) (ix2 r h) = (V c main_v29_1 : S4096x2048.Idx → EReal) (ix2 R h) := by
  obtain ⟨-, ⟨e0, e1⟩, -, -, -⟩ := idx1_rows t
  unfold iblk1
  rw [View.read_apply]
  show (V c main_v29_1 : S4096x2048.Idx → EReal) _ = _
  refine congrArg (V c main_v29_1 : S4096x2048.Idx → EReal) (funext fun a => Fin.ext ?_)
  match a with
  | ⟨0, _⟩ => show win1_1.index t (0 : Fin 2) * 512 + 1 * r.val = R.val; rw [e0, hR]; omega
  | ⟨1, _⟩ => show win1_1.index t (1 : Fin 2) * 2048 + 1 * h.val = h.val; rw [e1]; omega

theorem iblk1_2_apply (c : Dev nD) (t : Fin cfg1.N) (r : Fin 512) (h : Fin 2) (R : Fin 4096) (hR : R.val = 512 * t.val + r.val) :
    (iblk1 V c 2 t : Vec Ideal S512x2 .f32) (ix2 r h) = (V c main_arg2 : S4096x2.Idx → EReal) (ix2 R h) := by
  obtain ⟨-, -, ⟨e0, e1⟩, -, -⟩ := idx1_rows t
  unfold iblk1
  rw [View.read_apply]
  show (V c main_arg2 : S4096x2.Idx → EReal) _ = _
  refine congrArg (V c main_arg2 : S4096x2.Idx → EReal) (funext fun a => Fin.ext ?_)
  match a with
  | ⟨0, _⟩ => show win1_2.index t (0 : Fin 2) * 512 + 1 * r.val = R.val; rw [e0, hR]; omega
  | ⟨1, _⟩ => show win1_2.index t (1 : Fin 2) * 2 + 1 * h.val = h.val; rw [e1]; omega

theorem iblk1_3_eq (c : Dev nD) (t : Fin cfg1.N) : (iblk1 V c 3 t : Vec Ideal S1x2048 .f32) = (V c main_v22 : S1x2048.Idx → EReal) := by
  obtain ⟨⟨e0, e1⟩, -, -, -, -, -, -⟩ := idx1_whole t
  funext y
  unfold iblk1
  rw [View.read_apply]
  show (V c main_v22 : S1x2048.Idx → EReal) _ = _
  refine congrArg (V c main_v22 : S1x2048.Idx → EReal) (funext fun a => Fin.ext ?_)
  match a with
  | ⟨0, _⟩ => show win1_3.index t (0 : Fin 2) * 1 + 1 * (y 0).val = (y 0).val; rw [e0]; omega
  | ⟨1, _⟩ => show win1_3.index t (1 : Fin 2) * 2048 + 1 * (y 1).val = (y 1).val; rw [e1]; omega

theorem iblk1_4_eq (c : Dev nD) (t : Fin cfg1.N) : (iblk1 V c 4 t : Vec Ideal S1x2048 .f32) = (V c main_v23 : S1x2048.Idx → EReal) := by
  obtain ⟨-, ⟨e0, e1⟩, -, -, -, -, -⟩ := idx1_whole t
  funext y
  unfold iblk1
  rw [View.read_apply]
  show (V c main_v23 : S1x2048.Idx → EReal) _ = _
  refine congrArg (V c main_v23 : S1x2048.Idx → EReal) (funext fun a => Fin.ext ?_)
  match a with
  | ⟨0, _⟩ => show win1_4.index t (0 : Fin 2) * 1 + 1 * (y 0).val = (y 0).val; rw [e0]; omega
  | ⟨1, _⟩ => show win1_4.index t (1 : Fin 2) * 2048 + 1 * (y 1).val = (y 1).val; rw [e1]; omega

theorem iblk1_5_eq (c : Dev nD) (t : Fin cfg1.N) : (iblk1 V c 5 t : Vec Ideal S1x2048 .f32) = (V c main_v24 : S1x2048.Idx → EReal) := by
  obtain ⟨-, -, ⟨e0, e1⟩, -, -, -, -⟩ := idx1_whole t
  funext y
  unfold iblk1
  rw [View.read_apply]
  show (V c main_v24 : S1x2048.Idx → EReal) _ = _
  refine congrArg (V c main_v24 : S1x2048.Idx → EReal) (funext fun a => Fin.ext ?_)
  match a with
  | ⟨0, _⟩ => show win1_5.index t (0 : Fin 2) * 1 + 1 * (y 0).val = (y 0).val; rw [e0]; omega
  | ⟨1, _⟩ => show win1_5.index t (1 : Fin 2) * 2048 + 1 * (y 1).val = (y 1).val; rw [e1]; omega

theorem iblk1_6_eq (c : Dev nD) (t : Fin cfg1.N) : (iblk1 V c 6 t : Vec Ideal S2048x1024 .bf16) = (V c main_v27 : S2048x1024.Idx → EReal) := by
  obtain ⟨-, -, -, ⟨e0, e1⟩, -, -, -⟩ := idx1_whole t
  funext y
  unfold iblk1
  rw [View.read_apply]
  show (V c main_v27 : S2048x1024.Idx → EReal) _ = _
  refine congrArg (V c main_v27 : S2048x1024.Idx → EReal) (funext fun a => Fin.ext ?_)
  match a with
  | ⟨0, _⟩ => show win1_6.index t (0 : Fin 2) * 2048 + 1 * (y 0).val = (y 0).val; rw [e0]; omega
  | ⟨1, _⟩ => show win1_6.index t (1 : Fin 2) * 1024 + 1 * (y 1).val = (y 1).val; rw [e1]; omega

theorem iblk1_7_eq (c : Dev nD) (t : Fin cfg1.N) : (iblk1 V c 7 t : Vec Ideal S1x1024 .f32) = (V c main_v25 : S1x1024.Idx → EReal) := by
  obtain ⟨-, -, -, -, ⟨e0, e1⟩, -, -⟩ := idx1_whole t
  funext y
  unfold iblk1
  rw [View.read_apply]
  show (V c main_v25 : S1x1024.Idx → EReal) _ = _
  refine congrArg (V c main_v25 : S1x1024.Idx → EReal) (funext fun a => Fin.ext ?_)
  match a with
  | ⟨0, _⟩ => show win1_7.index t (0 : Fin 2) * 1 + 1 * (y 0).val = (y 0).val; rw [e0]; omega
  | ⟨1, _⟩ => show win1_7.index t (1 : Fin 2) * 1024 + 1 * (y 1).val = (y 1).val; rw [e1]; omega

theorem iblk1_8_eq (c : Dev nD) (t : Fin cfg1.N) : (iblk1 V c 8 t : Vec Ideal S1024x1 .bf16) = (V c main_v28 : S1024x1.Idx → EReal) := by
  obtain ⟨-, -, -, -, -, ⟨e0, e1⟩, -⟩ := idx1_whole t
  funext y
  unfold iblk1
  rw [View.read_apply]
  show (V c main_v28 : S1024x1.Idx → EReal) _ = _
  refine congrArg (V c main_v28 : S1024x1.Idx → EReal) (funext fun a => Fin.ext ?_)
  match a with
  | ⟨0, _⟩ => show win1_8.index t (0 : Fin 2) * 1024 + 1 * (y 0).val = (y 0).val; rw [e0]; omega
  | ⟨1, _⟩ => show win1_8.index t (1 : Fin 2) * 1 + 1 * (y 1).val = (y 1).val; rw [e1]; omega

theorem iblk1_9_eq (c : Dev nD) (t : Fin cfg1.N) : (iblk1 V c 9 t : Vec Ideal S1x1 .f32) = (V c main_v26 : S1x1.Idx → EReal) := by
  obtain ⟨-, -, -, -, -, -, ⟨e0, e1⟩⟩ := idx1_whole t
  funext y
  unfold iblk1
  rw [View.read_apply]
  show (V c main_v26 : S1x1.Idx → EReal) _ = _
  refine congrArg (V c main_v26 : S1x1.Idx → EReal) (funext fun a => Fin.ext ?_)
  match a with
  | ⟨0, _⟩ => show win1_9.index t (0 : Fin 2) * 1 + 1 * (y 0).val = (y 0).val; rw [e0]; omega
  | ⟨1, _⟩ => show win1_9.index t (1 : Fin 2) * 1 + 1 * (y 1).val = (y 1).val; rw [e1]; omega

abbrev head1_10 (c : Dev nD) : S4096x1.Idx → EReal :=
  Cert.Spec.Head (V c main_v29_0) (V c main_arg2) 0 1 (V c main_v22) (V c main_v23) (V c main_v24) (V c main_v27) (V c main_v25) (V c main_v28) (V c main_v26)

abbrev head1_11 (c : Dev nD) : S4096x1.Idx → EReal :=
  Cert.Spec.Head (V c main_v29_1) (V c main_arg2) 1 0 (V c main_v22) (V c main_v23) (V c main_v24) (V c main_v27) (V c main_v25) (V c main_v28) (V c main_v26)

theorem flushed1_10_eq (c : Dev nD) (t : Fin cfg1.N) :
    (dat1 (F := Ideal) V c).flushed 10 t = ((cfg1.win 10).blk t).view.read (Elt Ideal) (head1_10 V c) := by
  show (cfg1.win 10).cut (grid1.coords t) ((dat1 (F := Ideal) V c).after 10 t) = _
  rw [after1_10]
  funext j
  have hj0 : (j 0).val < 512 := (j 0).isLt
  have hj1 : (j 1).val < 1 := (j 1).isLt
  have ht : t.val < 8 := lt_of_lt_of_eq t.isLt N_1
  obtain ⟨-, -, -, ⟨e0, e1⟩, -⟩ := idx1_rows t
  have ej : (cfg1.win 10).xinj (grid1.coords t) j = ix2 (⟨(j 0).val, hj0⟩ : Fin 512) (0 : Fin 1) := funext fun a => Fin.ext (by
    match a with
    | ⟨0, _⟩ => rfl
    | ⟨1, _⟩ => show (j 1).val = 0; omega)
  have ei : ((cfg1.win 10).blk t).view.emb j = ix2 (⟨512 * t.val + (j 0).val, by omega⟩ : Fin 4096) (0 : Fin 1) := funext fun a => Fin.ext (by
    match a with
    | ⟨0, _⟩ => show win1_10.index t (0 : Fin 2) * 512 + 1 * (j 0).val = 512 * t.val + (j 0).val; rw [e0]; omega
    | ⟨1, _⟩ => show win1_10.index t (1 : Fin 2) * 1 + 1 * (j 1).val = 0; rw [e1]; omega)
  rw [View.read_apply]
  show out1_10 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) ((cfg1.win 10).xinj (grid1.coords t) j)
    = head1_10 V c (((cfg1.win 10).blk t).view.emb j)
  rw [ej, ei]
  exact (out1_10_apply (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) ⟨(j 0).val, hj0⟩).trans
    (head_of_blocks 0 1 (V c main_v29_0) (V c main_arg2) (V c main_v22) (V c main_v23) (V c main_v24) (V c main_v27) (V c main_v25) (V c main_v28) (V c main_v26)
      (iblk1 V c 0 t) (iblk1 V c 2 t) (iblk1 V c 3 t) (iblk1 V c 4 t) (iblk1 V c 5 t) (iblk1 V c 6 t) (iblk1 V c 7 t) (iblk1 V c 8 t) (iblk1 V c 9 t)
      ⟨(j 0).val, hj0⟩ ⟨512 * t.val + (j 0).val, by omega⟩
      (fun h => iblk1_0_apply V c t ⟨(j 0).val, hj0⟩ h ⟨512 * t.val + (j 0).val, by omega⟩ rfl)
      (fun w => iblk1_2_apply V c t ⟨(j 0).val, hj0⟩ w ⟨512 * t.val + (j 0).val, by omega⟩ rfl)
      (iblk1_3_eq V c t) (iblk1_4_eq V c t) (iblk1_5_eq V c t) (iblk1_6_eq V c t) (iblk1_7_eq V c t) (iblk1_8_eq V c t) (iblk1_9_eq V c t))

theorem flushed1_11_eq (c : Dev nD) (t : Fin cfg1.N) :
    (dat1 (F := Ideal) V c).flushed 11 t = ((cfg1.win 11).blk t).view.read (Elt Ideal) (head1_11 V c) := by
  show (cfg1.win 11).cut (grid1.coords t) ((dat1 (F := Ideal) V c).after 11 t) = _
  rw [after1_11]
  funext j
  have hj0 : (j 0).val < 512 := (j 0).isLt
  have hj1 : (j 1).val < 1 := (j 1).isLt
  have ht : t.val < 8 := lt_of_lt_of_eq t.isLt N_1
  obtain ⟨-, -, -, -, ⟨e0, e1⟩⟩ := idx1_rows t
  have ej : (cfg1.win 11).xinj (grid1.coords t) j = ix2 (⟨(j 0).val, hj0⟩ : Fin 512) (0 : Fin 1) := funext fun a => Fin.ext (by
    match a with
    | ⟨0, _⟩ => rfl
    | ⟨1, _⟩ => show (j 1).val = 0; omega)
  have ei : ((cfg1.win 11).blk t).view.emb j = ix2 (⟨512 * t.val + (j 0).val, by omega⟩ : Fin 4096) (0 : Fin 1) := funext fun a => Fin.ext (by
    match a with
    | ⟨0, _⟩ => show win1_11.index t (0 : Fin 2) * 512 + 1 * (j 0).val = 512 * t.val + (j 0).val; rw [e0]; omega
    | ⟨1, _⟩ => show win1_11.index t (1 : Fin 2) * 1 + 1 * (j 1).val = 0; rw [e1]; omega)
  rw [View.read_apply]
  show out1_11 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) ((cfg1.win 11).xinj (grid1.coords t) j)
    = head1_11 V c (((cfg1.win 11).blk t).view.emb j)
  rw [ej, ei]
  exact (out1_11_apply (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) ⟨(j 0).val, hj0⟩).trans
    (head_of_blocks 1 0 (V c main_v29_1) (V c main_arg2) (V c main_v22) (V c main_v23) (V c main_v24) (V c main_v27) (V c main_v25) (V c main_v28) (V c main_v26)
      (iblk1 V c 1 t) (iblk1 V c 2 t) (iblk1 V c 3 t) (iblk1 V c 4 t) (iblk1 V c 5 t) (iblk1 V c 6 t) (iblk1 V c 7 t) (iblk1 V c 8 t) (iblk1 V c 9 t)
      ⟨(j 0).val, hj0⟩ ⟨512 * t.val + (j 0).val, by omega⟩
      (fun h => iblk1_1_apply V c t ⟨(j 0).val, hj0⟩ h ⟨512 * t.val + (j 0).val, by omega⟩ rfl)
      (fun w => iblk1_2_apply V c t ⟨(j 0).val, hj0⟩ w ⟨512 * t.val + (j 0).val, by omega⟩ rfl)
      (iblk1_3_eq V c t) (iblk1_4_eq V c t) (iblk1_5_eq V c t) (iblk1_6_eq V c t) (iblk1_7_eq V c t) (iblk1_8_eq V c t) (iblk1_9_eq V c t))

theorem mem_blk1_10 (t : Fin cfg1.N) (i : S4096x1.Idx) :
    i ∈ ((cfg1.win 10).blk t).view.set ↔ ∀ a : Fin 2, win1_10.index t a * S512x1.size a ≤ (i a).val ∧ (i a).val < win1_10.index t a * S512x1.size a + S512x1.size a := by
  show i ∈ ((View.whole main_v30_0).slice (win1_10.rect t)).set ↔ _
  rw [View.set_slice_whole, Rect.mem_set_unit]
  exact Iff.rfl

theorem cover1_10 (i : S4096x1.Idx) : ∃ t : Fin cfg1.N, (cfg1.win 10).flush t = true ∧ i ∈ ((cfg1.win 10).blk t).view.set := by
  have h0 : (i 0).val < 4096 := (i 0).isLt
  have h1 : (i 1).val < 1 := (i 1).isLt
  obtain ⟨t, ht⟩ : ∃ t : Fin cfg1.N, t.val = (i 0).val / 512 := ⟨⟨(i 0).val / 512, lt_of_lt_of_eq (show (i 0).val / 512 < 8 by omega) N_1.symm⟩, rfl⟩
  obtain ⟨-, -, -, ⟨e0, e1⟩, -⟩ := idx1_rows t
  refine ⟨t, flush1_10 t, ?_⟩
  rw [mem_blk1_10]
  intro a
  match a with
  | ⟨0, _⟩ => show win1_10.index t (0 : Fin 2) * 512 ≤ (i 0).val ∧ (i 0).val < win1_10.index t (0 : Fin 2) * 512 + 512; rw [e0, ht]; omega
  | ⟨1, _⟩ => show win1_10.index t (1 : Fin 2) * 1 ≤ (i 1).val ∧ (i 1).val < win1_10.index t (1 : Fin 2) * 1 + 1; rw [e1]; omega

theorem mem_blk1_11 (t : Fin cfg1.N) (i : S4096x1.Idx) :
    i ∈ ((cfg1.win 11).blk t).view.set ↔ ∀ a : Fin 2, win1_11.index t a * S512x1.size a ≤ (i a).val ∧ (i a).val < win1_11.index t a * S512x1.size a + S512x1.size a := by
  show i ∈ ((View.whole main_v30_1).slice (win1_11.rect t)).set ↔ _
  rw [View.set_slice_whole, Rect.mem_set_unit]
  exact Iff.rfl

theorem cover1_11 (i : S4096x1.Idx) : ∃ t : Fin cfg1.N, (cfg1.win 11).flush t = true ∧ i ∈ ((cfg1.win 11).blk t).view.set := by
  have h0 : (i 0).val < 4096 := (i 0).isLt
  have h1 : (i 1).val < 1 := (i 1).isLt
  obtain ⟨t, ht⟩ : ∃ t : Fin cfg1.N, t.val = (i 0).val / 512 := ⟨⟨(i 0).val / 512, lt_of_lt_of_eq (show (i 0).val / 512 < 8 by omega) N_1.symm⟩, rfl⟩
  obtain ⟨-, -, -, -, ⟨e0, e1⟩⟩ := idx1_rows t
  refine ⟨t, flush1_11 t, ?_⟩
  rw [mem_blk1_11]
  intro a
  match a with
  | ⟨0, _⟩ => show win1_11.index t (0 : Fin 2) * 512 ≤ (i 0).val ∧ (i 0).val < win1_11.index t (0 : Fin 2) * 512 + 512; rw [e0, ht]; omega
  | ⟨1, _⟩ => show win1_11.index t (1 : Fin 2) * 1 ≤ (i 1).val ∧ (i 1).val < win1_11.index t (1 : Fin 2) * 1 + 1; rw [e1]; omega

theorem arrAt1_10 (c : Dev nD) : (dat1 (F := Ideal) V c).arrAt 10 cfg1.N
    = Cert.Spec.Head (V c main_v29_0) (V c main_arg2) 0 1 (V c main_v22) (V c main_v23) (V c main_v24) (V c main_v27) (V c main_v25) (V c main_v28) (V c main_v26) :=
  (dat1 (F := Ideal) V c).arrAt_eq_of_cover 10 (head1_10 V c) (fun t _ => flushed1_10_eq V c t) cover1_10

theorem arrAt1_11 (c : Dev nD) : (dat1 (F := Ideal) V c).arrAt 11 cfg1.N
    = Cert.Spec.Head (V c main_v29_1) (V c main_arg2) 1 0 (V c main_v22) (V c main_v23) (V c main_v24) (V c main_v27) (V c main_v25) (V c main_v28) (V c main_v26) :=
  (dat1 (F := Ideal) V c).arrAt_eq_of_cover 11 (head1_11 V c) (fun t _ => flushed1_11_eq V c t) cover1_11

end Arrays

end Cert.KernelIdeal.Val

end
-- ==== Proof.RefRun.lean ====
import proofs.«417828_j54142357733865_1_alg».proof.Proof.Gen.ReferenceIdeal
import Idealize.ShloMosaic.Lib.StableHlo.Run

noncomputable section

namespace Cert.ReferenceIdeal.Value

open Cert.ReferenceIdeal Cert.ReferenceIdeal.Gen Idealize.ShloMosaic Idealize.ShloMosaic.TcCoe Idealize.SL.Sem Idealize.ShloMosaic.StableHlo

variable {F : FTy → Type} [FloatOps F]

abbrev ops : List (HloOp τ sig (Elt F)) :=
  [ unary main_arg0 main_v0 ((extractStridedSlice S4096x1 ![0, 0] · slices_S4096x2_S4096x1_0_0) : (⟨S4096x2, .i32⟩ : BufTy).Contents (Elt F) → (⟨S4096x1, .i32⟩ : BufTy).Contents (Elt F)),
    reshape main_v0 main_v1 rfl shapeCasts_S4096x1_S4096,
    nullary main_c (constantI S_ 32 0#32),
    unary main_c main_v2 (broadcastInDim S4096 ![] bcast_S_S4096 : (⟨S_, .i32⟩ : BufTy).Contents (Elt F) → (⟨S4096, .i32⟩ : BufTy).Contents (Elt F)),
    binary main_v1 main_v2 main_v3 (cmpi .slt : (⟨S4096, .i32⟩ : BufTy).Contents (Elt F) → (⟨S4096, .i32⟩ : BufTy).Contents (Elt F) → (⟨S4096, .i1⟩ : BufTy).Contents (Elt F)),
    nullary main_c_0 (constantI S_ 32 4000#32),
    unary main_c_0 main_v4 (broadcastInDim S4096 ![] bcast_S_S4096 : (⟨S_, .i32⟩ : BufTy).Contents (Elt F) → (⟨S4096, .i32⟩ : BufTy).Contents (Elt F)),
    binary main_v1 main_v4 main_v5 (addi : (⟨S4096, .i32⟩ : BufTy).Contents (Elt F) → (⟨S4096, .i32⟩ : BufTy).Contents (Elt F) → (⟨S4096, .i32⟩ : BufTy).Contents (Elt F)),
    ternary main_v3 main_v5 main_v1 main_v6 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    unary main_v6 main_v7 (broadcastInDim S4096x1 ![0] bcast_S4096_S4096x1_0 : (⟨S4096, .i32⟩ : BufTy).Contents (Elt F) → (⟨S4096x1, .i32⟩ : BufTy).Contents (Elt F)),
    binary main_arg1 main_v7 main_v8 ((fun x i => Host.gather gather_S4000x32_S4096x1_S4096x32_1_0_n_n_0_1_132 x i) : (⟨S4000x32, .i32⟩ : BufTy).Contents (Elt F) → (⟨S4096x1, .i32⟩ : BufTy).Contents (Elt F) → (⟨S4096x32, .i32⟩ : BufTy).Contents (Elt F)),
    nullary main_v9 (iotaInDim S4096 32 0),
    unary main_v9 main_v10 (broadcastInDim S4096x1 ![0] bcast_S4096_S4096x1_0 : (⟨S4096, .i32⟩ : BufTy).Contents (Elt F) → (⟨S4096x1, .i32⟩ : BufTy).Contents (Elt F)),
    nullary main_cst (constant S_ .f32 0x00000000#32),
    unary main_cst main_v11 (broadcastInDim S4096x19000 ![] bcast_S_S4096x19000 : (⟨S_, .f32⟩ : BufTy).Contents (Elt F) → (⟨S4096x19000, .f32⟩ : BufTy).Contents (Elt F)),
    nullary main_c_1 (constantI S_ 32 0#32),
    unary main_c_1 main_v12 (broadcastInDim S4096x1 ![] bcast_S_S4096x1 : (⟨S_, .i32⟩ : BufTy).Contents (Elt F) → (⟨S4096x1, .i32⟩ : BufTy).Contents (Elt F)),
    binary main_v10 main_v12 main_v13 (cmpi .slt : (⟨S4096x1, .i32⟩ : BufTy).Contents (Elt F) → (⟨S4096x1, .i32⟩ : BufTy).Contents (Elt F) → (⟨S4096x1, .i1⟩ : BufTy).Contents (Elt F)),
    nullary main_c_2 (constantI S_ 32 4096#32),
    unary main_c_2 main_v14 (broadcastInDim S4096x1 ![] bcast_S_S4096x1 : (⟨S_, .i32⟩ : BufTy).Contents (Elt F) → (⟨S4096x1, .i32⟩ : BufTy).Contents (Elt F)),
    binary main_v10 main_v14 main_v15 (addi : (⟨S4096x1, .i32⟩ : BufTy).Contents (Elt F) → (⟨S4096x1, .i32⟩ : BufTy).Contents (Elt F) → (⟨S4096x1, .i32⟩ : BufTy).Contents (Elt F)),
    ternary main_v13 main_v15 main_v10 main_v16 (select : (⟨S4096x1, .i1⟩ : BufTy).Contents (Elt F) → (⟨S4096x1, .i32⟩ : BufTy).Contents (Elt F) → (⟨S4096x1, .i32⟩ : BufTy).Contents (Elt F) → (⟨S4096x1, .i32⟩ : BufTy).Contents (Elt F)),
    nullary main_c_3 (constantI S_ 32 0#32),
    unary main_c_3 main_v17 (broadcastInDim S4096x32 ![] bcast_S_S4096x32 : (⟨S_, .i32⟩ : BufTy).Contents (Elt F) → (⟨S4096x32, .i32⟩ : BufTy).Contents (Elt F)),
    binary main_v8 main_v17 main_v18 (cmpi .slt : (⟨S4096x32, .i32⟩ : BufTy).Contents (Elt F) → (⟨S4096x32, .i32⟩ : BufTy).Contents (Elt F) → (⟨S4096x32, .i1⟩ : BufTy).Contents (Elt F)),
    nullary main_c_4 (constantI S_ 32 19000#32),
    unary main_c_4 main_v19 (broadcastInDim S4096x32 ![] bcast_S_S4096x32 : (⟨S_, .i32⟩ : BufTy).Contents (Elt F) → (⟨S4096x32, .i32⟩ : BufTy).Contents (Elt F)),
    binary main_v8 main_v19 main_v20 (addi : (⟨S4096x32, .i32⟩ : BufTy).Contents (Elt F) → (⟨S4096x32, .i32⟩ : BufTy).Contents (Elt F) → (⟨S4096x32, .i32⟩ : BufTy).Contents (Elt F)),
    ternary main_v18 main_v20 main_v8 main_v21 (select : (⟨S4096x32, .i1⟩ : BufTy).Contents (Elt F) → (⟨S4096x32, .i32⟩ : BufTy).Contents (Elt F) → (⟨S4096x32, .i32⟩ : BufTy).Contents (Elt F) → (⟨S4096x32, .i32⟩ : BufTy).Contents (Elt F)),
    unary main_v16 main_v22 (broadcastInDim S4096x32 ![0, 1] bcast_S4096x1_S4096x32_0_1 : (⟨S4096x1, .i32⟩ : BufTy).Contents (Elt F) → (⟨S4096x32, .i32⟩ : BufTy).Contents (Elt F)),
    unary main_v22 main_v23 (broadcastInDim S4096x32x1 ![0, 1] bcast_S4096x32_S4096x32x1_0_1 : (⟨S4096x32, .i32⟩ : BufTy).Contents (Elt F) → (⟨S4096x32x1, .i32⟩ : BufTy).Contents (Elt F)),
    unary main_v21 main_v24 (broadcastInDim S4096x32x1 ![0, 1] bcast_S4096x32_S4096x32x1_0_1 : (⟨S4096x32, .i32⟩ : BufTy).Contents (Elt F) → (⟨S4096x32x1, .i32⟩ : BufTy).Contents (Elt F)),
    binary main_v23 main_v24 main_v25 ((fun a b => concatenate S4096x32x2 2 [⟨S4096x32x1, a⟩, ⟨S4096x32x1, b⟩] concatenates_S4096x32x1_S4096x32x1_S4096x32x2_d2) : (⟨S4096x32x1, .i32⟩ : BufTy).Contents (Elt F) → (⟨S4096x32x1, .i32⟩ : BufTy).Contents (Elt F) → (⟨S4096x32x2, .i32⟩ : BufTy).Contents (Elt F)),
    nullary main_cst_5 (constant S_ .f32 0x3F800000#32),
    unary main_cst_5 main_v26 (broadcastInDim S4096x32 ![] bcast_S_S4096x32 : (⟨S_, .f32⟩ : BufTy).Contents (Elt F) → (⟨S4096x32, .f32⟩ : BufTy).Contents (Elt F)),
    ternary main_v11 main_v25 main_v26 main_v27 ((fun x i u => Host.scatter scatter_S4096x19000_S4096x32x2_S4096x32_n_01_01_2 (fun _ b => b) x i u) : (⟨S4096x19000, .f32⟩ : BufTy).Contents (Elt F) → (⟨S4096x32x2, .i32⟩ : BufTy).Contents (Elt F) → (⟨S4096x32, .f32⟩ : BufTy).Contents (Elt F) → (⟨S4096x19000, .f32⟩ : BufTy).Contents (Elt F)),
    unary main_arg0 main_v28 ((extractStridedSlice S4096x1 ![0, 1] · slices_S4096x2_S4096x1_0_1) : (⟨S4096x2, .i32⟩ : BufTy).Contents (Elt F) → (⟨S4096x1, .i32⟩ : BufTy).Contents (Elt F)),
    reshape main_v28 main_v29 rfl shapeCasts_S4096x1_S4096,
    nullary main_c_6 (constantI S_ 32 0#32),
    unary main_c_6 main_v30 (broadcastInDim S4096 ![] bcast_S_S4096 : (⟨S_, .i32⟩ : BufTy).Contents (Elt F) → (⟨S4096, .i32⟩ : BufTy).Contents (Elt F)),
    binary main_v29 main_v30 main_v31 (cmpi .slt : (⟨S4096, .i32⟩ : BufTy).Contents (Elt F) → (⟨S4096, .i32⟩ : BufTy).Contents (Elt F) → (⟨S4096, .i1⟩ : BufTy).Contents (Elt F)),
    nullary main_c_7 (constantI S_ 32 4000#32),
    unary main_c_7 main_v32 (broadcastInDim S4096 ![] bcast_S_S4096 : (⟨S_, .i32⟩ : BufTy).Contents (Elt F) → (⟨S4096, .i32⟩ : BufTy).Contents (Elt F)),
    binary main_v29 main_v32 main_v33 (addi : (⟨S4096, .i32⟩ : BufTy).Contents (Elt F) → (⟨S4096, .i32⟩ : BufTy).Contents (Elt F) → (⟨S4096, .i32⟩ : BufTy).Contents (Elt F)),
    ternary main_v31 main_v33 main_v29 main_v34 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    unary main_v34 main_v35 (broadcastInDim S4096x1 ![0] bcast_S4096_S4096x1_0 : (⟨S4096, .i32⟩ : BufTy).Contents (Elt F) → (⟨S4096x1, .i32⟩ : BufTy).Contents (Elt F)),
    binary main_arg1 main_v35 main_v36 ((fun x i => Host.gather gather_S4000x32_S4096x1_S4096x32_1_0_n_n_0_1_132 x i) : (⟨S4000x32, .i32⟩ : BufTy).Contents (Elt F) → (⟨S4096x1, .i32⟩ : BufTy).Contents (Elt F) → (⟨S4096x32, .i32⟩ : BufTy).Contents (Elt F)),
    nullary main_v37 (iotaInDim S4096 32 0),
    unary main_v37 main_v38 (broadcastInDim S4096x1 ![0] bcast_S4096_S4096x1_0 : (⟨S4096, .i32⟩ : BufTy).Contents (Elt F) → (⟨S4096x1, .i32⟩ : BufTy).Contents (Elt F)),
    nullary main_cst_8 (constant S_ .f32 0x00000000#32),
    unary main_cst_8 main_v39 (broadcastInDim S4096x19000 ![] bcast_S_S4096x19000 : (⟨S_, .f32⟩ : BufTy).Contents (Elt F) → (⟨S4096x19000, .f32⟩ : BufTy).Contents (Elt F)),
    nullary main_c_9 (constantI S_ 32 0#32),
    unary main_c_9 main_v40 (broadcastInDim S4096x1 ![] bcast_S_S4096x1 : (⟨S_, .i32⟩ : BufTy).Contents (Elt F) → (⟨S4096x1, .i32⟩ : BufTy).Contents (Elt F)),
    binary main_v38 main_v40 main_v41 (cmpi .slt : (⟨S4096x1, .i32⟩ : BufTy).Contents (Elt F) → (⟨S4096x1, .i32⟩ : BufTy).Contents (Elt F) → (⟨S4096x1, .i1⟩ : BufTy).Contents (Elt F)),
    nullary main_c_10 (constantI S_ 32 4096#32),
    unary main_c_10 main_v42 (broadcastInDim S4096x1 ![] bcast_S_S4096x1 : (⟨S_, .i32⟩ : BufTy).Contents (Elt F) → (⟨S4096x1, .i32⟩ : BufTy).Contents (Elt F)),
    binary main_v38 main_v42 main_v43 (addi : (⟨S4096x1, .i32⟩ : BufTy).Contents (Elt F) → (⟨S4096x1, .i32⟩ : BufTy).Contents (Elt F) → (⟨S4096x1, .i32⟩ : BufTy).Contents (Elt F)),
    ternary main_v41 main_v43 main_v38 main_v44 (select : (⟨S4096x1, .i1⟩ : BufTy).Contents (Elt F) → (⟨S4096x1, .i32⟩ : BufTy).Contents (Elt F) → (⟨S4096x1, .i32⟩ : BufTy).Contents (Elt F) → (⟨S4096x1, .i32⟩ : BufTy).Contents (Elt F)),
    nullary main_c_11 (constantI S_ 32 0#32),
    unary main_c_11 main_v45 (broadcastInDim S4096x32 ![] bcast_S_S4096x32 : (⟨S_, .i32⟩ : BufTy).Contents (Elt F) → (⟨S4096x32, .i32⟩ : BufTy).Contents (Elt F)),
    binary main_v36 main_v45 main_v46 (cmpi .slt : (⟨S4096x32, .i32⟩ : BufTy).Contents (Elt F) → (⟨S4096x32, .i32⟩ : BufTy).Contents (Elt F) → (⟨S4096x32, .i1⟩ : BufTy).Contents (Elt F)),
    nullary main_c_12 (constantI S_ 32 19000#32),
    unary main_c_12 main_v47 (broadcastInDim S4096x32 ![] bcast_S_S4096x32 : (⟨S_, .i32⟩ : BufTy).Contents (Elt F) → (⟨S4096x32, .i32⟩ : BufTy).Contents (Elt F)),
    binary main_v36 main_v47 main_v48 (addi : (⟨S4096x32, .i32⟩ : BufTy).Contents (Elt F) → (⟨S4096x32, .i32⟩ : BufTy).Contents (Elt F) → (⟨S4096x32, .i32⟩ : BufTy).Contents (Elt F)),
    ternary main_v46 main_v48 main_v36 main_v49 (select : (⟨S4096x32, .i1⟩ : BufTy).Contents (Elt F) → (⟨S4096x32, .i32⟩ : BufTy).Contents (Elt F) → (⟨S4096x32, .i32⟩ : BufTy).Contents (Elt F) → (⟨S4096x32, .i32⟩ : BufTy).Contents (Elt F)),
    unary main_v44 main_v50 (broadcastInDim S4096x32 ![0, 1] bcast_S4096x1_S4096x32_0_1 : (⟨S4096x1, .i32⟩ : BufTy).Contents (Elt F) → (⟨S4096x32, .i32⟩ : BufTy).Contents (Elt F)),
    unary main_v50 main_v51 (broadcastInDim S4096x32x1 ![0, 1] bcast_S4096x32_S4096x32x1_0_1 : (⟨S4096x32, .i32⟩ : BufTy).Contents (Elt F) → (⟨S4096x32x1, .i32⟩ : BufTy).Contents (Elt F)),
    unary main_v49 main_v52 (broadcastInDim S4096x32x1 ![0, 1] bcast_S4096x32_S4096x32x1_0_1 : (⟨S4096x32, .i32⟩ : BufTy).Contents (Elt F) → (⟨S4096x32x1, .i32⟩ : BufTy).Contents (Elt F)),
    binary main_v51 main_v52 main_v53 ((fun a b => concatenate S4096x32x2 2 [⟨S4096x32x1, a⟩, ⟨S4096x32x1, b⟩] concatenates_S4096x32x1_S4096x32x1_S4096x32x2_d2) : (⟨S4096x32x1, .i32⟩ : BufTy).Contents (Elt F) → (⟨S4096x32x1, .i32⟩ : BufTy).Contents (Elt F) → (⟨S4096x32x2, .i32⟩ : BufTy).Contents (Elt F)),
    nullary main_cst_13 (constant S_ .f32 0x3F800000#32),
    unary main_cst_13 main_v54 (broadcastInDim S4096x32 ![] bcast_S_S4096x32 : (⟨S_, .f32⟩ : BufTy).Contents (Elt F) → (⟨S4096x32, .f32⟩ : BufTy).Contents (Elt F)),
    ternary main_v39 main_v53 main_v54 main_v55 ((fun x i u => Host.scatter scatter_S4096x19000_S4096x32x2_S4096x32_n_01_01_2 (fun _ b => b) x i u) : (⟨S4096x19000, .f32⟩ : BufTy).Contents (Elt F) → (⟨S4096x32x2, .i32⟩ : BufTy).Contents (Elt F) → (⟨S4096x32, .f32⟩ : BufTy).Contents (Elt F) → (⟨S4096x19000, .f32⟩ : BufTy).Contents (Elt F)),
    unary main_arg2 main_v56 ((extractStridedSlice S4096x1 ![0, 0] · slices_S4096x2_S4096x1_0_0) : (⟨S4096x2, .f32⟩ : BufTy).Contents (Elt F) → (⟨S4096x1, .f32⟩ : BufTy).Contents (Elt F)),
    binary main_v27 main_v56 main_v57 ((fun a b => concatenate S4096x19001 1 [⟨S4096x19000, a⟩, ⟨S4096x1, b⟩] concatenates_S4096x19000_S4096x1_S4096x19001_d1) : (⟨S4096x19000, .f32⟩ : BufTy).Contents (Elt F) → (⟨S4096x1, .f32⟩ : BufTy).Contents (Elt F) → (⟨S4096x19001, .f32⟩ : BufTy).Contents (Elt F)),
    unary main_arg2 main_v58 ((extractStridedSlice S4096x1 ![0, 1] · slices_S4096x2_S4096x1_0_1) : (⟨S4096x2, .f32⟩ : BufTy).Contents (Elt F) → (⟨S4096x1, .f32⟩ : BufTy).Contents (Elt F)),
    binary main_v55 main_v58 main_v59 ((fun a b => concatenate S4096x19001 1 [⟨S4096x19000, a⟩, ⟨S4096x1, b⟩] concatenates_S4096x19000_S4096x1_S4096x19001_d1) : (⟨S4096x19000, .f32⟩ : BufTy).Contents (Elt F) → (⟨S4096x1, .f32⟩ : BufTy).Contents (Elt F) → (⟨S4096x19001, .f32⟩ : BufTy).Contents (Elt F)),
    binary main_v57 main_v59 main_v60 ((fun a b => concatenate S4096x38002 1 [⟨S4096x19001, a⟩, ⟨S4096x19001, b⟩] concatenates_S4096x19001_S4096x19001_S4096x38002_d1) : (⟨S4096x19001, .f32⟩ : BufTy).Contents (Elt F) → (⟨S4096x19001, .f32⟩ : BufTy).Contents (Elt F) → (⟨S4096x38002, .f32⟩ : BufTy).Contents (Elt F)),
    binary main_v59 main_v57 main_v61 ((fun a b => concatenate S4096x38002 1 [⟨S4096x19001, a⟩, ⟨S4096x19001, b⟩] concatenates_S4096x19001_S4096x19001_S4096x38002_d1) : (⟨S4096x19001, .f32⟩ : BufTy).Contents (Elt F) → (⟨S4096x19001, .f32⟩ : BufTy).Contents (Elt F) → (⟨S4096x38002, .f32⟩ : BufTy).Contents (Elt F)),
    binary main_v60 main_arg3 main_v62 ((fun l r => Host.dotGeneral dot_S4096x38002_S38002x2048_S4096x2048_1_0_0_1_n_n none l r) : (⟨S4096x38002, .f32⟩ : BufTy).Contents (Elt F) → (⟨S38002x2048, .f32⟩ : BufTy).Contents (Elt F) → (⟨S4096x2048, .f32⟩ : BufTy).Contents (Elt F)),
    unary main_arg4 main_v63 (broadcastInDim S1x2048 ![1] bcast_S2048_S1x2048_1 : (⟨S2048, .f32⟩ : BufTy).Contents (Elt F) → (⟨S1x2048, .f32⟩ : BufTy).Contents (Elt F)),
    unary main_v63 main_v64 (broadcastInDim S4096x2048 ![0, 1] bcast_S1x2048_S4096x2048_0_1 : (⟨S1x2048, .f32⟩ : BufTy).Contents (Elt F) → (⟨S4096x2048, .f32⟩ : BufTy).Contents (Elt F)),
    binary main_v62 main_v64 main_v65 (addf : (⟨S4096x2048, .f32⟩ : BufTy).Contents (Elt F) → (⟨S4096x2048, .f32⟩ : BufTy).Contents (Elt F) → (⟨S4096x2048, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S4096x2048, .f32⟩) main_call0_v0) (broadcastInDim S4096x2048 ![] bcast_S_S4096x2048),
    TRef.binary (TRef.of (T := ⟨S4096x2048, .f32⟩) main_v65) (TRef.of (T := ⟨S4096x2048, .f32⟩) main_call0_v0) (TRef.of (T := ⟨S4096x2048, .f32⟩) main_v66) maximumf,
    binary main_v66 main_arg5 main_v67 ((fun l r => Host.dotGeneral dot_S4096x2048_S2048x1024_S4096x1024_1_0_0_1_n_n none l r) : (⟨S4096x2048, .f32⟩ : BufTy).Contents (Elt F) → (⟨S2048x1024, .f32⟩ : BufTy).Contents (Elt F) → (⟨S4096x1024, .f32⟩ : BufTy).Contents (Elt F)),
    unary main_arg6 main_v68 (broadcastInDim S1x1024 ![1] bcast_S1024_S1x1024_1 : (⟨S1024, .f32⟩ : BufTy).Contents (Elt F) → (⟨S1x1024, .f32⟩ : BufTy).Contents (Elt F)),
    unary main_v68 main_v69 (broadcastInDim S4096x1024 ![0, 1] bcast_S1x1024_S4096x1024_0_1 : (⟨S1x1024, .f32⟩ : BufTy).Contents (Elt F) → (⟨S4096x1024, .f32⟩ : BufTy).Contents (Elt F)),
    binary main_v67 main_v69 main_v70 (addf : (⟨S4096x1024, .f32⟩ : BufTy).Contents (Elt F) → (⟨S4096x1024, .f32⟩ : BufTy).Contents (Elt F) → (⟨S4096x1024, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S4096x1024, .f32⟩) main_call1_v0) (broadcastInDim S4096x1024 ![] bcast_S_S4096x1024),
    TRef.binary (TRef.of (T := ⟨S4096x1024, .f32⟩) main_v70) (TRef.of (T := ⟨S4096x1024, .f32⟩) main_call1_v0) (TRef.of (T := ⟨S4096x1024, .f32⟩) main_v71) maximumf,
    binary main_v71 main_arg7 main_v72 ((fun l r => Host.dotGeneral dot_S4096x1024_S1024x1_S4096x1_1_0_0_1_n_n none l r) : (⟨S4096x1024, .f32⟩ : BufTy).Contents (Elt F) → (⟨S1024x1, .f32⟩ : BufTy).Contents (Elt F) → (⟨S4096x1, .f32⟩ : BufTy).Contents (Elt F)),
    unary main_arg8 main_v73 (broadcastInDim S1x1 ![1] bcast_S1_S1x1_1 : (⟨S1, .f32⟩ : BufTy).Contents (Elt F) → (⟨S1x1, .f32⟩ : BufTy).Contents (Elt F)),
    unary main_v73 main_v74 (broadcastInDim S4096x1 ![0, 1] bcast_S1x1_S4096x1_0_1 : (⟨S1x1, .f32⟩ : BufTy).Contents (Elt F) → (⟨S4096x1, .f32⟩ : BufTy).Contents (Elt F)),
    binary main_v72 main_v74 main_v75 (addf : (⟨S4096x1, .f32⟩ : BufTy).Contents (Elt F) → (⟨S4096x1, .f32⟩ : BufTy).Contents (Elt F) → (⟨S4096x1, .f32⟩ : BufTy).Contents (Elt F)),
    reshape main_v75 main_v76 rfl shapeCasts_S4096x1_S4096,
    binary main_v61 main_arg3 main_v77 ((fun l r => Host.dotGeneral dot_S4096x38002_S38002x2048_S4096x2048_1_0_0_1_n_n none l r) : (⟨S4096x38002, .f32⟩ : BufTy).Contents (Elt F) → (⟨S38002x2048, .f32⟩ : BufTy).Contents (Elt F) → (⟨S4096x2048, .f32⟩ : BufTy).Contents (Elt F)),
    unary main_arg4 main_v78 (broadcastInDim S1x2048 ![1] bcast_S2048_S1x2048_1 : (⟨S2048, .f32⟩ : BufTy).Contents (Elt F) → (⟨S1x2048, .f32⟩ : BufTy).Contents (Elt F)),
    unary main_v78 main_v79 (broadcastInDim S4096x2048 ![0, 1] bcast_S1x2048_S4096x2048_0_1 : (⟨S1x2048, .f32⟩ : BufTy).Contents (Elt F) → (⟨S4096x2048, .f32⟩ : BufTy).Contents (Elt F)),
    binary main_v77 main_v79 main_v80 (addf : (⟨S4096x2048, .f32⟩ : BufTy).Contents (Elt F) → (⟨S4096x2048, .f32⟩ : BufTy).Contents (Elt F) → (⟨S4096x2048, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S4096x2048, .f32⟩) main_call2_v0) (broadcastInDim S4096x2048 ![] bcast_S_S4096x2048),
    TRef.binary (TRef.of (T := ⟨S4096x2048, .f32⟩) main_v80) (TRef.of (T := ⟨S4096x2048, .f32⟩) main_call2_v0) (TRef.of (T := ⟨S4096x2048, .f32⟩) main_v81) maximumf,
    binary main_v81 main_arg5 main_v82 ((fun l r => Host.dotGeneral dot_S4096x2048_S2048x1024_S4096x1024_1_0_0_1_n_n none l r) : (⟨S4096x2048, .f32⟩ : BufTy).Contents (Elt F) → (⟨S2048x1024, .f32⟩ : BufTy).Contents (Elt F) → (⟨S4096x1024, .f32⟩ : BufTy).Contents (Elt F)),
    unary main_arg6 main_v83 (broadcastInDim S1x1024 ![1] bcast_S1024_S1x1024_1 : (⟨S1024, .f32⟩ : BufTy).Contents (Elt F) → (⟨S1x1024, .f32⟩ : BufTy).Contents (Elt F)),
    unary main_v83 main_v84 (broadcastInDim S4096x1024 ![0, 1] bcast_S1x1024_S4096x1024_0_1 : (⟨S1x1024, .f32⟩ : BufTy).Contents (Elt F) → (⟨S4096x1024, .f32⟩ : BufTy).Contents (Elt F)),
    binary main_v82 main_v84 main_v85 (addf : (⟨S4096x1024, .f32⟩ : BufTy).Contents (Elt F) → (⟨S4096x1024, .f32⟩ : BufTy).Contents (Elt F) → (⟨S4096x1024, .f32⟩ : BufTy).Contents (Elt F)),
    TRef.nullary (TRef.of (T := ⟨S_, .f32⟩) main_call3_cst) (constant S_ .f32 0x00000000#32),
    TRef.unary (TRef.of (T := ⟨S_, .f32⟩) main_call3_cst) (TRef.of (T := ⟨S4096x1024, .f32⟩) main_call3_v0) (broadcastInDim S4096x1024 ![] bcast_S_S4096x1024),
    TRef.binary (TRef.of (T := ⟨S4096x1024, .f32⟩) main_v85) (TRef.of (T := ⟨S4096x1024, .f32⟩) main_call3_v0) (TRef.of (T := ⟨S4096x1024, .f32⟩) main_v86) maximumf,
    binary main_v86 main_arg7 main_v87 ((fun l r => Host.dotGeneral dot_S4096x1024_S1024x1_S4096x1_1_0_0_1_n_n none l r) : (⟨S4096x1024, .f32⟩ : BufTy).Contents (Elt F) → (⟨S1024x1, .f32⟩ : BufTy).Contents (Elt F) → (⟨S4096x1, .f32⟩ : BufTy).Contents (Elt F)),
    unary main_arg8 main_v88 (broadcastInDim S1x1 ![1] bcast_S1_S1x1_1 : (⟨S1, .f32⟩ : BufTy).Contents (Elt F) → (⟨S1x1, .f32⟩ : BufTy).Contents (Elt F)),
    unary main_v88 main_v89 (broadcastInDim S4096x1 ![0, 1] bcast_S1x1_S4096x1_0_1 : (⟨S1x1, .f32⟩ : BufTy).Contents (Elt F) → (⟨S4096x1, .f32⟩ : BufTy).Contents (Elt F)),
    binary main_v87 main_v89 main_v90 (addf : (⟨S4096x1, .f32⟩ : BufTy).Contents (Elt F) → (⟨S4096x1, .f32⟩ : BufTy).Contents (Elt F) → (⟨S4096x1, .f32⟩ : BufTy).Contents (Elt F)),
    reshape main_v90 main_v91 rfl shapeCasts_S4096x1_S4096 ]

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., nullary_bufs_sub .., unary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., unary_bufs_sub .., binary_bufs_sub .., nullary_bufs_sub .., unary_bufs_sub .., ternary_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., nullary_bufs_sub .., unary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., unary_bufs_sub .., binary_bufs_sub .., nullary_bufs_sub .., unary_bufs_sub .., ternary_bufs_sub .., unary_bufs_sub .., binary_bufs_sub .., unary_bufs_sub .., binary_bufs_sub .., binary_bufs_sub .., binary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., reshape_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., reshape_bufs_sub ..⟩

end Cert.ReferenceIdeal.Value

end
-- ==== Proof.RefRead.lean ====
import proofs.«417828_j54142357733865_1_alg».proof.Proof.RefRun
import Idealize.ShloMosaic.Lib.Pipeline.Value
import Idealize.ShloMosaic.Lib.ValueIdx
import Idealize.ShloMosaic.PureOps.Ideal.Laws

noncomputable section

namespace Cert.ReferenceIdeal.Read

open Cert.ReferenceIdeal Cert.ReferenceIdeal.Gen Idealize.ShloMosaic Idealize.ShloMosaic.TcCoe Idealize.SL.Sem Idealize.ShloMosaic.StableHlo

variable {F : FTy → Type} [FloatOps F]

def val_main_v0 (x0 : (⟨S4096x2, .i32⟩ : BufTy).Contents (Elt F)) : (⟨S4096x1, .i32⟩ : BufTy).Contents (Elt F) :=
  extractStridedSlice S4096x1 ![0, 0] (x0) slices_S4096x2_S4096x1_0_0

def val_main_v1 (x0 : (⟨S4096x2, .i32⟩ : BufTy).Contents (Elt F)) : (⟨S4096, .i32⟩ : BufTy).Contents (Elt F) :=
  shapeCast _ (val_main_v0 (F := F) x0) shapeCasts_S4096x1_S4096

def val_main_c : (⟨S_, .i32⟩ : BufTy).Contents (Elt F) :=
  constantI S_ 32 0#32

def val_main_v2 : (⟨S4096, .i32⟩ : BufTy).Contents (Elt F) :=
  broadcastInDim S4096 ![] bcast_S_S4096 (val_main_c (F := F))

def val_main_v3 (x0 : (⟨S4096x2, .i32⟩ : BufTy).Contents (Elt F)) : (⟨S4096, .i1⟩ : BufTy).Contents (Elt F) :=
  cmpi .slt (val_main_v1 (F := F) x0) (val_main_v2 (F := F))

def val_main_c_0 : (⟨S_, .i32⟩ : BufTy).Contents (Elt F) :=
  constantI S_ 32 4000#32

def val_main_v4 : (⟨S4096, .i32⟩ : BufTy).Contents (Elt F) :=
  broadcastInDim S4096 ![] bcast_S_S4096 (val_main_c_0 (F := F))

def val_main_v5 (x0 : (⟨S4096x2, .i32⟩ : BufTy).Contents (Elt F)) : (⟨S4096, .i32⟩ : BufTy).Contents (Elt F) :=
  addi (val_main_v1 (F := F) x0) (val_main_v4 (F := F))

def val_main_v6 (x0 : (⟨S4096x2, .i32⟩ : BufTy).Contents (Elt F)) : (⟨S4096, .i32⟩ : BufTy).Contents (Elt F) :=
  select (val_main_v3 (F := F) x0) (val_main_v5 (F := F) x0) (val_main_v1 (F := F) x0)

def val_main_v7 (x0 : (⟨S4096x2, .i32⟩ : BufTy).Contents (Elt F)) : (⟨S4096x1, .i32⟩ : BufTy).Contents (Elt F) :=
  broadcastInDim S4096x1 ![0] bcast_S4096_S4096x1_0 (val_main_v6 (F := F) x0)

def val_main_v8 (x0 : (⟨S4096x2, .i32⟩ : BufTy).Contents (Elt F)) (x1 : (⟨S4000x32, .i32⟩ : BufTy).Contents (Elt F)) : (⟨S4096x32, .i32⟩ : BufTy).Contents (Elt F) :=
  Host.gather gather_S4000x32_S4096x1_S4096x32_1_0_n_n_0_1_132 (x1) (val_main_v7 (F := F) x0)

def val_main_v9 : (⟨S4096, .i32⟩ : BufTy).Contents (Elt F) :=
  iotaInDim S4096 32 0
theorem val_main_v9_apply (i : S4096.Idx) :
    val_main_v9 (F := F) i = BitVec.ofNat 32 (i 0).val := rfl

def val_main_v10 : (⟨S4096x1, .i32⟩ : BufTy).Contents (Elt F) :=
  broadcastInDim S4096x1 ![0] bcast_S4096_S4096x1_0 (val_main_v9 (F := F))
abbrev idx_main_v10 (i : S4096x1.Idx) : S4096.Idx := fun a => match a with
  | ⟨0, _⟩ => ⟨(i 0).val, (i 0).isLt⟩
theorem val_main_v10_apply (i : S4096x1.Idx) :
    val_main_v10 (F := F) i = val_main_v9 (F := F) (idx_main_v10 i) := by
  unfold val_main_v10
  generalize val_main_v9 (F := F) = y
  exact broadcastInDim_apply _ bcast_S4096_S4096x1_0 y i (idx_main_v10 i) (fun a => match a with
    | ⟨0, _⟩ => by show (i 0).val = if (4096 : Nat) = 1 then 0 else (i 0).val; rw [if_neg (by decide)])

def val_main_cst : (⟨S_, .f32⟩ : BufTy).Contents (Elt F) :=
  constant S_ .f32 0x00000000#32
theorem val_main_cst_apply (i : S_.Idx) :
    val_main_cst (F := F) i = FloatOps.ofBits .f32 0x00000000#32 := rfl

def val_main_v11 : (⟨S4096x19000, .f32⟩ : BufTy).Contents (Elt F) :=
  broadcastInDim S4096x19000 ![] bcast_S_S4096x19000 (val_main_cst (F := F))
abbrev idx_main_v11 (i : S4096x19000.Idx) : S_.Idx := fun a => a.elim0
theorem val_main_v11_apply (i : S4096x19000.Idx) :
    val_main_v11 (F := F) i = val_main_cst (F := F) (idx_main_v11 i) := by
  unfold val_main_v11
  generalize val_main_cst (F := F) = y
  exact broadcastInDim_apply _ bcast_S_S4096x19000 y i (idx_main_v11 i) (fun a => a.elim0)

def val_main_c_1 : (⟨S_, .i32⟩ : BufTy).Contents (Elt F) :=
  constantI S_ 32 0#32
theorem val_main_c_1_apply (i : S_.Idx) :
    val_main_c_1 (F := F) i = 0#32 := rfl

def val_main_v12 : (⟨S4096x1, .i32⟩ : BufTy).Contents (Elt F) :=
  broadcastInDim S4096x1 ![] bcast_S_S4096x1 (val_main_c_1 (F := F))
abbrev idx_main_v12 (i : S4096x1.Idx) : S_.Idx := fun a => a.elim0
theorem val_main_v12_apply (i : S4096x1.Idx) :
    val_main_v12 (F := F) i = val_main_c_1 (F := F) (idx_main_v12 i) := by
  unfold val_main_v12
  generalize val_main_c_1 (F := F) = y
  exact broadcastInDim_apply _ bcast_S_S4096x1 y i (idx_main_v12 i) (fun a => a.elim0)

def val_main_v13 : (⟨S4096x1, .i1⟩ : BufTy).Contents (Elt F) :=
  cmpi .slt (val_main_v10 (F := F)) (val_main_v12 (F := F))
theorem val_main_v13_apply (i : S4096x1.Idx) :
    val_main_v13 (F := F) i = IntOp.cmpi .slt (val_main_v10 (F := F) i) (val_main_v12 (F := F) i) := rfl

def val_main_c_2 : (⟨S_, .i32⟩ : BufTy).Contents (Elt F) :=
  constantI S_ 32 4096#32

def val_main_v14 : (⟨S4096x1, .i32⟩ : BufTy).Contents (Elt F) :=
  broadcastInDim S4096x1 ![] bcast_S_S4096x1 (val_main_c_2 (F := F))

def val_main_v15 : (⟨S4096x1, .i32⟩ : BufTy).Contents (Elt F) :=
  addi (val_main_v10 (F := F)) (val_main_v14 (F := F))

def val_main_v16 : (⟨S4096x1, .i32⟩ : BufTy).Contents (Elt F) :=
  select (val_main_v13 (F := F)) (val_main_v15 (F := F)) (val_main_v10 (F := F))
theorem val_main_v16_apply (i : S4096x1.Idx) :
    val_main_v16 (F := F) i = Scalar.select (val_main_v13 (F := F) i) (val_main_v15 (F := F) i) (val_main_v10 (F := F) i) := rfl

def val_main_c_3 : (⟨S_, .i32⟩ : BufTy).Contents (Elt F) :=
  constantI S_ 32 0#32
theorem val_main_c_3_apply (i : S_.Idx) :
    val_main_c_3 (F := F) i = 0#32 := rfl

def val_main_v17 : (⟨S4096x32, .i32⟩ : BufTy).Contents (Elt F) :=
  broadcastInDim S4096x32 ![] bcast_S_S4096x32 (val_main_c_3 (F := F))
abbrev idx_main_v17 (i : S4096x32.Idx) : S_.Idx := fun a => a.elim0
theorem val_main_v17_apply (i : S4096x32.Idx) :
    val_main_v17 (F := F) i = val_main_c_3 (F := F) (idx_main_v17 i) := by
  unfold val_main_v17
  generalize val_main_c_3 (F := F) = y
  exact broadcastInDim_apply _ bcast_S_S4096x32 y i (idx_main_v17 i) (fun a => a.elim0)

def val_main_v18 (x0 : (⟨S4096x2, .i32⟩ : BufTy).Contents (Elt F)) (x1 : (⟨S4000x32, .i32⟩ : BufTy).Contents (Elt F)) : (⟨S4096x32, .i1⟩ : BufTy).Contents (Elt F) :=
  cmpi .slt (val_main_v8 (F := F) x0 x1) (val_main_v17 (F := F))
theorem val_main_v18_apply (x0 : (⟨S4096x2, .i32⟩ : BufTy).Contents (Elt F)) (x1 : (⟨S4000x32, .i32⟩ : BufTy).Contents (Elt F)) (i : S4096x32.Idx) :
    val_main_v18 (F := F) x0 x1 i = IntOp.cmpi .slt (val_main_v8 (F := F) x0 x1 i) (val_main_v17 (F := F) i) := rfl

def val_main_c_4 : (⟨S_, .i32⟩ : BufTy).Contents (Elt F) :=
  constantI S_ 32 19000#32

def val_main_v19 : (⟨S4096x32, .i32⟩ : BufTy).Contents (Elt F) :=
  broadcastInDim S4096x32 ![] bcast_S_S4096x32 (val_main_c_4 (F := F))

def val_main_v20 (x0 : (⟨S4096x2, .i32⟩ : BufTy).Contents (Elt F)) (x1 : (⟨S4000x32, .i32⟩ : BufTy).Contents (Elt F)) : (⟨S4096x32, .i32⟩ : BufTy).Contents (Elt F) :=
  addi (val_main_v8 (F := F) x0 x1) (val_main_v19 (F := F))

def val_main_v21 (x0 : (⟨S4096x2, .i32⟩ : BufTy).Contents (Elt F)) (x1 : (⟨S4000x32, .i32⟩ : BufTy).Contents (Elt F)) : (⟨S4096x32, .i32⟩ : BufTy).Contents (Elt F) :=
  select (val_main_v18 (F := F) x0 x1) (val_main_v20 (F := F) x0 x1) (val_main_v8 (F := F) x0 x1)
theorem val_main_v21_apply (x0 : (⟨S4096x2, .i32⟩ : BufTy).Contents (Elt F)) (x1 : (⟨S4000x32, .i32⟩ : BufTy).Contents (Elt F)) (i : S4096x32.Idx) :
    val_main_v21 (F := F) x0 x1 i = Scalar.select (val_main_v18 (F := F) x0 x1 i) (val_main_v20 (F := F) x0 x1 i) (val_main_v8 (F := F) x0 x1 i) := rfl

def val_main_v22 : (⟨S4096x32, .i32⟩ : BufTy).Contents (Elt F) :=
  broadcastInDim S4096x32 ![0, 1] bcast_S4096x1_S4096x32_0_1 (val_main_v16 (F := F))
abbrev idx_main_v22 (i : S4096x32.Idx) : S4096x1.Idx := fun a => match a with
  | ⟨0, _⟩ => ⟨(i 0).val, (i 0).isLt⟩
  | ⟨1, _⟩ => ⟨0, Nat.one_pos⟩
theorem val_main_v22_apply (i : S4096x32.Idx) :
    val_main_v22 (F := F) i = val_main_v16 (F := F) (idx_main_v22 i) := by
  unfold val_main_v22
  generalize val_main_v16 (F := F) = y
  exact broadcastInDim_apply _ bcast_S4096x1_S4096x32_0_1 y i (idx_main_v22 i) (fun a => match a with
    | ⟨0, _⟩ => by show (i 0).val = if (4096 : Nat) = 1 then 0 else (i 0).val; rw [if_neg (by decide)]
    | ⟨1, _⟩ => by show 0 = if (1 : Nat) = 1 then 0 else (i 1).val; rw [if_pos rfl])

def val_main_v23 : (⟨S4096x32x1, .i32⟩ : BufTy).Contents (Elt F) :=
  broadcastInDim S4096x32x1 ![0, 1] bcast_S4096x32_S4096x32x1_0_1 (val_main_v22 (F := F))
abbrev idx_main_v23 (i : S4096x32x1.Idx) : S4096x32.Idx := fun a => match a with
  | ⟨0, _⟩ => ⟨(i 0).val, (i 0).isLt⟩
  | ⟨1, _⟩ => ⟨(i 1).val, (i 1).isLt⟩
theorem val_main_v23_apply (i : S4096x32x1.Idx) :
    val_main_v23 (F := F) i = val_main_v22 (F := F) (idx_main_v23 i) := by
  unfold val_main_v23
  generalize val_main_v22 (F := F) = y
  exact broadcastInDim_apply _ bcast_S4096x32_S4096x32x1_0_1 y i (idx_main_v23 i) (fun a => match a with
    | ⟨0, _⟩ => by show (i 0).val = if (4096 : Nat) = 1 then 0 else (i 0).val; rw [if_neg (by decide)]
    | ⟨1, _⟩ => by show (i 1).val = if (32 : Nat) = 1 then 0 else (i 1).val; rw [if_neg (by decide)])

def val_main_v24 (x0 : (⟨S4096x2, .i32⟩ : BufTy).Contents (Elt F)) (x1 : (⟨S4000x32, .i32⟩ : BufTy).Contents (Elt F)) : (⟨S4096x32x1, .i32⟩ : BufTy).Contents (Elt F) :=
  broadcastInDim S4096x32x1 ![0, 1] bcast_S4096x32_S4096x32x1_0_1 (val_main_v21 (F := F) x0 x1)
abbrev idx_main_v24 (i : S4096x32x1.Idx) : S4096x32.Idx := fun a => match a with
  | ⟨0, _⟩ => ⟨(i 0).val, (i 0).isLt⟩
  | ⟨1, _⟩ => ⟨(i 1).val, (i 1).isLt⟩
theorem val_main_v24_apply (x0 : (⟨S4096x2, .i32⟩ : BufTy).Contents (Elt F)) (x1 : (⟨S4000x32, .i32⟩ : BufTy).Contents (Elt F)) (i : S4096x32x1.Idx) :
    val_main_v24 (F := F) x0 x1 i = val_main_v21 (F := F) x0 x1 (idx_main_v24 i) := by
  unfold val_main_v24
  generalize val_main_v21 (F := F) x0 x1 = y
  exact broadcastInDim_apply _ bcast_S4096x32_S4096x32x1_0_1 y i (idx_main_v24 i) (fun a => match a with
    | ⟨0, _⟩ => by show (i 0).val = if (4096 : Nat) = 1 then 0 else (i 0).val; rw [if_neg (by decide)]
    | ⟨1, _⟩ => by show (i 1).val = if (32 : Nat) = 1 then 0 else (i 1).val; rw [if_neg (by decide)])

def val_main_v25 (x0 : (⟨S4096x2, .i32⟩ : BufTy).Contents (Elt F)) (x1 : (⟨S4000x32, .i32⟩ : BufTy).Contents (Elt F)) : (⟨S4096x32x2, .i32⟩ : BufTy).Contents (Elt F) :=
  concatenate S4096x32x2 2 [⟨S4096x32x1, (val_main_v23 (F := F))⟩, ⟨S4096x32x1, (val_main_v24 (F := F) x0 x1)⟩] concatenates_S4096x32x1_S4096x32x1_S4096x32x2_d2

def val_main_cst_5 : (⟨S_, .f32⟩ : BufTy).Contents (Elt F) :=
  constant S_ .f32 0x3F800000#32
theorem val_main_cst_5_apply (i : S_.Idx) :
    val_main_cst_5 (F := F) i = FloatOps.ofBits .f32 0x3F800000#32 := rfl

def val_main_v26 : (⟨S4096x32, .f32⟩ : BufTy).Contents (Elt F) :=
  broadcastInDim S4096x32 ![] bcast_S_S4096x32 (val_main_cst_5 (F := F))
abbrev idx_main_v26 (i : S4096x32.Idx) : S_.Idx := fun a => a.elim0
theorem val_main_v26_apply (i : S4096x32.Idx) :
    val_main_v26 (F := F) i = val_main_cst_5 (F := F) (idx_main_v26 i) := by
  unfold val_main_v26
  generalize val_main_cst_5 (F := F) = y
  exact broadcastInDim_apply _ bcast_S_S4096x32 y i (idx_main_v26 i) (fun a => a.elim0)

def val_main_v27 (x0 : (⟨S4096x2, .i32⟩ : BufTy).Contents (Elt F)) (x1 : (⟨S4000x32, .i32⟩ : BufTy).Contents (Elt F)) : (⟨S4096x19000, .f32⟩ : BufTy).Contents (Elt F) :=
  Host.scatter scatter_S4096x19000_S4096x32x2_S4096x32_n_01_01_2 (fun _ b => b) (val_main_v11 (F := F)) (val_main_v25 (F := F) x0 x1) (val_main_v26 (F := F))

def val_main_v28 (x0 : (⟨S4096x2, .i32⟩ : BufTy).Contents (Elt F)) : (⟨S4096x1, .i32⟩ : BufTy).Contents (Elt F) :=
  extractStridedSlice S4096x1 ![0, 1] (x0) slices_S4096x2_S4096x1_0_1

def val_main_v29 (x0 : (⟨S4096x2, .i32⟩ : BufTy).Contents (Elt F)) : (⟨S4096, .i32⟩ : BufTy).Contents (Elt F) :=
  shapeCast _ (val_main_v28 (F := F) x0) shapeCasts_S4096x1_S4096

def val_main_c_6 : (⟨S_, .i32⟩ : BufTy).Contents (Elt F) :=
  constantI S_ 32 0#32

def val_main_v30 : (⟨S4096, .i32⟩ : BufTy).Contents (Elt F) :=
  broadcastInDim S4096 ![] bcast_S_S4096 (val_main_c_6 (F := F))

def val_main_v31 (x0 : (⟨S4096x2, .i32⟩ : BufTy).Contents (Elt F)) : (⟨S4096, .i1⟩ : BufTy).Contents (Elt F) :=
  cmpi .slt (val_main_v29 (F := F) x0) (val_main_v30 (F := F))

def val_main_c_7 : (⟨S_, .i32⟩ : BufTy).Contents (Elt F) :=
  constantI S_ 32 4000#32

def val_main_v32 : (⟨S4096, .i32⟩ : BufTy).Contents (Elt F) :=
  broadcastInDim S4096 ![] bcast_S_S4096 (val_main_c_7 (F := F))

def val_main_v33 (x0 : (⟨S4096x2, .i32⟩ : BufTy).Contents (Elt F)) : (⟨S4096, .i32⟩ : BufTy).Contents (Elt F) :=
  addi (val_main_v29 (F := F) x0) (val_main_v32 (F := F))

def val_main_v34 (x0 : (⟨S4096x2, .i32⟩ : BufTy).Contents (Elt F)) : (⟨S4096, .i32⟩ : BufTy).Contents (Elt F) :=
  select (val_main_v31 (F := F) x0) (val_main_v33 (F := F) x0) (val_main_v29 (F := F) x0)

def val_main_v35 (x0 : (⟨S4096x2, .i32⟩ : BufTy).Contents (Elt F)) : (⟨S4096x1, .i32⟩ : BufTy).Contents (Elt F) :=
  broadcastInDim S4096x1 ![0] bcast_S4096_S4096x1_0 (val_main_v34 (F := F) x0)

def val_main_v36 (x0 : (⟨S4096x2, .i32⟩ : BufTy).Contents (Elt F)) (x1 : (⟨S4000x32, .i32⟩ : BufTy).Contents (Elt F)) : (⟨S4096x32, .i32⟩ : BufTy).Contents (Elt F) :=
  Host.gather gather_S4000x32_S4096x1_S4096x32_1_0_n_n_0_1_132 (x1) (val_main_v35 (F := F) x0)

def val_main_v37 : (⟨S4096, .i32⟩ : BufTy).Contents (Elt F) :=
  iotaInDim S4096 32 0
theorem val_main_v37_apply (i : S4096.Idx) :
    val_main_v37 (F := F) i = BitVec.ofNat 32 (i 0).val := rfl

def val_main_v38 : (⟨S4096x1, .i32⟩ : BufTy).Contents (Elt F) :=
  broadcastInDim S4096x1 ![0] bcast_S4096_S4096x1_0 (val_main_v37 (F := F))
abbrev idx_main_v38 (i : S4096x1.Idx) : S4096.Idx := fun a => match a with
  | ⟨0, _⟩ => ⟨(i 0).val, (i 0).isLt⟩
theorem val_main_v38_apply (i : S4096x1.Idx) :
    val_main_v38 (F := F) i = val_main_v37 (F := F) (idx_main_v38 i) := by
  unfold val_main_v38
  generalize val_main_v37 (F := F) = y
  exact broadcastInDim_apply _ bcast_S4096_S4096x1_0 y i (idx_main_v38 i) (fun a => match a with
    | ⟨0, _⟩ => by show (i 0).val = if (4096 : Nat) = 1 then 0 else (i 0).val; rw [if_neg (by decide)])

def val_main_cst_8 : (⟨S_, .f32⟩ : BufTy).Contents (Elt F) :=
  constant S_ .f32 0x00000000#32
theorem val_main_cst_8_apply (i : S_.Idx) :
    val_main_cst_8 (F := F) i = FloatOps.ofBits .f32 0x00000000#32 := rfl

def val_main_v39 : (⟨S4096x19000, .f32⟩ : BufTy).Contents (Elt F) :=
  broadcastInDim S4096x19000 ![] bcast_S_S4096x19000 (val_main_cst_8 (F := F))
abbrev idx_main_v39 (i : S4096x19000.Idx) : S_.Idx := fun a => a.elim0
theorem val_main_v39_apply (i : S4096x19000.Idx) :
    val_main_v39 (F := F) i = val_main_cst_8 (F := F) (idx_main_v39 i) := by
  unfold val_main_v39
  generalize val_main_cst_8 (F := F) = y
  exact broadcastInDim_apply _ bcast_S_S4096x19000 y i (idx_main_v39 i) (fun a => a.elim0)

def val_main_c_9 : (⟨S_, .i32⟩ : BufTy).Contents (Elt F) :=
  constantI S_ 32 0#32
theorem val_main_c_9_apply (i : S_.Idx) :
    val_main_c_9 (F := F) i = 0#32 := rfl

def val_main_v40 : (⟨S4096x1, .i32⟩ : BufTy).Contents (Elt F) :=
  broadcastInDim S4096x1 ![] bcast_S_S4096x1 (val_main_c_9 (F := F))
abbrev idx_main_v40 (i : S4096x1.Idx) : S_.Idx := fun a => a.elim0
theorem val_main_v40_apply (i : S4096x1.Idx) :
    val_main_v40 (F := F) i = val_main_c_9 (F := F) (idx_main_v40 i) := by
  unfold val_main_v40
  generalize val_main_c_9 (F := F) = y
  exact broadcastInDim_apply _ bcast_S_S4096x1 y i (idx_main_v40 i) (fun a => a.elim0)

def val_main_v41 : (⟨S4096x1, .i1⟩ : BufTy).Contents (Elt F) :=
  cmpi .slt (val_main_v38 (F := F)) (val_main_v40 (F := F))
theorem val_main_v41_apply (i : S4096x1.Idx) :
    val_main_v41 (F := F) i = IntOp.cmpi .slt (val_main_v38 (F := F) i) (val_main_v40 (F := F) i) := rfl

def val_main_c_10 : (⟨S_, .i32⟩ : BufTy).Contents (Elt F) :=
  constantI S_ 32 4096#32

def val_main_v42 : (⟨S4096x1, .i32⟩ : BufTy).Contents (Elt F) :=
  broadcastInDim S4096x1 ![] bcast_S_S4096x1 (val_main_c_10 (F := F))

def val_main_v43 : (⟨S4096x1, .i32⟩ : BufTy).Contents (Elt F) :=
  addi (val_main_v38 (F := F)) (val_main_v42 (F := F))

def val_main_v44 : (⟨S4096x1, .i32⟩ : BufTy).Contents (Elt F) :=
  select (val_main_v41 (F := F)) (val_main_v43 (F := F)) (val_main_v38 (F := F))
theorem val_main_v44_apply (i : S4096x1.Idx) :
    val_main_v44 (F := F) i = Scalar.select (val_main_v41 (F := F) i) (val_main_v43 (F := F) i) (val_main_v38 (F := F) i) := rfl

def val_main_c_11 : (⟨S_, .i32⟩ : BufTy).Contents (Elt F) :=
  constantI S_ 32 0#32
theorem val_main_c_11_apply (i : S_.Idx) :
    val_main_c_11 (F := F) i = 0#32 := rfl

def val_main_v45 : (⟨S4096x32, .i32⟩ : BufTy).Contents (Elt F) :=
  broadcastInDim S4096x32 ![] bcast_S_S4096x32 (val_main_c_11 (F := F))
abbrev idx_main_v45 (i : S4096x32.Idx) : S_.Idx := fun a => a.elim0
theorem val_main_v45_apply (i : S4096x32.Idx) :
    val_main_v45 (F := F) i = val_main_c_11 (F := F) (idx_main_v45 i) := by
  unfold val_main_v45
  generalize val_main_c_11 (F := F) = y
  exact broadcastInDim_apply _ bcast_S_S4096x32 y i (idx_main_v45 i) (fun a => a.elim0)

def val_main_v46 (x0 : (⟨S4096x2, .i32⟩ : BufTy).Contents (Elt F)) (x1 : (⟨S4000x32, .i32⟩ : BufTy).Contents (Elt F)) : (⟨S4096x32, .i1⟩ : BufTy).Contents (Elt F) :=
  cmpi .slt (val_main_v36 (F := F) x0 x1) (val_main_v45 (F := F))
theorem val_main_v46_apply (x0 : (⟨S4096x2, .i32⟩ : BufTy).Contents (Elt F)) (x1 : (⟨S4000x32, .i32⟩ : BufTy).Contents (Elt F)) (i : S4096x32.Idx) :
    val_main_v46 (F := F) x0 x1 i = IntOp.cmpi .slt (val_main_v36 (F := F) x0 x1 i) (val_main_v45 (F := F) i) := rfl

def val_main_c_12 : (⟨S_, .i32⟩ : BufTy).Contents (Elt F) :=
  constantI S_ 32 19000#32

def val_main_v47 : (⟨S4096x32, .i32⟩ : BufTy).Contents (Elt F) :=
  broadcastInDim S4096x32 ![] bcast_S_S4096x32 (val_main_c_12 (F := F))

def val_main_v48 (x0 : (⟨S4096x2, .i32⟩ : BufTy).Contents (Elt F)) (x1 : (⟨S4000x32, .i32⟩ : BufTy).Contents (Elt F)) : (⟨S4096x32, .i32⟩ : BufTy).Contents (Elt F) :=
  addi (val_main_v36 (F := F) x0 x1) (val_main_v47 (F := F))

def val_main_v49 (x0 : (⟨S4096x2, .i32⟩ : BufTy).Contents (Elt F)) (x1 : (⟨S4000x32, .i32⟩ : BufTy).Contents (Elt F)) : (⟨S4096x32, .i32⟩ : BufTy).Contents (Elt F) :=
  select (val_main_v46 (F := F) x0 x1) (val_main_v48 (F := F) x0 x1) (val_main_v36 (F := F) x0 x1)
theorem val_main_v49_apply (x0 : (⟨S4096x2, .i32⟩ : BufTy).Contents (Elt F)) (x1 : (⟨S4000x32, .i32⟩ : BufTy).Contents (Elt F)) (i : S4096x32.Idx) :
    val_main_v49 (F := F) x0 x1 i = Scalar.select (val_main_v46 (F := F) x0 x1 i) (val_main_v48 (F := F) x0 x1 i) (val_main_v36 (F := F) x0 x1 i) := rfl

def val_main_v50 : (⟨S4096x32, .i32⟩ : BufTy).Contents (Elt F) :=
  broadcastInDim S4096x32 ![0, 1] bcast_S4096x1_S4096x32_0_1 (val_main_v44 (F := F))
abbrev idx_main_v50 (i : S4096x32.Idx) : S4096x1.Idx := fun a => match a with
  | ⟨0, _⟩ => ⟨(i 0).val, (i 0).isLt⟩
  | ⟨1, _⟩ => ⟨0, Nat.one_pos⟩
theorem val_main_v50_apply (i : S4096x32.Idx) :
    val_main_v50 (F := F) i = val_main_v44 (F := F) (idx_main_v50 i) := by
  unfold val_main_v50
  generalize val_main_v44 (F := F) = y
  exact broadcastInDim_apply _ bcast_S4096x1_S4096x32_0_1 y i (idx_main_v50 i) (fun a => match a with
    | ⟨0, _⟩ => by show (i 0).val = if (4096 : Nat) = 1 then 0 else (i 0).val; rw [if_neg (by decide)]
    | ⟨1, _⟩ => by show 0 = if (1 : Nat) = 1 then 0 else (i 1).val; rw [if_pos rfl])

def val_main_v51 : (⟨S4096x32x1, .i32⟩ : BufTy).Contents (Elt F) :=
  broadcastInDim S4096x32x1 ![0, 1] bcast_S4096x32_S4096x32x1_0_1 (val_main_v50 (F := F))
abbrev idx_main_v51 (i : S4096x32x1.Idx) : S4096x32.Idx := fun a => match a with
  | ⟨0, _⟩ => ⟨(i 0).val, (i 0).isLt⟩
  | ⟨1, _⟩ => ⟨(i 1).val, (i 1).isLt⟩
theorem val_main_v51_apply (i : S4096x32x1.Idx) :
    val_main_v51 (F := F) i = val_main_v50 (F := F) (idx_main_v51 i) := by
  unfold val_main_v51
  generalize val_main_v50 (F := F) = y
  exact broadcastInDim_apply _ bcast_S4096x32_S4096x32x1_0_1 y i (idx_main_v51 i) (fun a => match a with
    | ⟨0, _⟩ => by show (i 0).val = if (4096 : Nat) = 1 then 0 else (i 0).val; rw [if_neg (by decide)]
    | ⟨1, _⟩ => by show (i 1).val = if (32 : Nat) = 1 then 0 else (i 1).val; rw [if_neg (by decide)])

def val_main_v52 (x0 : (⟨S4096x2, .i32⟩ : BufTy).Contents (Elt F)) (x1 : (⟨S4000x32, .i32⟩ : BufTy).Contents (Elt F)) : (⟨S4096x32x1, .i32⟩ : BufTy).Contents (Elt F) :=
  broadcastInDim S4096x32x1 ![0, 1] bcast_S4096x32_S4096x32x1_0_1 (val_main_v49 (F := F) x0 x1)
abbrev idx_main_v52 (i : S4096x32x1.Idx) : S4096x32.Idx := fun a => match a with
  | ⟨0, _⟩ => ⟨(i 0).val, (i 0).isLt⟩
  | ⟨1, _⟩ => ⟨(i 1).val, (i 1).isLt⟩
theorem val_main_v52_apply (x0 : (⟨S4096x2, .i32⟩ : BufTy).Contents (Elt F)) (x1 : (⟨S4000x32, .i32⟩ : BufTy).Contents (Elt F)) (i : S4096x32x1.Idx) :
    val_main_v52 (F := F) x0 x1 i = val_main_v49 (F := F) x0 x1 (idx_main_v52 i) := by
  unfold val_main_v52
  generalize val_main_v49 (F := F) x0 x1 = y
  exact broadcastInDim_apply _ bcast_S4096x32_S4096x32x1_0_1 y i (idx_main_v52 i) (fun a => match a with
    | ⟨0, _⟩ => by show (i 0).val = if (4096 : Nat) = 1 then 0 else (i 0).val; rw [if_neg (by decide)]
    | ⟨1, _⟩ => by show (i 1).val = if (32 : Nat) = 1 then 0 else (i 1).val; rw [if_neg (by decide)])

def val_main_v53 (x0 : (⟨S4096x2, .i32⟩ : BufTy).Contents (Elt F)) (x1 : (⟨S4000x32, .i32⟩ : BufTy).Contents (Elt F)) : (⟨S4096x32x2, .i32⟩ : BufTy).Contents (Elt F) :=
  concatenate S4096x32x2 2 [⟨S4096x32x1, (val_main_v51 (F := F))⟩, ⟨S4096x32x1, (val_main_v52 (F := F) x0 x1)⟩] concatenates_S4096x32x1_S4096x32x1_S4096x32x2_d2

def val_main_cst_13 : (⟨S_, .f32⟩ : BufTy).Contents (Elt F) :=
  constant S_ .f32 0x3F800000#32
theorem val_main_cst_13_apply (i : S_.Idx) :
    val_main_cst_13 (F := F) i = FloatOps.ofBits .f32 0x3F800000#32 := rfl

def val_main_v54 : (⟨S4096x32, .f32⟩ : BufTy).Contents (Elt F) :=
  broadcastInDim S4096x32 ![] bcast_S_S4096x32 (val_main_cst_13 (F := F))
abbrev idx_main_v54 (i : S4096x32.Idx) : S_.Idx := fun a => a.elim0
theorem val_main_v54_apply (i : S4096x32.Idx) :
    val_main_v54 (F := F) i = val_main_cst_13 (F := F) (idx_main_v54 i) := by
  unfold val_main_v54
  generalize val_main_cst_13 (F := F) = y
  exact broadcastInDim_apply _ bcast_S_S4096x32 y i (idx_main_v54 i) (fun a => a.elim0)

def val_main_v55 (x0 : (⟨S4096x2, .i32⟩ : BufTy).Contents (Elt F)) (x1 : (⟨S4000x32, .i32⟩ : BufTy).Contents (Elt F)) : (⟨S4096x19000, .f32⟩ : BufTy).Contents (Elt F) :=
  Host.scatter scatter_S4096x19000_S4096x32x2_S4096x32_n_01_01_2 (fun _ b => b) (val_main_v39 (F := F)) (val_main_v53 (F := F) x0 x1) (val_main_v54 (F := F))

def val_main_v56 (x2 : (⟨S4096x2, .f32⟩ : BufTy).Contents (Elt F)) : (⟨S4096x1, .f32⟩ : BufTy).Contents (Elt F) :=
  extractStridedSlice S4096x1 ![0, 0] (x2) slices_S4096x2_S4096x1_0_0
abbrev idx_main_v56 (i : S4096x1.Idx) : S4096x2.Idx := fun a => match a with
  | ⟨0, _⟩ => ⟨(i 0).val, (i 0).isLt⟩
  | ⟨1, _⟩ => ⟨(i 1).val, by have h1 : (i 1).val < 1 := (i 1).isLt; show (i 1).val < 2; omega⟩
theorem val_main_v56_apply (x2 : (⟨S4096x2, .f32⟩ : BufTy).Contents (Elt F)) (i : S4096x1.Idx) :
    val_main_v56 (F := F) x2 i = x2 (idx_main_v56 i) := by
  unfold val_main_v56
  exact extractStridedSlice_apply ![0, 0] x2 slices_S4096x2_S4096x1_0_0 i (idx_main_v56 i) (fun a => match a with
    | ⟨0, _⟩ => by show (i 0).val = 0 + (i 0).val; omega
    | ⟨1, _⟩ => by show (i 1).val = 0 + (i 1).val; omega)

def val_main_v57 (x0 : (⟨S4096x2, .i32⟩ : BufTy).Contents (Elt F)) (x1 : (⟨S4000x32, .i32⟩ : BufTy).Contents (Elt F)) (x2 : (⟨S4096x2, .f32⟩ : BufTy).Contents (Elt F)) : (⟨S4096x19001, .f32⟩ : BufTy).Contents (Elt F) :=
  concatenate S4096x19001 1 [⟨S4096x19000, (val_main_v27 (F := F) x0 x1)⟩, ⟨S4096x1, (val_main_v56 (F := F) x2)⟩] concatenates_S4096x19000_S4096x1_S4096x19001_d1

def val_main_v58 (x2 : (⟨S4096x2, .f32⟩ : BufTy).Contents (Elt F)) : (⟨S4096x1, .f32⟩ : BufTy).Contents (Elt F) :=
  extractStridedSlice S4096x1 ![0, 1] (x2) slices_S4096x2_S4096x1_0_1
abbrev idx_main_v58 (i : S4096x1.Idx) : S4096x2.Idx := fun a => match a with
  | ⟨0, _⟩ => ⟨(i 0).val, (i 0).isLt⟩
  | ⟨1, _⟩ => ⟨1 + (i 1).val, by have h1 : (i 1).val < 1 := (i 1).isLt; show 1 + (i 1).val < 2; omega⟩
theorem val_main_v58_apply (x2 : (⟨S4096x2, .f32⟩ : BufTy).Contents (Elt F)) (i : S4096x1.Idx) :
    val_main_v58 (F := F) x2 i = x2 (idx_main_v58 i) := by
  unfold val_main_v58
  exact extractStridedSlice_apply ![0, 1] x2 slices_S4096x2_S4096x1_0_1 i (idx_main_v58 i) (fun a => match a with
    | ⟨0, _⟩ => by show (i 0).val = 0 + (i 0).val; omega
    | ⟨1, _⟩ => by show 1 + (i 1).val = 1 + (i 1).val; omega)

def val_main_v59 (x0 : (⟨S4096x2, .i32⟩ : BufTy).Contents (Elt F)) (x1 : (⟨S4000x32, .i32⟩ : BufTy).Contents (Elt F)) (x2 : (⟨S4096x2, .f32⟩ : BufTy).Contents (Elt F)) : (⟨S4096x19001, .f32⟩ : BufTy).Contents (Elt F) :=
  concatenate S4096x19001 1 [⟨S4096x19000, (val_main_v55 (F := F) x0 x1)⟩, ⟨S4096x1, (val_main_v58 (F := F) x2)⟩] concatenates_S4096x19000_S4096x1_S4096x19001_d1

def val_main_v60 (x0 : (⟨S4096x2, .i32⟩ : BufTy).Contents (Elt F)) (x1 : (⟨S4000x32, .i32⟩ : BufTy).Contents (Elt F)) (x2 : (⟨S4096x2, .f32⟩ : BufTy).Contents (Elt F)) : (⟨S4096x38002, .f32⟩ : BufTy).Contents (Elt F) :=
  concatenate S4096x38002 1 [⟨S4096x19001, (val_main_v57 (F := F) x0 x1 x2)⟩, ⟨S4096x19001, (val_main_v59 (F := F) x0 x1 x2)⟩] concatenates_S4096x19001_S4096x19001_S4096x38002_d1

def val_main_v61 (x0 : (⟨S4096x2, .i32⟩ : BufTy).Contents (Elt F)) (x1 : (⟨S4000x32, .i32⟩ : BufTy).Contents (Elt F)) (x2 : (⟨S4096x2, .f32⟩ : BufTy).Contents (Elt F)) : (⟨S4096x38002, .f32⟩ : BufTy).Contents (Elt F) :=
  concatenate S4096x38002 1 [⟨S4096x19001, (val_main_v59 (F := F) x0 x1 x2)⟩, ⟨S4096x19001, (val_main_v57 (F := F) x0 x1 x2)⟩] concatenates_S4096x19001_S4096x19001_S4096x38002_d1

def val_main_v62 (x0 : (⟨S4096x2, .i32⟩ : BufTy).Contents (Elt F)) (x1 : (⟨S4000x32, .i32⟩ : BufTy).Contents (Elt F)) (x2 : (⟨S4096x2, .f32⟩ : BufTy).Contents (Elt F)) (x3 : (⟨S38002x2048, .f32⟩ : BufTy).Contents (Elt F)) : (⟨S4096x2048, .f32⟩ : BufTy).Contents (Elt F) :=
  Host.dotGeneral dot_S4096x38002_S38002x2048_S4096x2048_1_0_0_1_n_n none (val_main_v60 (F := F) x0 x1 x2) (x3)
theorem lhs_main_v62_0 (i : S4096x2048.Idx) (q : dot_S4096x38002_S38002x2048_S4096x2048_1_0_0_1_n_n.contr.Idx) :
    (dot_S4096x38002_S38002x2048_S4096x2048_1_0_0_1_n_n.lhsIdx i q 0).val = (i 0).val := by
  unfold DotDims.lhsIdx
  rw [dif_neg (show ¬(0 : Fin S4096x38002.rank) ∈ dot_S4096x38002_S38002x2048_S4096x2048_1_0_0_1_n_n.lhsBatch by decide), dif_pos (show (0 : Fin S4096x38002.rank) ∈ dot_S4096x38002_S38002x2048_S4096x2048_1_0_0_1_n_n.lhsNonContracting by decide)]
  rfl
theorem lhs_main_v62_1 (i : S4096x2048.Idx) (q : dot_S4096x38002_S38002x2048_S4096x2048_1_0_0_1_n_n.contr.Idx) :
    (dot_S4096x38002_S38002x2048_S4096x2048_1_0_0_1_n_n.lhsIdx i q 1).val = (q ⟨0, by decide⟩).val :=
  dot_S4096x38002_S38002x2048_S4096x2048_1_0_0_1_n_n.lhsIdx_val_of_single rfl i q
theorem rhs_main_v62_0 (i : S4096x2048.Idx) (q : dot_S4096x38002_S38002x2048_S4096x2048_1_0_0_1_n_n.contr.Idx) :
    (dot_S4096x38002_S38002x2048_S4096x2048_1_0_0_1_n_n.rhsIdx i q 0).val = (q ⟨0, by decide⟩).val :=
  dot_S4096x38002_S38002x2048_S4096x2048_1_0_0_1_n_n.rhsIdx_val_of_single rfl i q
theorem rhs_main_v62_1 (i : S4096x2048.Idx) (q : dot_S4096x38002_S38002x2048_S4096x2048_1_0_0_1_n_n.contr.Idx) :
    (dot_S4096x38002_S38002x2048_S4096x2048_1_0_0_1_n_n.rhsIdx i q 1).val = (i 1).val := by
  unfold DotDims.rhsIdx
  rw [dif_neg (show ¬(1 : Fin S38002x2048.rank) ∈ dot_S4096x38002_S38002x2048_S4096x2048_1_0_0_1_n_n.rhsBatch by decide), dif_pos (show (1 : Fin S38002x2048.rank) ∈ dot_S4096x38002_S38002x2048_S4096x2048_1_0_0_1_n_n.rhsNonContracting by decide)]
  rfl
abbrev lidx_main_v62 (i : S4096x2048.Idx) (k : Fin 38002) : S4096x38002.Idx := fun a => match a with
  | ⟨0, _⟩ => ⟨(i 0).val, (i 0).isLt⟩
  | ⟨1, _⟩ => ⟨k.val, k.isLt⟩
abbrev ridx_main_v62 (i : S4096x2048.Idx) (k : Fin 38002) : S38002x2048.Idx := fun a => match a with
  | ⟨0, _⟩ => ⟨k.val, k.isLt⟩
  | ⟨1, _⟩ => ⟨(i 1).val, (i 1).isLt⟩

theorem val_main_v62_apply (x0 : (⟨S4096x2, .i32⟩ : BufTy).Contents (Elt Ideal)) (x1 : (⟨S4000x32, .i32⟩ : BufTy).Contents (Elt Ideal)) (x2 : (⟨S4096x2, .f32⟩ : BufTy).Contents (Elt Ideal)) (x3 : (⟨S38002x2048, .f32⟩ : BufTy).Contents (Elt Ideal)) (i : S4096x2048.Idx) :
    val_main_v62 (F := Ideal) x0 x1 x2 x3 i = ∑ k : Fin 38002, (val_main_v60 (F := Ideal) x0 x1 x2) (lidx_main_v62 i k) * x3 (ridx_main_v62 i k) := by
  unfold val_main_v62
  generalize val_main_v60 (F := Ideal) x0 x1 x2 = y0
  simp only [Host.dotGeneral]
  rw [Ideal.dotGeneral_apply, ← Equiv.sum_comp (ValueIdx.contrEquiv1 dot_S4096x38002_S38002x2048_S4096x2048_1_0_0_1_n_n 38002 rfl rfl).symm]
  refine Finset.sum_congr rfl fun k _ => ?_
  have hk := ValueIdx.contrEquiv1_symm_val dot_S4096x38002_S38002x2048_S4096x2048_1_0_0_1_n_n 38002 rfl rfl k
  have el : dot_S4096x38002_S38002x2048_S4096x2048_1_0_0_1_n_n.lhsIdx i ((ValueIdx.contrEquiv1 dot_S4096x38002_S38002x2048_S4096x2048_1_0_0_1_n_n 38002 rfl rfl).symm k) = lidx_main_v62 i k := funext fun a => Fin.ext (by
    match a with
    | ⟨0, _⟩ => exact lhs_main_v62_0 _ _
    | ⟨1, _⟩ => exact (lhs_main_v62_1 _ _).trans hk)
  have er : dot_S4096x38002_S38002x2048_S4096x2048_1_0_0_1_n_n.rhsIdx i ((ValueIdx.contrEquiv1 dot_S4096x38002_S38002x2048_S4096x2048_1_0_0_1_n_n 38002 rfl rfl).symm k) = ridx_main_v62 i k := funext fun a => Fin.ext (by
    match a with
    | ⟨0, _⟩ => exact (rhs_main_v62_0 _ _).trans hk
    | ⟨1, _⟩ => exact rhs_main_v62_1 _ _)
  rw [el, er]

def val_main_v63 (x4 : (⟨S2048, .f32⟩ : BufTy).Contents (Elt F)) : (⟨S1x2048, .f32⟩ : BufTy).Contents (Elt F) :=
  broadcastInDim S1x2048 ![1] bcast_S2048_S1x2048_1 (x4)
abbrev idx_main_v63 (i : S1x2048.Idx) : S2048.Idx := fun a => match a with
  | ⟨0, _⟩ => ⟨(i 1).val, (i 1).isLt⟩
theorem val_main_v63_apply (x4 : (⟨S2048, .f32⟩ : BufTy).Contents (Elt F)) (i : S1x2048.Idx) :
    val_main_v63 (F := F) x4 i = x4 (idx_main_v63 i) := by
  unfold val_main_v63
  exact broadcastInDim_apply _ bcast_S2048_S1x2048_1 x4 i (idx_main_v63 i) (fun a => match a with
    | ⟨0, _⟩ => by show (i 1).val = if (2048 : Nat) = 1 then 0 else (i 1).val; rw [if_neg (by decide)])

def val_main_v64 (x4 : (⟨S2048, .f32⟩ : BufTy).Contents (Elt F)) : (⟨S4096x2048, .f32⟩ : BufTy).Contents (Elt F) :=
  broadcastInDim S4096x2048 ![0, 1] bcast_S1x2048_S4096x2048_0_1 (val_main_v63 (F := F) x4)
abbrev idx_main_v64 (i : S4096x2048.Idx) : S1x2048.Idx := fun a => match a with
  | ⟨0, _⟩ => ⟨0, Nat.one_pos⟩
  | ⟨1, _⟩ => ⟨(i 1).val, (i 1).isLt⟩
theorem val_main_v64_apply (x4 : (⟨S2048, .f32⟩ : BufTy).Contents (Elt F)) (i : S4096x2048.Idx) :
    val_main_v64 (F := F) x4 i = val_main_v63 (F := F) x4 (idx_main_v64 i) := by
  unfold val_main_v64
  generalize val_main_v63 (F := F) x4 = y
  exact broadcastInDim_apply _ bcast_S1x2048_S4096x2048_0_1 y i (idx_main_v64 i) (fun a => match a with
    | ⟨0, _⟩ => by show 0 = if (1 : Nat) = 1 then 0 else (i 0).val; rw [if_pos rfl]
    | ⟨1, _⟩ => by show (i 1).val = if (2048 : Nat) = 1 then 0 else (i 1).val; rw [if_neg (by decide)])

def val_main_v65 (x0 : (⟨S4096x2, .i32⟩ : BufTy).Contents (Elt F)) (x1 : (⟨S4000x32, .i32⟩ : BufTy).Contents (Elt F)) (x2 : (⟨S4096x2, .f32⟩ : BufTy).Contents (Elt F)) (x3 : (⟨S38002x2048, .f32⟩ : BufTy).Contents (Elt F)) (x4 : (⟨S2048, .f32⟩ : BufTy).Contents (Elt F)) : (⟨S4096x2048, .f32⟩ : BufTy).Contents (Elt F) :=
  addf (val_main_v62 (F := F) x0 x1 x2 x3) (val_main_v64 (F := F) x4)
theorem val_main_v65_apply (x0 : (⟨S4096x2, .i32⟩ : BufTy).Contents (Elt F)) (x1 : (⟨S4000x32, .i32⟩ : BufTy).Contents (Elt F)) (x2 : (⟨S4096x2, .f32⟩ : BufTy).Contents (Elt F)) (x3 : (⟨S38002x2048, .f32⟩ : BufTy).Contents (Elt F)) (x4 : (⟨S2048, .f32⟩ : BufTy).Contents (Elt F)) (i : S4096x2048.Idx) :
    val_main_v65 (F := F) x0 x1 x2 x3 x4 i = FloatOps.addf (val_main_v62 (F := F) x0 x1 x2 x3 i) (val_main_v64 (F := F) x4 i) := rfl

def val_main_call0_cst : (⟨S_, .f32⟩ : BufTy).Contents (Elt F) :=
  constant S_ .f32 0x00000000#32
theorem val_main_call0_cst_apply (i : S_.Idx) :
    val_main_call0_cst (F := F) i = FloatOps.ofBits .f32 0x00000000#32 := rfl

def val_main_call0_v0 : (⟨S4096x2048, .f32⟩ : BufTy).Contents (Elt F) :=
  broadcastInDim S4096x2048 ![] bcast_S_S4096x2048 (val_main_call0_cst (F := F))
abbrev idx_main_call0_v0 (i : S4096x2048.Idx) : S_.Idx := fun a => a.elim0
theorem val_main_call0_v0_apply (i : S4096x2048.Idx) :
    val_main_call0_v0 (F := F) i = val_main_call0_cst (F := F) (idx_main_call0_v0 i) := by
  unfold val_main_call0_v0
  generalize val_main_call0_cst (F := F) = y
  exact broadcastInDim_apply _ bcast_S_S4096x2048 y i (idx_main_call0_v0 i) (fun a => a.elim0)

def val_main_v66 (x0 : (⟨S4096x2, .i32⟩ : BufTy).Contents (Elt F)) (x1 : (⟨S4000x32, .i32⟩ : BufTy).Contents (Elt F)) (x2 : (⟨S4096x2, .f32⟩ : BufTy).Contents (Elt F)) (x3 : (⟨S38002x2048, .f32⟩ : BufTy).Contents (Elt F)) (x4 : (⟨S2048, .f32⟩ : BufTy).Contents (Elt F)) : (⟨S4096x2048, .f32⟩ : BufTy).Contents (Elt F) :=
  maximumf (val_main_v65 (F := F) x0 x1 x2 x3 x4) (val_main_call0_v0 (F := F))
theorem val_main_v66_apply (x0 : (⟨S4096x2, .i32⟩ : BufTy).Contents (Elt F)) (x1 : (⟨S4000x32, .i32⟩ : BufTy).Contents (Elt F)) (x2 : (⟨S4096x2, .f32⟩ : BufTy).Contents (Elt F)) (x3 : (⟨S38002x2048, .f32⟩ : BufTy).Contents (Elt F)) (x4 : (⟨S2048, .f32⟩ : BufTy).Contents (Elt F)) (i : S4096x2048.Idx) :
    val_main_v66 (F := F) x0 x1 x2 x3 x4 i = FloatOps.maximumf (val_main_v65 (F := F) x0 x1 x2 x3 x4 i) (val_main_call0_v0 (F := F) i) := rfl

def val_main_v67 (x0 : (⟨S4096x2, .i32⟩ : BufTy).Contents (Elt F)) (x1 : (⟨S4000x32, .i32⟩ : BufTy).Contents (Elt F)) (x2 : (⟨S4096x2, .f32⟩ : BufTy).Contents (Elt F)) (x3 : (⟨S38002x2048, .f32⟩ : BufTy).Contents (Elt F)) (x4 : (⟨S2048, .f32⟩ : BufTy).Contents (Elt F)) (x5 : (⟨S2048x1024, .f32⟩ : BufTy).Contents (Elt F)) : (⟨S4096x1024, .f32⟩ : BufTy).Contents (Elt F) :=
  Host.dotGeneral dot_S4096x2048_S2048x1024_S4096x1024_1_0_0_1_n_n none (val_main_v66 (F := F) x0 x1 x2 x3 x4) (x5)
theorem lhs_main_v67_0 (i : S4096x1024.Idx) (q : dot_S4096x2048_S2048x1024_S4096x1024_1_0_0_1_n_n.contr.Idx) :
    (dot_S4096x2048_S2048x1024_S4096x1024_1_0_0_1_n_n.lhsIdx i q 0).val = (i 0).val := by
  unfold DotDims.lhsIdx
  rw [dif_neg (show ¬(0 : Fin S4096x2048.rank) ∈ dot_S4096x2048_S2048x1024_S4096x1024_1_0_0_1_n_n.lhsBatch by decide), dif_pos (show (0 : Fin S4096x2048.rank) ∈ dot_S4096x2048_S2048x1024_S4096x1024_1_0_0_1_n_n.lhsNonContracting by decide)]
  rfl
theorem lhs_main_v67_1 (i : S4096x1024.Idx) (q : dot_S4096x2048_S2048x1024_S4096x1024_1_0_0_1_n_n.contr.Idx) :
    (dot_S4096x2048_S2048x1024_S4096x1024_1_0_0_1_n_n.lhsIdx i q 1).val = (q ⟨0, by decide⟩).val :=
  dot_S4096x2048_S2048x1024_S4096x1024_1_0_0_1_n_n.lhsIdx_val_of_single rfl i q
theorem rhs_main_v67_0 (i : S4096x1024.Idx) (q : dot_S4096x2048_S2048x1024_S4096x1024_1_0_0_1_n_n.contr.Idx) :
    (dot_S4096x2048_S2048x1024_S4096x1024_1_0_0_1_n_n.rhsIdx i q 0).val = (q ⟨0, by decide⟩).val :=
  dot_S4096x2048_S2048x1024_S4096x1024_1_0_0_1_n_n.rhsIdx_val_of_single rfl i q
theorem rhs_main_v67_1 (i : S4096x1024.Idx) (q : dot_S4096x2048_S2048x1024_S4096x1024_1_0_0_1_n_n.contr.Idx) :
    (dot_S4096x2048_S2048x1024_S4096x1024_1_0_0_1_n_n.rhsIdx i q 1).val = (i 1).val := by
  unfold DotDims.rhsIdx
  rw [dif_neg (show ¬(1 : Fin S2048x1024.rank) ∈ dot_S4096x2048_S2048x1024_S4096x1024_1_0_0_1_n_n.rhsBatch by decide), dif_pos (show (1 : Fin S2048x1024.rank) ∈ dot_S4096x2048_S2048x1024_S4096x1024_1_0_0_1_n_n.rhsNonContracting by decide)]
  rfl
abbrev lidx_main_v67 (i : S4096x1024.Idx) (k : Fin 2048) : S4096x2048.Idx := fun a => match a with
  | ⟨0, _⟩ => ⟨(i 0).val, (i 0).isLt⟩
  | ⟨1, _⟩ => ⟨k.val, k.isLt⟩
abbrev ridx_main_v67 (i : S4096x1024.Idx) (k : Fin 2048) : S2048x1024.Idx := fun a => match a with
  | ⟨0, _⟩ => ⟨k.val, k.isLt⟩
  | ⟨1, _⟩ => ⟨(i 1).val, (i 1).isLt⟩

theorem val_main_v67_apply (x0 : (⟨S4096x2, .i32⟩ : BufTy).Contents (Elt Ideal)) (x1 : (⟨S4000x32, .i32⟩ : BufTy).Contents (Elt Ideal)) (x2 : (⟨S4096x2, .f32⟩ : BufTy).Contents (Elt Ideal)) (x3 : (⟨S38002x2048, .f32⟩ : BufTy).Contents (Elt Ideal)) (x4 : (⟨S2048, .f32⟩ : BufTy).Contents (Elt Ideal)) (x5 : (⟨S2048x1024, .f32⟩ : BufTy).Contents (Elt Ideal)) (i : S4096x1024.Idx) :
    val_main_v67 (F := Ideal) x0 x1 x2 x3 x4 x5 i = ∑ k : Fin 2048, (val_main_v66 (F := Ideal) x0 x1 x2 x3 x4) (lidx_main_v67 i k) * x5 (ridx_main_v67 i k) := by
  unfold val_main_v67
  generalize val_main_v66 (F := Ideal) x0 x1 x2 x3 x4 = y0
  simp only [Host.dotGeneral]
  rw [Ideal.dotGeneral_apply, ← Equiv.sum_comp (ValueIdx.contrEquiv1 dot_S4096x2048_S2048x1024_S4096x1024_1_0_0_1_n_n 2048 rfl rfl).symm]
  refine Finset.sum_congr rfl fun k _ => ?_
  have hk := ValueIdx.contrEquiv1_symm_val dot_S4096x2048_S2048x1024_S4096x1024_1_0_0_1_n_n 2048 rfl rfl k
  have el : dot_S4096x2048_S2048x1024_S4096x1024_1_0_0_1_n_n.lhsIdx i ((ValueIdx.contrEquiv1 dot_S4096x2048_S2048x1024_S4096x1024_1_0_0_1_n_n 2048 rfl rfl).symm k) = lidx_main_v67 i k := funext fun a => Fin.ext (by
    match a with
    | ⟨0, _⟩ => exact lhs_main_v67_0 _ _
    | ⟨1, _⟩ => exact (lhs_main_v67_1 _ _).trans hk)
  have er : dot_S4096x2048_S2048x1024_S4096x1024_1_0_0_1_n_n.rhsIdx i ((ValueIdx.contrEquiv1 dot_S4096x2048_S2048x1024_S4096x1024_1_0_0_1_n_n 2048 rfl rfl).symm k) = ridx_main_v67 i k := funext fun a => Fin.ext (by
    match a with
    | ⟨0, _⟩ => exact (rhs_main_v67_0 _ _).trans hk
    | ⟨1, _⟩ => exact rhs_main_v67_1 _ _)
  rw [el, er]

def val_main_v68 (x6 : (⟨S1024, .f32⟩ : BufTy).Contents (Elt F)) : (⟨S1x1024, .f32⟩ : BufTy).Contents (Elt F) :=
  broadcastInDim S1x1024 ![1] bcast_S1024_S1x1024_1 (x6)
abbrev idx_main_v68 (i : S1x1024.Idx) : S1024.Idx := fun a => match a with
  | ⟨0, _⟩ => ⟨(i 1).val, (i 1).isLt⟩
theorem val_main_v68_apply (x6 : (⟨S1024, .f32⟩ : BufTy).Contents (Elt F)) (i : S1x1024.Idx) :
    val_main_v68 (F := F) x6 i = x6 (idx_main_v68 i) := by
  unfold val_main_v68
  exact broadcastInDim_apply _ bcast_S1024_S1x1024_1 x6 i (idx_main_v68 i) (fun a => match a with
    | ⟨0, _⟩ => by show (i 1).val = if (1024 : Nat) = 1 then 0 else (i 1).val; rw [if_neg (by decide)])

def val_main_v69 (x6 : (⟨S1024, .f32⟩ : BufTy).Contents (Elt F)) : (⟨S4096x1024, .f32⟩ : BufTy).Contents (Elt F) :=
  broadcastInDim S4096x1024 ![0, 1] bcast_S1x1024_S4096x1024_0_1 (val_main_v68 (F := F) x6)
abbrev idx_main_v69 (i : S4096x1024.Idx) : S1x1024.Idx := fun a => match a with
  | ⟨0, _⟩ => ⟨0, Nat.one_pos⟩
  | ⟨1, _⟩ => ⟨(i 1).val, (i 1).isLt⟩
theorem val_main_v69_apply (x6 : (⟨S1024, .f32⟩ : BufTy).Contents (Elt F)) (i : S4096x1024.Idx) :
    val_main_v69 (F := F) x6 i = val_main_v68 (F := F) x6 (idx_main_v69 i) := by
  unfold val_main_v69
  generalize val_main_v68 (F := F) x6 = y
  exact broadcastInDim_apply _ bcast_S1x1024_S4096x1024_0_1 y i (idx_main_v69 i) (fun a => match a with
    | ⟨0, _⟩ => by show 0 = if (1 : Nat) = 1 then 0 else (i 0).val; rw [if_pos rfl]
    | ⟨1, _⟩ => by show (i 1).val = if (1024 : Nat) = 1 then 0 else (i 1).val; rw [if_neg (by decide)])

def val_main_v70 (x0 : (⟨S4096x2, .i32⟩ : BufTy).Contents (Elt F)) (x1 : (⟨S4000x32, .i32⟩ : BufTy).Contents (Elt F)) (x2 : (⟨S4096x2, .f32⟩ : BufTy).Contents (Elt F)) (x3 : (⟨S38002x2048, .f32⟩ : BufTy).Contents (Elt F)) (x4 : (⟨S2048, .f32⟩ : BufTy).Contents (Elt F)) (x5 : (⟨S2048x1024, .f32⟩ : BufTy).Contents (Elt F)) (x6 : (⟨S1024, .f32⟩ : BufTy).Contents (Elt F)) : (⟨S4096x1024, .f32⟩ : BufTy).Contents (Elt F) :=
  addf (val_main_v67 (F := F) x0 x1 x2 x3 x4 x5) (val_main_v69 (F := F) x6)
theorem val_main_v70_apply (x0 : (⟨S4096x2, .i32⟩ : BufTy).Contents (Elt F)) (x1 : (⟨S4000x32, .i32⟩ : BufTy).Contents (Elt F)) (x2 : (⟨S4096x2, .f32⟩ : BufTy).Contents (Elt F)) (x3 : (⟨S38002x2048, .f32⟩ : BufTy).Contents (Elt F)) (x4 : (⟨S2048, .f32⟩ : BufTy).Contents (Elt F)) (x5 : (⟨S2048x1024, .f32⟩ : BufTy).Contents (Elt F)) (x6 : (⟨S1024, .f32⟩ : BufTy).Contents (Elt F)) (i : S4096x1024.Idx) :
    val_main_v70 (F := F) x0 x1 x2 x3 x4 x5 x6 i = FloatOps.addf (val_main_v67 (F := F) x0 x1 x2 x3 x4 x5 i) (val_main_v69 (F := F) x6 i) := rfl

def val_main_call1_cst : (⟨S_, .f32⟩ : BufTy).Contents (Elt F) :=
  constant S_ .f32 0x00000000#32
theorem val_main_call1_cst_apply (i : S_.Idx) :
    val_main_call1_cst (F := F) i = FloatOps.ofBits .f32 0x00000000#32 := rfl

def val_main_call1_v0 : (⟨S4096x1024, .f32⟩ : BufTy).Contents (Elt F) :=
  broadcastInDim S4096x1024 ![] bcast_S_S4096x1024 (val_main_call1_cst (F := F))
abbrev idx_main_call1_v0 (i : S4096x1024.Idx) : S_.Idx := fun a => a.elim0
theorem val_main_call1_v0_apply (i : S4096x1024.Idx) :
    val_main_call1_v0 (F := F) i = val_main_call1_cst (F := F) (idx_main_call1_v0 i) := by
  unfold val_main_call1_v0
  generalize val_main_call1_cst (F := F) = y
  exact broadcastInDim_apply _ bcast_S_S4096x1024 y i (idx_main_call1_v0 i) (fun a => a.elim0)

def val_main_v71 (x0 : (⟨S4096x2, .i32⟩ : BufTy).Contents (Elt F)) (x1 : (⟨S4000x32, .i32⟩ : BufTy).Contents (Elt F)) (x2 : (⟨S4096x2, .f32⟩ : BufTy).Contents (Elt F)) (x3 : (⟨S38002x2048, .f32⟩ : BufTy).Contents (Elt F)) (x4 : (⟨S2048, .f32⟩ : BufTy).Contents (Elt F)) (x5 : (⟨S2048x1024, .f32⟩ : BufTy).Contents (Elt F)) (x6 : (⟨S1024, .f32⟩ : BufTy).Contents (Elt F)) : (⟨S4096x1024, .f32⟩ : BufTy).Contents (Elt F) :=
  maximumf (val_main_v70 (F := F) x0 x1 x2 x3 x4 x5 x6) (val_main_call1_v0 (F := F))
theorem val_main_v71_apply (x0 : (⟨S4096x2, .i32⟩ : BufTy).Contents (Elt F)) (x1 : (⟨S4000x32, .i32⟩ : BufTy).Contents (Elt F)) (x2 : (⟨S4096x2, .f32⟩ : BufTy).Contents (Elt F)) (x3 : (⟨S38002x2048, .f32⟩ : BufTy).Contents (Elt F)) (x4 : (⟨S2048, .f32⟩ : BufTy).Contents (Elt F)) (x5 : (⟨S2048x1024, .f32⟩ : BufTy).Contents (Elt F)) (x6 : (⟨S1024, .f32⟩ : BufTy).Contents (Elt F)) (i : S4096x1024.Idx) :
    val_main_v71 (F := F) x0 x1 x2 x3 x4 x5 x6 i = FloatOps.maximumf (val_main_v70 (F := F) x0 x1 x2 x3 x4 x5 x6 i) (val_main_call1_v0 (F := F) i) := rfl

def val_main_v72 (x0 : (⟨S4096x2, .i32⟩ : BufTy).Contents (Elt F)) (x1 : (⟨S4000x32, .i32⟩ : BufTy).Contents (Elt F)) (x2 : (⟨S4096x2, .f32⟩ : BufTy).Contents (Elt F)) (x3 : (⟨S38002x2048, .f32⟩ : BufTy).Contents (Elt F)) (x4 : (⟨S2048, .f32⟩ : BufTy).Contents (Elt F)) (x5 : (⟨S2048x1024, .f32⟩ : BufTy).Contents (Elt F)) (x6 : (⟨S1024, .f32⟩ : BufTy).Contents (Elt F)) (x7 : (⟨S1024x1, .f32⟩ : BufTy).Contents (Elt F)) : (⟨S4096x1, .f32⟩ : BufTy).Contents (Elt F) :=
  Host.dotGeneral dot_S4096x1024_S1024x1_S4096x1_1_0_0_1_n_n none (val_main_v71 (F := F) x0 x1 x2 x3 x4 x5 x6) (x7)
theorem lhs_main_v72_0 (i : S4096x1.Idx) (q : dot_S4096x1024_S1024x1_S4096x1_1_0_0_1_n_n.contr.Idx) :
    (dot_S4096x1024_S1024x1_S4096x1_1_0_0_1_n_n.lhsIdx i q 0).val = (i 0).val := by
  unfold DotDims.lhsIdx
  rw [dif_neg (show ¬(0 : Fin S4096x1024.rank) ∈ dot_S4096x1024_S1024x1_S4096x1_1_0_0_1_n_n.lhsBatch by decide), dif_pos (show (0 : Fin S4096x1024.rank) ∈ dot_S4096x1024_S1024x1_S4096x1_1_0_0_1_n_n.lhsNonContracting by decide)]
  rfl
theorem lhs_main_v72_1 (i : S4096x1.Idx) (q : dot_S4096x1024_S1024x1_S4096x1_1_0_0_1_n_n.contr.Idx) :
    (dot_S4096x1024_S1024x1_S4096x1_1_0_0_1_n_n.lhsIdx i q 1).val = (q ⟨0, by decide⟩).val :=
  dot_S4096x1024_S1024x1_S4096x1_1_0_0_1_n_n.lhsIdx_val_of_single rfl i q
theorem rhs_main_v72_0 (i : S4096x1.Idx) (q : dot_S4096x1024_S1024x1_S4096x1_1_0_0_1_n_n.contr.Idx) :
    (dot_S4096x1024_S1024x1_S4096x1_1_0_0_1_n_n.rhsIdx i q 0).val = (q ⟨0, by decide⟩).val :=
  dot_S4096x1024_S1024x1_S4096x1_1_0_0_1_n_n.rhsIdx_val_of_single rfl i q
theorem rhs_main_v72_1 (i : S4096x1.Idx) (q : dot_S4096x1024_S1024x1_S4096x1_1_0_0_1_n_n.contr.Idx) :
    (dot_S4096x1024_S1024x1_S4096x1_1_0_0_1_n_n.rhsIdx i q 1).val = (i 1).val := by
  unfold DotDims.rhsIdx
  rw [dif_neg (show ¬(1 : Fin S1024x1.rank) ∈ dot_S4096x1024_S1024x1_S4096x1_1_0_0_1_n_n.rhsBatch by decide), dif_pos (show (1 : Fin S1024x1.rank) ∈ dot_S4096x1024_S1024x1_S4096x1_1_0_0_1_n_n.rhsNonContracting by decide)]
  rfl
abbrev lidx_main_v72 (i : S4096x1.Idx) (k : Fin 1024) : S4096x1024.Idx := fun a => match a with
  | ⟨0, _⟩ => ⟨(i 0).val, (i 0).isLt⟩
  | ⟨1, _⟩ => ⟨k.val, k.isLt⟩
abbrev ridx_main_v72 (i : S4096x1.Idx) (k : Fin 1024) : S1024x1.Idx := fun a => match a with
  | ⟨0, _⟩ => ⟨k.val, k.isLt⟩
  | ⟨1, _⟩ => ⟨(i 1).val, (i 1).isLt⟩

theorem val_main_v72_apply (x0 : (⟨S4096x2, .i32⟩ : BufTy).Contents (Elt Ideal)) (x1 : (⟨S4000x32, .i32⟩ : BufTy).Contents (Elt Ideal)) (x2 : (⟨S4096x2, .f32⟩ : BufTy).Contents (Elt Ideal)) (x3 : (⟨S38002x2048, .f32⟩ : BufTy).Contents (Elt Ideal)) (x4 : (⟨S2048, .f32⟩ : BufTy).Contents (Elt Ideal)) (x5 : (⟨S2048x1024, .f32⟩ : BufTy).Contents (Elt Ideal)) (x6 : (⟨S1024, .f32⟩ : BufTy).Contents (Elt Ideal)) (x7 : (⟨S1024x1, .f32⟩ : BufTy).Contents (Elt Ideal)) (i : S4096x1.Idx) :
    val_main_v72 (F := Ideal) x0 x1 x2 x3 x4 x5 x6 x7 i = ∑ k : Fin 1024, (val_main_v71 (F := Ideal) x0 x1 x2 x3 x4 x5 x6) (lidx_main_v72 i k) * x7 (ridx_main_v72 i k) := by
  unfold val_main_v72
  generalize val_main_v71 (F := Ideal) x0 x1 x2 x3 x4 x5 x6 = y0
  simp only [Host.dotGeneral]
  rw [Ideal.dotGeneral_apply, ← Equiv.sum_comp (ValueIdx.contrEquiv1 dot_S4096x1024_S1024x1_S4096x1_1_0_0_1_n_n 1024 rfl rfl).symm]
  refine Finset.sum_congr rfl fun k _ => ?_
  have hk := ValueIdx.contrEquiv1_symm_val dot_S4096x1024_S1024x1_S4096x1_1_0_0_1_n_n 1024 rfl rfl k
  have el : dot_S4096x1024_S1024x1_S4096x1_1_0_0_1_n_n.lhsIdx i ((ValueIdx.contrEquiv1 dot_S4096x1024_S1024x1_S4096x1_1_0_0_1_n_n 1024 rfl rfl).symm k) = lidx_main_v72 i k := funext fun a => Fin.ext (by
    match a with
    | ⟨0, _⟩ => exact lhs_main_v72_0 _ _
    | ⟨1, _⟩ => exact (lhs_main_v72_1 _ _).trans hk)
  have er : dot_S4096x1024_S1024x1_S4096x1_1_0_0_1_n_n.rhsIdx i ((ValueIdx.contrEquiv1 dot_S4096x1024_S1024x1_S4096x1_1_0_0_1_n_n 1024 rfl rfl).symm k) = ridx_main_v72 i k := funext fun a => Fin.ext (by
    match a with
    | ⟨0, _⟩ => exact (rhs_main_v72_0 _ _).trans hk
    | ⟨1, _⟩ => exact rhs_main_v72_1 _ _)
  rw [el, er]

def val_main_v73 (x8 : (⟨S1, .f32⟩ : BufTy).Contents (Elt F)) : (⟨S1x1, .f32⟩ : BufTy).Contents (Elt F) :=
  broadcastInDim S1x1 ![1] bcast_S1_S1x1_1 (x8)
abbrev idx_main_v73 (i : S1x1.Idx) : S1.Idx := fun a => match a with
  | ⟨0, _⟩ => ⟨0, Nat.one_pos⟩
theorem val_main_v73_apply (x8 : (⟨S1, .f32⟩ : BufTy).Contents (Elt F)) (i : S1x1.Idx) :
    val_main_v73 (F := F) x8 i = x8 (idx_main_v73 i) := by
  unfold val_main_v73
  exact broadcastInDim_apply _ bcast_S1_S1x1_1 x8 i (idx_main_v73 i) (fun a => match a with
    | ⟨0, _⟩ => by show 0 = if (1 : Nat) = 1 then 0 else (i 1).val; rw [if_pos rfl])

def val_main_v74 (x8 : (⟨S1, .f32⟩ : BufTy).Contents (Elt F)) : (⟨S4096x1, .f32⟩ : BufTy).Contents (Elt F) :=
  broadcastInDim S4096x1 ![0, 1] bcast_S1x1_S4096x1_0_1 (val_main_v73 (F := F) x8)
abbrev idx_main_v74 (i : S4096x1.Idx) : S1x1.Idx := fun a => match a with
  | ⟨0, _⟩ => ⟨0, Nat.one_pos⟩
  | ⟨1, _⟩ => ⟨0, Nat.one_pos⟩
theorem val_main_v74_apply (x8 : (⟨S1, .f32⟩ : BufTy).Contents (Elt F)) (i : S4096x1.Idx) :
    val_main_v74 (F := F) x8 i = val_main_v73 (F := F) x8 (idx_main_v74 i) := by
  unfold val_main_v74
  generalize val_main_v73 (F := F) x8 = y
  exact broadcastInDim_apply _ bcast_S1x1_S4096x1_0_1 y i (idx_main_v74 i) (fun a => match a with
    | ⟨0, _⟩ => by show 0 = if (1 : Nat) = 1 then 0 else (i 0).val; rw [if_pos rfl]
    | ⟨1, _⟩ => by show 0 = if (1 : Nat) = 1 then 0 else (i 1).val; rw [if_pos rfl])

def val_main_v75 (x0 : (⟨S4096x2, .i32⟩ : BufTy).Contents (Elt F)) (x1 : (⟨S4000x32, .i32⟩ : BufTy).Contents (Elt F)) (x2 : (⟨S4096x2, .f32⟩ : BufTy).Contents (Elt F)) (x3 : (⟨S38002x2048, .f32⟩ : BufTy).Contents (Elt F)) (x4 : (⟨S2048, .f32⟩ : BufTy).Contents (Elt F)) (x5 : (⟨S2048x1024, .f32⟩ : BufTy).Contents (Elt F)) (x6 : (⟨S1024, .f32⟩ : BufTy).Contents (Elt F)) (x7 : (⟨S1024x1, .f32⟩ : BufTy).Contents (Elt F)) (x8 : (⟨S1, .f32⟩ : BufTy).Contents (Elt F)) : (⟨S4096x1, .f32⟩ : BufTy).Contents (Elt F) :=
  addf (val_main_v72 (F := F) x0 x1 x2 x3 x4 x5 x6 x7) (val_main_v74 (F := F) x8)
theorem val_main_v75_apply (x0 : (⟨S4096x2, .i32⟩ : BufTy).Contents (Elt F)) (x1 : (⟨S4000x32, .i32⟩ : BufTy).Contents (Elt F)) (x2 : (⟨S4096x2, .f32⟩ : BufTy).Contents (Elt F)) (x3 : (⟨S38002x2048, .f32⟩ : BufTy).Contents (Elt F)) (x4 : (⟨S2048, .f32⟩ : BufTy).Contents (Elt F)) (x5 : (⟨S2048x1024, .f32⟩ : BufTy).Contents (Elt F)) (x6 : (⟨S1024, .f32⟩ : BufTy).Contents (Elt F)) (x7 : (⟨S1024x1, .f32⟩ : BufTy).Contents (Elt F)) (x8 : (⟨S1, .f32⟩ : BufTy).Contents (Elt F)) (i : S4096x1.Idx) :
    val_main_v75 (F := F) x0 x1 x2 x3 x4 x5 x6 x7 x8 i = FloatOps.addf (val_main_v72 (F := F) x0 x1 x2 x3 x4 x5 x6 x7 i) (val_main_v74 (F := F) x8 i) := rfl

def val_main_v76 (x0 : (⟨S4096x2, .i32⟩ : BufTy).Contents (Elt F)) (x1 : (⟨S4000x32, .i32⟩ : BufTy).Contents (Elt F)) (x2 : (⟨S4096x2, .f32⟩ : BufTy).Contents (Elt F)) (x3 : (⟨S38002x2048, .f32⟩ : BufTy).Contents (Elt F)) (x4 : (⟨S2048, .f32⟩ : BufTy).Contents (Elt F)) (x5 : (⟨S2048x1024, .f32⟩ : BufTy).Contents (Elt F)) (x6 : (⟨S1024, .f32⟩ : BufTy).Contents (Elt F)) (x7 : (⟨S1024x1, .f32⟩ : BufTy).Contents (Elt F)) (x8 : (⟨S1, .f32⟩ : BufTy).Contents (Elt F)) : (⟨S4096, .f32⟩ : BufTy).Contents (Elt F) :=
  shapeCast _ (val_main_v75 (F := F) x0 x1 x2 x3 x4 x5 x6 x7 x8) shapeCasts_S4096x1_S4096
abbrev idx_main_v76 (i : S4096.Idx) : S4096x1.Idx := fun a => match a with
  | ⟨0, _⟩ => ⟨((i 0).val) / 1, by have h0 : (i 0).val < 4096 := (i 0).isLt; show ((i 0).val) / 1 < 4096; omega⟩
  | ⟨1, _⟩ => ⟨0, Nat.one_pos⟩
theorem val_main_v76_apply (x0 : (⟨S4096x2, .i32⟩ : BufTy).Contents (Elt F)) (x1 : (⟨S4000x32, .i32⟩ : BufTy).Contents (Elt F)) (x2 : (⟨S4096x2, .f32⟩ : BufTy).Contents (Elt F)) (x3 : (⟨S38002x2048, .f32⟩ : BufTy).Contents (Elt F)) (x4 : (⟨S2048, .f32⟩ : BufTy).Contents (Elt F)) (x5 : (⟨S2048x1024, .f32⟩ : BufTy).Contents (Elt F)) (x6 : (⟨S1024, .f32⟩ : BufTy).Contents (Elt F)) (x7 : (⟨S1024x1, .f32⟩ : BufTy).Contents (Elt F)) (x8 : (⟨S1, .f32⟩ : BufTy).Contents (Elt F)) (i : S4096.Idx) :
    val_main_v76 (F := F) x0 x1 x2 x3 x4 x5 x6 x7 x8 i = val_main_v75 (F := F) x0 x1 x2 x3 x4 x5 x6 x7 x8 (idx_main_v76 i) := by
  unfold val_main_v76
  generalize val_main_v75 (F := F) x0 x1 x2 x3 x4 x5 x6 x7 x8 = y
  exact shapeCast_apply y shapeCasts_S4096x1_S4096 i (idx_main_v76 i)
    (by rewrite [Shape.rowMajor_val_two, Shape.rowMajor_val_one]; have h0 : (i 0).val < 4096 := (i 0).isLt; show ((i 0).val) / 1 * 1 + 0 = (i 0).val; omega)

def val_main_v77 (x0 : (⟨S4096x2, .i32⟩ : BufTy).Contents (Elt F)) (x1 : (⟨S4000x32, .i32⟩ : BufTy).Contents (Elt F)) (x2 : (⟨S4096x2, .f32⟩ : BufTy).Contents (Elt F)) (x3 : (⟨S38002x2048, .f32⟩ : BufTy).Contents (Elt F)) : (⟨S4096x2048, .f32⟩ : BufTy).Contents (Elt F) :=
  Host.dotGeneral dot_S4096x38002_S38002x2048_S4096x2048_1_0_0_1_n_n none (val_main_v61 (F := F) x0 x1 x2) (x3)
theorem lhs_main_v77_0 (i : S4096x2048.Idx) (q : dot_S4096x38002_S38002x2048_S4096x2048_1_0_0_1_n_n.contr.Idx) :
    (dot_S4096x38002_S38002x2048_S4096x2048_1_0_0_1_n_n.lhsIdx i q 0).val = (i 0).val := by
  unfold DotDims.lhsIdx
  rw [dif_neg (show ¬(0 : Fin S4096x38002.rank) ∈ dot_S4096x38002_S38002x2048_S4096x2048_1_0_0_1_n_n.lhsBatch by decide), dif_pos (show (0 : Fin S4096x38002.rank) ∈ dot_S4096x38002_S38002x2048_S4096x2048_1_0_0_1_n_n.lhsNonContracting by decide)]
  rfl
theorem lhs_main_v77_1 (i : S4096x2048.Idx) (q : dot_S4096x38002_S38002x2048_S4096x2048_1_0_0_1_n_n.contr.Idx) :
    (dot_S4096x38002_S38002x2048_S4096x2048_1_0_0_1_n_n.lhsIdx i q 1).val = (q ⟨0, by decide⟩).val :=
  dot_S4096x38002_S38002x2048_S4096x2048_1_0_0_1_n_n.lhsIdx_val_of_single rfl i q
theorem rhs_main_v77_0 (i : S4096x2048.Idx) (q : dot_S4096x38002_S38002x2048_S4096x2048_1_0_0_1_n_n.contr.Idx) :
    (dot_S4096x38002_S38002x2048_S4096x2048_1_0_0_1_n_n.rhsIdx i q 0).val = (q ⟨0, by decide⟩).val :=
  dot_S4096x38002_S38002x2048_S4096x2048_1_0_0_1_n_n.rhsIdx_val_of_single rfl i q
theorem rhs_main_v77_1 (i : S4096x2048.Idx) (q : dot_S4096x38002_S38002x2048_S4096x2048_1_0_0_1_n_n.contr.Idx) :
    (dot_S4096x38002_S38002x2048_S4096x2048_1_0_0_1_n_n.rhsIdx i q 1).val = (i 1).val := by
  unfold DotDims.rhsIdx
  rw [dif_neg (show ¬(1 : Fin S38002x2048.rank) ∈ dot_S4096x38002_S38002x2048_S4096x2048_1_0_0_1_n_n.rhsBatch by decide), dif_pos (show (1 : Fin S38002x2048.rank) ∈ dot_S4096x38002_S38002x2048_S4096x2048_1_0_0_1_n_n.rhsNonContracting by decide)]
  rfl
abbrev lidx_main_v77 (i : S4096x2048.Idx) (k : Fin 38002) : S4096x38002.Idx := fun a => match a with
  | ⟨0, _⟩ => ⟨(i 0).val, (i 0).isLt⟩
  | ⟨1, _⟩ => ⟨k.val, k.isLt⟩
abbrev ridx_main_v77 (i : S4096x2048.Idx) (k : Fin 38002) : S38002x2048.Idx := fun a => match a with
  | ⟨0, _⟩ => ⟨k.val, k.isLt⟩
  | ⟨1, _⟩ => ⟨(i 1).val, (i 1).isLt⟩

theorem val_main_v77_apply (x0 : (⟨S4096x2, .i32⟩ : BufTy).Contents (Elt Ideal)) (x1 : (⟨S4000x32, .i32⟩ : BufTy).Contents (Elt Ideal)) (x2 : (⟨S4096x2, .f32⟩ : BufTy).Contents (Elt Ideal)) (x3 : (⟨S38002x2048, .f32⟩ : BufTy).Contents (Elt Ideal)) (i : S4096x2048.Idx) :
    val_main_v77 (F := Ideal) x0 x1 x2 x3 i = ∑ k : Fin 38002, (val_main_v61 (F := Ideal) x0 x1 x2) (lidx_main_v77 i k) * x3 (ridx_main_v77 i k) := by
  unfold val_main_v77
  generalize val_main_v61 (F := Ideal) x0 x1 x2 = y0
  simp only [Host.dotGeneral]
  rw [Ideal.dotGeneral_apply, ← Equiv.sum_comp (ValueIdx.contrEquiv1 dot_S4096x38002_S38002x2048_S4096x2048_1_0_0_1_n_n 38002 rfl rfl).symm]
  refine Finset.sum_congr rfl fun k _ => ?_
  have hk := ValueIdx.contrEquiv1_symm_val dot_S4096x38002_S38002x2048_S4096x2048_1_0_0_1_n_n 38002 rfl rfl k
  have el : dot_S4096x38002_S38002x2048_S4096x2048_1_0_0_1_n_n.lhsIdx i ((ValueIdx.contrEquiv1 dot_S4096x38002_S38002x2048_S4096x2048_1_0_0_1_n_n 38002 rfl rfl).symm k) = lidx_main_v77 i k := funext fun a => Fin.ext (by
    match a with
    | ⟨0, _⟩ => exact lhs_main_v77_0 _ _
    | ⟨1, _⟩ => exact (lhs_main_v77_1 _ _).trans hk)
  have er : dot_S4096x38002_S38002x2048_S4096x2048_1_0_0_1_n_n.rhsIdx i ((ValueIdx.contrEquiv1 dot_S4096x38002_S38002x2048_S4096x2048_1_0_0_1_n_n 38002 rfl rfl).symm k) = ridx_main_v77 i k := funext fun a => Fin.ext (by
    match a with
    | ⟨0, _⟩ => exact (rhs_main_v77_0 _ _).trans hk
    | ⟨1, _⟩ => exact rhs_main_v77_1 _ _)
  rw [el, er]

def val_main_v78 (x4 : (⟨S2048, .f32⟩ : BufTy).Contents (Elt F)) : (⟨S1x2048, .f32⟩ : BufTy).Contents (Elt F) :=
  broadcastInDim S1x2048 ![1] bcast_S2048_S1x2048_1 (x4)
abbrev idx_main_v78 (i : S1x2048.Idx) : S2048.Idx := fun a => match a with
  | ⟨0, _⟩ => ⟨(i 1).val, (i 1).isLt⟩
theorem val_main_v78_apply (x4 : (⟨S2048, .f32⟩ : BufTy).Contents (Elt F)) (i : S1x2048.Idx) :
    val_main_v78 (F := F) x4 i = x4 (idx_main_v78 i) := by
  unfold val_main_v78
  exact broadcastInDim_apply _ bcast_S2048_S1x2048_1 x4 i (idx_main_v78 i) (fun a => match a with
    | ⟨0, _⟩ => by show (i 1).val = if (2048 : Nat) = 1 then 0 else (i 1).val; rw [if_neg (by decide)])

def val_main_v79 (x4 : (⟨S2048, .f32⟩ : BufTy).Contents (Elt F)) : (⟨S4096x2048, .f32⟩ : BufTy).Contents (Elt F) :=
  broadcastInDim S4096x2048 ![0, 1] bcast_S1x2048_S4096x2048_0_1 (val_main_v78 (F := F) x4)
abbrev idx_main_v79 (i : S4096x2048.Idx) : S1x2048.Idx := fun a => match a with
  | ⟨0, _⟩ => ⟨0, Nat.one_pos⟩
  | ⟨1, _⟩ => ⟨(i 1).val, (i 1).isLt⟩
theorem val_main_v79_apply (x4 : (⟨S2048, .f32⟩ : BufTy).Contents (Elt F)) (i : S4096x2048.Idx) :
    val_main_v79 (F := F) x4 i = val_main_v78 (F := F) x4 (idx_main_v79 i) := by
  unfold val_main_v79
  generalize val_main_v78 (F := F) x4 = y
  exact broadcastInDim_apply _ bcast_S1x2048_S4096x2048_0_1 y i (idx_main_v79 i) (fun a => match a with
    | ⟨0, _⟩ => by show 0 = if (1 : Nat) = 1 then 0 else (i 0).val; rw [if_pos rfl]
    | ⟨1, _⟩ => by show (i 1).val = if (2048 : Nat) = 1 then 0 else (i 1).val; rw [if_neg (by decide)])

def val_main_v80 (x0 : (⟨S4096x2, .i32⟩ : BufTy).Contents (Elt F)) (x1 : (⟨S4000x32, .i32⟩ : BufTy).Contents (Elt F)) (x2 : (⟨S4096x2, .f32⟩ : BufTy).Contents (Elt F)) (x3 : (⟨S38002x2048, .f32⟩ : BufTy).Contents (Elt F)) (x4 : (⟨S2048, .f32⟩ : BufTy).Contents (Elt F)) : (⟨S4096x2048, .f32⟩ : BufTy).Contents (Elt F) :=
  addf (val_main_v77 (F := F) x0 x1 x2 x3) (val_main_v79 (F := F) x4)
theorem val_main_v80_apply (x0 : (⟨S4096x2, .i32⟩ : BufTy).Contents (Elt F)) (x1 : (⟨S4000x32, .i32⟩ : BufTy).Contents (Elt F)) (x2 : (⟨S4096x2, .f32⟩ : BufTy).Contents (Elt F)) (x3 : (⟨S38002x2048, .f32⟩ : BufTy).Contents (Elt F)) (x4 : (⟨S2048, .f32⟩ : BufTy).Contents (Elt F)) (i : S4096x2048.Idx) :
    val_main_v80 (F := F) x0 x1 x2 x3 x4 i = FloatOps.addf (val_main_v77 (F := F) x0 x1 x2 x3 i) (val_main_v79 (F := F) x4 i) := rfl

def val_main_call2_cst : (⟨S_, .f32⟩ : BufTy).Contents (Elt F) :=
  constant S_ .f32 0x00000000#32
theorem val_main_call2_cst_apply (i : S_.Idx) :
    val_main_call2_cst (F := F) i = FloatOps.ofBits .f32 0x00000000#32 := rfl

def val_main_call2_v0 : (⟨S4096x2048, .f32⟩ : BufTy).Contents (Elt F) :=
  broadcastInDim S4096x2048 ![] bcast_S_S4096x2048 (val_main_call2_cst (F := F))
abbrev idx_main_call2_v0 (i : S4096x2048.Idx) : S_.Idx := fun a => a.elim0
theorem val_main_call2_v0_apply (i : S4096x2048.Idx) :
    val_main_call2_v0 (F := F) i = val_main_call2_cst (F := F) (idx_main_call2_v0 i) := by
  unfold val_main_call2_v0
  generalize val_main_call2_cst (F := F) = y
  exact broadcastInDim_apply _ bcast_S_S4096x2048 y i (idx_main_call2_v0 i) (fun a => a.elim0)

def val_main_v81 (x0 : (⟨S4096x2, .i32⟩ : BufTy).Contents (Elt F)) (x1 : (⟨S4000x32, .i32⟩ : BufTy).Contents (Elt F)) (x2 : (⟨S4096x2, .f32⟩ : BufTy).Contents (Elt F)) (x3 : (⟨S38002x2048, .f32⟩ : BufTy).Contents (Elt F)) (x4 : (⟨S2048, .f32⟩ : BufTy).Contents (Elt F)) : (⟨S4096x2048, .f32⟩ : BufTy).Contents (Elt F) :=
  maximumf (val_main_v80 (F := F) x0 x1 x2 x3 x4) (val_main_call2_v0 (F := F))
theorem val_main_v81_apply (x0 : (⟨S4096x2, .i32⟩ : BufTy).Contents (Elt F)) (x1 : (⟨S4000x32, .i32⟩ : BufTy).Contents (Elt F)) (x2 : (⟨S4096x2, .f32⟩ : BufTy).Contents (Elt F)) (x3 : (⟨S38002x2048, .f32⟩ : BufTy).Contents (Elt F)) (x4 : (⟨S2048, .f32⟩ : BufTy).Contents (Elt F)) (i : S4096x2048.Idx) :
    val_main_v81 (F := F) x0 x1 x2 x3 x4 i = FloatOps.maximumf (val_main_v80 (F := F) x0 x1 x2 x3 x4 i) (val_main_call2_v0 (F := F) i) := rfl

def val_main_v82 (x0 : (⟨S4096x2, .i32⟩ : BufTy).Contents (Elt F)) (x1 : (⟨S4000x32, .i32⟩ : BufTy).Contents (Elt F)) (x2 : (⟨S4096x2, .f32⟩ : BufTy).Contents (Elt F)) (x3 : (⟨S38002x2048, .f32⟩ : BufTy).Contents (Elt F)) (x4 : (⟨S2048, .f32⟩ : BufTy).Contents (Elt F)) (x5 : (⟨S2048x1024, .f32⟩ : BufTy).Contents (Elt F)) : (⟨S4096x1024, .f32⟩ : BufTy).Contents (Elt F) :=
  Host.dotGeneral dot_S4096x2048_S2048x1024_S4096x1024_1_0_0_1_n_n none (val_main_v81 (F := F) x0 x1 x2 x3 x4) (x5)
theorem lhs_main_v82_0 (i : S4096x1024.Idx) (q : dot_S4096x2048_S2048x1024_S4096x1024_1_0_0_1_n_n.contr.Idx) :
    (dot_S4096x2048_S2048x1024_S4096x1024_1_0_0_1_n_n.lhsIdx i q 0).val = (i 0).val := by
  unfold DotDims.lhsIdx
  rw [dif_neg (show ¬(0 : Fin S4096x2048.rank) ∈ dot_S4096x2048_S2048x1024_S4096x1024_1_0_0_1_n_n.lhsBatch by decide), dif_pos (show (0 : Fin S4096x2048.rank) ∈ dot_S4096x2048_S2048x1024_S4096x1024_1_0_0_1_n_n.lhsNonContracting by decide)]
  rfl
theorem lhs_main_v82_1 (i : S4096x1024.Idx) (q : dot_S4096x2048_S2048x1024_S4096x1024_1_0_0_1_n_n.contr.Idx) :
    (dot_S4096x2048_S2048x1024_S4096x1024_1_0_0_1_n_n.lhsIdx i q 1).val = (q ⟨0, by decide⟩).val :=
  dot_S4096x2048_S2048x1024_S4096x1024_1_0_0_1_n_n.lhsIdx_val_of_single rfl i q
theorem rhs_main_v82_0 (i : S4096x1024.Idx) (q : dot_S4096x2048_S2048x1024_S4096x1024_1_0_0_1_n_n.contr.Idx) :
    (dot_S4096x2048_S2048x1024_S4096x1024_1_0_0_1_n_n.rhsIdx i q 0).val = (q ⟨0, by decide⟩).val :=
  dot_S4096x2048_S2048x1024_S4096x1024_1_0_0_1_n_n.rhsIdx_val_of_single rfl i q
theorem rhs_main_v82_1 (i : S4096x1024.Idx) (q : dot_S4096x2048_S2048x1024_S4096x1024_1_0_0_1_n_n.contr.Idx) :
    (dot_S4096x2048_S2048x1024_S4096x1024_1_0_0_1_n_n.rhsIdx i q 1).val = (i 1).val := by
  unfold DotDims.rhsIdx
  rw [dif_neg (show ¬(1 : Fin S2048x1024.rank) ∈ dot_S4096x2048_S2048x1024_S4096x1024_1_0_0_1_n_n.rhsBatch by decide), dif_pos (show (1 : Fin S2048x1024.rank) ∈ dot_S4096x2048_S2048x1024_S4096x1024_1_0_0_1_n_n.rhsNonContracting by decide)]
  rfl
abbrev lidx_main_v82 (i : S4096x1024.Idx) (k : Fin 2048) : S4096x2048.Idx := fun a => match a with
  | ⟨0, _⟩ => ⟨(i 0).val, (i 0).isLt⟩
  | ⟨1, _⟩ => ⟨k.val, k.isLt⟩
abbrev ridx_main_v82 (i : S4096x1024.Idx) (k : Fin 2048) : S2048x1024.Idx := fun a => match a with
  | ⟨0, _⟩ => ⟨k.val, k.isLt⟩
  | ⟨1, _⟩ => ⟨(i 1).val, (i 1).isLt⟩

theorem val_main_v82_apply (x0 : (⟨S4096x2, .i32⟩ : BufTy).Contents (Elt Ideal)) (x1 : (⟨S4000x32, .i32⟩ : BufTy).Contents (Elt Ideal)) (x2 : (⟨S4096x2, .f32⟩ : BufTy).Contents (Elt Ideal)) (x3 : (⟨S38002x2048, .f32⟩ : BufTy).Contents (Elt Ideal)) (x4 : (⟨S2048, .f32⟩ : BufTy).Contents (Elt Ideal)) (x5 : (⟨S2048x1024, .f32⟩ : BufTy).Contents (Elt Ideal)) (i : S4096x1024.Idx) :
    val_main_v82 (F := Ideal) x0 x1 x2 x3 x4 x5 i = ∑ k : Fin 2048, (val_main_v81 (F := Ideal) x0 x1 x2 x3 x4) (lidx_main_v82 i k) * x5 (ridx_main_v82 i k) := by
  unfold val_main_v82
  generalize val_main_v81 (F := Ideal) x0 x1 x2 x3 x4 = y0
  simp only [Host.dotGeneral]
  rw [Ideal.dotGeneral_apply, ← Equiv.sum_comp (ValueIdx.contrEquiv1 dot_S4096x2048_S2048x1024_S4096x1024_1_0_0_1_n_n 2048 rfl rfl).symm]
  refine Finset.sum_congr rfl fun k _ => ?_
  have hk := ValueIdx.contrEquiv1_symm_val dot_S4096x2048_S2048x1024_S4096x1024_1_0_0_1_n_n 2048 rfl rfl k
  have el : dot_S4096x2048_S2048x1024_S4096x1024_1_0_0_1_n_n.lhsIdx i ((ValueIdx.contrEquiv1 dot_S4096x2048_S2048x1024_S4096x1024_1_0_0_1_n_n 2048 rfl rfl).symm k) = lidx_main_v82 i k := funext fun a => Fin.ext (by
    match a with
    | ⟨0, _⟩ => exact lhs_main_v82_0 _ _
    | ⟨1, _⟩ => exact (lhs_main_v82_1 _ _).trans hk)
  have er : dot_S4096x2048_S2048x1024_S4096x1024_1_0_0_1_n_n.rhsIdx i ((ValueIdx.contrEquiv1 dot_S4096x2048_S2048x1024_S4096x1024_1_0_0_1_n_n 2048 rfl rfl).symm k) = ridx_main_v82 i k := funext fun a => Fin.ext (by
    match a with
    | ⟨0, _⟩ => exact (rhs_main_v82_0 _ _).trans hk
    | ⟨1, _⟩ => exact rhs_main_v82_1 _ _)
  rw [el, er]

def val_main_v83 (x6 : (⟨S1024, .f32⟩ : BufTy).Contents (Elt F)) : (⟨S1x1024, .f32⟩ : BufTy).Contents (Elt F) :=
  broadcastInDim S1x1024 ![1] bcast_S1024_S1x1024_1 (x6)
abbrev idx_main_v83 (i : S1x1024.Idx) : S1024.Idx := fun a => match a with
  | ⟨0, _⟩ => ⟨(i 1).val, (i 1).isLt⟩
theorem val_main_v83_apply (x6 : (⟨S1024, .f32⟩ : BufTy).Contents (Elt F)) (i : S1x1024.Idx) :
    val_main_v83 (F := F) x6 i = x6 (idx_main_v83 i) := by
  unfold val_main_v83
  exact broadcastInDim_apply _ bcast_S1024_S1x1024_1 x6 i (idx_main_v83 i) (fun a => match a with
    | ⟨0, _⟩ => by show (i 1).val = if (1024 : Nat) = 1 then 0 else (i 1).val; rw [if_neg (by decide)])

def val_main_v84 (x6 : (⟨S1024, .f32⟩ : BufTy).Contents (Elt F)) : (⟨S4096x1024, .f32⟩ : BufTy).Contents (Elt F) :=
  broadcastInDim S4096x1024 ![0, 1] bcast_S1x1024_S4096x1024_0_1 (val_main_v83 (F := F) x6)
abbrev idx_main_v84 (i : S4096x1024.Idx) : S1x1024.Idx := fun a => match a with
  | ⟨0, _⟩ => ⟨0, Nat.one_pos⟩
  | ⟨1, _⟩ => ⟨(i 1).val, (i 1).isLt⟩
theorem val_main_v84_apply (x6 : (⟨S1024, .f32⟩ : BufTy).Contents (Elt F)) (i : S4096x1024.Idx) :
    val_main_v84 (F := F) x6 i = val_main_v83 (F := F) x6 (idx_main_v84 i) := by
  unfold val_main_v84
  generalize val_main_v83 (F := F) x6 = y
  exact broadcastInDim_apply _ bcast_S1x1024_S4096x1024_0_1 y i (idx_main_v84 i) (fun a => match a with
    | ⟨0, _⟩ => by show 0 = if (1 : Nat) = 1 then 0 else (i 0).val; rw [if_pos rfl]
    | ⟨1, _⟩ => by show (i 1).val = if (1024 : Nat) = 1 then 0 else (i 1).val; rw [if_neg (by decide)])

def val_main_v85 (x0 : (⟨S4096x2, .i32⟩ : BufTy).Contents (Elt F)) (x1 : (⟨S4000x32, .i32⟩ : BufTy).Contents (Elt F)) (x2 : (⟨S4096x2, .f32⟩ : BufTy).Contents (Elt F)) (x3 : (⟨S38002x2048, .f32⟩ : BufTy).Contents (Elt F)) (x4 : (⟨S2048, .f32⟩ : BufTy).Contents (Elt F)) (x5 : (⟨S2048x1024, .f32⟩ : BufTy).Contents (Elt F)) (x6 : (⟨S1024, .f32⟩ : BufTy).Contents (Elt F)) : (⟨S4096x1024, .f32⟩ : BufTy).Contents (Elt F) :=
  addf (val_main_v82 (F := F) x0 x1 x2 x3 x4 x5) (val_main_v84 (F := F) x6)
theorem val_main_v85_apply (x0 : (⟨S4096x2, .i32⟩ : BufTy).Contents (Elt F)) (x1 : (⟨S4000x32, .i32⟩ : BufTy).Contents (Elt F)) (x2 : (⟨S4096x2, .f32⟩ : BufTy).Contents (Elt F)) (x3 : (⟨S38002x2048, .f32⟩ : BufTy).Contents (Elt F)) (x4 : (⟨S2048, .f32⟩ : BufTy).Contents (Elt F)) (x5 : (⟨S2048x1024, .f32⟩ : BufTy).Contents (Elt F)) (x6 : (⟨S1024, .f32⟩ : BufTy).Contents (Elt F)) (i : S4096x1024.Idx) :
    val_main_v85 (F := F) x0 x1 x2 x3 x4 x5 x6 i = FloatOps.addf (val_main_v82 (F := F) x0 x1 x2 x3 x4 x5 i) (val_main_v84 (F := F) x6 i) := rfl

def val_main_call3_cst : (⟨S_, .f32⟩ : BufTy).Contents (Elt F) :=
  constant S_ .f32 0x00000000#32
theorem val_main_call3_cst_apply (i : S_.Idx) :
    val_main_call3_cst (F := F) i = FloatOps.ofBits .f32 0x00000000#32 := rfl

def val_main_call3_v0 : (⟨S4096x1024, .f32⟩ : BufTy).Contents (Elt F) :=
  broadcastInDim S4096x1024 ![] bcast_S_S4096x1024 (val_main_call3_cst (F := F))
abbrev idx_main_call3_v0 (i : S4096x1024.Idx) : S_.Idx := fun a => a.elim0
theorem val_main_call3_v0_apply (i : S4096x1024.Idx) :
    val_main_call3_v0 (F := F) i = val_main_call3_cst (F := F) (idx_main_call3_v0 i) := by
  unfold val_main_call3_v0
  generalize val_main_call3_cst (F := F) = y
  exact broadcastInDim_apply _ bcast_S_S4096x1024 y i (idx_main_call3_v0 i) (fun a => a.elim0)

def val_main_v86 (x0 : (⟨S4096x2, .i32⟩ : BufTy).Contents (Elt F)) (x1 : (⟨S4000x32, .i32⟩ : BufTy).Contents (Elt F)) (x2 : (⟨S4096x2, .f32⟩ : BufTy).Contents (Elt F)) (x3 : (⟨S38002x2048, .f32⟩ : BufTy).Contents (Elt F)) (x4 : (⟨S2048, .f32⟩ : BufTy).Contents (Elt F)) (x5 : (⟨S2048x1024, .f32⟩ : BufTy).Contents (Elt F)) (x6 : (⟨S1024, .f32⟩ : BufTy).Contents (Elt F)) : (⟨S4096x1024, .f32⟩ : BufTy).Contents (Elt F) :=
  maximumf (val_main_v85 (F := F) x0 x1 x2 x3 x4 x5 x6) (val_main_call3_v0 (F := F))
theorem val_main_v86_apply (x0 : (⟨S4096x2, .i32⟩ : BufTy).Contents (Elt F)) (x1 : (⟨S4000x32, .i32⟩ : BufTy).Contents (Elt F)) (x2 : (⟨S4096x2, .f32⟩ : BufTy).Contents (Elt F)) (x3 : (⟨S38002x2048, .f32⟩ : BufTy).Contents (Elt F)) (x4 : (⟨S2048, .f32⟩ : BufTy).Contents (Elt F)) (x5 : (⟨S2048x1024, .f32⟩ : BufTy).Contents (Elt F)) (x6 : (⟨S1024, .f32⟩ : BufTy).Contents (Elt F)) (i : S4096x1024.Idx) :
    val_main_v86 (F := F) x0 x1 x2 x3 x4 x5 x6 i = FloatOps.maximumf (val_main_v85 (F := F) x0 x1 x2 x3 x4 x5 x6 i) (val_main_call3_v0 (F := F) i) := rfl

def val_main_v87 (x0 : (⟨S4096x2, .i32⟩ : BufTy).Contents (Elt F)) (x1 : (⟨S4000x32, .i32⟩ : BufTy).Contents (Elt F)) (x2 : (⟨S4096x2, .f32⟩ : BufTy).Contents (Elt F)) (x3 : (⟨S38002x2048, .f32⟩ : BufTy).Contents (Elt F)) (x4 : (⟨S2048, .f32⟩ : BufTy).Contents (Elt F)) (x5 : (⟨S2048x1024, .f32⟩ : BufTy).Contents (Elt F)) (x6 : (⟨S1024, .f32⟩ : BufTy).Contents (Elt F)) (x7 : (⟨S1024x1, .f32⟩ : BufTy).Contents (Elt F)) : (⟨S4096x1, .f32⟩ : BufTy).Contents (Elt F) :=
  Host.dotGeneral dot_S4096x1024_S1024x1_S4096x1_1_0_0_1_n_n none (val_main_v86 (F := F) x0 x1 x2 x3 x4 x5 x6) (x7)
theorem lhs_main_v87_0 (i : S4096x1.Idx) (q : dot_S4096x1024_S1024x1_S4096x1_1_0_0_1_n_n.contr.Idx) :
    (dot_S4096x1024_S1024x1_S4096x1_1_0_0_1_n_n.lhsIdx i q 0).val = (i 0).val := by
  unfold DotDims.lhsIdx
  rw [dif_neg (show ¬(0 : Fin S4096x1024.rank) ∈ dot_S4096x1024_S1024x1_S4096x1_1_0_0_1_n_n.lhsBatch by decide), dif_pos (show (0 : Fin S4096x1024.rank) ∈ dot_S4096x1024_S1024x1_S4096x1_1_0_0_1_n_n.lhsNonContracting by decide)]
  rfl
theorem lhs_main_v87_1 (i : S4096x1.Idx) (q : dot_S4096x1024_S1024x1_S4096x1_1_0_0_1_n_n.contr.Idx) :
    (dot_S4096x1024_S1024x1_S4096x1_1_0_0_1_n_n.lhsIdx i q 1).val = (q ⟨0, by decide⟩).val :=
  dot_S4096x1024_S1024x1_S4096x1_1_0_0_1_n_n.lhsIdx_val_of_single rfl i q
theorem rhs_main_v87_0 (i : S4096x1.Idx) (q : dot_S4096x1024_S1024x1_S4096x1_1_0_0_1_n_n.contr.Idx) :
    (dot_S4096x1024_S1024x1_S4096x1_1_0_0_1_n_n.rhsIdx i q 0).val = (q ⟨0, by decide⟩).val :=
  dot_S4096x1024_S1024x1_S4096x1_1_0_0_1_n_n.rhsIdx_val_of_single rfl i q
theorem rhs_main_v87_1 (i : S4096x1.Idx) (q : dot_S4096x1024_S1024x1_S4096x1_1_0_0_1_n_n.contr.Idx) :
    (dot_S4096x1024_S1024x1_S4096x1_1_0_0_1_n_n.rhsIdx i q 1).val = (i 1).val := by
  unfold DotDims.rhsIdx
  rw [dif_neg (show ¬(1 : Fin S1024x1.rank) ∈ dot_S4096x1024_S1024x1_S4096x1_1_0_0_1_n_n.rhsBatch by decide), dif_pos (show (1 : Fin S1024x1.rank) ∈ dot_S4096x1024_S1024x1_S4096x1_1_0_0_1_n_n.rhsNonContracting by decide)]
  rfl
abbrev lidx_main_v87 (i : S4096x1.Idx) (k : Fin 1024) : S4096x1024.Idx := fun a => match a with
  | ⟨0, _⟩ => ⟨(i 0).val, (i 0).isLt⟩
  | ⟨1, _⟩ => ⟨k.val, k.isLt⟩
abbrev ridx_main_v87 (i : S4096x1.Idx) (k : Fin 1024) : S1024x1.Idx := fun a => match a with
  | ⟨0, _⟩ => ⟨k.val, k.isLt⟩
  | ⟨1, _⟩ => ⟨(i 1).val, (i 1).isLt⟩

theorem val_main_v87_apply (x0 : (⟨S4096x2, .i32⟩ : BufTy).Contents (Elt Ideal)) (x1 : (⟨S4000x32, .i32⟩ : BufTy).Contents (Elt Ideal)) (x2 : (⟨S4096x2, .f32⟩ : BufTy).Contents (Elt Ideal)) (x3 : (⟨S38002x2048, .f32⟩ : BufTy).Contents (Elt Ideal)) (x4 : (⟨S2048, .f32⟩ : BufTy).Contents (Elt Ideal)) (x5 : (⟨S2048x1024, .f32⟩ : BufTy).Contents (Elt Ideal)) (x6 : (⟨S1024, .f32⟩ : BufTy).Contents (Elt Ideal)) (x7 : (⟨S1024x1, .f32⟩ : BufTy).Contents (Elt Ideal)) (i : S4096x1.Idx) :
    val_main_v87 (F := Ideal) x0 x1 x2 x3 x4 x5 x6 x7 i = ∑ k : Fin 1024, (val_main_v86 (F := Ideal) x0 x1 x2 x3 x4 x5 x6) (lidx_main_v87 i k) * x7 (ridx_main_v87 i k) := by
  unfold val_main_v87
  generalize val_main_v86 (F := Ideal) x0 x1 x2 x3 x4 x5 x6 = y0
  simp only [Host.dotGeneral]
  rw [Ideal.dotGeneral_apply, ← Equiv.sum_comp (ValueIdx.contrEquiv1 dot_S4096x1024_S1024x1_S4096x1_1_0_0_1_n_n 1024 rfl rfl).symm]
  refine Finset.sum_congr rfl fun k _ => ?_
  have hk := ValueIdx.contrEquiv1_symm_val dot_S4096x1024_S1024x1_S4096x1_1_0_0_1_n_n 1024 rfl rfl k
  have el : dot_S4096x1024_S1024x1_S4096x1_1_0_0_1_n_n.lhsIdx i ((ValueIdx.contrEquiv1 dot_S4096x1024_S1024x1_S4096x1_1_0_0_1_n_n 1024 rfl rfl).symm k) = lidx_main_v87 i k := funext fun a => Fin.ext (by
    match a with
    | ⟨0, _⟩ => exact lhs_main_v87_0 _ _
    | ⟨1, _⟩ => exact (lhs_main_v87_1 _ _).trans hk)
  have er : dot_S4096x1024_S1024x1_S4096x1_1_0_0_1_n_n.rhsIdx i ((ValueIdx.contrEquiv1 dot_S4096x1024_S1024x1_S4096x1_1_0_0_1_n_n 1024 rfl rfl).symm k) = ridx_main_v87 i k := funext fun a => Fin.ext (by
    match a with
    | ⟨0, _⟩ => exact (rhs_main_v87_0 _ _).trans hk
    | ⟨1, _⟩ => exact rhs_main_v87_1 _ _)
  rw [el, er]

def val_main_v88 (x8 : (⟨S1, .f32⟩ : BufTy).Contents (Elt F)) : (⟨S1x1, .f32⟩ : BufTy).Contents (Elt F) :=
  broadcastInDim S1x1 ![1] bcast_S1_S1x1_1 (x8)
abbrev idx_main_v88 (i : S1x1.Idx) : S1.Idx := fun a => match a with
  | ⟨0, _⟩ => ⟨0, Nat.one_pos⟩
theorem val_main_v88_apply (x8 : (⟨S1, .f32⟩ : BufTy).Contents (Elt F)) (i : S1x1.Idx) :
    val_main_v88 (F := F) x8 i = x8 (idx_main_v88 i) := by
  unfold val_main_v88
  exact broadcastInDim_apply _ bcast_S1_S1x1_1 x8 i (idx_main_v88 i) (fun a => match a with
    | ⟨0, _⟩ => by show 0 = if (1 : Nat) = 1 then 0 else (i 1).val; rw [if_pos rfl])

def val_main_v89 (x8 : (⟨S1, .f32⟩ : BufTy).Contents (Elt F)) : (⟨S4096x1, .f32⟩ : BufTy).Contents (Elt F) :=
  broadcastInDim S4096x1 ![0, 1] bcast_S1x1_S4096x1_0_1 (val_main_v88 (F := F) x8)
abbrev idx_main_v89 (i : S4096x1.Idx) : S1x1.Idx := fun a => match a with
  | ⟨0, _⟩ => ⟨0, Nat.one_pos⟩
  | ⟨1, _⟩ => ⟨0, Nat.one_pos⟩
theorem val_main_v89_apply (x8 : (⟨S1, .f32⟩ : BufTy).Contents (Elt F)) (i : S4096x1.Idx) :
    val_main_v89 (F := F) x8 i = val_main_v88 (F := F) x8 (idx_main_v89 i) := by
  unfold val_main_v89
  generalize val_main_v88 (F := F) x8 = y
  exact broadcastInDim_apply _ bcast_S1x1_S4096x1_0_1 y i (idx_main_v89 i) (fun a => match a with
    | ⟨0, _⟩ => by show 0 = if (1 : Nat) = 1 then 0 else (i 0).val; rw [if_pos rfl]
    | ⟨1, _⟩ => by show 0 = if (1 : Nat) = 1 then 0 else (i 1).val; rw [if_pos rfl])

def val_main_v90 (x0 : (⟨S4096x2, .i32⟩ : BufTy).Contents (Elt F)) (x1 : (⟨S4000x32, .i32⟩ : BufTy).Contents (Elt F)) (x2 : (⟨S4096x2, .f32⟩ : BufTy).Contents (Elt F)) (x3 : (⟨S38002x2048, .f32⟩ : BufTy).Contents (Elt F)) (x4 : (⟨S2048, .f32⟩ : BufTy).Contents (Elt F)) (x5 : (⟨S2048x1024, .f32⟩ : BufTy).Contents (Elt F)) (x6 : (⟨S1024, .f32⟩ : BufTy).Contents (Elt F)) (x7 : (⟨S1024x1, .f32⟩ : BufTy).Contents (Elt F)) (x8 : (⟨S1, .f32⟩ : BufTy).Contents (Elt F)) : (⟨S4096x1, .f32⟩ : BufTy).Contents (Elt F) :=
  addf (val_main_v87 (F := F) x0 x1 x2 x3 x4 x5 x6 x7) (val_main_v89 (F := F) x8)
theorem val_main_v90_apply (x0 : (⟨S4096x2, .i32⟩ : BufTy).Contents (Elt F)) (x1 : (⟨S4000x32, .i32⟩ : BufTy).Contents (Elt F)) (x2 : (⟨S4096x2, .f32⟩ : BufTy).Contents (Elt F)) (x3 : (⟨S38002x2048, .f32⟩ : BufTy).Contents (Elt F)) (x4 : (⟨S2048, .f32⟩ : BufTy).Contents (Elt F)) (x5 : (⟨S2048x1024, .f32⟩ : BufTy).Contents (Elt F)) (x6 : (⟨S1024, .f32⟩ : BufTy).Contents (Elt F)) (x7 : (⟨S1024x1, .f32⟩ : BufTy).Contents (Elt F)) (x8 : (⟨S1, .f32⟩ : BufTy).Contents (Elt F)) (i : S4096x1.Idx) :
    val_main_v90 (F := F) x0 x1 x2 x3 x4 x5 x6 x7 x8 i = FloatOps.addf (val_main_v87 (F := F) x0 x1 x2 x3 x4 x5 x6 x7 i) (val_main_v89 (F := F) x8 i) := rfl

def val_main_v91 (x0 : (⟨S4096x2, .i32⟩ : BufTy).Contents (Elt F)) (x1 : (⟨S4000x32, .i32⟩ : BufTy).Contents (Elt F)) (x2 : (⟨S4096x2, .f32⟩ : BufTy).Contents (Elt F)) (x3 : (⟨S38002x2048, .f32⟩ : BufTy).Contents (Elt F)) (x4 : (⟨S2048, .f32⟩ : BufTy).Contents (Elt F)) (x5 : (⟨S2048x1024, .f32⟩ : BufTy).Contents (Elt F)) (x6 : (⟨S1024, .f32⟩ : BufTy).Contents (Elt F)) (x7 : (⟨S1024x1, .f32⟩ : BufTy).Contents (Elt F)) (x8 : (⟨S1, .f32⟩ : BufTy).Contents (Elt F)) : (⟨S4096, .f32⟩ : BufTy).Contents (Elt F) :=
  shapeCast _ (val_main_v90 (F := F) x0 x1 x2 x3 x4 x5 x6 x7 x8) shapeCasts_S4096x1_S4096
abbrev idx_main_v91 (i : S4096.Idx) : S4096x1.Idx := fun a => match a with
  | ⟨0, _⟩ => ⟨((i 0).val) / 1, by have h0 : (i 0).val < 4096 := (i 0).isLt; show ((i 0).val) / 1 < 4096; omega⟩
  | ⟨1, _⟩ => ⟨0, Nat.one_pos⟩
theorem val_main_v91_apply (x0 : (⟨S4096x2, .i32⟩ : BufTy).Contents (Elt F)) (x1 : (⟨S4000x32, .i32⟩ : BufTy).Contents (Elt F)) (x2 : (⟨S4096x2, .f32⟩ : BufTy).Contents (Elt F)) (x3 : (⟨S38002x2048, .f32⟩ : BufTy).Contents (Elt F)) (x4 : (⟨S2048, .f32⟩ : BufTy).Contents (Elt F)) (x5 : (⟨S2048x1024, .f32⟩ : BufTy).Contents (Elt F)) (x6 : (⟨S1024, .f32⟩ : BufTy).Contents (Elt F)) (x7 : (⟨S1024x1, .f32⟩ : BufTy).Contents (Elt F)) (x8 : (⟨S1, .f32⟩ : BufTy).Contents (Elt F)) (i : S4096.Idx) :
    val_main_v91 (F := F) x0 x1 x2 x3 x4 x5 x6 x7 x8 i = val_main_v90 (F := F) x0 x1 x2 x3 x4 x5 x6 x7 x8 (idx_main_v91 i) := by
  unfold val_main_v91
  generalize val_main_v90 (F := F) x0 x1 x2 x3 x4 x5 x6 x7 x8 = y
  exact shapeCast_apply y shapeCasts_S4096x1_S4096 i (idx_main_v91 i)
    (by rewrite [Shape.rowMajor_val_two, Shape.rowMajor_val_one]; have h0 : (i 0).val < 4096 := (i 0).isLt; show ((i 0).val) / 1 * 1 + 0 = (i 0).val; omega)

end Cert.ReferenceIdeal.Read

end
-- ==== Proof.Val.Host.lean ====
import proofs.«417828_j54142357733865_1_alg».proof.Proof.KI.Run
import proofs.«417828_j54142357733865_1_alg».proof.Proof.Spec
import proofs.«417828_j54142357733865_1_alg».proof.Proof.RefRead
import Idealize.ShloMosaic.Lib.Pipeline.Value
import Idealize.ShloMosaic.Lib.ValueIdx
import Idealize.ShloMosaic.Lib.ValueLayout

noncomputable section

namespace Cert.KernelIdeal.Val

open Cert.KernelIdeal Cert.KernelIdeal.Gen Cert.KernelIdeal.Pipe Idealize.ShloMosaic Idealize.ShloMosaic.ValueIdx
open Idealize.ShloMosaic.TcCoe Idealize.SL.Sem Idealize.ShloMosaic.StableHlo

variable (m : (ℓ : Loc nD τ sig) → Buf (Elt Ideal) ℓ) (ρ : Dev nD → PrngReg) (c : Dev nD)

theorem host_v19 : VE0 (F := Ideal) m ρ c main_v19 = Cert.Spec.sliceA (m ((c.tc : Thread nD τ).loc main_arg3)) := by
  show StableHlo.after hostOps0 (fun b => m (c, b)) (Proc.devRef .tc main_v19) = _
  after_results
  funext i
  show extractStridedSlice S19000x2048 ![0, 0] (m (c, Proc.devRef .tc main_arg3)) slices_S38002x2048_S19000x2048_0_0 i = _
  unfold Cert.Spec.sliceA
  exact extractStridedSlice_apply (s := S38002x2048) ![0, 0] _ slices_S38002x2048_S19000x2048_0_0 i _ (fun a => match a with
    | ⟨0, _⟩ => by show (i 0).val = 0 + (i 0).val; omega
    | ⟨1, _⟩ => by show (i 1).val = 0 + (i 1).val; omega)

theorem host_v21 : VE0 (F := Ideal) m ρ c main_v21 = Cert.Spec.sliceB (m ((c.tc : Thread nD τ).loc main_arg3)) := by
  show StableHlo.after hostOps0 (fun b => m (c, b)) (Proc.devRef .tc main_v21) = _
  after_results
  funext i
  show extractStridedSlice S19000x2048 ![19001, 0] (m (c, Proc.devRef .tc main_arg3)) slices_S38002x2048_S19000x2048_19001_0 i = _
  unfold Cert.Spec.sliceB
  exact extractStridedSlice_apply (s := S38002x2048) ![19001, 0] _ slices_S38002x2048_S19000x2048_19001_0 i _ (fun a => match a with
    | ⟨0, _⟩ => by show 19001 + (i 0).val = 19001 + (i 0).val; rfl
    | ⟨1, _⟩ => by show (i 1).val = 0 + (i 1).val; omega)

theorem host_v22 : VE1 (F := Ideal) m ρ c main_v22
    = Cert.Spec.rowAt (m ((c.tc : Thread nD τ).loc main_arg3)) ⟨19000, by omega⟩ := by
  refine (M2_of_ne m ρ c main_v22 (by decide)).trans ?_
  show StableHlo.after hostOps0 (fun b => m (c, b)) (Proc.devRef .tc main_v22) = _
  after_results
  funext i
  unfold Cert.Spec.rowAt
  have h0 : (i 0).val < 1 := (i 0).isLt
  exact extractStridedSlice_apply (s := S38002x2048) ![19000, 0] _ slices_S38002x2048_S1x2048_19000_0 i _ (fun a => match a with
    | ⟨0, _⟩ => by show 19000 = 19000 + (i 0).val; omega
    | ⟨1, _⟩ => by show (i 1).val = 0 + (i 1).val; omega)

theorem host_v23 : VE1 (F := Ideal) m ρ c main_v23
    = Cert.Spec.rowAt (m ((c.tc : Thread nD τ).loc main_arg3)) ⟨38001, by omega⟩ := by
  refine (M2_of_ne m ρ c main_v23 (by decide)).trans ?_
  show StableHlo.after hostOps0 (fun b => m (c, b)) (Proc.devRef .tc main_v23) = _
  after_results
  funext i
  unfold Cert.Spec.rowAt
  have h0 : (i 0).val < 1 := (i 0).isLt
  exact extractStridedSlice_apply (s := S38002x2048) ![38001, 0] _ slices_S38002x2048_S1x2048_38001_0 i _ (fun a => match a with
    | ⟨0, _⟩ => by show 38001 = 38001 + (i 0).val; omega
    | ⟨1, _⟩ => by show (i 1).val = 0 + (i 1).val; omega)

theorem host_v24 : VE1 (F := Ideal) m ρ c main_v24 = Cert.Spec.asRow (m ((c.tc : Thread nD τ).loc main_arg4)) := by
  refine (M2_of_ne m ρ c main_v24 (by decide)).trans ?_
  show StableHlo.after hostOps0 (fun b => m (c, b)) (Proc.devRef .tc main_v24) = _
  after_results
  funext i
  unfold Cert.Spec.asRow
  have h0 : (i 0).val < 1 := (i 0).isLt
  show shapeCast S1x2048 (m (c, Proc.devRef .tc main_arg4)) shapeCasts_S2048_S1x2048 i = _
  exact shapeCast_apply _ shapeCasts_S2048_S1x2048 i (ix1 (i 1))
    (by rw [Shape.rowMajor_val_one, Shape.rowMajor_val_two]; show (i 1).val = (i 0).val * 2048 + (i 1).val; omega)

theorem host_v25 : VE1 (F := Ideal) m ρ c main_v25 = Cert.Spec.asRow (m ((c.tc : Thread nD τ).loc main_arg6)) := by
  refine (M2_of_ne m ρ c main_v25 (by decide)).trans ?_
  show StableHlo.after hostOps0 (fun b => m (c, b)) (Proc.devRef .tc main_v25) = _
  after_results
  funext i
  unfold Cert.Spec.asRow
  have h0 : (i 0).val < 1 := (i 0).isLt
  show shapeCast S1x1024 (m (c, Proc.devRef .tc main_arg6)) shapeCasts_S1024_S1x1024 i = _
  exact shapeCast_apply _ shapeCasts_S1024_S1x1024 i (ix1 (i 1))
    (by rw [Shape.rowMajor_val_one, Shape.rowMajor_val_two]; show (i 1).val = (i 0).val * 1024 + (i 1).val; omega)

theorem host_v26 : VE1 (F := Ideal) m ρ c main_v26 = Cert.Spec.asRow (m ((c.tc : Thread nD τ).loc main_arg8)) := by
  refine (M2_of_ne m ρ c main_v26 (by decide)).trans ?_
  show StableHlo.after hostOps0 (fun b => m (c, b)) (Proc.devRef .tc main_v26) = _
  after_results
  funext i
  unfold Cert.Spec.asRow
  have h0 : (i 0).val < 1 := (i 0).isLt
  show shapeCast S1x1 (m (c, Proc.devRef .tc main_arg8)) shapeCasts_S1_S1x1 i = _
  exact shapeCast_apply _ shapeCasts_S1_S1x1 i (ix1 (i 1))
    (by rw [Shape.rowMajor_val_one, Shape.rowMajor_val_two]; show (i 1).val = (i 0).val * 1 + (i 1).val; omega)

theorem host_v27 : VE1 (F := Ideal) m ρ c main_v27 = m ((c.tc : Thread nD τ).loc main_arg5) := by
  refine (M2_of_ne m ρ c main_v27 (by decide)).trans ?_
  show StableHlo.after hostOps0 (fun b => m (c, b)) (Proc.devRef .tc main_v27) = _
  after_results
  funext i
  exact truncf_apply _ _ i

theorem host_v28 : VE1 (F := Ideal) m ρ c main_v28 = m ((c.tc : Thread nD τ).loc main_arg7) := by
  refine (M2_of_ne m ρ c main_v28 (by decide)).trans ?_
  show StableHlo.after hostOps0 (fun b => m (c, b)) (Proc.devRef .tc main_v28) = _
  after_results
  funext i
  exact truncf_apply _ _ i

theorem host_arg2 : VE1 (F := Ideal) m ρ c main_arg2 = m ((c.tc : Thread nD τ).loc main_arg2) :=
  calc M2 m ρ c (Proc.devRef .tc main_arg2)
    _ = M1 m ρ c (Proc.devRef .tc main_arg2) := M2_of_ne m ρ c main_arg2 (by decide)
    _ = M0 m ρ c (Proc.devRef .tc main_arg2) :=
        StableHlo.after_of_writes_sub hostOps0 _ hostOps0_writes (by decide : main_arg2 ∉ hostOps0_W)
    _ = m ((c.tc : Thread nD τ).loc main_arg2) := rfl

theorem host_v29_0 : VE1 (F := Ideal) m ρ c main_v29_0 = (dat0 (VE0 m ρ) c).arrAt 4 cfg0.N := M2_arr m ρ c 4

theorem host_v29_1 : VE1 (F := Ideal) m ρ c main_v29_1 = (dat0 (VE0 m ρ) c).arrAt 5 cfg0.N := M2_arr m ρ c 5

theorem host_v31 : M4 (F := Ideal) m ρ c (Proc.devRef .tc main_v31)
    = fun i => (dat1 (VE1 m ρ) c).arrAt 10 cfg1.N (ix2 (i 0) 0) := by
  have e : M3 m ρ c (Proc.devRef .tc main_v30_0) = (dat1 (VE1 m ρ) c).arrAt 10 cfg1.N := M3_arr m ρ c 10
  show StableHlo.after hostOps2 (M3 m ρ c) (Proc.devRef .tc main_v31) = _
  after_results
  rw [e]
  funext i
  show shapeCast S4096 ((dat1 (VE1 m ρ) c).arrAt 10 cfg1.N) shapeCasts_S4096x1_S4096 i = _
  exact shapeCast_apply _ shapeCasts_S4096x1_S4096 i (ix2 (i 0) 0)
    (by rw [Shape.rowMajor_val_two, Shape.rowMajor_val_one]; show (i 0).val * 1 + 0 = (i 0).val; omega)

theorem host_v32 : M4 (F := Ideal) m ρ c (Proc.devRef .tc main_v32)
    = fun i => (dat1 (VE1 m ρ) c).arrAt 11 cfg1.N (ix2 (i 0) 0) := by
  have e : M3 m ρ c (Proc.devRef .tc main_v30_1) = (dat1 (VE1 m ρ) c).arrAt 11 cfg1.N := M3_arr m ρ c 11
  show StableHlo.after hostOps2 (M3 m ρ c) (Proc.devRef .tc main_v32) = _
  after_results
  rw [e]
  funext i
  show shapeCast S4096 ((dat1 (VE1 m ρ) c).arrAt 11 cfg1.N) shapeCasts_S4096x1_S4096 i = _
  exact shapeCast_apply _ shapeCasts_S4096x1_S4096 i (ix2 (i 0) 0)
    (by rw [Shape.rowMajor_val_two, Shape.rowMajor_val_one]; show (i 0).val * 1 + 0 = (i 0).val; omega)

theorem ids_first {F : FTy → Type} [FloatOps F] (mF : (ℓ : Loc nD τ sig) → Buf (Elt F) ℓ) (ρ : Dev nD → PrngReg) (c : Dev nD) :
    VE0 (F := F) mF ρ c main_v10
      = Cert.ReferenceIdeal.Read.val_main_v8 (F := F) (mF ((c.tc : Thread nD τ).loc main_arg0))
          (mF ((c.tc : Thread nD τ).loc main_arg1)) := by
  show StableHlo.after hostOps0 (fun b => mF (c, b)) (Proc.devRef .tc main_v10) = _
  after_results_simp
  rfl

theorem ids_second {F : FTy → Type} [FloatOps F] (mF : (ℓ : Loc nD τ sig) → Buf (Elt F) ℓ) (ρ : Dev nD → PrngReg) (c : Dev nD) :
    VE0 (F := F) mF ρ c main_v17
      = Cert.ReferenceIdeal.Read.val_main_v36 (F := F) (mF ((c.tc : Thread nD τ).loc main_arg0))
          (mF ((c.tc : Thread nD τ).loc main_arg1)) := by
  show StableHlo.after hostOps0 (fun b => mF (c, b)) (Proc.devRef .tc main_v17) = _
  after_results_simp
  rfl

theorem host_t1 : VE0 (F := Ideal) m ρ c main_v10
    = Cert.ReferenceIdeal.Read.val_main_v8 (F := Ideal) (m ((c.tc : Thread nD τ).loc main_arg0))
        (m ((c.tc : Thread nD τ).loc main_arg1)) := ids_first (F := Ideal) m ρ c

theorem host_t2 : VE0 (F := Ideal) m ρ c main_v17
    = Cert.ReferenceIdeal.Read.val_main_v36 (F := Ideal) (m ((c.tc : Thread nD τ).loc main_arg0))
        (m ((c.tc : Thread nD τ).loc main_arg1)) := ids_second (F := Ideal) m ρ c

end Cert.KernelIdeal.Val

end
-- ==== Proof.Val.Kernel.lean ====
import proofs.«417828_j54142357733865_1_alg».proof.Proof.Val.R0Value
import proofs.«417828_j54142357733865_1_alg».proof.Proof.Val.R1Value
import proofs.«417828_j54142357733865_1_alg».proof.Proof.Val.Host

set_option maxRecDepth 16384

noncomputable section

namespace Cert.KernelIdeal.Val

open Cert.KernelIdeal Cert.KernelIdeal.Gen Cert.KernelIdeal.Pipe
open Idealize.ShloMosaic Idealize.ShloMosaic.TcCoe Idealize.ShloMosaic.ValueIdx Idealize.SL.Sem

variable (m : (ℓ : Loc nD τ sig) → Buf (Elt Ideal) ℓ) (ρ : Dev nD → PrngReg) (c : Dev nD)

theorem kernel_out0 :
    M4 (F := Ideal) m ρ c (Proc.devRef .tc main_v31)
      = Cert.Spec.Out (VE0 (F := Ideal) m ρ c main_v10) (VE0 (F := Ideal) m ρ c main_v17) (m ((c.tc : Thread nD τ).loc main_arg2)) 0 1 (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) := by
  rw [host_v31 m ρ c, arrAt1_10 (VE1 m ρ) c, host_v29_0 m ρ c, arrAt0_4 (VE0 m ρ) c, host_v19 m ρ c, host_v21 m ρ c,
    host_v22 m ρ c, host_v23 m ρ c, host_v24 m ρ c, host_v25 m ρ c, host_v26 m ρ c, host_v27 m ρ c, host_v28 m ρ c, host_arg2 m ρ c]
  rfl

theorem kernel_out1 :
    M4 (F := Ideal) m ρ c (Proc.devRef .tc main_v32)
      = Cert.Spec.Out (VE0 (F := Ideal) m ρ c main_v17) (VE0 (F := Ideal) m ρ c main_v10) (m ((c.tc : Thread nD τ).loc main_arg2)) 1 0 (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) := by
  rw [host_v32 m ρ c, arrAt1_11 (VE1 m ρ) c, host_v29_1 m ρ c, arrAt0_5 (VE0 m ρ) c, host_v19 m ρ c, host_v21 m ρ c,
    host_v22 m ρ c, host_v23 m ρ c, host_v24 m ρ c, host_v25 m ρ c, host_v26 m ρ c, host_v27 m ρ c, host_v28 m ρ c, host_arg2 m ρ c]
  rfl

end Cert.KernelIdeal.Val

end
-- ==== Proof.Val.PreRange.lean ====
import proofs.«417828_j54142357733865_1_alg».proof.Defs
import Idealize.ShloMosaic.Lib.ReduceAll
import Idealize.ShloMosaic.Lib.ValueIdx
import Idealize.ShloMosaic.Lib.StableHlo.Predicate

noncomputable section

namespace Cert.KernelIdeal.Val

open Idealize.ShloMosaic Idealize.ShloMosaic.ValueIdx Idealize.SL.Sem

theorem range_of_tail [Cert.Pre_finite_inputs.Facts] {F : FTy → Type} [FloatOps F]
    (t : IVec Cert.Pre_finite_inputs.S4000x32 32) (v : IVec Cert.Pre_finite_inputs.S_ 1)
    (j : Cert.Pre_finite_inputs.S_.Idx)
    (e : Cert.Pre_finite_inputs.fn_part2 (F := F) t v j = 1#1) (i : Cert.Pre_finite_inputs.S4000x32.Idx) :
    0 ≤ (t i).toInt ∧ (t i).toInt < 19000 := by
  haveI : Subsingleton Cert.Pre_finite_inputs.S_.Idx := ⟨fun a b => funext fun d => d.elim0⟩
  unfold Cert.Pre_finite_inputs.fn_part2 at e
  dsimp only at e

  obtain ⟨e1, elt⟩ := IntOp.andi_eq_one.1 e
  obtain ⟨-, ege⟩ := IntOp.andi_eq_one.1 e1
  have hge := Host.reduce_andi_all _ _ _ _ j ege i
  have hlt := Host.reduce_andi_all _ _ _ _ j elt i
  have hge' : IntOp.cmpi .sge (t i) (0#32) = 1#1 := hge
  have hlt' : IntOp.cmpi .slt (t i) (19000#32) = 1#1 := hlt
  have h0 : (0#32 : BitVec 32).toInt = 0 := by decide
  have h1 : (19000#32 : BitVec 32).toInt = 19000 := by decide
  have a := IntOp.cmpi_sge.1 hge'
  have b := IntOp.cmpi_slt.1 hlt'
  rw [h0] at a
  rw [h1] at b
  exact ⟨a, b⟩

theorem targets_inRange (hF : Cert.Pre_finite_inputs.Facts)
    (m : (ℓ : Loc Cert.KernelIdeal.nD Cert.KernelIdeal.τ Cert.KernelIdeal.sig) → Buf (Elt Ideal) ℓ)
    (h : Cert.Pre_KernelIdeal (hPre_finite_inputs := hF) m) (c : Dev Cert.KernelIdeal.nD) :
    ∀ i, 0 ≤ (m ((c.tc : Thread Cert.KernelIdeal.nD Cert.KernelIdeal.τ).loc Cert.KernelIdeal.main_arg1) i).toInt
      ∧ (m ((c.tc : Thread Cert.KernelIdeal.nD Cert.KernelIdeal.τ).loc Cert.KernelIdeal.main_arg1) i).toInt < 19000 := by
  intro i
  have e : Cert.Pre_finite_inputs.fn_part2 (F := Ideal)
      (m ((c.tc : Thread Cert.KernelIdeal.nD Cert.KernelIdeal.τ).loc Cert.KernelIdeal.main_arg1)) _ ix0 = 1#1 :=
    congrFun (h c) ix0
  exact range_of_tail (F := Ideal) _ _ ix0 e i

end Cert.KernelIdeal.Val

end
-- ==== Proof.Ref.Scatter.lean ====
import proofs.«417828_j54142357733865_1_alg».proof.Proof.RefRead
import proofs.«417828_j54142357733865_1_alg».proof.Proof.Spec
import Idealize.ShloMosaic.Lib.Pipeline.Value
import Idealize.ShloMosaic.Lib.ValueIdx
import Idealize.ShloMosaic.PureOps.Ideal.Laws

noncomputable section

namespace Cert.ReferenceIdeal.RefValue

open Cert.ReferenceIdeal Cert.ReferenceIdeal.Read Idealize.ShloMosaic Idealize.ShloMosaic.ValueIdx

theorem foldl_overwrite {ι κ α : Type*} (g : ι → Option κ) (v : α) (step : (κ → α) → ι → (κ → α))
    (hsome : ∀ r n i, g n = some i → (∀ i', (i' = i → step r n i' = v) ∧ (i' ≠ i → step r n i' = r i')))
    (hnone : ∀ r n, g n = none → step r n = r)
    (L : List ι) (x : κ → α) (i' : κ) :
    ((∃ n ∈ L, g n = some i') → L.foldl step x i' = v) ∧ ((¬ ∃ n ∈ L, g n = some i') → L.foldl step x i' = x i') := by
  induction L generalizing x with
  | nil =>
    refine ⟨?_, fun _ => rfl⟩
    rintro ⟨n, hn, -⟩; exact absurd hn (List.not_mem_nil)
  | cons a L ih =>
    rw [List.foldl_cons]
    obtain ⟨ihp, ihn⟩ := ih (step x a)
    by_cases hL : ∃ n ∈ L, g n = some i'
    · refine ⟨fun _ => ihp hL, fun hno => absurd ?_ hno⟩
      obtain ⟨n, hn, e⟩ := hL
      exact ⟨n, List.mem_cons_of_mem _ hn, e⟩
    · rw [ihn hL]
      cases hg : g a with
      | none =>
        rw [hnone x a hg]
        refine ⟨?_, fun _ => rfl⟩
        rintro ⟨n, hn, e⟩
        rcases List.mem_cons.1 hn with rfl | hn'
        · rw [hg] at e; exact absurd e (by simp)
        · exact absurd ⟨n, hn', e⟩ hL
      | some i =>
        by_cases hi : i' = i
        · refine ⟨fun _ => ((hsome x a i hg i').1 hi), fun hno => absurd ?_ hno⟩
          exact ⟨a, List.mem_cons_self .., by rw [hg, hi]⟩
        · rw [(hsome x a i hg i').2 hi]
          refine ⟨?_, fun _ => rfl⟩
          rintro ⟨n, hn, e⟩
          rcases List.mem_cons.1 hn with rfl | hn'
          · rw [hg] at e; exact absurd (Option.some.inj e).symm hi
          · exact absurd ⟨n, hn', e⟩ hL

theorem scatter_set_const {α : Type} {s si u : Shape} {w : Nat} (d : ScatterDims s si u) (x : s.Idx → α) (idx : IVec si w)
    (upd : u.Idx → α) (v : α) (hupd : ∀ j, upd j = v) (i' : s.Idx) :
    ((∃ j : u.Idx, d.resultIdx? j idx = some i') → Host.scatter d (fun _ b => b) x idx upd i' = v) ∧
    ((¬ ∃ j : u.Idx, d.resultIdx? j idx = some i') → Host.scatter d (fun _ b => b) x idx upd i' = x i') := by
  have key := foldl_overwrite (fun n : Fin u.numel => d.resultIdx? (u.rowMajor.symm n) idx) v
    (fun r n =>
      match d.resultIdx? (u.rowMajor.symm n) idx with
      | some i => fun i' => if i' = i then (fun _ b => b) (r i) (upd (u.rowMajor.symm n)) else r i'
      | none => r)
    (by
      intro r n i h i'
      simp only [h]
      exact ⟨fun e => by rw [if_pos e]; exact hupd _, fun e => by rw [if_neg e]⟩)
    (by intro r n h; simp only [h])
    (List.finRange u.numel) x i'
  have hex : (∃ n ∈ List.finRange u.numel, d.resultIdx? (u.rowMajor.symm n) idx = some i') ↔
      ∃ j : u.Idx, d.resultIdx? j idx = some i' := by
    constructor
    · rintro ⟨n, -, h⟩; exact ⟨_, h⟩
    · rintro ⟨j, h⟩
      exact ⟨u.rowMajor j, List.mem_finRange _, by rw [Equiv.symm_apply_apply]; exact h⟩
  rw [hex] at key
  exact key

theorem scat_start0 {w : Nat} (j : (⟨2, ![4096, 32]⟩ : Shape).Idx) (idx : IVec ⟨3, ![4096, 32, 2]⟩ w) :
    scatter_S4096x19000_S4096x32x2_S4096x32_n_01_01_2.start j idx 0 = (idx (ix3 (j 0) (j 1) 0)).toInt := by
  unfold ScatterDims.start
  rw [dif_pos (by decide)]
  congr 2
  funext b
  match b with
  | ⟨0, _⟩ => rfl
  | ⟨1, _⟩ => rfl
  | ⟨2, _⟩ => rfl

theorem scat_start1 {w : Nat} (j : (⟨2, ![4096, 32]⟩ : Shape).Idx) (idx : IVec ⟨3, ![4096, 32, 2]⟩ w) :
    scatter_S4096x19000_S4096x32x2_S4096x32_n_01_01_2.start j idx 1 = (idx (ix3 (j 0) (j 1) 1)).toInt := by
  unfold ScatterDims.start
  rw [dif_pos (by decide)]
  congr 2
  funext b
  match b with
  | ⟨0, _⟩ => rfl
  | ⟨1, _⟩ => rfl
  | ⟨2, _⟩ => rfl

theorem scat_window (j : (⟨2, ![4096, 32]⟩ : Shape).Idx) (a : Fin 2) : scatter_S4096x19000_S4096x32x2_S4096x32_n_01_01_2.window j a = 0 := by
  unfold ScatterDims.window
  rw [dif_neg (by revert a; decide)]

theorem toInt_eq_toNat_of_nonneg (t : BitVec 32) (h : 0 ≤ t.toInt) : t.toInt = (t.toNat : Int) := by
  have hlt := t.isLt
  rw [BitVec.toInt_eq_toNat_cond] at h ⊢
  by_cases hh : 2 * t.toNat < 2 ^ 32
  · rw [if_pos hh]
  · rw [if_neg hh] at h; omega

theorem toInt_ofNat_small (n : ℕ) (hn : n < 2 ^ 31) : (BitVec.ofNat 32 n).toInt = (n : Int) := by
  have hm : n % 2 ^ 32 = n := Nat.mod_eq_of_lt (by omega)
  rw [BitVec.toInt_eq_toNat_cond, BitVec.toNat_ofNat, hm, if_pos (by omega)]

theorem eq_ofNat_of_toInt_eq (t : BitVec 32) (n : ℕ) (hn : n < 2 ^ 31) (h : t.toInt = (n : Int)) : t = BitVec.ofNat 32 n := by
  apply BitVec.eq_of_toInt_eq
  rw [h, toInt_ofNat_small n hn]

theorem slt_zero_of_nonneg (t : BitVec 32) (h : 0 ≤ t.toInt) : IntOp.cmpi .slt t 0#32 = 0#1 := by
  have hs : t.slt 0#32 = false := by
    rw [BitVec.slt]
    have h0 : (0#32).toInt = 0 := by decide
    rw [h0]
    exact decide_eq_false (by omega)
  show BitVec.ofBool (t.slt 0#32) = 0#1
  rw [hs]; rfl

theorem scat_resultIdx?_iff {w : Nat} (j : (⟨2, ![4096, 32]⟩ : Shape).Idx) (idx : IVec ⟨3, ![4096, 32, 2]⟩ w)
    (b : Fin 4096) (c : Fin 19000) :
    scatter_S4096x19000_S4096x32x2_S4096x32_n_01_01_2.resultIdx? j idx = some (ix2 b c) ↔
      (idx (ix3 (j 0) (j 1) 0)).toInt = (b.val : Int) ∧ (idx (ix3 (j 0) (j 1) 1)).toInt = (c.val : Int) := by
  have hb := b.isLt
  have hc := c.isLt
  have hs0 : (⟨2, ![4096, 19000]⟩ : Shape).size 0 = 4096 := rfl
  have hs1 : (⟨2, ![4096, 19000]⟩ : Shape).size 1 = 19000 := rfl
  unfold ScatterDims.resultIdx?
  constructor
  · intro h
    split at h
    · rename_i hin
      have e := Option.some.inj h
      have e0 : (scatter_S4096x19000_S4096x32x2_S4096x32_n_01_01_2.start j idx 0 + (scatter_S4096x19000_S4096x32x2_S4096x32_n_01_01_2.window j 0 : Int)).toNat = b.val := congrArg (fun f => (f 0).val) e
      have e1 : (scatter_S4096x19000_S4096x32x2_S4096x32_n_01_01_2.start j idx 1 + (scatter_S4096x19000_S4096x32x2_S4096x32_n_01_01_2.window j 1 : Int)).toNat = c.val := congrArg (fun f => (f 1).val) e
      have h0 := (hin 0).1
      have h1 := (hin 1).1
      rw [scat_start0, scat_window] at e0 h0
      rw [scat_start1, scat_window] at e1 h1
      constructor <;> omega
    · exact absurd h (by simp)
  · rintro ⟨h0, h1⟩
    have hin : ∀ a, 0 ≤ scatter_S4096x19000_S4096x32x2_S4096x32_n_01_01_2.start j idx a + (scatter_S4096x19000_S4096x32x2_S4096x32_n_01_01_2.window j a : Int) ∧
        scatter_S4096x19000_S4096x32x2_S4096x32_n_01_01_2.start j idx a + (scatter_S4096x19000_S4096x32x2_S4096x32_n_01_01_2.window j a : Int) < (⟨2, ![4096, 19000]⟩ : Shape).size a := by
      intro a
      match a with
      | ⟨0, _⟩ =>
        show 0 ≤ scatter_S4096x19000_S4096x32x2_S4096x32_n_01_01_2.start j idx 0 + (scatter_S4096x19000_S4096x32x2_S4096x32_n_01_01_2.window j 0 : Int) ∧ scatter_S4096x19000_S4096x32x2_S4096x32_n_01_01_2.start j idx 0 + (scatter_S4096x19000_S4096x32x2_S4096x32_n_01_01_2.window j 0 : Int) < (⟨2, ![4096, 19000]⟩ : Shape).size 0
        rw [scat_start0, scat_window, h0, hs0]; constructor <;> omega
      | ⟨1, _⟩ =>
        show 0 ≤ scatter_S4096x19000_S4096x32x2_S4096x32_n_01_01_2.start j idx 1 + (scatter_S4096x19000_S4096x32x2_S4096x32_n_01_01_2.window j 1 : Int) ∧ scatter_S4096x19000_S4096x32x2_S4096x32_n_01_01_2.start j idx 1 + (scatter_S4096x19000_S4096x32x2_S4096x32_n_01_01_2.window j 1 : Int) < (⟨2, ![4096, 19000]⟩ : Shape).size 1
        rw [scat_start1, scat_window, h1, hs1]; constructor <;> omega
    rw [dif_pos hin]
    congr 1
    funext a
    match a with
    | ⟨0, _⟩ =>
      apply Fin.ext
      show (scatter_S4096x19000_S4096x32x2_S4096x32_n_01_01_2.start j idx 0 + (scatter_S4096x19000_S4096x32x2_S4096x32_n_01_01_2.window j 0 : Int)).toNat = b.val
      rw [scat_start0, scat_window, h0]; omega
    | ⟨1, _⟩ =>
      apply Fin.ext
      show (scatter_S4096x19000_S4096x32x2_S4096x32_n_01_01_2.start j idx 1 + (scatter_S4096x19000_S4096x32x2_S4096x32_n_01_01_2.window j 1 : Int)).toNat = c.val
      rw [scat_start1, scat_window, h1]; omega

theorem scat_hit_iff (idx : IVec ⟨3, ![4096, 32, 2]⟩ 32) (t : (⟨2, ![4096, 32]⟩ : Shape).Idx → BitVec 32)
    (hR : ∀ (r : Fin 4096) (k : Fin 32), (idx (ix3 r k 0)).toInt = (r.val : Int))
    (hC : ∀ (r : Fin 4096) (k : Fin 32), idx (ix3 r k 1) = t (ix2 r k))
    (b : Fin 4096) (c : Fin 19000) :
    (∃ j : (⟨2, ![4096, 32]⟩ : Shape).Idx, scatter_S4096x19000_S4096x32x2_S4096x32_n_01_01_2.resultIdx? j idx = some (ix2 b c)) ↔
      ∃ k : Fin 32, t (ix2 b k) = BitVec.ofNat 32 c.val := by
  have hc := c.isLt
  constructor
  · rintro ⟨j, hj⟩
    obtain ⟨h0, h1⟩ := (scat_resultIdx?_iff j idx b c).1 hj
    have hrow : ((j 0).val : Int) = (b.val : Int) := (hR (j 0) (j 1)).symm.trans h0
    have hjb : j 0 = b := Fin.ext (by omega)
    have hcol : (t (ix2 (j 0) (j 1))).toInt = (c.val : Int) := by rw [← hC (j 0) (j 1)]; exact h1
    rw [hjb] at hcol
    exact ⟨j 1, eq_ofNat_of_toInt_eq _ _ (by omega) hcol⟩
  · rintro ⟨k, hk⟩
    refine ⟨ix2 b k, (scat_resultIdx?_iff (ix2 b k) idx b c).2 ⟨hR b k, ?_⟩⟩
    show (idx (ix3 b k 1)).toInt = (c.val : Int)
    rw [hC, hk, toInt_ofNat_small _ (by omega)]

theorem scatter_hot {α : Type} (x : (⟨2, ![4096, 19000]⟩ : Shape).Idx → α) (idx : IVec ⟨3, ![4096, 32, 2]⟩ 32)
    (upd : (⟨2, ![4096, 32]⟩ : Shape).Idx → α) (v : α) (hupd : ∀ i, upd i = v)
    (t : (⟨2, ![4096, 32]⟩ : Shape).Idx → BitVec 32)
    (hR : ∀ (r : Fin 4096) (k : Fin 32), (idx (ix3 r k 0)).toInt = (r.val : Int))
    (hC : ∀ (r : Fin 4096) (k : Fin 32), idx (ix3 r k 1) = t (ix2 r k))
    (b : Fin 4096) (c : Fin 19000) :
    ((∃ k : Fin 32, t (ix2 b k) = BitVec.ofNat 32 c.val) → Host.scatter scatter_S4096x19000_S4096x32x2_S4096x32_n_01_01_2 (fun _ b => b) x idx upd (ix2 b c) = v) ∧
    ((¬ ∃ k : Fin 32, t (ix2 b k) = BitVec.ofNat 32 c.val) → Host.scatter scatter_S4096x19000_S4096x32x2_S4096x32_n_01_01_2 (fun _ b => b) x idx upd (ix2 b c) = x (ix2 b c)) := by
  have key := scatter_set_const scatter_S4096x19000_S4096x32x2_S4096x32_n_01_01_2 x idx upd v hupd (ix2 b c)
  rw [scat_hit_iff idx t hR hC b c] at key
  exact key

theorem concat_last_0 {α : Type} (x₁ x₂ : (⟨3, ![4096, 32, 1]⟩ : Shape).Idx → α)
    (h : Shape.Concatenates [(⟨3, ![4096, 32, 1]⟩ : Shape), ⟨3, ![4096, 32, 1]⟩] ⟨3, ![4096, 32, 2]⟩ 2)
    (r : Fin 4096) (k : Fin 32) :
    concatenate ⟨3, ![4096, 32, 2]⟩ 2 [⟨⟨3, ![4096, 32, 1]⟩, x₁⟩, ⟨⟨3, ![4096, 32, 1]⟩, x₂⟩] h (ix3 r k 0) = x₁ (ix3 r k 0) := by
  refine concatenate_pair_apply_left (t := ⟨3, ![4096, 32, 2]⟩) (s₁ := ⟨3, ![4096, 32, 1]⟩) (s₂ := ⟨3, ![4096, 32, 1]⟩)
    (2 : Fin 3) x₁ x₂ h (ix3 r k 0) rfl (ix3 r k 0) ?_
  intro a
  match a with
  | ⟨0, _⟩ => rfl
  | ⟨1, _⟩ => rfl
  | ⟨2, _⟩ => rfl

theorem concat_last_1 {α : Type} (x₁ x₂ : (⟨3, ![4096, 32, 1]⟩ : Shape).Idx → α)
    (h : Shape.Concatenates [(⟨3, ![4096, 32, 1]⟩ : Shape), ⟨3, ![4096, 32, 1]⟩] ⟨3, ![4096, 32, 2]⟩ 2)
    (r : Fin 4096) (k : Fin 32) :
    concatenate ⟨3, ![4096, 32, 2]⟩ 2 [⟨⟨3, ![4096, 32, 1]⟩, x₁⟩, ⟨⟨3, ![4096, 32, 1]⟩, x₂⟩] h (ix3 r k 1) = x₂ (ix3 r k 0) := by
  refine concatenate_pair_apply_right (t := ⟨3, ![4096, 32, 2]⟩) (s₁ := ⟨3, ![4096, 32, 1]⟩) (s₂ := ⟨3, ![4096, 32, 1]⟩)
    (2 : Fin 3) x₁ x₂ h (ix3 r k 1) rfl rfl (ix3 r k 0) ?_ (by rfl)
  intro a ha
  match a, ha with
  | ⟨0, _⟩, _ => rfl
  | ⟨1, _⟩, _ => rfl
  | ⟨2, _⟩, ha => exact absurd rfl ha

theorem ofBits_one_f32 : FloatOps.ofBits (F := Ideal) .f32 0x3F800000#32 = (1 : EReal) := by
  show Ideal.ofBits .f32 0x3F800000#32 = 1
  simp [Ideal.ofBits, Ideal.ieee, -EReal.coe_mul]; norm_num

theorem v25_row (x0 : (⟨S4096x2, .i32⟩ : BufTy).Contents (Elt Ideal)) (x1 : (⟨S4000x32, .i32⟩ : BufTy).Contents (Elt Ideal))
    (r : Fin 4096) (k : Fin 32) :
    BitVec.toInt (val_main_v25 (F := Ideal) x0 x1 (ix3 r k 0)) = (r.val : Int) := by
  have hr := r.isLt
  have h10 : val_main_v10 (F := Ideal) (idx_main_v22 (idx_main_v23 (ix3 r k 0))) = BitVec.ofNat 32 r.val := by
    rw [val_main_v10_apply, val_main_v9_apply]
  have hnn : 0 ≤ (BitVec.ofNat 32 r.val).toInt := by rw [toInt_ofNat_small _ (by omega)]; omega
  unfold val_main_v25
  rw [concat_last_0, val_main_v23_apply, val_main_v22_apply, val_main_v16_apply, val_main_v13_apply,
    val_main_v12_apply, val_main_c_1_apply, h10, slt_zero_of_nonneg _ hnn, select_zero, toInt_ofNat_small _ (by omega)]

theorem v25_col (x0 : (⟨S4096x2, .i32⟩ : BufTy).Contents (Elt Ideal)) (x1 : (⟨S4000x32, .i32⟩ : BufTy).Contents (Elt Ideal))
    (hr : Cert.Spec.InRange (val_main_v8 (F := Ideal) x0 x1)) (r : Fin 4096) (k : Fin 32) :
    val_main_v25 (F := Ideal) x0 x1 (ix3 r k 1) = val_main_v8 (F := Ideal) x0 x1 (ix2 r k) := by
  have hi : idx_main_v24 (ix3 r k 0) = ix2 r k := by
    funext a
    match a with
    | ⟨0, _⟩ => rfl
    | ⟨1, _⟩ => rfl
  unfold val_main_v25
  rw [concat_last_1, val_main_v24_apply, hi, val_main_v21_apply, val_main_v18_apply, val_main_v17_apply,
    val_main_c_3_apply, slt_zero_of_nonneg _ (hr (ix2 r k)).1, select_zero]

theorem v11_zero (i : S4096x19000.Idx) : val_main_v11 (F := Ideal) i = (0 : EReal) := by
  rw [val_main_v11_apply, val_main_cst_apply]
  exact Ideal.ofBits_zero_f32

theorem v26_one (i : S4096x32.Idx) : val_main_v26 (F := Ideal) i = (1 : EReal) := by
  rw [val_main_v26_apply, val_main_cst_5_apply]
  exact ofBits_one_f32

theorem hot_v27 (x0 : (⟨S4096x2, .i32⟩ : BufTy).Contents (Elt Ideal)) (x1 : (⟨S4000x32, .i32⟩ : BufTy).Contents (Elt Ideal))
    (hr : Cert.Spec.InRange (val_main_v8 (F := Ideal) x0 x1)) (b : Fin 4096) (j : Fin 19000) :
    val_main_v27 (F := Ideal) x0 x1 (ix2 b j) = Cert.Spec.hot (val_main_v8 (F := Ideal) x0 x1) b j.val := by
  have key := scatter_hot (val_main_v11 (F := Ideal)) (val_main_v25 (F := Ideal) x0 x1) (val_main_v26 (F := Ideal))
    (1 : EReal) v26_one (val_main_v8 (F := Ideal) x0 x1) (v25_row x0 x1) (v25_col x0 x1 hr) b j
  unfold Cert.Spec.hot val_main_v27
  by_cases h : ∃ k : Fin 32, val_main_v8 (F := Ideal) x0 x1 (ix2 b k) = BitVec.ofNat 32 j.val
  · rw [if_pos h]; exact key.1 h
  · rw [if_neg h, key.2 h]; exact v11_zero _

theorem gather_inRange (x0 : (⟨S4096x2, .i32⟩ : BufTy).Contents (Elt Ideal)) (x1 : (⟨S4000x32, .i32⟩ : BufTy).Contents (Elt Ideal))
    (h : ∀ i, 0 ≤ (x1 i).toInt ∧ (x1 i).toInt < 19000) : Cert.Spec.InRange (val_main_v8 (F := Ideal) x0 x1) :=
  fun _ => h _

theorem v53_row (x0 : (⟨S4096x2, .i32⟩ : BufTy).Contents (Elt Ideal)) (x1 : (⟨S4000x32, .i32⟩ : BufTy).Contents (Elt Ideal))
    (r : Fin 4096) (k : Fin 32) :
    BitVec.toInt (val_main_v53 (F := Ideal) x0 x1 (ix3 r k 0)) = (r.val : Int) := by
  have hr := r.isLt
  have h10 : val_main_v38 (F := Ideal) (idx_main_v50 (idx_main_v51 (ix3 r k 0))) = BitVec.ofNat 32 r.val := by
    rw [val_main_v38_apply, val_main_v37_apply]
  have hnn : 0 ≤ (BitVec.ofNat 32 r.val).toInt := by rw [toInt_ofNat_small _ (by omega)]; omega
  unfold val_main_v53
  rw [concat_last_0, val_main_v51_apply, val_main_v50_apply, val_main_v44_apply, val_main_v41_apply,
    val_main_v40_apply, val_main_c_9_apply, h10, slt_zero_of_nonneg _ hnn, select_zero, toInt_ofNat_small _ (by omega)]

theorem v53_col (x0 : (⟨S4096x2, .i32⟩ : BufTy).Contents (Elt Ideal)) (x1 : (⟨S4000x32, .i32⟩ : BufTy).Contents (Elt Ideal))
    (hr : Cert.Spec.InRange (val_main_v36 (F := Ideal) x0 x1)) (r : Fin 4096) (k : Fin 32) :
    val_main_v53 (F := Ideal) x0 x1 (ix3 r k 1) = val_main_v36 (F := Ideal) x0 x1 (ix2 r k) := by
  have hi : idx_main_v52 (ix3 r k 0) = ix2 r k := by
    funext a
    match a with
    | ⟨0, _⟩ => rfl
    | ⟨1, _⟩ => rfl
  unfold val_main_v53
  rw [concat_last_1, val_main_v52_apply, hi, val_main_v49_apply, val_main_v46_apply, val_main_v45_apply,
    val_main_c_11_apply, slt_zero_of_nonneg _ (hr (ix2 r k)).1, select_zero]

theorem v39_zero (i : S4096x19000.Idx) : val_main_v39 (F := Ideal) i = (0 : EReal) := by
  rw [val_main_v39_apply, val_main_cst_8_apply]
  exact Ideal.ofBits_zero_f32

theorem v54_one (i : S4096x32.Idx) : val_main_v54 (F := Ideal) i = (1 : EReal) := by
  rw [val_main_v54_apply, val_main_cst_13_apply]
  exact ofBits_one_f32

theorem hot_v55 (x0 : (⟨S4096x2, .i32⟩ : BufTy).Contents (Elt Ideal)) (x1 : (⟨S4000x32, .i32⟩ : BufTy).Contents (Elt Ideal))
    (hr : Cert.Spec.InRange (val_main_v36 (F := Ideal) x0 x1)) (b : Fin 4096) (j : Fin 19000) :
    val_main_v55 (F := Ideal) x0 x1 (ix2 b j) = Cert.Spec.hot (val_main_v36 (F := Ideal) x0 x1) b j.val := by
  have key := scatter_hot (val_main_v39 (F := Ideal)) (val_main_v53 (F := Ideal) x0 x1) (val_main_v54 (F := Ideal))
    (1 : EReal) v54_one (val_main_v36 (F := Ideal) x0 x1) (v53_row x0 x1) (v53_col x0 x1 hr) b j
  unfold Cert.Spec.hot val_main_v55
  by_cases h : ∃ k : Fin 32, val_main_v36 (F := Ideal) x0 x1 (ix2 b k) = BitVec.ofNat 32 j.val
  · rw [if_pos h]; exact key.1 h
  · rw [if_neg h, key.2 h]; exact v39_zero _

theorem gather_inRange' (x0 : (⟨S4096x2, .i32⟩ : BufTy).Contents (Elt Ideal)) (x1 : (⟨S4000x32, .i32⟩ : BufTy).Contents (Elt Ideal))
    (h : ∀ i, 0 ≤ (x1 i).toInt ∧ (x1 i).toInt < 19000) : Cert.Spec.InRange (val_main_v36 (F := Ideal) x0 x1) :=
  fun _ => h _

end Cert.ReferenceIdeal.RefValue

end
-- ==== Proof.Ref.Dense.lean ====
import Mathlib.Algebra.BigOperators.Fin
import Mathlib.Algebra.BigOperators.Group.Finset.Basic
import Mathlib.Data.EReal.Basic
import Idealize.ShloMosaic.Lib.Pipeline.Value
import Idealize.ShloMosaic.Lib.ValueIdx
import Idealize.ShloMosaic.PureOps.Ideal.Laws
import proofs.«417828_j54142357733865_1_alg».proof.Proof.RefRead
import proofs.«417828_j54142357733865_1_alg».proof.Proof.Spec

noncomputable section

open scoped BigOperators

namespace Cert.ReferenceIdeal.RefValue

open Cert.ReferenceIdeal Cert.ReferenceIdeal.Read Idealize.ShloMosaic Idealize.ShloMosaic.ValueIdx

theorem sum_range_tiles {M : Type*} [AddCommMonoid M] (G : ℕ → M) (m n : ℕ) :
    ∑ x ∈ Finset.range (n * m), G x = ∑ p ∈ Finset.range n, ∑ j : Fin m, G (m * p + j.val) := by
  induction n with
  | zero => simp
  | succ n ih =>
    rw [add_mul, one_mul, Finset.sum_range_add, ih, Finset.sum_range_succ, Nat.mul_comm n m,
      Finset.sum_range (fun j => G (m * n + j))]

theorem sum_range_four {M : Type*} [AddCommMonoid M] (F : ℕ → M) (a : ℕ) :
    ∑ k ∈ Finset.range (a + 1 + a + 1), F k
      = ((∑ x ∈ Finset.range a, F x + F a) + ∑ x ∈ Finset.range a, F (a + 1 + x)) + F (a + 1 + a) := by
  rw [Finset.sum_range_succ, Finset.sum_range_add, Finset.sum_range_succ]

theorem dense_row_split (f g wA wB : ℕ → EReal) (c d : EReal) (X W : Fin 38002 → EReal)
    (hX1 : ∀ k : Fin 38002, k.val < 19000 → X k = f k.val)
    (hX2 : ∀ k : Fin 38002, k.val = 19000 → X k = c)
    (hX3 : ∀ (k : Fin 38002) (j : ℕ), k.val = 19001 + j → j < 19000 → X k = g j)
    (hX4 : ∀ k : Fin 38002, k.val = 38001 → X k = d)
    (hA : ∀ k : Fin 38002, k.val < 19000 → W k = wA k.val)
    (hB : ∀ (k : Fin 38002) (j : ℕ), k.val = 19001 + j → j < 19000 → W k = wB j) :
    ∑ k : Fin 38002, X k * W k
      = ((∑ p ∈ Finset.range 25, ((∑ jj : Fin 760, f (760 * p + jj.val) * wA (760 * p + jj.val))
            + (∑ jj : Fin 760, g (760 * p + jj.val) * wB (760 * p + jj.val))))
          + c * W ⟨19000, by omega⟩) + d * W ⟨38001, by omega⟩ := by

  obtain ⟨F, hF⟩ : ∃ F : ℕ → EReal, ∀ k : Fin 38002, F k.val = X k * W k :=
    ⟨fun k => if h : k < 38002 then X ⟨k, h⟩ * W ⟨k, h⟩ else 0, fun k => dif_pos k.isLt⟩
  have h0 : ∑ k : Fin 38002, X k * W k = ∑ k ∈ Finset.range (19000 + 1 + 19000 + 1), F k := by
    rw [Finset.sum_range]
    exact Finset.sum_congr rfl fun k _ => (hF k).symm

  have h1 : ∑ x ∈ Finset.range 19000, F x = ∑ x ∈ Finset.range 19000, f x * wA x :=
    Finset.sum_congr rfl fun x hx => by
      have hx' : x < 19000 := Finset.mem_range.1 hx
      have e := hF ⟨x, by omega⟩
      rw [hX1 ⟨x, by omega⟩ hx', hA ⟨x, by omega⟩ hx'] at e
      exact e
  have h2 : F 19000 = c * W ⟨19000, by omega⟩ := by
    have e := hF ⟨19000, by omega⟩
    rw [hX2 ⟨19000, by omega⟩ rfl] at e
    exact e
  have h3 : ∑ x ∈ Finset.range 19000, F (19000 + 1 + x) = ∑ x ∈ Finset.range 19000, g x * wB x :=
    Finset.sum_congr rfl fun x hx => by
      have hx' : x < 19000 := Finset.mem_range.1 hx
      have e := hF ⟨19000 + 1 + x, by omega⟩
      rw [hX3 ⟨19000 + 1 + x, by omega⟩ x (by show 19000 + 1 + x = 19001 + x; omega) hx',
        hB ⟨19000 + 1 + x, by omega⟩ x (by show 19000 + 1 + x = 19001 + x; omega) hx'] at e
      exact e
  have h4 : F (19000 + 1 + 19000) = d * W ⟨38001, by omega⟩ := by
    have e := hF ⟨38001, by omega⟩
    rw [hX4 ⟨38001, by omega⟩ rfl] at e
    exact e

  have tA : ∑ x ∈ Finset.range 19000, f x * wA x
      = ∑ p ∈ Finset.range 25, ∑ jj : Fin 760, f (760 * p + jj.val) * wA (760 * p + jj.val) :=
    sum_range_tiles (fun x => f x * wA x) 760 25
  have tB : ∑ x ∈ Finset.range 19000, g x * wB x
      = ∑ p ∈ Finset.range 25, ∑ jj : Fin 760, g (760 * p + jj.val) * wB (760 * p + jj.val) :=
    sum_range_tiles (fun x => g x * wB x) 760 25
  rw [h0, sum_range_four F 19000, h1, h2, h3, h4, tA, tB, Finset.sum_add_distrib]
  exact congrArg (· + d * W ⟨38001, by omega⟩) (add_right_comm _ _ _)

section Rows
variable (P1 P2 : S4096x19000.Idx → EReal) (C1 C2 : S4096x1.Idx → EReal)
  (h1 : Shape.Concatenates [S4096x19000, S4096x1] S4096x19001 1)
  (h2 : Shape.Concatenates [S4096x19001, S4096x19001] S4096x38002 1)

theorem data_read_left (P : S4096x19000.Idx → EReal) (C : S4096x1.Idx → EReal) (b : Fin 4096) (k : Fin 19001)
    (hk : k.val < 19000) :
    concatenate S4096x19001 1 [⟨S4096x19000, P⟩, ⟨S4096x1, C⟩] h1 (ix2 b k) = P (ix2 b ⟨k.val, hk⟩) :=
  concatenate_pair_apply_left 1 P C h1 (ix2 b k) rfl (ix2 b ⟨k.val, hk⟩) (fun a => by
    match a with
    | ⟨0, _⟩ => rfl
    | ⟨1, _⟩ => rfl)

theorem data_read_right (P : S4096x19000.Idx → EReal) (C : S4096x1.Idx → EReal) (b : Fin 4096) (k : Fin 19001)
    (hk : k.val = 19000) :
    concatenate S4096x19001 1 [⟨S4096x19000, P⟩, ⟨S4096x1, C⟩] h1 (ix2 b k) = C (ix2 b 0) :=
  concatenate_pair_apply_right 1 P C h1 (ix2 b k) rfl rfl (ix2 b 0)
    (fun a ha => by
      match a with
      | ⟨0, _⟩ => rfl
      | ⟨1, _⟩ => exact absurd rfl ha)
    (by show 0 + 19000 = k.val; omega)

theorem order_read_fst (D1 D2 : S4096x19001.Idx → EReal) (b : Fin 4096) (k : Fin 38002) (hk : k.val < 19001) :
    concatenate S4096x38002 1 [⟨S4096x19001, D1⟩, ⟨S4096x19001, D2⟩] h2 (ix2 b k) = D1 (ix2 b ⟨k.val, hk⟩) :=
  concatenate_pair_apply_left 1 D1 D2 h2 (ix2 b k) rfl (ix2 b ⟨k.val, hk⟩) (fun a => by
    match a with
    | ⟨0, _⟩ => rfl
    | ⟨1, _⟩ => rfl)

theorem order_read_snd (D1 D2 : S4096x19001.Idx → EReal) (b : Fin 4096) (k : Fin 38002) (j : Fin 19001)
    (hk : k.val = 19001 + j.val) :
    concatenate S4096x38002 1 [⟨S4096x19001, D1⟩, ⟨S4096x19001, D2⟩] h2 (ix2 b k) = D2 (ix2 b j) :=
  concatenate_pair_apply_right 1 D1 D2 h2 (ix2 b k) rfl rfl (ix2 b j)
    (fun a ha => by
      match a with
      | ⟨0, _⟩ => rfl
      | ⟨1, _⟩ => exact absurd rfl ha)
    (by show j.val + 19001 = k.val; omega)

end Rows

theorem first_layer (t1 t2 : (⟨2, ![4096, 32]⟩ : Shape).Idx → BitVec 32)
    (P1 P2 : S4096x19000.Idx → EReal) (C1 C2 : S4096x1.Idx → EReal)
    (h1 : Shape.Concatenates [S4096x19000, S4096x1] S4096x19001 1)
    (h2 : Shape.Concatenates [S4096x19001, S4096x19001] S4096x38002 1)
    (W1 : S38002x2048.Idx → EReal)
    (hP1 : ∀ (b : Fin 4096) (j : Fin 19000), P1 (ix2 b j) = Cert.Spec.hot t1 b j.val)
    (hP2 : ∀ (b : Fin 4096) (j : Fin 19000), P2 (ix2 b j) = Cert.Spec.hot t2 b j.val)
    (b : Fin 4096) (h : Fin 2048) :
    ∑ k : Fin 38002,
        concatenate S4096x38002 1
          [⟨S4096x19001, concatenate S4096x19001 1 [⟨S4096x19000, P1⟩, ⟨S4096x1, C1⟩] h1⟩,
           ⟨S4096x19001, concatenate S4096x19001 1 [⟨S4096x19000, P2⟩, ⟨S4096x1, C2⟩] h1⟩] h2 (ix2 b k)
          * W1 (ix2 k h)
      = (Cert.Spec.Acc t1 t2 (Cert.Spec.sliceA W1) (Cert.Spec.sliceB W1) (ix2 b h)
            + C1 (ix2 b 0) * W1 (ix2 ⟨19000, by omega⟩ h))
          + C2 (ix2 b 0) * W1 (ix2 ⟨38001, by omega⟩ h) := by
  refine (dense_row_split (fun k => Cert.Spec.hot t1 b k) (fun k => Cert.Spec.hot t2 b k)
    (fun k => Cert.Spec.rowOf (Cert.Spec.sliceA W1) k h) (fun k => Cert.Spec.rowOf (Cert.Spec.sliceB W1) k h)
    (C1 (ix2 b 0)) (C2 (ix2 b 0)) _ (fun k => W1 (ix2 k h)) ?_ ?_ ?_ ?_ ?_ ?_).trans rfl
  ·
    intro k hk
    exact ((order_read_fst h2 _ _ b k (by omega)).trans (data_read_left h1 P1 C1 b ⟨k.val, by omega⟩ hk)).trans
      (hP1 b ⟨k.val, hk⟩)
  ·
    intro k hk
    exact (order_read_fst h2 _ _ b k (by omega)).trans (data_read_right h1 P1 C1 b ⟨k.val, by omega⟩ hk)
  ·
    intro k j hk hj
    exact ((order_read_snd h2 _ _ b k ⟨j, by omega⟩ hk).trans (data_read_left h1 P2 C2 b ⟨j, by omega⟩ hj)).trans
      (hP2 b ⟨j, hj⟩)
  ·
    intro k hk
    exact (order_read_snd h2 _ _ b k ⟨19000, by omega⟩ (by show k.val = 19001 + 19000; omega)).trans
      (data_read_right h1 P2 C2 b ⟨19000, by omega⟩ rfl)
  ·
    intro k hk
    show W1 (ix2 k h) = Cert.Spec.rowOf (Cert.Spec.sliceA W1) k.val h
    unfold Cert.Spec.rowOf
    rw [dif_pos hk]
    rfl
  ·
    intro k j hk hj
    show W1 (ix2 k h) = Cert.Spec.rowOf (Cert.Spec.sliceB W1) j h
    unfold Cert.Spec.rowOf
    rw [dif_pos hj]
    obtain ⟨kv, hkv⟩ := k
    change kv = 19001 + j at hk
    subst hk
    rfl

section Reference
variable (x0 : (⟨S4096x2, .i32⟩ : BufTy).Contents (Elt Ideal)) (x1 : (⟨S4000x32, .i32⟩ : BufTy).Contents (Elt Ideal))
    (x2 : (⟨S4096x2, .f32⟩ : BufTy).Contents (Elt Ideal)) (x3 : (⟨S38002x2048, .f32⟩ : BufTy).Contents (Elt Ideal))
    (x4 : (⟨S2048, .f32⟩ : BufTy).Contents (Elt Ideal)) (x5 : (⟨S2048x1024, .f32⟩ : BufTy).Contents (Elt Ideal))
    (x6 : (⟨S1024, .f32⟩ : BufTy).Contents (Elt Ideal)) (x7 : (⟨S1024x1, .f32⟩ : BufTy).Contents (Elt Ideal))
    (x8 : (⟨S1, .f32⟩ : BufTy).Contents (Elt Ideal))

theorem v62_at     (hh1 : ∀ (b : Fin 4096) (j : Fin 19000), val_main_v27 (F := Ideal) x0 x1 (ix2 b j) = Cert.Spec.hot (val_main_v8 (F := Ideal) x0 x1) b j.val) (hh2 : ∀ (b : Fin 4096) (j : Fin 19000), val_main_v55 (F := Ideal) x0 x1 (ix2 b j) = Cert.Spec.hot (val_main_v36 (F := Ideal) x0 x1) b j.val) (b : Fin 4096) (h : Fin 2048) :
    val_main_v62 (F := Ideal) x0 x1 x2 x3 (ix2 b h)
      = (Cert.Spec.Acc (val_main_v8 (F := Ideal) x0 x1) (val_main_v36 (F := Ideal) x0 x1) (Cert.Spec.sliceA x3) (Cert.Spec.sliceB x3) (ix2 b h)
            + x2 (ix2 b 0) * x3 (ix2 ⟨19000, by omega⟩ h))
          + x2 (ix2 b 1) * x3 (ix2 ⟨38001, by omega⟩ h) := by
  rw [val_main_v62_apply]
  refine (Finset.sum_congr rfl fun k _ => ?_).trans
    ((first_layer (val_main_v8 (F := Ideal) x0 x1) (val_main_v36 (F := Ideal) x0 x1) (val_main_v27 (F := Ideal) x0 x1) (val_main_v55 (F := Ideal) x0 x1)
        (val_main_v56 (F := Ideal) x2) (val_main_v58 (F := Ideal) x2)
        Gen.concatenates_S4096x19000_S4096x1_S4096x19001_d1 Gen.concatenates_S4096x19001_S4096x19001_S4096x38002_d1
        x3 hh1 hh2 b h).trans ?_)
  · rw [show lidx_main_v62 (ix2 b h) k = ix2 b k from
        funext fun a => by match a with | ⟨0, _⟩ => rfl | ⟨1, _⟩ => rfl,
      show ridx_main_v62 (ix2 b h) k = ix2 k h from
        funext fun a => by match a with | ⟨0, _⟩ => rfl | ⟨1, _⟩ => rfl]
    unfold val_main_v60 val_main_v57 val_main_v59
    rfl
  · rw [val_main_v56_apply, val_main_v58_apply,
      show idx_main_v56 (ix2 b (0 : Fin 1)) = ix2 b 0 from
        funext fun a => Fin.ext (by match a with | ⟨0, _⟩ => rfl | ⟨1, _⟩ => rfl),
      show idx_main_v58 (ix2 b (0 : Fin 1)) = ix2 b 1 from
        funext fun a => Fin.ext (by match a with | ⟨0, _⟩ => rfl | ⟨1, _⟩ => rfl)]

theorem v66_at (b : Fin 4096) (h : Fin 2048) :
    val_main_v66 (F := Ideal) x0 x1 x2 x3 x4 (ix2 b h) = max (val_main_v62 (F := Ideal) x0 x1 x2 x3 (ix2 b h) + x4 (ix1 h)) 0 := by
  rw [val_main_v66_apply, val_main_v65_apply, val_main_v64_apply, val_main_v63_apply,
    val_main_call0_v0_apply, val_main_call0_cst_apply]
  show max (val_main_v62 (F := Ideal) x0 x1 x2 x3 (ix2 b h) + x4 (idx_main_v63 (idx_main_v64 (ix2 b h))))
    (Ideal.ofBits .f32 0x00000000#32) = _
  rw [Ideal.ofBits_zero_f32,
    show idx_main_v63 (idx_main_v64 (ix2 b h)) = ix1 h from
      funext fun a => by match a with | ⟨0, _⟩ => rfl]

theorem v71_at (b : Fin 4096) (n : Fin 1024) :
    val_main_v71 (F := Ideal) x0 x1 x2 x3 x4 x5 x6 (ix2 b n)
      = max ((∑ h : Fin 2048, val_main_v66 (F := Ideal) x0 x1 x2 x3 x4 (ix2 b h) * x5 (ix2 h n)) + x6 (ix1 n)) 0 := by
  rw [val_main_v71_apply, val_main_v70_apply, val_main_v67_apply, val_main_v69_apply,
    val_main_v68_apply, val_main_call1_v0_apply, val_main_call1_cst_apply]
  show max ((∑ k : Fin 2048, val_main_v66 (F := Ideal) x0 x1 x2 x3 x4 (lidx_main_v67 (ix2 b n) k) * x5 (ridx_main_v67 (ix2 b n) k))
      + x6 (idx_main_v68 (idx_main_v69 (ix2 b n)))) (Ideal.ofBits .f32 0x00000000#32) = _
  rw [Ideal.ofBits_zero_f32,
    show idx_main_v68 (idx_main_v69 (ix2 b n)) = ix1 n from
      funext fun a => by match a with | ⟨0, _⟩ => rfl]
  refine congrArg (fun z => max (z + x6 (ix1 n)) 0) (Finset.sum_congr rfl fun k _ => ?_)
  rw [show lidx_main_v67 (ix2 b n) k = ix2 b k from
        funext fun a => by match a with | ⟨0, _⟩ => rfl | ⟨1, _⟩ => rfl,
      show ridx_main_v67 (ix2 b n) k = ix2 k n from
        funext fun a => by match a with | ⟨0, _⟩ => rfl | ⟨1, _⟩ => rfl]

theorem v76_at (b : Fin 4096) :
    val_main_v76 (F := Ideal) x0 x1 x2 x3 x4 x5 x6 x7 x8 (ix1 b)
      = (∑ n : Fin 1024, val_main_v71 (F := Ideal) x0 x1 x2 x3 x4 x5 x6 (ix2 b n) * x7 (ix2 n 0)) + x8 (ix1 0) := by
  rw [val_main_v76_apply, val_main_v75_apply, val_main_v72_apply, val_main_v74_apply,
    val_main_v73_apply]
  show (∑ k : Fin 1024, val_main_v71 (F := Ideal) x0 x1 x2 x3 x4 x5 x6 (lidx_main_v72 (idx_main_v76 (ix1 b)) k)
        * x7 (ridx_main_v72 (idx_main_v76 (ix1 b)) k))
      + x8 (idx_main_v73 (idx_main_v74 (idx_main_v76 (ix1 b)))) = _
  rw [show idx_main_v73 (idx_main_v74 (idx_main_v76 (ix1 b))) = ix1 0 from
      funext fun a => by match a with | ⟨0, _⟩ => rfl]
  refine congrArg (fun z => z + x8 (ix1 0)) (Finset.sum_congr rfl fun k _ => ?_)
  rw [show lidx_main_v72 (idx_main_v76 (ix1 b)) k = ix2 b k from
        funext fun a => Fin.ext (by match a with | ⟨0, _⟩ => exact Nat.div_one _ | ⟨1, _⟩ => rfl),
      show ridx_main_v72 (idx_main_v76 (ix1 b)) k = ix2 k 0 from
        funext fun a => Fin.ext (by match a with | ⟨0, _⟩ => rfl | ⟨1, _⟩ => rfl)]

theorem v77_at     (hh1 : ∀ (b : Fin 4096) (j : Fin 19000), val_main_v27 (F := Ideal) x0 x1 (ix2 b j) = Cert.Spec.hot (val_main_v8 (F := Ideal) x0 x1) b j.val) (hh2 : ∀ (b : Fin 4096) (j : Fin 19000), val_main_v55 (F := Ideal) x0 x1 (ix2 b j) = Cert.Spec.hot (val_main_v36 (F := Ideal) x0 x1) b j.val) (b : Fin 4096) (h : Fin 2048) :
    val_main_v77 (F := Ideal) x0 x1 x2 x3 (ix2 b h)
      = (Cert.Spec.Acc (val_main_v36 (F := Ideal) x0 x1) (val_main_v8 (F := Ideal) x0 x1) (Cert.Spec.sliceA x3) (Cert.Spec.sliceB x3) (ix2 b h)
            + x2 (ix2 b 1) * x3 (ix2 ⟨19000, by omega⟩ h))
          + x2 (ix2 b 0) * x3 (ix2 ⟨38001, by omega⟩ h) := by
  rw [val_main_v77_apply]
  refine (Finset.sum_congr rfl fun k _ => ?_).trans
    ((first_layer (val_main_v36 (F := Ideal) x0 x1) (val_main_v8 (F := Ideal) x0 x1) (val_main_v55 (F := Ideal) x0 x1) (val_main_v27 (F := Ideal) x0 x1)
        (val_main_v58 (F := Ideal) x2) (val_main_v56 (F := Ideal) x2)
        Gen.concatenates_S4096x19000_S4096x1_S4096x19001_d1 Gen.concatenates_S4096x19001_S4096x19001_S4096x38002_d1
        x3 hh2 hh1 b h).trans ?_)
  · rw [show lidx_main_v77 (ix2 b h) k = ix2 b k from
        funext fun a => by match a with | ⟨0, _⟩ => rfl | ⟨1, _⟩ => rfl,
      show ridx_main_v77 (ix2 b h) k = ix2 k h from
        funext fun a => by match a with | ⟨0, _⟩ => rfl | ⟨1, _⟩ => rfl]
    unfold val_main_v61 val_main_v57 val_main_v59
    rfl
  · rw [val_main_v58_apply, val_main_v56_apply,
      show idx_main_v58 (ix2 b (0 : Fin 1)) = ix2 b 1 from
        funext fun a => Fin.ext (by match a with | ⟨0, _⟩ => rfl | ⟨1, _⟩ => rfl),
      show idx_main_v56 (ix2 b (0 : Fin 1)) = ix2 b 0 from
        funext fun a => Fin.ext (by match a with | ⟨0, _⟩ => rfl | ⟨1, _⟩ => rfl)]

theorem v81_at (b : Fin 4096) (h : Fin 2048) :
    val_main_v81 (F := Ideal) x0 x1 x2 x3 x4 (ix2 b h) = max (val_main_v77 (F := Ideal) x0 x1 x2 x3 (ix2 b h) + x4 (ix1 h)) 0 := by
  rw [val_main_v81_apply, val_main_v80_apply, val_main_v79_apply, val_main_v78_apply,
    val_main_call2_v0_apply, val_main_call2_cst_apply]
  show max (val_main_v77 (F := Ideal) x0 x1 x2 x3 (ix2 b h) + x4 (idx_main_v78 (idx_main_v79 (ix2 b h))))
    (Ideal.ofBits .f32 0x00000000#32) = _
  rw [Ideal.ofBits_zero_f32,
    show idx_main_v78 (idx_main_v79 (ix2 b h)) = ix1 h from
      funext fun a => by match a with | ⟨0, _⟩ => rfl]

theorem v86_at (b : Fin 4096) (n : Fin 1024) :
    val_main_v86 (F := Ideal) x0 x1 x2 x3 x4 x5 x6 (ix2 b n)
      = max ((∑ h : Fin 2048, val_main_v81 (F := Ideal) x0 x1 x2 x3 x4 (ix2 b h) * x5 (ix2 h n)) + x6 (ix1 n)) 0 := by
  rw [val_main_v86_apply, val_main_v85_apply, val_main_v82_apply, val_main_v84_apply,
    val_main_v83_apply, val_main_call3_v0_apply, val_main_call3_cst_apply]
  show max ((∑ k : Fin 2048, val_main_v81 (F := Ideal) x0 x1 x2 x3 x4 (lidx_main_v82 (ix2 b n) k) * x5 (ridx_main_v82 (ix2 b n) k))
      + x6 (idx_main_v83 (idx_main_v84 (ix2 b n)))) (Ideal.ofBits .f32 0x00000000#32) = _
  rw [Ideal.ofBits_zero_f32,
    show idx_main_v83 (idx_main_v84 (ix2 b n)) = ix1 n from
      funext fun a => by match a with | ⟨0, _⟩ => rfl]
  refine congrArg (fun z => max (z + x6 (ix1 n)) 0) (Finset.sum_congr rfl fun k _ => ?_)
  rw [show lidx_main_v82 (ix2 b n) k = ix2 b k from
        funext fun a => by match a with | ⟨0, _⟩ => rfl | ⟨1, _⟩ => rfl,
      show ridx_main_v82 (ix2 b n) k = ix2 k n from
        funext fun a => by match a with | ⟨0, _⟩ => rfl | ⟨1, _⟩ => rfl]

theorem v91_at (b : Fin 4096) :
    val_main_v91 (F := Ideal) x0 x1 x2 x3 x4 x5 x6 x7 x8 (ix1 b)
      = (∑ n : Fin 1024, val_main_v86 (F := Ideal) x0 x1 x2 x3 x4 x5 x6 (ix2 b n) * x7 (ix2 n 0)) + x8 (ix1 0) := by
  rw [val_main_v91_apply, val_main_v90_apply, val_main_v87_apply, val_main_v89_apply,
    val_main_v88_apply]
  show (∑ k : Fin 1024, val_main_v86 (F := Ideal) x0 x1 x2 x3 x4 x5 x6 (lidx_main_v87 (idx_main_v91 (ix1 b)) k)
        * x7 (ridx_main_v87 (idx_main_v91 (ix1 b)) k))
      + x8 (idx_main_v88 (idx_main_v89 (idx_main_v91 (ix1 b)))) = _
  rw [show idx_main_v88 (idx_main_v89 (idx_main_v91 (ix1 b))) = ix1 0 from
      funext fun a => by match a with | ⟨0, _⟩ => rfl]
  refine congrArg (fun z => z + x8 (ix1 0)) (Finset.sum_congr rfl fun k _ => ?_)
  rw [show lidx_main_v87 (idx_main_v91 (ix1 b)) k = ix2 b k from
        funext fun a => Fin.ext (by match a with | ⟨0, _⟩ => exact Nat.div_one _ | ⟨1, _⟩ => rfl),
      show ridx_main_v87 (idx_main_v91 (ix1 b)) k = ix2 k 0 from
        funext fun a => Fin.ext (by match a with | ⟨0, _⟩ => rfl | ⟨1, _⟩ => rfl)]

end Reference

theorem Out_at (ta tb : (⟨2, ![4096, 32]⟩ : Shape).Idx → BitVec 32) (conc : (⟨2, ![4096, 2]⟩ : Shape).Idx → EReal) (u v : Fin 2)
    (W1 : (⟨2, ![38002, 2048]⟩ : Shape).Idx → EReal) (b1 : (⟨1, ![2048]⟩ : Shape).Idx → EReal)
    (W2 : (⟨2, ![2048, 1024]⟩ : Shape).Idx → EReal) (b2 : (⟨1, ![1024]⟩ : Shape).Idx → EReal)
    (W3 : (⟨2, ![1024, 1]⟩ : Shape).Idx → EReal) (b3 : (⟨1, ![1]⟩ : Shape).Idx → EReal) (b : Fin 4096) :
    Cert.Spec.Out ta tb conc u v W1 b1 W2 b2 W3 b3 (ix1 b)
      = (∑ n : Fin 1024,
          max ((∑ h : Fin 2048,
              max (((Cert.Spec.Acc ta tb (Cert.Spec.sliceA W1) (Cert.Spec.sliceB W1) (ix2 b h)
                      + conc (ix2 b u) * W1 (ix2 ⟨19000, by omega⟩ h))
                    + conc (ix2 b v) * W1 (ix2 ⟨38001, by omega⟩ h)) + b1 (ix1 h)) 0
                * W2 (ix2 h n)) + b2 (ix1 n)) 0
            * W3 (ix2 n 0)) + b3 (ix1 0) := rfl

theorem ref_out0 (x0 : (⟨S4096x2, .i32⟩ : BufTy).Contents (Elt Ideal)) (x1 : (⟨S4000x32, .i32⟩ : BufTy).Contents (Elt Ideal))
    (x2 : (⟨S4096x2, .f32⟩ : BufTy).Contents (Elt Ideal)) (x3 : (⟨S38002x2048, .f32⟩ : BufTy).Contents (Elt Ideal))
    (x4 : (⟨S2048, .f32⟩ : BufTy).Contents (Elt Ideal)) (x5 : (⟨S2048x1024, .f32⟩ : BufTy).Contents (Elt Ideal))
    (x6 : (⟨S1024, .f32⟩ : BufTy).Contents (Elt Ideal)) (x7 : (⟨S1024x1, .f32⟩ : BufTy).Contents (Elt Ideal))
    (x8 : (⟨S1, .f32⟩ : BufTy).Contents (Elt Ideal))
    (hh1 : ∀ (b : Fin 4096) (j : Fin 19000), val_main_v27 (F := Ideal) x0 x1 (ix2 b j) = Cert.Spec.hot (val_main_v8 (F := Ideal) x0 x1) b j.val)
    (hh2 : ∀ (b : Fin 4096) (j : Fin 19000), val_main_v55 (F := Ideal) x0 x1 (ix2 b j) = Cert.Spec.hot (val_main_v36 (F := Ideal) x0 x1) b j.val) :
    val_main_v76 (F := Ideal) x0 x1 x2 x3 x4 x5 x6 x7 x8
      = Cert.Spec.Out (val_main_v8 (F := Ideal) x0 x1) (val_main_v36 (F := Ideal) x0 x1) x2 0 1 x3 x4 x5 x6 x7 x8 := by
  funext i
  obtain ⟨b, rfl⟩ : ∃ b : Fin 4096, i = ix1 b := ⟨i 0, eq_ix1 i⟩
  rw [v76_at, Out_at]
  refine congrArg (fun z => z + x8 (ix1 0)) (Finset.sum_congr rfl fun n _ => ?_)
  rw [v71_at]
  refine congrArg (fun z => max (z + x6 (ix1 n)) 0 * x7 (ix2 n 0)) (Finset.sum_congr rfl fun h _ => ?_)
  rw [v66_at, v62_at x0 x1 x2 x3 hh1 hh2 b h]

theorem ref_out1 (x0 : (⟨S4096x2, .i32⟩ : BufTy).Contents (Elt Ideal)) (x1 : (⟨S4000x32, .i32⟩ : BufTy).Contents (Elt Ideal))
    (x2 : (⟨S4096x2, .f32⟩ : BufTy).Contents (Elt Ideal)) (x3 : (⟨S38002x2048, .f32⟩ : BufTy).Contents (Elt Ideal))
    (x4 : (⟨S2048, .f32⟩ : BufTy).Contents (Elt Ideal)) (x5 : (⟨S2048x1024, .f32⟩ : BufTy).Contents (Elt Ideal))
    (x6 : (⟨S1024, .f32⟩ : BufTy).Contents (Elt Ideal)) (x7 : (⟨S1024x1, .f32⟩ : BufTy).Contents (Elt Ideal))
    (x8 : (⟨S1, .f32⟩ : BufTy).Contents (Elt Ideal))
    (hh1 : ∀ (b : Fin 4096) (j : Fin 19000), val_main_v27 (F := Ideal) x0 x1 (ix2 b j) = Cert.Spec.hot (val_main_v8 (F := Ideal) x0 x1) b j.val)
    (hh2 : ∀ (b : Fin 4096) (j : Fin 19000), val_main_v55 (F := Ideal) x0 x1 (ix2 b j) = Cert.Spec.hot (val_main_v36 (F := Ideal) x0 x1) b j.val) :
    val_main_v91 (F := Ideal) x0 x1 x2 x3 x4 x5 x6 x7 x8
      = Cert.Spec.Out (val_main_v36 (F := Ideal) x0 x1) (val_main_v8 (F := Ideal) x0 x1) x2 1 0 x3 x4 x5 x6 x7 x8 := by
  funext i
  obtain ⟨b, rfl⟩ : ∃ b : Fin 4096, i = ix1 b := ⟨i 0, eq_ix1 i⟩
  rw [v91_at, Out_at]
  refine congrArg (fun z => z + x8 (ix1 0)) (Finset.sum_congr rfl fun n _ => ?_)
  rw [v86_at]
  refine congrArg (fun z => max (z + x6 (ix1 n)) 0 * x7 (ix2 n 0)) (Finset.sum_congr rfl fun h _ => ?_)
  rw [v81_at, v77_at x0 x1 x2 x3 hh1 hh2 b h]

end Cert.ReferenceIdeal.RefValue

end
-- ==== Proof.Ref.Out.lean ====
import proofs.«417828_j54142357733865_1_alg».proof.Proof.Ref.Scatter
import proofs.«417828_j54142357733865_1_alg».proof.Proof.Ref.Dense

noncomputable section

namespace Cert.ReferenceIdeal.RefValue

open Cert.ReferenceIdeal Cert.ReferenceIdeal.Read Idealize.ShloMosaic Idealize.ShloMosaic.ValueIdx

theorem ref_value0 (x0 : (⟨S4096x2, .i32⟩ : BufTy).Contents (Elt Ideal)) (x1 : (⟨S4000x32, .i32⟩ : BufTy).Contents (Elt Ideal))
    (x2 : (⟨S4096x2, .f32⟩ : BufTy).Contents (Elt Ideal)) (x3 : (⟨S38002x2048, .f32⟩ : BufTy).Contents (Elt Ideal))
    (x4 : (⟨S2048, .f32⟩ : BufTy).Contents (Elt Ideal)) (x5 : (⟨S2048x1024, .f32⟩ : BufTy).Contents (Elt Ideal))
    (x6 : (⟨S1024, .f32⟩ : BufTy).Contents (Elt Ideal)) (x7 : (⟨S1024x1, .f32⟩ : BufTy).Contents (Elt Ideal))
    (x8 : (⟨S1, .f32⟩ : BufTy).Contents (Elt Ideal))
    (h : ∀ i, 0 ≤ (x1 i).toInt ∧ (x1 i).toInt < 19000) :
    val_main_v76 (F := Ideal) x0 x1 x2 x3 x4 x5 x6 x7 x8
      = Cert.Spec.Out (val_main_v8 (F := Ideal) x0 x1) (val_main_v36 (F := Ideal) x0 x1) x2 0 1 x3 x4 x5 x6 x7 x8 :=
  ref_out0 x0 x1 x2 x3 x4 x5 x6 x7 x8 (hot_v27 x0 x1 (gather_inRange x0 x1 h)) (hot_v55 x0 x1 (gather_inRange' x0 x1 h))

theorem ref_value1 (x0 : (⟨S4096x2, .i32⟩ : BufTy).Contents (Elt Ideal)) (x1 : (⟨S4000x32, .i32⟩ : BufTy).Contents (Elt Ideal))
    (x2 : (⟨S4096x2, .f32⟩ : BufTy).Contents (Elt Ideal)) (x3 : (⟨S38002x2048, .f32⟩ : BufTy).Contents (Elt Ideal))
    (x4 : (⟨S2048, .f32⟩ : BufTy).Contents (Elt Ideal)) (x5 : (⟨S2048x1024, .f32⟩ : BufTy).Contents (Elt Ideal))
    (x6 : (⟨S1024, .f32⟩ : BufTy).Contents (Elt Ideal)) (x7 : (⟨S1024x1, .f32⟩ : BufTy).Contents (Elt Ideal))
    (x8 : (⟨S1, .f32⟩ : BufTy).Contents (Elt Ideal))
    (h : ∀ i, 0 ≤ (x1 i).toInt ∧ (x1 i).toInt < 19000) :
    val_main_v91 (F := Ideal) x0 x1 x2 x3 x4 x5 x6 x7 x8
      = Cert.Spec.Out (val_main_v36 (F := Ideal) x0 x1) (val_main_v8 (F := Ideal) x0 x1) x2 1 0 x3 x4 x5 x6 x7 x8 :=
  ref_out1 x0 x1 x2 x3 x4 x5 x6 x7 x8 (hot_v27 x0 x1 (gather_inRange x0 x1 h)) (hot_v55 x0 x1 (gather_inRange' x0 x1 h))

end Cert.ReferenceIdeal.RefValue

end
-- ==== Proof.Ref.Line.lean ====
import Idealize.ShloMosaic.Lib.StableHlo.Run

noncomputable section

namespace Cert.Line

open Idealize.ShloMosaic Idealize.ShloMosaic.TcCoe Idealize.ShloMosaic.StableHlo

variable {τ : Topo} {sig : RefSig} {Val : EltTy → Type}

/-- `ws` lists, in order, the one reference each operation of `ops` writes. -/
def Writes : List (HloOp τ sig Val) → List (Ref sig .tc) → Prop
  | [], [] => True
  | op :: ops, r :: ws => op.writes = {Proc.devRef (τ := τ) .tc r} ∧ Writes ops ws
  | _, _ => False

theorem Writes.drop : ∀ (k : Nat) {ops : List (HloOp τ sig Val)} {ws : List (Ref sig .tc)},
    Writes ops ws → Writes (ops.drop k) (ws.drop k)
  | 0, _, _, h => h
  | _ + 1, [], [], _ => trivial
  | k + 1, _ :: _, _ :: _, h => Writes.drop k h.2
  | _ + 1, [], _ :: _, h => h.elim
  | _ + 1, _ :: _, [], h => h.elim

theorem after_append : ∀ (l₁ l₂ : List (HloOp τ sig Val)) (V : Valuation τ sig Val),
    after (l₁ ++ l₂) V = after l₂ (after l₁ V)
  | [], _, _ => rfl
  | _ :: l, l₂, _ => after_append l l₂ _

/-- A reference the line never writes keeps its contents. -/
theorem keep : ∀ {ops : List (HloOp τ sig Val)} {ws : List (Ref sig .tc)}, Writes ops ws → ∀ {r : Ref sig .tc}, r ∉ ws →
    ∀ V : Valuation τ sig Val, after ops V (Proc.devRef .tc r) = V (Proc.devRef .tc r)
  | [], [], _, _, _, _ => rfl
  | op :: _, _ :: _, h, _, hr, V => by
    rw [after_cons, keep h.2 (fun hm => hr (List.mem_cons_of_mem _ hm)),
      op.result_of_not_mem V (by
        rw [h.1, Finset.mem_singleton]
        exact devRef_ne_of_ne fun e => hr (List.mem_cons.mpr (Or.inl e)))]
  | [], _ :: _, h, _, _, _ => h.elim
  | _ :: _, [], h, _, _, _ => h.elim

/-- `x` is settled before position `k` of `ws`: never written, or written at a position before `k`. -/
def Before (ws : List (Ref sig .tc)) (k : Nat) (x : Ref sig .tc) : Prop :=
  x ∉ ws ∨ ∃ j, j < k ∧ ws[j]? = some x

theorem Before.arg {ws : List (Ref sig .tc)} {k : Nat} {x : Ref sig .tc} (hx : x ∉ ws) : Before ws k x := .inl hx

theorem Before.pos {ws : List (Ref sig .tc)} {k : Nat} {x : Ref sig .tc} (j : Nat) (hj : ws[j]? = some x)
    (hlt : j < k := by decide) : Before ws k x := .inr ⟨j, hlt, hj⟩

/-- In a list without repetition the entry at `k` does not come again after `k`. -/
theorem not_mem_drop_succ {ws : List (Ref sig .tc)} (nd : ws.Nodup) {k : Nat} {y : Ref sig .tc} (hy : ws[k]? = some y) :
    y ∉ ws.drop (k + 1) := by
  obtain ⟨hlt, rfl⟩ := List.getElem?_eq_some_iff.mp hy
  have nd' := nd.sublist (List.drop_sublist k ws)
  rw [List.drop_eq_getElem_cons hlt] at nd'
  exact (List.nodup_cons.mp nd').1

/-- In a list without repetition, what is settled before `k` is not among the entries from `k` on. -/
theorem Before.not_mem_drop {ws : List (Ref sig .tc)} (nd : ws.Nodup) {k : Nat} {x : Ref sig .tc} :
    Before ws k x → x ∉ ws.drop k
  | .inl hx => fun hm => hx (List.mem_of_mem_drop hm)
  | .inr ⟨j, hlt, hj⟩ => fun hm => by
    obtain ⟨hjl, rfl⟩ := List.getElem?_eq_some_iff.mp hj
    have hk : k ≤ ws.length := by
      by_contra hc
      rw [List.drop_of_length_le (by omega)] at hm
      exact List.not_mem_nil hm
    have hmt : ws[j] ∈ ws.take k := List.mem_iff_getElem.mpr ⟨j, by rw [List.length_take]; omega, List.getElem_take ..⟩
    rw [← List.take_append_drop k ws] at nd
    exact (List.disjoint_of_nodup_append nd) hmt hm

section
variable {ops : List (HloOp τ sig Val)} {ws : List (Ref sig .tc)} (h : Writes ops ws) (k : Nat) (V : Valuation τ sig Val)
include h

/-- The reference the `k`-th operation writes is not written again, so the line leaves there that operation's result
    on what the operations before it left. -/
theorem result_at {op : HloOp τ sig Val} (hk : ops[k]? = some op) {y : Ref sig .tc} (hy : y ∉ ws.drop (k + 1)) :
    after ops V (Proc.devRef .tc y) = op.result (after (ops.take k) V) (Proc.devRef .tc y) := by
  obtain ⟨hlt, rfl⟩ := List.getElem?_eq_some_iff.mp hk
  conv_lhs => rw [← List.take_append_drop k ops, after_append, List.drop_eq_getElem_cons hlt, after_cons]
  exact keep (h.drop (k + 1)) hy _

/-- A reference no operation from the `k`-th on writes holds, before the `k`-th, what the whole line leaves in it. -/
theorem operand_at {x : Ref sig .tc} (hx : x ∉ ws.drop k) :
    after (ops.take k) V (Proc.devRef .tc x) = after ops V (Proc.devRef .tc x) := by
  conv_rhs => rw [← List.take_append_drop k ops, after_append]
  exact (keep (h.drop k) hx _).symm

end

/-- A line that writes each of `ws` once, in order, run from contents `V` to contents `U`. -/
structure Run (ops : List (HloOp τ sig Val)) (ws : List (Ref sig .tc)) (V U : Valuation τ sig Val) : Prop where
  writes : Writes ops ws
  nodup : ws.Nodup
  eq : after ops V = U

namespace Run

/-! Each kind of operation's equation at the contents `U` the whole line leaves. -/

variable {ops : List (HloOp τ sig Val)} {ws : List (Ref sig .tc)} {V U : Valuation τ sig Val} (R : Run ops ws V U) (k : Nat)
include R

theorem keep {r : Ref sig .tc} (hr : r ∉ ws) : U (Proc.devRef .tc r) = V (Proc.devRef .tc r) :=
  R.eq ▸ Line.keep R.writes hr V

theorem nullary_eq {y : Ref sig .tc} {v : y.ty.Contents Val} {hy} (hk : ops[k]? = some (nullary y v hy))
    (h0 : ws[k]? = some y := by rfl) : U (Proc.devRef .tc y) = v :=
  R.eq ▸ (result_at R.writes k V hk (not_mem_drop_succ R.nodup h0)).trans (nullary_result y v hy _)

theorem unary_eq {x y : Ref sig .tc} {f : x.ty.Contents Val → y.ty.Contents Val} {hx hy}
    (hk : ops[k]? = some (unary x y f hx hy)) (h1 : Before ws k x) (h0 : ws[k]? = some y := by rfl) :
    U (Proc.devRef .tc y) = f (U (Proc.devRef .tc x)) :=
  R.eq ▸ (result_at R.writes k V hk (not_mem_drop_succ R.nodup h0)).trans ((unary_result x y f hx hy _).trans
    (by rw [operand_at R.writes k V (h1.not_mem_drop R.nodup)]))

theorem binary_eq {a b y : Ref sig .tc} {f : a.ty.Contents Val → b.ty.Contents Val → y.ty.Contents Val} {ha hb hy}
    (hk : ops[k]? = some (binary a b y f ha hb hy))
    (h1 : Before ws k a) (h2 : Before ws k b) (h0 : ws[k]? = some y := by rfl) :
    U (Proc.devRef .tc y) = f (U (Proc.devRef .tc a)) (U (Proc.devRef .tc b)) :=
  R.eq ▸ (result_at R.writes k V hk (not_mem_drop_succ R.nodup h0)).trans ((binary_result a b y f ha hb hy _).trans
    (by rw [operand_at R.writes k V (h1.not_mem_drop R.nodup), operand_at R.writes k V (h2.not_mem_drop R.nodup)]))

theorem ternary_eq {c a b y : Ref sig .tc}
    {f : c.ty.Contents Val → a.ty.Contents Val → b.ty.Contents Val → y.ty.Contents Val} {hc ha hb hy}
    (hk : ops[k]? = some (ternary c a b y f hc ha hb hy))
    (h1 : Before ws k c) (h2 : Before ws k a) (h3 : Before ws k b) (h0 : ws[k]? = some y := by rfl) :
    U (Proc.devRef .tc y) = f (U (Proc.devRef .tc c)) (U (Proc.devRef .tc a)) (U (Proc.devRef .tc b)) :=
  R.eq ▸ (result_at R.writes k V hk (not_mem_drop_succ R.nodup h0)).trans ((ternary_result c a b y f hc ha hb hy _).trans
    (by rw [operand_at R.writes k V (h1.not_mem_drop R.nodup), operand_at R.writes k V (h2.not_mem_drop R.nodup),
      operand_at R.writes k V (h3.not_mem_drop R.nodup)]))

theorem reshape_eq {x y : Ref sig .tc} {he : x.ty.elt = y.ty.elt} {hn : x.ty.shape.ShapeCasts y.ty.shape} {hx hy}
    (hk : ops[k]? = some (reshape x y he hn hx hy)) (h1 : Before ws k x) (h0 : ws[k]? = some y := by rfl) :
    U (Proc.devRef .tc y) = fun i => he ▸ shapeCast y.ty.shape (U (Proc.devRef .tc x)) hn i :=
  R.eq ▸ (result_at R.writes k V hk (not_mem_drop_succ R.nodup h0)).trans ((reshape_result x y he hn hx hy _).trans
    (by rw [operand_at R.writes k V (h1.not_mem_drop R.nodup)]))

end Run

end Cert.Line

end
-- ==== Proof.Ref.LineTable.lean ====
import proofs.«417828_j54142357733865_1_alg».proof.Proof.RefRead
import proofs.«417828_j54142357733865_1_alg».proof.Proof.Ref.Line

noncomputable section

namespace Cert.ReferenceIdeal.RefValue

open Cert.ReferenceIdeal Cert.ReferenceIdeal.Gen Cert.ReferenceIdeal.Value Cert.ReferenceIdeal.Read Idealize.ShloMosaic Idealize.ShloMosaic.TcCoe Idealize.SL.Sem Idealize.ShloMosaic.StableHlo

variable {F : FTy → Type} [FloatOps F]

abbrev written : List (Ref sig .tc) :=
  [main_v0, main_v1, main_c, main_v2, main_v3, main_c_0, main_v4, main_v5, main_v6, main_v7, main_v8, main_v9,
   main_v10, main_cst, main_v11, main_c_1, main_v12, main_v13, main_c_2, main_v14, main_v15, main_v16, main_c_3,
   main_v17, main_v18, main_c_4, main_v19, main_v20, main_v21, main_v22, main_v23, main_v24, main_v25, main_cst_5,
   main_v26, main_v27, main_v28, main_v29, main_c_6, main_v30, main_v31, main_c_7, main_v32, main_v33, main_v34,
   main_v35, main_v36, main_v37, main_v38, main_cst_8, main_v39, main_c_9, main_v40, main_v41, main_c_10, main_v42,
   main_v43, main_v44, main_c_11, main_v45, main_v46, main_c_12, main_v47, main_v48, main_v49, main_v50, main_v51,
   main_v52, main_v53, main_cst_13, main_v54, main_v55, main_v56, main_v57, main_v58, main_v59, main_v60, main_v61,
   main_v62, main_v63, main_v64, main_v65, main_call0_cst, main_call0_v0, main_v66, main_v67, main_v68, main_v69,
   main_v70, main_call1_cst, main_call1_v0, main_v71, main_v72, main_v73, main_v74, main_v75, main_v76, main_v77,
   main_v78, main_v79, main_v80, main_call2_cst, main_call2_v0, main_v81, main_v82, main_v83, main_v84, main_v85,
   main_call3_cst, main_call3_v0, main_v86, main_v87, main_v88, main_v89, main_v90, main_v91]

theorem writes : Line.Writes (ops (F := F)) written :=
  ⟨unary_writes .., reshape_writes .., nullary_writes .., unary_writes .., binary_writes .., nullary_writes ..,
   unary_writes .., binary_writes .., ternary_writes .., unary_writes .., binary_writes .., nullary_writes ..,
   unary_writes .., nullary_writes .., unary_writes .., nullary_writes .., unary_writes .., binary_writes ..,
   nullary_writes .., unary_writes .., binary_writes .., ternary_writes .., nullary_writes .., unary_writes ..,
   binary_writes .., nullary_writes .., unary_writes .., binary_writes .., ternary_writes .., unary_writes ..,
   unary_writes .., unary_writes .., binary_writes .., nullary_writes .., unary_writes .., ternary_writes ..,
   unary_writes .., reshape_writes .., nullary_writes .., unary_writes .., binary_writes .., nullary_writes ..,
   unary_writes .., binary_writes .., ternary_writes .., unary_writes .., binary_writes .., nullary_writes ..,
   unary_writes .., nullary_writes .., unary_writes .., nullary_writes .., unary_writes .., binary_writes ..,
   nullary_writes .., unary_writes .., binary_writes .., ternary_writes .., nullary_writes .., unary_writes ..,
   binary_writes .., nullary_writes .., unary_writes .., binary_writes .., ternary_writes .., unary_writes ..,
   unary_writes .., unary_writes .., binary_writes .., nullary_writes .., unary_writes .., ternary_writes ..,
   unary_writes .., binary_writes .., unary_writes .., binary_writes .., binary_writes .., binary_writes ..,
   binary_writes .., unary_writes .., unary_writes .., binary_writes .., nullary_writes .., unary_writes ..,
   binary_writes .., binary_writes .., unary_writes .., unary_writes .., binary_writes .., nullary_writes ..,
   unary_writes .., binary_writes .., binary_writes .., unary_writes .., unary_writes .., binary_writes ..,
   reshape_writes .., binary_writes .., unary_writes .., unary_writes .., binary_writes .., nullary_writes ..,
   unary_writes .., binary_writes .., binary_writes .., unary_writes .., unary_writes .., binary_writes ..,
   nullary_writes .., unary_writes .., binary_writes .., binary_writes .., unary_writes .., unary_writes ..,
   binary_writes .., reshape_writes .., trivial⟩

theorem nd : written.Nodup := List.Nodup.of_map (fun r => r.idx.val) (by decide)

theorem na0 : main_arg0 ∉ written := by decide
theorem na1 : main_arg1 ∉ written := by decide
theorem na2 : main_arg2 ∉ written := by decide
theorem na3 : main_arg3 ∉ written := by decide
theorem na4 : main_arg4 ∉ written := by decide
theorem na5 : main_arg5 ∉ written := by decide
theorem na6 : main_arg6 ∉ written := by decide
theorem na7 : main_arg7 ∉ written := by decide
theorem na8 : main_arg8 ∉ written := by decide

variable {W0 : Valuation τ sig (Elt F)}
  {a0 : (⟨S4096x2, .i32⟩ : BufTy).Contents (Elt F)}
  {a1 : (⟨S4000x32, .i32⟩ : BufTy).Contents (Elt F)}
  {a2 : (⟨S4096x2, .f32⟩ : BufTy).Contents (Elt F)}
  {a3 : (⟨S38002x2048, .f32⟩ : BufTy).Contents (Elt F)}
  {a4 : (⟨S2048, .f32⟩ : BufTy).Contents (Elt F)}
  {a5 : (⟨S2048x1024, .f32⟩ : BufTy).Contents (Elt F)}
  {a6 : (⟨S1024, .f32⟩ : BufTy).Contents (Elt F)}
  {a7 : (⟨S1024x1, .f32⟩ : BufTy).Contents (Elt F)}
  {a8 : (⟨S1, .f32⟩ : BufTy).Contents (Elt F)}
  (h0 : W0 main_arg0 = a0) (h1 : W0 main_arg1 = a1) (h2 : W0 main_arg2 = a2) (h3 : W0 main_arg3 = a3) (h4 : W0 main_arg4 = a4)
  (h5 : W0 main_arg5 = a5) (h6 : W0 main_arg6 = a6) (h7 : W0 main_arg7 = a7) (h8 : W0 main_arg8 = a8)
  {U : Valuation τ sig (Elt F)} (hU : after (ops (F := F)) W0 = U)

include h0 h1 hU in
theorem at_v27 : U main_v27 = val_main_v27 a0 a1 := by
  have R : Line.Run (ops (F := F)) written W0 U := ⟨writes, nd, hU⟩
  have h_main_arg0 : U main_arg0 = a0 := (R.keep na0).trans h0
  have h_main_arg1 : U main_arg1 = a1 := (R.keep na1).trans h1
  have h_main_v0 : U main_v0 = val_main_v0 a0 := by rw [R.unary_eq 0 rfl (.arg na0), h_main_arg0] <;> rfl
  have h_main_v1 : U main_v1 = val_main_v1 a0 := by rw [R.reshape_eq 1 rfl (.pos 0 rfl), h_main_v0] <;> rfl
  have h_main_c : U main_c = val_main_c := by rw [R.nullary_eq 2 rfl] <;> rfl
  have h_main_v2 : U main_v2 = val_main_v2 := by rw [R.unary_eq 3 rfl (.pos 2 rfl), h_main_c] <;> rfl
  have h_main_v3 : U main_v3 = val_main_v3 a0 := by rw [R.binary_eq 4 rfl (.pos 1 rfl) (.pos 3 rfl), h_main_v1, h_main_v2] <;> rfl
  have h_main_c_0 : U main_c_0 = val_main_c_0 := by rw [R.nullary_eq 5 rfl] <;> rfl
  have h_main_v4 : U main_v4 = val_main_v4 := by rw [R.unary_eq 6 rfl (.pos 5 rfl), h_main_c_0] <;> rfl
  have h_main_v5 : U main_v5 = val_main_v5 a0 := by rw [R.binary_eq 7 rfl (.pos 1 rfl) (.pos 6 rfl), h_main_v1, h_main_v4] <;> rfl
  have h_main_v6 : U main_v6 = val_main_v6 a0 := by rw [R.ternary_eq 8 rfl (.pos 4 rfl) (.pos 7 rfl) (.pos 1 rfl), h_main_v3, h_main_v5, h_main_v1] <;> rfl
  have h_main_v7 : U main_v7 = val_main_v7 a0 := by rw [R.unary_eq 9 rfl (.pos 8 rfl), h_main_v6] <;> rfl
  have h_main_v8 : U main_v8 = val_main_v8 a0 a1 := by rw [R.binary_eq 10 rfl (.arg na1) (.pos 9 rfl), h_main_arg1, h_main_v7] <;> rfl
  have h_main_v9 : U main_v9 = val_main_v9 := by rw [R.nullary_eq 11 rfl] <;> rfl
  have h_main_v10 : U main_v10 = val_main_v10 := by rw [R.unary_eq 12 rfl (.pos 11 rfl), h_main_v9] <;> rfl
  have h_main_cst : U main_cst = val_main_cst := by rw [R.nullary_eq 13 rfl] <;> rfl
  have h_main_v11 : U main_v11 = val_main_v11 := by rw [R.unary_eq 14 rfl (.pos 13 rfl), h_main_cst] <;> rfl
  have h_main_c_1 : U main_c_1 = val_main_c_1 := by rw [R.nullary_eq 15 rfl] <;> rfl
  have h_main_v12 : U main_v12 = val_main_v12 := by rw [R.unary_eq 16 rfl (.pos 15 rfl), h_main_c_1] <;> rfl
  have h_main_v13 : U main_v13 = val_main_v13 := by rw [R.binary_eq 17 rfl (.pos 12 rfl) (.pos 16 rfl), h_main_v10, h_main_v12] <;> rfl
  have h_main_c_2 : U main_c_2 = val_main_c_2 := by rw [R.nullary_eq 18 rfl] <;> rfl
  have h_main_v14 : U main_v14 = val_main_v14 := by rw [R.unary_eq 19 rfl (.pos 18 rfl), h_main_c_2] <;> rfl
  have h_main_v15 : U main_v15 = val_main_v15 := by rw [R.binary_eq 20 rfl (.pos 12 rfl) (.pos 19 rfl), h_main_v10, h_main_v14] <;> rfl
  have h_main_v16 : U main_v16 = val_main_v16 := by rw [R.ternary_eq 21 rfl (.pos 17 rfl) (.pos 20 rfl) (.pos 12 rfl), h_main_v13, h_main_v15, h_main_v10] <;> rfl
  have h_main_c_3 : U main_c_3 = val_main_c_3 := by rw [R.nullary_eq 22 rfl] <;> rfl
  have h_main_v17 : U main_v17 = val_main_v17 := by rw [R.unary_eq 23 rfl (.pos 22 rfl), h_main_c_3] <;> rfl
  have h_main_v18 : U main_v18 = val_main_v18 a0 a1 := by rw [R.binary_eq 24 rfl (.pos 10 rfl) (.pos 23 rfl), h_main_v8, h_main_v17] <;> rfl
  have h_main_c_4 : U main_c_4 = val_main_c_4 := by rw [R.nullary_eq 25 rfl] <;> rfl
  have h_main_v19 : U main_v19 = val_main_v19 := by rw [R.unary_eq 26 rfl (.pos 25 rfl), h_main_c_4] <;> rfl
  have h_main_v20 : U main_v20 = val_main_v20 a0 a1 := by rw [R.binary_eq 27 rfl (.pos 10 rfl) (.pos 26 rfl), h_main_v8, h_main_v19] <;> rfl
  have h_main_v21 : U main_v21 = val_main_v21 a0 a1 := by rw [R.ternary_eq 28 rfl (.pos 24 rfl) (.pos 27 rfl) (.pos 10 rfl), h_main_v18, h_main_v20, h_main_v8] <;> rfl
  have h_main_v22 : U main_v22 = val_main_v22 := by rw [R.unary_eq 29 rfl (.pos 21 rfl), h_main_v16] <;> rfl
  have h_main_v23 : U main_v23 = val_main_v23 := by rw [R.unary_eq 30 rfl (.pos 29 rfl), h_main_v22] <;> rfl
  have h_main_v24 : U main_v24 = val_main_v24 a0 a1 := by rw [R.unary_eq 31 rfl (.pos 28 rfl), h_main_v21] <;> rfl
  have h_main_v25 : U main_v25 = val_main_v25 a0 a1 := by rw [R.binary_eq 32 rfl (.pos 30 rfl) (.pos 31 rfl), h_main_v23, h_main_v24] <;> rfl
  have h_main_cst_5 : U main_cst_5 = val_main_cst_5 := by rw [R.nullary_eq 33 rfl] <;> rfl
  have h_main_v26 : U main_v26 = val_main_v26 := by rw [R.unary_eq 34 rfl (.pos 33 rfl), h_main_cst_5] <;> rfl
  have h_main_v27 : U main_v27 = val_main_v27 a0 a1 := by rw [R.ternary_eq 35 rfl (.pos 14 rfl) (.pos 32 rfl) (.pos 34 rfl), h_main_v11, h_main_v25, h_main_v26] <;> rfl
  exact h_main_v27

include h0 h1 hU in
theorem at_v55 : U main_v55 = val_main_v55 a0 a1 := by
  have R : Line.Run (ops (F := F)) written W0 U := ⟨writes, nd, hU⟩
  have h_main_arg0 : U main_arg0 = a0 := (R.keep na0).trans h0
  have h_main_arg1 : U main_arg1 = a1 := (R.keep na1).trans h1
  have h_main_v28 : U main_v28 = val_main_v28 a0 := by rw [R.unary_eq 36 rfl (.arg na0), h_main_arg0] <;> rfl
  have h_main_v29 : U main_v29 = val_main_v29 a0 := by rw [R.reshape_eq 37 rfl (.pos 36 rfl), h_main_v28] <;> rfl
  have h_main_c_6 : U main_c_6 = val_main_c_6 := by rw [R.nullary_eq 38 rfl] <;> rfl
  have h_main_v30 : U main_v30 = val_main_v30 := by rw [R.unary_eq 39 rfl (.pos 38 rfl), h_main_c_6] <;> rfl
  have h_main_v31 : U main_v31 = val_main_v31 a0 := by rw [R.binary_eq 40 rfl (.pos 37 rfl) (.pos 39 rfl), h_main_v29, h_main_v30] <;> rfl
  have h_main_c_7 : U main_c_7 = val_main_c_7 := by rw [R.nullary_eq 41 rfl] <;> rfl
  have h_main_v32 : U main_v32 = val_main_v32 := by rw [R.unary_eq 42 rfl (.pos 41 rfl), h_main_c_7] <;> rfl
  have h_main_v33 : U main_v33 = val_main_v33 a0 := by rw [R.binary_eq 43 rfl (.pos 37 rfl) (.pos 42 rfl), h_main_v29, h_main_v32] <;> rfl
  have h_main_v34 : U main_v34 = val_main_v34 a0 := by rw [R.ternary_eq 44 rfl (.pos 40 rfl) (.pos 43 rfl) (.pos 37 rfl), h_main_v31, h_main_v33, h_main_v29] <;> rfl
  have h_main_v35 : U main_v35 = val_main_v35 a0 := by rw [R.unary_eq 45 rfl (.pos 44 rfl), h_main_v34] <;> rfl
  have h_main_v36 : U main_v36 = val_main_v36 a0 a1 := by rw [R.binary_eq 46 rfl (.arg na1) (.pos 45 rfl), h_main_arg1, h_main_v35] <;> rfl
  have h_main_v37 : U main_v37 = val_main_v37 := by rw [R.nullary_eq 47 rfl] <;> rfl
  have h_main_v38 : U main_v38 = val_main_v38 := by rw [R.unary_eq 48 rfl (.pos 47 rfl), h_main_v37] <;> rfl
  have h_main_cst_8 : U main_cst_8 = val_main_cst_8 := by rw [R.nullary_eq 49 rfl] <;> rfl
  have h_main_v39 : U main_v39 = val_main_v39 := by rw [R.unary_eq 50 rfl (.pos 49 rfl), h_main_cst_8] <;> rfl
  have h_main_c_9 : U main_c_9 = val_main_c_9 := by rw [R.nullary_eq 51 rfl] <;> rfl
  have h_main_v40 : U main_v40 = val_main_v40 := by rw [R.unary_eq 52 rfl (.pos 51 rfl), h_main_c_9] <;> rfl
  have h_main_v41 : U main_v41 = val_main_v41 := by rw [R.binary_eq 53 rfl (.pos 48 rfl) (.pos 52 rfl), h_main_v38, h_main_v40] <;> rfl
  have h_main_c_10 : U main_c_10 = val_main_c_10 := by rw [R.nullary_eq 54 rfl] <;> rfl
  have h_main_v42 : U main_v42 = val_main_v42 := by rw [R.unary_eq 55 rfl (.pos 54 rfl), h_main_c_10] <;> rfl
  have h_main_v43 : U main_v43 = val_main_v43 := by rw [R.binary_eq 56 rfl (.pos 48 rfl) (.pos 55 rfl), h_main_v38, h_main_v42] <;> rfl
  have h_main_v44 : U main_v44 = val_main_v44 := by rw [R.ternary_eq 57 rfl (.pos 53 rfl) (.pos 56 rfl) (.pos 48 rfl), h_main_v41, h_main_v43, h_main_v38] <;> rfl
  have h_main_c_11 : U main_c_11 = val_main_c_11 := by rw [R.nullary_eq 58 rfl] <;> rfl
  have h_main_v45 : U main_v45 = val_main_v45 := by rw [R.unary_eq 59 rfl (.pos 58 rfl), h_main_c_11] <;> rfl
  have h_main_v46 : U main_v46 = val_main_v46 a0 a1 := by rw [R.binary_eq 60 rfl (.pos 46 rfl) (.pos 59 rfl), h_main_v36, h_main_v45] <;> rfl
  have h_main_c_12 : U main_c_12 = val_main_c_12 := by rw [R.nullary_eq 61 rfl] <;> rfl
  have h_main_v47 : U main_v47 = val_main_v47 := by rw [R.unary_eq 62 rfl (.pos 61 rfl), h_main_c_12] <;> rfl
  have h_main_v48 : U main_v48 = val_main_v48 a0 a1 := by rw [R.binary_eq 63 rfl (.pos 46 rfl) (.pos 62 rfl), h_main_v36, h_main_v47] <;> rfl
  have h_main_v49 : U main_v49 = val_main_v49 a0 a1 := by rw [R.ternary_eq 64 rfl (.pos 60 rfl) (.pos 63 rfl) (.pos 46 rfl), h_main_v46, h_main_v48, h_main_v36] <;> rfl
  have h_main_v50 : U main_v50 = val_main_v50 := by rw [R.unary_eq 65 rfl (.pos 57 rfl), h_main_v44] <;> rfl
  have h_main_v51 : U main_v51 = val_main_v51 := by rw [R.unary_eq 66 rfl (.pos 65 rfl), h_main_v50] <;> rfl
  have h_main_v52 : U main_v52 = val_main_v52 a0 a1 := by rw [R.unary_eq 67 rfl (.pos 64 rfl), h_main_v49] <;> rfl
  have h_main_v53 : U main_v53 = val_main_v53 a0 a1 := by rw [R.binary_eq 68 rfl (.pos 66 rfl) (.pos 67 rfl), h_main_v51, h_main_v52] <;> rfl
  have h_main_cst_13 : U main_cst_13 = val_main_cst_13 := by rw [R.nullary_eq 69 rfl] <;> rfl
  have h_main_v54 : U main_v54 = val_main_v54 := by rw [R.unary_eq 70 rfl (.pos 69 rfl), h_main_cst_13] <;> rfl
  have h_main_v55 : U main_v55 = val_main_v55 a0 a1 := by rw [R.ternary_eq 71 rfl (.pos 50 rfl) (.pos 68 rfl) (.pos 70 rfl), h_main_v39, h_main_v53, h_main_v54] <;> rfl
  exact h_main_v55

include h0 h1 h2 hU in
theorem at_v60_v61 : U main_v60 = val_main_v60 a0 a1 a2 ∧ U main_v61 = val_main_v61 a0 a1 a2 := by
  have R : Line.Run (ops (F := F)) written W0 U := ⟨writes, nd, hU⟩
  have h_main_v27 := (at_v27 h0 h1 hU)
  have h_main_v55 := (at_v55 h0 h1 hU)
  have h_main_arg2 : U main_arg2 = a2 := (R.keep na2).trans h2
  have h_main_v56 : U main_v56 = val_main_v56 a2 := by rw [R.unary_eq 72 rfl (.arg na2), h_main_arg2] <;> rfl
  have h_main_v57 : U main_v57 = val_main_v57 a0 a1 a2 := by rw [R.binary_eq 73 rfl (.pos 35 rfl) (.pos 72 rfl), h_main_v27, h_main_v56] <;> rfl
  have h_main_v58 : U main_v58 = val_main_v58 a2 := by rw [R.unary_eq 74 rfl (.arg na2), h_main_arg2] <;> rfl
  have h_main_v59 : U main_v59 = val_main_v59 a0 a1 a2 := by rw [R.binary_eq 75 rfl (.pos 71 rfl) (.pos 74 rfl), h_main_v55, h_main_v58] <;> rfl
  have h_main_v60 : U main_v60 = val_main_v60 a0 a1 a2 := by rw [R.binary_eq 76 rfl (.pos 73 rfl) (.pos 75 rfl), h_main_v57, h_main_v59] <;> rfl
  have h_main_v61 : U main_v61 = val_main_v61 a0 a1 a2 := by rw [R.binary_eq 77 rfl (.pos 75 rfl) (.pos 73 rfl), h_main_v59, h_main_v57] <;> rfl
  exact ⟨h_main_v60, h_main_v61⟩

include h0 h1 h2 h3 h4 h5 h6 h7 h8 hU in
theorem at_v76 : U main_v76 = val_main_v76 a0 a1 a2 a3 a4 a5 a6 a7 a8 := by
  have R : Line.Run (ops (F := F)) written W0 U := ⟨writes, nd, hU⟩
  have h_main_v60 := (at_v60_v61 h0 h1 h2 hU).1
  have h_main_arg3 : U main_arg3 = a3 := (R.keep na3).trans h3
  have h_main_arg4 : U main_arg4 = a4 := (R.keep na4).trans h4
  have h_main_arg5 : U main_arg5 = a5 := (R.keep na5).trans h5
  have h_main_arg6 : U main_arg6 = a6 := (R.keep na6).trans h6
  have h_main_arg7 : U main_arg7 = a7 := (R.keep na7).trans h7
  have h_main_arg8 : U main_arg8 = a8 := (R.keep na8).trans h8
  have h_main_v62 : U main_v62 = val_main_v62 a0 a1 a2 a3 := by rw [R.binary_eq 78 rfl (.pos 76 rfl) (.arg na3), h_main_v60, h_main_arg3] <;> rfl
  have h_main_v63 : U main_v63 = val_main_v63 a4 := by rw [R.unary_eq 79 rfl (.arg na4), h_main_arg4] <;> rfl
  have h_main_v64 : U main_v64 = val_main_v64 a4 := by rw [R.unary_eq 80 rfl (.pos 79 rfl), h_main_v63] <;> rfl
  have h_main_v65 : U main_v65 = val_main_v65 a0 a1 a2 a3 a4 := by rw [R.binary_eq 81 rfl (.pos 78 rfl) (.pos 80 rfl), h_main_v62, h_main_v64] <;> rfl
  have h_main_call0_cst : U main_call0_cst = val_main_call0_cst := by (rw [R.nullary_eq 82 rfl]; try simp only [TRef.ofBuf, TRef.toBuf, cast_eq]) <;> rfl
  have h_main_call0_v0 : U main_call0_v0 = val_main_call0_v0 := by (rw [R.unary_eq 83 rfl (.pos 82 rfl), h_main_call0_cst]; try simp only [TRef.ofBuf, TRef.toBuf, cast_eq]) <;> rfl
  have h_main_v66 : U main_v66 = val_main_v66 a0 a1 a2 a3 a4 := by (rw [R.binary_eq 84 rfl (.pos 81 rfl) (.pos 83 rfl), h_main_v65, h_main_call0_v0]; try simp only [TRef.ofBuf, TRef.toBuf, cast_eq]) <;> rfl
  have h_main_v67 : U main_v67 = val_main_v67 a0 a1 a2 a3 a4 a5 := by rw [R.binary_eq 85 rfl (.pos 84 rfl) (.arg na5), h_main_v66, h_main_arg5] <;> rfl
  have h_main_v68 : U main_v68 = val_main_v68 a6 := by rw [R.unary_eq 86 rfl (.arg na6), h_main_arg6] <;> rfl
  have h_main_v69 : U main_v69 = val_main_v69 a6 := by rw [R.unary_eq 87 rfl (.pos 86 rfl), h_main_v68] <;> rfl
  have h_main_v70 : U main_v70 = val_main_v70 a0 a1 a2 a3 a4 a5 a6 := by rw [R.binary_eq 88 rfl (.pos 85 rfl) (.pos 87 rfl), h_main_v67, h_main_v69] <;> rfl
  have h_main_call1_cst : U main_call1_cst = val_main_call1_cst := by (rw [R.nullary_eq 89 rfl]; try simp only [TRef.ofBuf, TRef.toBuf, cast_eq]) <;> rfl
  have h_main_call1_v0 : U main_call1_v0 = val_main_call1_v0 := by (rw [R.unary_eq 90 rfl (.pos 89 rfl), h_main_call1_cst]; try simp only [TRef.ofBuf, TRef.toBuf, cast_eq]) <;> rfl
  have h_main_v71 : U main_v71 = val_main_v71 a0 a1 a2 a3 a4 a5 a6 := by (rw [R.binary_eq 91 rfl (.pos 88 rfl) (.pos 90 rfl), h_main_v70, h_main_call1_v0]; try simp only [TRef.ofBuf, TRef.toBuf, cast_eq]) <;> rfl
  have h_main_v72 : U main_v72 = val_main_v72 a0 a1 a2 a3 a4 a5 a6 a7 := by rw [R.binary_eq 92 rfl (.pos 91 rfl) (.arg na7), h_main_v71, h_main_arg7] <;> rfl
  have h_main_v73 : U main_v73 = val_main_v73 a8 := by rw [R.unary_eq 93 rfl (.arg na8), h_main_arg8] <;> rfl
  have h_main_v74 : U main_v74 = val_main_v74 a8 := by rw [R.unary_eq 94 rfl (.pos 93 rfl), h_main_v73] <;> rfl
  have h_main_v75 : U main_v75 = val_main_v75 a0 a1 a2 a3 a4 a5 a6 a7 a8 := by rw [R.binary_eq 95 rfl (.pos 92 rfl) (.pos 94 rfl), h_main_v72, h_main_v74] <;> rfl
  have h_main_v76 : U main_v76 = val_main_v76 a0 a1 a2 a3 a4 a5 a6 a7 a8 := by rw [R.reshape_eq 96 rfl (.pos 95 rfl), h_main_v75] <;> rfl
  exact h_main_v76

include h0 h1 h2 h3 h4 h5 h6 h7 h8 hU in
theorem at_v91 : U main_v91 = val_main_v91 a0 a1 a2 a3 a4 a5 a6 a7 a8 := by
  have R : Line.Run (ops (F := F)) written W0 U := ⟨writes, nd, hU⟩
  have h_main_v61 := (at_v60_v61 h0 h1 h2 hU).2
  have h_main_arg3 : U main_arg3 = a3 := (R.keep na3).trans h3
  have h_main_arg4 : U main_arg4 = a4 := (R.keep na4).trans h4
  have h_main_arg5 : U main_arg5 = a5 := (R.keep na5).trans h5
  have h_main_arg6 : U main_arg6 = a6 := (R.keep na6).trans h6
  have h_main_arg7 : U main_arg7 = a7 := (R.keep na7).trans h7
  have h_main_arg8 : U main_arg8 = a8 := (R.keep na8).trans h8
  have h_main_v77 : U main_v77 = val_main_v77 a0 a1 a2 a3 := by rw [R.binary_eq 97 rfl (.pos 77 rfl) (.arg na3), h_main_v61, h_main_arg3] <;> rfl
  have h_main_v78 : U main_v78 = val_main_v78 a4 := by rw [R.unary_eq 98 rfl (.arg na4), h_main_arg4] <;> rfl
  have h_main_v79 : U main_v79 = val_main_v79 a4 := by rw [R.unary_eq 99 rfl (.pos 98 rfl), h_main_v78] <;> rfl
  have h_main_v80 : U main_v80 = val_main_v80 a0 a1 a2 a3 a4 := by rw [R.binary_eq 100 rfl (.pos 97 rfl) (.pos 99 rfl), h_main_v77, h_main_v79] <;> rfl
  have h_main_call2_cst : U main_call2_cst = val_main_call2_cst := by (rw [R.nullary_eq 101 rfl]; try simp only [TRef.ofBuf, TRef.toBuf, cast_eq]) <;> rfl
  have h_main_call2_v0 : U main_call2_v0 = val_main_call2_v0 := by (rw [R.unary_eq 102 rfl (.pos 101 rfl), h_main_call2_cst]; try simp only [TRef.ofBuf, TRef.toBuf, cast_eq]) <;> rfl
  have h_main_v81 : U main_v81 = val_main_v81 a0 a1 a2 a3 a4 := by (rw [R.binary_eq 103 rfl (.pos 100 rfl) (.pos 102 rfl), h_main_v80, h_main_call2_v0]; try simp only [TRef.ofBuf, TRef.toBuf, cast_eq]) <;> rfl
  have h_main_v82 : U main_v82 = val_main_v82 a0 a1 a2 a3 a4 a5 := by rw [R.binary_eq 104 rfl (.pos 103 rfl) (.arg na5), h_main_v81, h_main_arg5] <;> rfl
  have h_main_v83 : U main_v83 = val_main_v83 a6 := by rw [R.unary_eq 105 rfl (.arg na6), h_main_arg6] <;> rfl
  have h_main_v84 : U main_v84 = val_main_v84 a6 := by rw [R.unary_eq 106 rfl (.pos 105 rfl), h_main_v83] <;> rfl
  have h_main_v85 : U main_v85 = val_main_v85 a0 a1 a2 a3 a4 a5 a6 := by rw [R.binary_eq 107 rfl (.pos 104 rfl) (.pos 106 rfl), h_main_v82, h_main_v84] <;> rfl
  have h_main_call3_cst : U main_call3_cst = val_main_call3_cst := by (rw [R.nullary_eq 108 rfl]; try simp only [TRef.ofBuf, TRef.toBuf, cast_eq]) <;> rfl
  have h_main_call3_v0 : U main_call3_v0 = val_main_call3_v0 := by (rw [R.unary_eq 109 rfl (.pos 108 rfl), h_main_call3_cst]; try simp only [TRef.ofBuf, TRef.toBuf, cast_eq]) <;> rfl
  have h_main_v86 : U main_v86 = val_main_v86 a0 a1 a2 a3 a4 a5 a6 := by (rw [R.binary_eq 110 rfl (.pos 107 rfl) (.pos 109 rfl), h_main_v85, h_main_call3_v0]; try simp only [TRef.ofBuf, TRef.toBuf, cast_eq]) <;> rfl
  have h_main_v87 : U main_v87 = val_main_v87 a0 a1 a2 a3 a4 a5 a6 a7 := by rw [R.binary_eq 111 rfl (.pos 110 rfl) (.arg na7), h_main_v86, h_main_arg7] <;> rfl
  have h_main_v88 : U main_v88 = val_main_v88 a8 := by rw [R.unary_eq 112 rfl (.arg na8), h_main_arg8] <;> rfl
  have h_main_v89 : U main_v89 = val_main_v89 a8 := by rw [R.unary_eq 113 rfl (.pos 112 rfl), h_main_v88] <;> rfl
  have h_main_v90 : U main_v90 = val_main_v90 a0 a1 a2 a3 a4 a5 a6 a7 a8 := by rw [R.binary_eq 114 rfl (.pos 111 rfl) (.pos 113 rfl), h_main_v87, h_main_v89] <;> rfl
  have h_main_v91 : U main_v91 = val_main_v91 a0 a1 a2 a3 a4 a5 a6 a7 a8 := by rw [R.reshape_eq 115 rfl (.pos 114 rfl), h_main_v90] <;> rfl
  exact h_main_v91

end Cert.ReferenceIdeal.RefValue

end
-- ==== Proof.Ref.RunHand.lean ====
import proofs.«417828_j54142357733865_1_alg».proof.Proof.Ref.LineTable

noncomputable section

namespace Cert.ReferenceIdeal.RefValue

open Cert.ReferenceIdeal Cert.ReferenceIdeal.Gen Cert.ReferenceIdeal.Value Cert.ReferenceIdeal.Read Idealize.ShloMosaic Idealize.ShloMosaic.TcCoe Idealize.SL.Sem Idealize.ShloMosaic.StableHlo

variable {F : FTy → Type} [FloatOps F]

/-- The reference is a straight line that writes each buffer once and never an argument: it runs to the end with each
    result at its stage's term of the nine argument arrays, and the arguments as launched. -/
theorem run_hand (m : (ℓ : Loc nD τ sig) → Buf (Elt F) ℓ) (ρ : Dev nD → PrngReg) :
    θ_run (defs (F := F)) (onTc (τ := τ) (main (F := F))) ⟨m, fun _ => 0, ρ⟩ fun r => ∀ c : Dev nD,
      r.2.mem ((c.tc : Thread nD τ).loc main_v76) = val_main_v76 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))
      ∧ r.2.mem ((c.tc : Thread nD τ).loc main_v91) = val_main_v91 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun _ h c =>
    ⟨(h c main_v76).trans (at_v76 (W0 := launchContents m c) rfl rfl rfl rfl rfl rfl rfl rfl rfl rfl),
      (h c main_v91).trans (at_v91 (W0 := launchContents m c) rfl rfl rfl rfl rfl rfl rfl rfl rfl rfl),
      (h c main_arg0).trans (Line.keep writes na0 _), (h c main_arg1).trans (Line.keep writes na1 _),
      (h c main_arg2).trans (Line.keep writes na2 _), (h c main_arg3).trans (Line.keep writes na3 _),
      (h c main_arg4).trans (Line.keep writes na4 _), (h c main_arg5).trans (Line.keep writes na5 _),
      (h c main_arg6).trans (Line.keep writes na6 _), (h c main_arg7).trans (Line.keep writes na7 _),
      (h c main_arg8).trans (Line.keep writes na8 _)⟩)
    (run_seq scopedRefs_eq scopedSems_eq defs main (fun _ => ops) main_eq (fun _ => ops_sub) m ρ)

end Cert.ReferenceIdeal.RefValue

end
-- ==== Proof.lean ====
import proofs.«417828_j54142357733865_1_alg».proof.Defs
import proofs.«417828_j54142357733865_1_alg».proof.Proof.Gen.Kernel
import proofs.«417828_j54142357733865_1_alg».proof.Proof.Gen.KernelIdeal
import proofs.«417828_j54142357733865_1_alg».proof.Proof.Gen.ReferenceIdeal
import proofs.«417828_j54142357733865_1_alg».proof.Proof.Gen.Pre_finite_inputs
import proofs.«417828_j54142357733865_1_alg».proof.Proof.K.Run
import proofs.«417828_j54142357733865_1_alg».proof.Proof.KI.Run
import proofs.«417828_j54142357733865_1_alg».proof.Proof.Val.Kernel
import proofs.«417828_j54142357733865_1_alg».proof.Proof.Val.PreRange
import proofs.«417828_j54142357733865_1_alg».proof.Proof.Ref.Out
import proofs.«417828_j54142357733865_1_alg».proof.Proof.Ref.RunHand
import Idealize.ShloMosaic.Adequacy
import Idealize.ShloMosaic.Init

set_option maxRecDepth 16384

noncomputable section

namespace Cert.Proof

open Idealize.ShloMosaic Idealize.ShloMosaic.TcCoe Idealize.SL.Sem

theorem frame_k : Cert.frame_Kernel := fun m ρ _ => Cert.Kernel.Pipe.frame (F := Bits) m ρ

theorem frame_ki : Cert.frame_KernelIdeal := fun m ρ _ => Cert.KernelIdeal.Pipe.frame (F := Ideal) m ρ

theorem frame_r : Cert.frame_ReferenceIdeal := fun m ρ _ =>
  (θ_run Cert.ReferenceIdeal.defs _ _).mono (fun _ h c => (h c).2.2) (Cert.ReferenceIdeal.RefValue.run_hand m ρ)

theorem algebraic : Cert.algebraic_KernelIdeal_ReferenceIdeal := by
  intro m ρ m' ρ' hpre hagree
  exact ⟨_, _,
    by
      refine (θ_run Cert.KernelIdeal.defs _ _).mono (fun r h c => ⟨?_, ?_,
        (h c _ (Cert.KernelIdeal.Pipe.mem_uc Cert.KernelIdeal.main_arg0 (by decide))).trans (Cert.KernelIdeal.Pipe.M4_kept m ρ c Cert.KernelIdeal.main_arg0),
        (h c _ (Cert.KernelIdeal.Pipe.mem_uc Cert.KernelIdeal.main_arg1 (by decide))).trans (Cert.KernelIdeal.Pipe.M4_kept m ρ c Cert.KernelIdeal.main_arg1),
        (h c _ (Cert.KernelIdeal.Pipe.mem_uc Cert.KernelIdeal.main_arg2 (by decide))).trans (Cert.KernelIdeal.Pipe.M4_main_arg2 m ρ c),
        (h c _ (Cert.KernelIdeal.Pipe.mem_uc Cert.KernelIdeal.main_arg3 (by decide))).trans (Cert.KernelIdeal.Pipe.M4_kept m ρ c Cert.KernelIdeal.main_arg3),
        (h c _ (Cert.KernelIdeal.Pipe.mem_uc Cert.KernelIdeal.main_arg4 (by decide))).trans (Cert.KernelIdeal.Pipe.M4_kept m ρ c Cert.KernelIdeal.main_arg4),
        (h c _ (Cert.KernelIdeal.Pipe.mem_uc Cert.KernelIdeal.main_arg5 (by decide))).trans (Cert.KernelIdeal.Pipe.M4_kept m ρ c Cert.KernelIdeal.main_arg5),
        (h c _ (Cert.KernelIdeal.Pipe.mem_uc Cert.KernelIdeal.main_arg6 (by decide))).trans (Cert.KernelIdeal.Pipe.M4_kept m ρ c Cert.KernelIdeal.main_arg6),
        (h c _ (Cert.KernelIdeal.Pipe.mem_uc Cert.KernelIdeal.main_arg7 (by decide))).trans (Cert.KernelIdeal.Pipe.M4_kept m ρ c Cert.KernelIdeal.main_arg7),
        (h c _ (Cert.KernelIdeal.Pipe.mem_uc Cert.KernelIdeal.main_arg8 (by decide))).trans (Cert.KernelIdeal.Pipe.M4_kept m ρ c Cert.KernelIdeal.main_arg8)⟩)
        (Cert.KernelIdeal.Pipe.run_all (F := Ideal) m ρ)
      · refine (h c _ (Cert.KernelIdeal.Pipe.mem_uc Cert.KernelIdeal.main_v31 (by decide))).trans ?_
        rw [Cert.KernelIdeal.Val.kernel_out0 m ρ c, Cert.KernelIdeal.Val.host_t1 m ρ c, Cert.KernelIdeal.Val.host_t2 m ρ c]
      · refine (h c _ (Cert.KernelIdeal.Pipe.mem_uc Cert.KernelIdeal.main_v32 (by decide))).trans ?_
        rw [Cert.KernelIdeal.Val.kernel_out1 m ρ c, Cert.KernelIdeal.Val.host_t1 m ρ c, Cert.KernelIdeal.Val.host_t2 m ρ c],
    by
      refine (θ_run Cert.ReferenceIdeal.defs _ _).mono (fun r h c => ⟨(h c).1.trans ?_, (h c).2.1.trans ?_, (h c).2.2⟩)
        (Cert.ReferenceIdeal.RefValue.run_hand m' ρ')
      · rw [(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2]
        exact Cert.ReferenceIdeal.RefValue.ref_value0 _ _ _ _ _ _ _ _ _ (Cert.KernelIdeal.Val.targets_inRange _ m hpre c)
      · rw [(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2]
        exact Cert.ReferenceIdeal.RefValue.ref_value1 _ _ _ _ _ _ _ _ _ (Cert.KernelIdeal.Val.targets_inRange _ m hpre c)⟩

theorem claim : Cert.Claim :=
  ⟨Cert.Kernel.Gen.facts, Cert.KernelIdeal.Gen.facts, Cert.ReferenceIdeal.Gen.facts, Cert.Pre_finite_inputs.Gen.facts,
    frame_k, frame_ki, frame_r, trivial, algebraic⟩

end Cert.Proof

end
